-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x40 : Shape := ⟨2, ![64, 40]⟩
abbrev S40 : Shape := ⟨1, ![40]⟩
abbrev S_ : Shape := ⟨0, ![]⟩
abbrev S1x800000 : Shape := ⟨2, ![1, 800000]⟩
abbrev S800000 : Shape := ⟨1, ![800000]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_
  slices_S2x800000_S1x800000_1_0 : S2x800000.Slices ![1, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part3 {F : FTy → Type} [FloatOps F] (main_v43 : IVec S_ 1) (main_v47 : IVec S800000 1) (main_v51 : IVec S800000 1) : IVec S_ 1 :=
  let main_v52 : IVec S800000 1 := andi main_v47 main_v51
  let main_c_18 : IVec S_ 1 := constantI S_ 1 1#1
  let main_v53 : IVec S_ 1 := (fun x v => Host.reduce IntOp.andi x v reducesTo_S800000_S_d0 h_S_) main_v52 main_c_18
  let main_v54 : IVec S_ 1 := andi main_v43 main_v53
  main_v54

def fn_part2 {F : FTy → Type} [FloatOps F] (main_arg1 : IVec S2x800000 32) (main_arg8 : FVec F S64x40 .f32) (main_arg9 : FVec F S40 .f32) (main_v33 : IVec S_ 1) : IVec S_ 1 :=
  let main_v34 : FVec F S64x40 .f32 := Host.absf main_arg8
  let main_cst_12 : FVec F S_ .f32 := constant S_ .f32 0x7F800000#32
  let main_v35 : FVec F S64x40 .f32 := broadcastInDim S64x40 ![] bcast_S_S64x40 main_cst_12
  let main_v36 : IVec S64x40 1 := cmpf .olt main_v34 main_v35
  let main_c_13 : IVec S_ 1 := constantI S_ 1 1#1
  let main_v37 : IVec S_ 1 := (fun x v => Host.reduce IntOp.andi x v reducesTo_S64x40_S_d0_1 h_S_) main_v36 main_c_13
  let main_v38 : IVec S_ 1 := andi main_v33 main_v37
  let main_v39 : FVec F S40 .f32 := Host.absf main_arg9
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  let main_v44 : IVec S1x800000 32 := (extractStridedSlice S1x800000 ![1, 0] · slices_S2x800000_S1x800000_1_0) main_arg1
  let main_v45 : IVec S800000 32 := shapeCast S800000 main_v44 shapeCasts_S1x800000_S800000
  let main_c_16 : IVec S_ 32 := constantI S_ 32 0#32
  let main_v46 : IVec S800000 32 := broadcastInDim S800000 ![] bcast_S_S800000 main_c_16
  let main_v47 : IVec S800000 1 := cmpi .sge main_v45 main_v46
  let main_v48 : IVec S1x800000 32 := (extractStridedSlice S1x800000 ![1, 0] · slices_S2x800000_S1x800000_1_0) main_arg1
  let main_v49 : IVec S800000 32 := shapeCast S800000 main_v48 shapeCasts_S1x800000_S800000
  let main_c_17 : IVec S_ 32 := constantI S_ 32 50000#32
  let main_v50 : IVec S800000 32 := broadcastInDim S800000 ![] bcast_S_S800000 main_c_17
  let main_v51 : IVec S800000 1 := cmpi .slt main_v49 main_v50
  fn_part3 (F := F) main_v43 main_v47 main_v51

def fn_part1 {F : FTy → Type} [FloatOps F] (main_arg1 : IVec S2x800000 32) (main_arg5 : FVec F S64 .f32) (main_arg6 : FVec F S64x64 .f32) (main_arg7 : FVec F S64 .f32) (main_arg8 : FVec F S64x40 .f32) (main_arg9 : FVec F S40 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg8 main_arg9 main_v33

def fn {F : FTy → Type} [FloatOps F] (main_arg0 : FVec F S50000x64 .f32) (main_arg1 : IVec S2x800000 32) (main_arg2 : FVec F S64x64 .f32) (main_arg3 : FVec F S64 .f32) (main_arg4 : FVec F S64x64 .f32) (main_arg5 : FVec F S64 .f32) (main_arg6 : FVec F S64x64 .f32) (main_arg7 : FVec F S64 .f32) (main_arg8 : FVec F S64x40 .f32) (main_arg9 : FVec F S40 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg5 main_arg6 main_arg7 main_arg8 main_arg9 main_v13 main_v16
-- ==== Kernel.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x40 : Shape := ⟨2, ![64, 40]⟩
abbrev S40 : Shape := ⟨1, ![40]⟩
abbrev S1x800000 : Shape := ⟨2, ![1, 800000]⟩
abbrev S800000 : Shape := ⟨1, ![800000]⟩
abbrev S5000x64 : Shape := ⟨2, ![5000, 64]⟩
abbrev S1x64 : Shape := ⟨2, ![1, 64]⟩
abbrev S_ : Shape := ⟨0, ![]⟩
abbrev S50000 : Shape := ⟨1, ![50000]⟩
abbrev S800000x1 : Shape := ⟨2, ![800000, 1]⟩
abbrev S802816 : Shape := ⟨1, ![802816]⟩
abbrev S4096 : Shape := ⟨1, ![4096]⟩
abbrev S4096x64 : Shape := ⟨2, ![4096, 64]⟩
abbrev S4096x1 : Shape := ⟨2, ![4096, 1]⟩
abbrev S1x1000 : Shape := ⟨2, ![1, 1000]⟩
abbrev S1000x64 : Shape := ⟨2, ![1000, 64]⟩
abbrev S4096x1000 : Shape := ⟨2, ![4096, 1000]⟩
abbrev S50000x40 : Shape := ⟨2, ![50000, 40]⟩
abbrev S5000x40 : Shape := ⟨2, ![5000, 40]⟩
abbrev S1x40 : Shape := ⟨2, ![1, 40]⟩
abbrev S5000 : Shape := ⟨1, ![5000]⟩
abbrev S5000x1 : Shape := ⟨2, ![5000, 1]⟩

abbrev nBuf : Space → Nat
  | .hbm => 76
  | .vmem => 42
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x40, .f32⟩
  | .hbm, ⟨9, _⟩ => ⟨S40, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S50000x64, .f32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000, .f32⟩
  | .hbm, ⟨30, _⟩ => ⟨S_, .f32⟩
  | .hbm, ⟨31, _⟩ => ⟨S800000, .f32⟩
  | .hbm, ⟨32, _⟩ => ⟨S800000, .f32⟩
  | .hbm, ⟨33, _⟩ => ⟨S_, .i32⟩
  | .hbm, ⟨34, _⟩ => ⟨S_, .i32⟩
  | .hbm, ⟨35, _⟩ => ⟨S802816, .i32⟩
  | .hbm, ⟨36, _⟩ => ⟨S_, .i32⟩
  | .hbm, ⟨37, _⟩ => ⟨S_, .i32⟩
  | .hbm, ⟨38, _⟩ => ⟨S802816, .i32⟩
  | .hbm, ⟨39, _⟩ => ⟨S_, .i32⟩
  | .hbm, ⟨40, _⟩ => ⟨S_, .f32⟩
  | .hbm, ⟨41, _⟩ => ⟨S802816, .f32⟩
  | .hbm, ⟨42, _⟩ => ⟨S50000x64, .bf16⟩
  | .hbm, ⟨43, _⟩ => ⟨S50000x64, .f32⟩
  | .hbm, ⟨44, _⟩ => ⟨S50000x64, .f32⟩
  | .hbm, ⟨45, _⟩ => ⟨S_, .f32⟩
  | .hbm, ⟨46, _⟩ => ⟨S800000, .f32⟩
  | .hbm, ⟨47, _⟩ => ⟨S_, .f32⟩
  | .hbm, ⟨48, _⟩ => ⟨S50000, .f32⟩
  | .hbm, ⟨49, _⟩ => ⟨S800000x1, .i32⟩
  | .hbm, ⟨50, _⟩ => ⟨S50000, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000, .f32⟩
  | .hbm, ⟨60, _⟩ => ⟨S_, .f32⟩
  | .hbm, ⟨61, _⟩ => ⟨S800000, .f32⟩
  | .hbm, ⟨62, _⟩ => ⟨S800000, .f32⟩
  | .hbm, ⟨63, _⟩ => ⟨S_, .i32⟩
  | .hbm, ⟨64, _⟩ => ⟨S_, .i32⟩
  | .hbm, ⟨65, _⟩ => ⟨S802816, .i32⟩
  | .hbm, ⟨66, _⟩ => ⟨S_, .i32⟩
  | .hbm, ⟨67, _⟩ => ⟨S_, .i32⟩
  | .hbm, ⟨68, _⟩ => ⟨S802816, .i32⟩
  | .hbm, ⟨69, _⟩ => ⟨S_, .i32⟩
  | .hbm, ⟨70, _⟩ => ⟨S_, .f32⟩
  | .hbm, ⟨71, _⟩ => ⟨S802816, .f32⟩
  | .hbm, ⟨72, _⟩ => ⟨S50000x64, .bf16⟩
  | .hbm, ⟨73, _⟩ => ⟨S50000x64, .f32⟩
  | .hbm, ⟨74, _⟩ => ⟨S50000x64, .f32⟩
  | .hbm, ⟨75, _⟩ => ⟨S50000x40, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S64, .f32⟩
  | .local _ .vmem, ⟨4, _⟩ => ⟨S5000x64, .f32⟩
  | .local _ .vmem, ⟨5, _⟩ => ⟨S5000x64, .f32⟩
  | .local _ .vmem, ⟨6, _⟩ => ⟨S4096, .i32⟩
  | .local _ .vmem, ⟨7, _⟩ => ⟨S4096, .i32⟩
  | .local _ .vmem, ⟨8, _⟩ => ⟨S4096, .i32⟩
  | .local _ .vmem, ⟨9, _⟩ => ⟨S4096, .i32⟩
  | .local _ .vmem, ⟨10, _⟩ => ⟨S4096, .f32⟩
  | .local _ .vmem, ⟨11, _⟩ => ⟨S4096, .f32⟩
  | .local _ .vmem, ⟨12, _⟩ => ⟨S50000x64, .bf16⟩
  | .local _ .vmem, ⟨13, _⟩ => ⟨S50000x64, .f32⟩
  | .local _ .vmem, ⟨14, _⟩ => ⟨S4096x64, .f32⟩
  | .local _ .vmem, ⟨15, _⟩ => ⟨S5000x64, .f32⟩
  | .local _ .vmem, ⟨16, _⟩ => ⟨S5000x64, .f32⟩
  | .local _ .vmem, ⟨17, _⟩ => ⟨S64x64, .f32⟩
  | .local _ .vmem, ⟨18, _⟩ => ⟨S64, .f32⟩
  | .local _ .vmem, ⟨19, _⟩ => ⟨S5000x64, .f32⟩
  | .local _ .vmem, ⟨20, _⟩ => ⟨S5000x64, .f32⟩
  | .local _ .vmem, ⟨21, _⟩ => ⟨S4096, .i32⟩
  | .local _ .vmem, ⟨22, _⟩ => ⟨S4096, .i32⟩
  | .local _ .vmem, ⟨23, _⟩ => ⟨S4096, .i32⟩
  | .local _ .vmem, ⟨24, _⟩ => ⟨S4096, .i32⟩
  | .local _ .vmem, ⟨25, _⟩ => ⟨S4096, .f32⟩
  | .local _ .vmem, ⟨26, _⟩ => ⟨S4096, .f32⟩
  | .local _ .vmem, ⟨27, _⟩ => ⟨S50000x64, .bf16⟩
  | .local _ .vmem, ⟨28, _⟩ => ⟨S50000x64, .f32⟩
  | .local _ .vmem, ⟨29, _⟩ => ⟨S4096x64, .f32⟩
  | .local _ .vmem, ⟨30, _⟩ => ⟨S5000x64, .f32⟩
  | .local _ .vmem, ⟨31, _⟩ => ⟨S5000x64, .f32⟩
  | .local _ .vmem, ⟨32, _⟩ => ⟨S64x64, .f32⟩
  | .local _ .vmem, ⟨33, _⟩ => ⟨S64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S64x40, .f32⟩
  | .local _ .vmem, ⟨39, _⟩ => ⟨S40, .f32⟩
  | .local _ .vmem, ⟨40, _⟩ => ⟨S5000x40, .f32⟩
  | .local _ .vmem, ⟨41, _⟩ => ⟨S5000x40, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_call0_v0 : Ref sig .tc := ⟨.hbm, 34, rfl⟩
abbrev main_v18 : Ref sig .tc := ⟨.hbm, 35, rfl⟩
abbrev main_c_4 : Ref sig .tc := ⟨.hbm, 36, rfl⟩
abbrev main_call1_v0 : Ref sig .tc := ⟨.hbm, 37, rfl⟩
abbrev main_v19 : Ref sig .tc := ⟨.hbm, 38, rfl⟩
abbrev main_c_5 : Ref sig .tc := ⟨.hbm, 39, rfl⟩
abbrev main_call2_v0 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_6 : Ref sig .tc := ⟨.hbm, 45, rfl⟩
abbrev main_v24 : Ref sig .tc := ⟨.hbm, 46, rfl⟩
abbrev main_cst_7 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_c_8 : Ref sig .tc := ⟨.hbm, 51, rfl⟩
abbrev main_v28 : Ref sig .tc := ⟨.hbm, 52, rfl⟩
abbrev main_v29 : Ref sig .tc := ⟨.hbm, 53, rfl⟩
abbrev main_c_9 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_10 : Ref sig .tc := ⟨.hbm, 60, rfl⟩
abbrev main_v35 : Ref sig .tc := ⟨.hbm, 61, rfl⟩
abbrev main_v36 : Ref sig .tc := ⟨.hbm, 62, rfl⟩
abbrev main_c_11 : Ref sig .tc := ⟨.hbm, 63, rfl⟩
abbrev main_call3_v0 : Ref sig .tc := ⟨.hbm, 64, rfl⟩
abbrev main_v37 : Ref sig .tc := ⟨.hbm, 65, rfl⟩
abbrev main_c_12 : Ref sig .tc := ⟨.hbm, 66, rfl⟩
abbrev main_call4_v0 : Ref sig .tc := ⟨.hbm, 67, rfl⟩
abbrev main_v38 : Ref sig .tc := ⟨.hbm, 68, rfl⟩
abbrev main_c_13 : Ref sig .tc := ⟨.hbm, 69, rfl⟩
abbrev main_call5_v0 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_scratch0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg4_0 : Ref sig .tc := ⟨.vmem, 28, rfl⟩
abbrev cc3_scratch0 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg3_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg3_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc3_sem4_0 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33
abbrev cc5_sem0_0 : DmaSem sig := 34
abbrev cc5_sem0_1 : DmaSem sig := 35
abbrev cc5_sem1_0 : DmaSem sig := 36
abbrev cc5_sem2_0 : DmaSem sig := 37
abbrev cc5_sem3_0 : DmaSem sig := 38
abbrev cc5_sem3_1 : DmaSem sig := 39

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![196], ![false]⟩

@[reducible] def k1_t1_loop : Scf.Loop 32 :=
  let c0_i32_5 : BitVec 32 := 0#32
  let c50_i32 : BitVec 32 := 50#32
  let v16 : BitVec 32 := Scalar.addi c0_i32_5 c50_i32
  let c1_i32 : BitVec 32 := 1#32
  ⟨c0_i32_5, v16, c1_i32⟩
def k1_mult1 (k1_t1 : Fin k1_t1_loop.trips) : BitVec 32 :=
  let c0_i32_15 : BitVec 32 := 0#32
  let c0_i32_5 : BitVec 32 := 0#32
  let c1_i32 : BitVec 32 := 1#32
  let arg7 : BitVec 32 := Scf.iv c0_i32_5 c1_i32 k1_t1
  let c1_i32_14 : BitVec 32 := 1#32
  let v25 : BitVec 32 := Scalar.muli arg7 c1_i32_14
  let v26 : BitVec 32 := Scalar.addi c0_i32_15 v25
  let c1000_i32 : BitVec 32 := 1000#32
  let v27 : BitVec 32 := Scalar.muli v26 c1000_i32
  v27
def k1_off1 (k1_t1 : Fin k1_t1_loop.trips) : Fin 2 → Nat :=
  let c0_i32_15 : BitVec 32 := 0#32
  let c0_i32_5 : BitVec 32 := 0#32
  let c1_i32 : BitVec 32 := 1#32
  let arg7 : BitVec 32 := Scf.iv c0_i32_5 c1_i32 k1_t1
  let c1_i32_14 : BitVec 32 := 1#32
  let v25 : BitVec 32 := Scalar.muli arg7 c1_i32_14
  let v26 : BitVec 32 := Scalar.addi c0_i32_15 v25
  let c1000_i32 : BitVec 32 := 1000#32
  let v27 : BitVec 32 := Scalar.muli v26 c1000_i32
  let v28 : BitVec 32 := v27
  let v32 : Index := Scalar.indexCast v28
  let c0_16 : Index := 0#32
  ![v32.toNat, 0]
@[reducible] def k1_t2_loop : Scf.Loop 32 :=
  let c0_i32_9 : BitVec 32 := 0#32
  let c50_i32_10 : BitVec 32 := 50#32
  let v21 : BitVec 32 := Scalar.addi c0_i32_9 c50_i32_10
  let c1_i32_11 : BitVec 32 := 1#32
  ⟨c0_i32_9, v21, c1_i32_11⟩
def k1_mult2 (k1_t2 : Fin k1_t2_loop.trips) : BitVec 32 :=
  let c0_i32_15 : BitVec 32 := 0#32
  let c0_i32_9 : BitVec 32 := 0#32
  let c1_i32_11 : BitVec 32 := 1#32
  let arg7 : BitVec 32 := Scf.iv c0_i32_9 c1_i32_11 k1_t2
  let c1_i32_14 : BitVec 32 := 1#32
  let v25 : BitVec 32 := Scalar.muli arg7 c1_i32_14
  let v26 : BitVec 32 := Scalar.addi c0_i32_15 v25
  let c1000_i32 : BitVec 32 := 1000#32
  let v27 : BitVec 32 := Scalar.muli v26 c1000_i32
  v27
def k1_off2 (k1_t2 : Fin k1_t2_loop.trips) : Fin 2 → Nat :=
  let c0_i32_15 : BitVec 32 := 0#32
  let c0_i32_9 : BitVec 32 := 0#32
  let c1_i32_11 : BitVec 32 := 1#32
  let arg7 : BitVec 32 := Scf.iv c0_i32_9 c1_i32_11 k1_t2
  let c1_i32_14 : BitVec 32 := 1#32
  let v25 : BitVec 32 := Scalar.muli arg7 c1_i32_14
  let v26 : BitVec 32 := Scalar.addi c0_i32_15 v25
  let c1000_i32 : BitVec 32 := 1000#32
  let v27 : BitVec 32 := Scalar.muli v26 c1000_i32
  let v28 : BitVec 32 := v27
  let v39 : Index := Scalar.indexCast v28
  let c0_17 : Index := 0#32
  ![v39.toNat, 0]
def cc1_transform_0 (i : grid1.Coords) : Fin 1 → Nat :=
  let arg0 : BitVec 32 := BitVec.ofNat 32 (i 0).val
  let c0_i32 : BitVec 32 := 0#32
  ![arg0.toNat]

def cc1_transform_1 (i : grid1.Coords) : Fin 1 → Nat :=
  let arg0 : BitVec 32 := BitVec.ofNat 32 (i 0).val
  let c0_i32 : BitVec 32 := 0#32
  ![arg0.toNat]

def cc1_transform_2 (i : grid1.Coords) : Fin 1 → Nat :=
  let arg0 : BitVec 32 := BitVec.ofNat 32 (i 0).val
  let c0_i32 : BitVec 32 := 0#32
  ![arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S4096 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S50000x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S50000x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![196], ![false]⟩

@[reducible] def k3_t1_loop : Scf.Loop 32 :=
  let c0_i32_5 : BitVec 32 := 0#32
  let c50_i32 : BitVec 32 := 50#32
  let v16 : BitVec 32 := Scalar.addi c0_i32_5 c50_i32
  let c1_i32 : BitVec 32 := 1#32
  ⟨c0_i32_5, v16, c1_i32⟩
def k3_mult1 (k3_t1 : Fin k3_t1_loop.trips) : BitVec 32 :=
  let c0_i32_15 : BitVec 32 := 0#32
  let c0_i32_5 : BitVec 32 := 0#32
  let c1_i32 : BitVec 32 := 1#32
  let arg7 : BitVec 32 := Scf.iv c0_i32_5 c1_i32 k3_t1
  let c1_i32_14 : BitVec 32 := 1#32
  let v25 : BitVec 32 := Scalar.muli arg7 c1_i32_14
  let v26 : BitVec 32 := Scalar.addi c0_i32_15 v25
  let c1000_i32 : BitVec 32 := 1000#32
  let v27 : BitVec 32 := Scalar.muli v26 c1000_i32
  v27
def k3_off1 (k3_t1 : Fin k3_t1_loop.trips) : Fin 2 → Nat :=
  let c0_i32_15 : BitVec 32 := 0#32
  let c0_i32_5 : BitVec 32 := 0#32
  let c1_i32 : BitVec 32 := 1#32
  let arg7 : BitVec 32 := Scf.iv c0_i32_5 c1_i32 k3_t1
  let c1_i32_14 : BitVec 32 := 1#32
  let v25 : BitVec 32 := Scalar.muli arg7 c1_i32_14
  let v26 : BitVec 32 := Scalar.addi c0_i32_15 v25
  let c1000_i32 : BitVec 32 := 1000#32
  let v27 : BitVec 32 := Scalar.muli v26 c1000_i32
  let v28 : BitVec 32 := v27
  let v32 : Index := Scalar.indexCast v28
  let c0_16 : Index := 0#32
  ![v32.toNat, 0]
@[reducible] def k3_t2_loop : Scf.Loop 32 :=
  let c0_i32_9 : BitVec 32 := 0#32
  let c50_i32_10 : BitVec 32 := 50#32
  let v21 : BitVec 32 := Scalar.addi c0_i32_9 c50_i32_10
  let c1_i32_11 : BitVec 32 := 1#32
  ⟨c0_i32_9, v21, c1_i32_11⟩
def k3_mult2 (k3_t2 : Fin k3_t2_loop.trips) : BitVec 32 :=
  let c0_i32_15 : BitVec 32 := 0#32
  let c0_i32_9 : BitVec 32 := 0#32
  let c1_i32_11 : BitVec 32 := 1#32
  let arg7 : BitVec 32 := Scf.iv c0_i32_9 c1_i32_11 k3_t2
  let c1_i32_14 : BitVec 32 := 1#32
  let v25 : BitVec 32 := Scalar.muli arg7 c1_i32_14
  let v26 : BitVec 32 := Scalar.addi c0_i32_15 v25
  let c1000_i32 : BitVec 32 := 1000#32
  let v27 : BitVec 32 := Scalar.muli v26 c1000_i32
  v27
def k3_off2 (k3_t2 : Fin k3_t2_loop.trips) : Fin 2 → Nat :=
  let c0_i32_15 : BitVec 32 := 0#32
  let c0_i32_9 : BitVec 32 := 0#32
  let c1_i32_11 : BitVec 32 := 1#32
  let arg7 : BitVec 32 := Scf.iv c0_i32_9 c1_i32_11 k3_t2
  let c1_i32_14 : BitVec 32 := 1#32
  let v25 : BitVec 32 := Scalar.muli arg7 c1_i32_14
  let v26 : BitVec 32 := Scalar.addi c0_i32_15 v25
  let c1000_i32 : BitVec 32 := 1000#32
  let v27 : BitVec 32 := Scalar.muli v26 c1000_i32
  let v28 : BitVec 32 := v27
  let v39 : Index := Scalar.indexCast v28
  let c0_17 : Index := 0#32
  ![v39.toNat, 0]
def cc3_transform_0 (i : grid3.Coords) : Fin 1 → Nat :=
  let arg0 : BitVec 32 := BitVec.ofNat 32 (i 0).val
  let c0_i32 : BitVec 32 := 0#32
  ![arg0.toNat]

def cc3_transform_1 (i : grid3.Coords) : Fin 1 → Nat :=
  let arg0 : BitVec 32 := BitVec.ofNat 32 (i 0).val
  let c0_i32 : BitVec 32 := 0#32
  ![arg0.toNat]

def cc3_transform_2 (i : grid3.Coords) : Fin 1 → Nat :=
  let arg0 : BitVec 32 := BitVec.ofNat 32 (i 0).val
  let c0_i32 : BitVec 32 := 0#32
  ![arg0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S4096 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4096 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4096 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S50000x64 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S50000x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x40 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S40 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x40 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  pads_S800000_S802816_028160 : S800000.Pads (![0] : Fin 1 → Nat) ![2816] ![0] S802816
  h_S_ : 0 < S_.numel
  inb_S50000x64_S50000x64_0_0 : ∀ a, (![0, 0] : Fin 2 → Nat) a + S50000x64.size a ≤ S50000x64.size a
  h_S50000x64 : 0 < S50000x64.numel
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S4096_S4096_0 : ∀ a, (![0] : Fin 1 → Nat) a + S4096.size a ≤ S4096.size a
  h_S4096 : 0 < S4096.numel
  shapeCasts_S4096_S4096 : S4096.ShapeCasts S4096
  shapeCasts_S4096_S4096x1 : S4096.ShapeCasts S4096x1
  iota_S1x1000_d1_w32 : S1x1000.Iotas .tc 32 [1]
  h_S1000x64 : 0 < S1000x64.numel
  shapeCasts_S1000x64_S1000x64 : S1000x64.ShapeCasts S1000x64
  broadcasts_S4096x1_S4096x1000 : S4096x1.Broadcasts S4096x1000
  broadcasts_S1x1000_S4096x1000 : S1x1000.Broadcasts S4096x1000
  natLt_1_32 : 1 < 32
  broadcasts_S4096x1_S4096x64 : S4096x1.Broadcasts S4096x64
  shapeCasts_S50000x64_S50000x64 : S50000x64.ShapeCasts S50000x64
  shapeCasts_S5000x64_S5000x64 : S5000x64.ShapeCasts S5000x64
  inb_S64x40_S64x40_0_0 : ∀ a, (![0, 0] : Fin 2 → Nat) a + S64x40.size a ≤ S64x40.size a
  h_S64x40 : 0 < S64x40.numel
  inb_S40_S40_0 : ∀ a, (![0] : Fin 1 → Nat) a + S40.size a ≤ S40.size a
  h_S40 : 0 < S40.numel
  shapeCasts_S40_S1x40 : S40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  dot_S5000x64_S64x64_S5000x64_1_0_0_1_n_n_wf : DotDims.WF S5000x64 S64x64 S5000x64 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S4096x1000_S1000x64_S4096x64_1_0_0_1_n_n_wf : DotDims.WF S4096x1000 S1000x64 S4096x64 [1] [0] [0] [1] [] []
  dot_S4096x1000_S4096x64_S1000x64_0_0_1_1_n_n_wf : DotDims.WF S4096x1000 S4096x64 S1000x64 [0] [0] [1] [1] [] []
  dot_S5000x64_S64x40_S5000x40_1_0_0_1_n_n_wf : DotDims.WF S5000x64 S64x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  k1_t1_ok : k1_t1_loop.OK
  k1_mult1_dvd : ∀ k1_t1 : Fin k1_t1_loop.trips, 8 ∣ (k1_mult1 k1_t1).toNat
  k1_off1_inb : ∀ k1_t1 : Fin k1_t1_loop.trips, ∀ a, (k1_off1 k1_t1) a + S1000x64.size a ≤ S50000x64.size a
  k1_t2_ok : k1_t2_loop.OK
  k1_mult2_dvd : ∀ k1_t2 : Fin k1_t2_loop.trips, 8 ∣ (k1_mult2 k1_t2).toNat
  k1_off2_inb : ∀ k1_t2 : Fin k1_t2_loop.trips, ∀ a, (k1_off2 k1_t2) a + S1000x64.size a ≤ S50000x64.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096.size a ≤ S802816.size a
  hwx1_0 : ∀ i : grid1.Coords, EltTy.bits .i32 = 32 ∨ (Rect.block (s := S802816) S4096.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096.size a ≤ S802816.size a
  hwx1_1 : ∀ i : grid1.Coords, EltTy.bits .i32 = 32 ∨ (Rect.block (s := S802816) S4096.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096.size a ≤ S802816.size a
  hwx1_2 : ∀ i : grid1.Coords, EltTy.bits .f32 = 32 ∨ (Rect.block (s := S802816) S4096.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S50000x64.size a ≤ S50000x64.size a
  hwx1_3 : ∀ i : grid1.Coords, EltTy.bits .bf16 = 32 ∨ (Rect.block (s := S50000x64) S50000x64.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S50000x64.size a ≤ S50000x64.size a
  hwx1_4 : ∀ i : grid1.Coords, EltTy.bits .f32 = 32 ∨ (Rect.block (s := S50000x64) S50000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64.size a ≤ S64.size a
  hwx2_2 : ∀ i : grid2.Coords, EltTy.bits .f32 = 32 ∨ (Rect.block (s := S64) S64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .f32 = 32 ∨ (Rect.block (s := S50000x64) S5000x64.size (cc2_transform_3 i) (hinb2_3 i)).WholeWords (EltTy.packing .f32)
  hrank3 : 0 < grid3.rank
  k3_t1_ok : k3_t1_loop.OK
  k3_mult1_dvd : ∀ k3_t1 : Fin k3_t1_loop.trips, 8 ∣ (k3_mult1 k3_t1).toNat
  k3_off1_inb : ∀ k3_t1 : Fin k3_t1_loop.trips, ∀ a, (k3_off1 k3_t1) a + S1000x64.size a ≤ S50000x64.size a
  k3_t2_ok : k3_t2_loop.OK
  k3_mult2_dvd : ∀ k3_t2 : Fin k3_t2_loop.trips, 8 ∣ (k3_mult2 k3_t2).toNat
  k3_off2_inb : ∀ k3_t2 : Fin k3_t2_loop.trips, ∀ a, (k3_off2 k3_t2) a + S1000x64.size a ≤ S50000x64.size a
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096.size a ≤ S802816.size a
  hwx3_0 : ∀ i : grid3.Coords, EltTy.bits .i32 = 32 ∨ (Rect.block (s := S802816) S4096.size (cc3_transform_0 i) (hinb3_0 i)).WholeWords (EltTy.packing .i32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4096.size a ≤ S802816.size a
  hwx3_1 : ∀ i : grid3.Coords, EltTy.bits .i32 = 32 ∨ (Rect.block (s := S802816) S4096.size (cc3_transform_1 i) (hinb3_1 i)).WholeWords (EltTy.packing .i32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4096.size a ≤ S802816.size a
  hwx3_2 : ∀ i : grid3.Coords, EltTy.bits .f32 = 32 ∨ (Rect.block (s := S802816) S4096.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S50000x64.size a ≤ S50000x64.size a
  hwx3_3 : ∀ i : grid3.Coords, EltTy.bits .bf16 = 32 ∨ (Rect.block (s := S50000x64) S50000x64.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S50000x64.size a ≤ S50000x64.size a
  hwx3_4 : ∀ i : grid3.Coords, EltTy.bits .f32 = 32 ∨ (Rect.block (s := S50000x64) S50000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64.size a ≤ S64.size a
  hwx4_2 : ∀ i : grid4.Coords, EltTy.bits .f32 = 32 ∨ (Rect.block (s := S64) S64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S50000x64.size a
  hwx4_3 : ∀ i : grid4.Coords, EltTy.bits .f32 = 32 ∨ (Rect.block (s := S50000x64) S5000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x40.size a ≤ S64x40.size a
  hwx5_1 : ∀ i : grid5.Coords, EltTy.bits .f32 = 32 ∨ (Rect.block (s := S64x40) S64x40.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S40.size a ≤ S40.size a
  hwx5_2 : ∀ i : grid5.Coords, EltTy.bits .f32 = 32 ∨ (Rect.block (s := S40) S40.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x40.size a ≤ S50000x40.size a
  hwx5_3 : ∀ i : grid5.Coords, EltTy.bits .f32 = 32 ∨ (Rect.block (s := S50000x40) S5000x40.size (cc5_transform_3 i) (hinb5_3 i)).WholeWords (EltTy.packing .f32)

variable [Facts₀]

def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S4096x1000_S1000x64_S4096x64_1_0_0_1_n_n : DotDims S4096x1000 S1000x64 S4096x64 where
  lhsContracting := [1]
  rhsContracting := [0]
  lhsNonContracting := [0]
  rhsNonContracting := [1]
  lhsBatch := []
  rhsBatch := []
  wf := dot_S4096x1000_S1000x64_S4096x64_1_0_0_1_n_n_wf
def dot_S4096x1000_S4096x64_S1000x64_0_0_1_1_n_n : DotDims S4096x1000 S4096x64 S1000x64 where
  lhsContracting := [0]
  rhsContracting := [0]
  lhsNonContracting := [1]
  rhsNonContracting := [1]
  lhsBatch := []
  rhsBatch := []
  wf := dot_S4096x1000_S4096x64_S1000x64_0_0_1_1_n_n_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v18) S4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v21) S50000x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S50000x64.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v22) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v23) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v37) S4096.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v38) S4096.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v39) S4096.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v40) S50000x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v41) S50000x64.size cc3_transform_4 reads3_4 true true 1 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v41) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg7) S64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v42) S5000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v42) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg8) S64x40.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg9) S40.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v43) S5000x40.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x40 : Shape := ⟨2, ![64, 40]⟩
abbrev S40 : Shape := ⟨1, ![40]⟩
abbrev S1x800000 : Shape := ⟨2, ![1, 800000]⟩
abbrev S800000 : Shape := ⟨1, ![800000]⟩
abbrev S1x64 : Shape := ⟨2, ![1, 64]⟩
abbrev S_ : Shape := ⟨0, ![]⟩
abbrev S50000 : Shape := ⟨1, ![50000]⟩
abbrev S800000x1 : Shape := ⟨2, ![800000, 1]⟩
abbrev S800000x64 : Shape := ⟨2, ![800000, 64]⟩
abbrev S50000x40 : Shape := ⟨2, ![50000, 40]⟩
abbrev S1x40 : Shape := ⟨2, ![1, 40]⟩
abbrev S50000x1 : Shape := ⟨2, ![50000, 1]⟩

abbrev nBuf : Space → Nat
  | .hbm => 119
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x40, .f32⟩
  | .hbm, ⟨9, _⟩ => ⟨S40, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S50000x64, .f32⟩
  | .hbm, ⟨15, _⟩ => ⟨S1x64, .f32⟩
  | .hbm, ⟨16, _⟩ => ⟨S50000x64, .f32⟩
  | .hbm, ⟨17, _⟩ => ⟨S50000x64, .f32⟩
  | .hbm, ⟨18, _⟩ => ⟨S_, .f32⟩
  | .hbm, ⟨19, _⟩ => ⟨S800000, .f32⟩
  | .hbm, ⟨20, _⟩ => ⟨S_, .f32⟩
  | .hbm, ⟨21, _⟩ => ⟨S50000, .f32⟩
  | .hbm, ⟨22, _⟩ => ⟨S800000x1, .i32⟩
  | .hbm, ⟨23, _⟩ => ⟨S50000, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000, .f32⟩
  | .hbm, ⟨33, _⟩ => ⟨S_, .f32⟩
  | .hbm, ⟨34, _⟩ => ⟨S800000, .f32⟩
  | .hbm, ⟨35, _⟩ => ⟨S800000, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x64, .f32⟩
  | .hbm, ⟨45, _⟩ => ⟨S800000x1, .f32⟩
  | .hbm, ⟨46, _⟩ => ⟨S800000x64, .f32⟩
  | .hbm, ⟨47, _⟩ => ⟨S800000x64, .f32⟩
  | .hbm, ⟨48, _⟩ => ⟨S_, .f32⟩
  | .hbm, ⟨49, _⟩ => ⟨S50000x64, .f32⟩
  | .hbm, ⟨50, _⟩ => ⟨S800000x1, .i32⟩
  | .hbm, ⟨51, _⟩ => ⟨S50000x64, .f32⟩
  | .hbm, ⟨52, _⟩ => ⟨S_, .f32⟩
  | .hbm, ⟨53, _⟩ => ⟨S50000x64, .f32⟩
  | .hbm, ⟨54, _⟩ => ⟨S50000x64, .f32⟩
  | .hbm, ⟨55, _⟩ => ⟨S50000x64, .f32⟩
  | .hbm, ⟨56, _⟩ => ⟨S1x64, .f32⟩
  | .hbm, ⟨57, _⟩ => ⟨S50000x64, .f32⟩
  | .hbm, ⟨58, _⟩ => ⟨S50000x64, .f32⟩
  | .hbm, ⟨59, _⟩ => ⟨S_, .f32⟩
  | .hbm, ⟨60, _⟩ => ⟨S800000, .f32⟩
  | .hbm, ⟨61, _⟩ => ⟨S_, .f32⟩
  | .hbm, ⟨62, _⟩ => ⟨S50000, .f32⟩
  | .hbm, ⟨63, _⟩ => ⟨S800000x1, .i32⟩
  | .hbm, ⟨64, _⟩ => ⟨S50000, .f32⟩
  | .hbm, ⟨65, _⟩ => ⟨S_, .i32⟩
  | .hbm, ⟨66, _⟩ => ⟨S800000, .i32⟩
  | .hbm, ⟨67, _⟩ => ⟨S800000, .i1⟩
  | .hbm, ⟨68, _⟩ => ⟨S_, .i32⟩
  | .hbm, ⟨69, _⟩ => ⟨S800000, .i32⟩
  | .hbm, ⟨70, _⟩ => ⟨S800000, .i32⟩
  | .hbm, ⟨71, _⟩ => ⟨S800000, .i32⟩
  | .hbm, ⟨72, _⟩ => ⟨S800000x1, .i32⟩
  | .hbm, ⟨73, _⟩ => ⟨S800000, .f32⟩
  | .hbm, ⟨74, _⟩ => ⟨S_, .f32⟩
  | .hbm, ⟨75, _⟩ => ⟨S800000, .f32⟩
  | .hbm, ⟨76, _⟩ => ⟨S800000, .f32⟩
  | .hbm, ⟨77, _⟩ => ⟨S_, .i32⟩
  | .hbm, ⟨78, _⟩ => ⟨S800000, .i32⟩
  | .hbm, ⟨79, _⟩ => ⟨S800000, .i1⟩
  | .hbm, ⟨80, _⟩ => ⟨S_, .i32⟩
  | .hbm, ⟨81, _⟩ => ⟨S800000, .i32⟩
  | .hbm, ⟨82, _⟩ => ⟨S800000, .i32⟩
  | .hbm, ⟨83, _⟩ => ⟨S800000, .i32⟩
  | .hbm, ⟨84, _⟩ => ⟨S800000x1, .i32⟩
  | .hbm, ⟨85, _⟩ => ⟨S800000x64, .f32⟩
  | .hbm, ⟨86, _⟩ => ⟨S800000x1, .f32⟩
  | .hbm, ⟨87, _⟩ => ⟨S800000x64, .f32⟩
  | .hbm, ⟨88, _⟩ => ⟨S800000x64, .f32⟩
  | .hbm, ⟨89, _⟩ => ⟨S_, .f32⟩
  | .hbm, ⟨90, _⟩ => ⟨S50000x64, .f32⟩
  | .hbm, ⟨91, _⟩ => ⟨S800000x1, .i32⟩
  | .hbm, ⟨92, _⟩ => ⟨S50000x64, .f32⟩
  | .hbm, ⟨93, _⟩ => ⟨S_, .f32⟩
  | .hbm, ⟨94, _⟩ => ⟨S50000x64, .f32⟩
  | .hbm, ⟨95, _⟩ => ⟨S50000x64, .f32⟩
  | .hbm, ⟨96, _⟩ => ⟨S50000x64, .f32⟩
  | .hbm, ⟨97, _⟩ => ⟨S1x64, .f32⟩
  | .hbm, ⟨98, _⟩ => ⟨S50000x64, .f32⟩
  | .hbm, ⟨99, _⟩ => ⟨S50000x64, .f32⟩
  | .hbm, ⟨100, _⟩ => ⟨S50000x40, .f32⟩
  | .hbm, ⟨101, _⟩ => ⟨S1x40, .f32⟩
  | .hbm, ⟨102, _⟩ => ⟨S50000x40, .f32⟩
  | .hbm, ⟨103, _⟩ => ⟨S50000x40, .f32⟩
  | .hbm, ⟨104, _⟩ => ⟨S_, .f32⟩
  | .hbm, ⟨105, _⟩ => ⟨S50000, .f32⟩
  | .hbm, ⟨106, _⟩ => ⟨S_, .f32⟩
  | .hbm, ⟨107, _⟩ => ⟨S50000, .f32⟩
  | .hbm, ⟨108, _⟩ => ⟨S50000, .f32⟩
  | .hbm, ⟨109, _⟩ => ⟨S50000x1, .f32⟩
  | .hbm, ⟨110, _⟩ => ⟨S50000x40, .f32⟩
  | .hbm, ⟨111, _⟩ => ⟨S50000x40, .f32⟩
  | .hbm, ⟨112, _⟩ => ⟨S50000x40, .f32⟩
  | .hbm, ⟨113, _⟩ => ⟨S_, .f32⟩
  | .hbm, ⟨114, _⟩ => ⟨S50000, .f32⟩
  | .hbm, ⟨115, _⟩ => ⟨S50000x1, .f32⟩
  | .hbm, ⟨116, _⟩ => ⟨S50000x1, .f32⟩
  | .hbm, ⟨117, _⟩ => ⟨S50000x40, .f32⟩
  | .hbm, ⟨118, _⟩ => ⟨S50000x40, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_call0_cst : Ref sig .tc := ⟨.hbm, 52, rfl⟩
abbrev main_call0_v0 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_6 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_c_8 : Ref sig .tc := ⟨.hbm, 65, rfl⟩
abbrev main_v43 : Ref sig .tc := ⟨.hbm, 66, rfl⟩
abbrev main_v44 : Ref sig .tc := ⟨.hbm, 67, rfl⟩
abbrev main_c_9 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_10 : Ref sig .tc := ⟨.hbm, 74, rfl⟩
abbrev main_v50 : Ref sig .tc := ⟨.hbm, 75, rfl⟩
abbrev main_v51 : Ref sig .tc := ⟨.hbm, 76, rfl⟩
abbrev main_c_11 : Ref sig .tc := ⟨.hbm, 77, rfl⟩
abbrev main_v52 : Ref sig .tc := ⟨.hbm, 78, rfl⟩
abbrev main_v53 : Ref sig .tc := ⟨.hbm, 79, rfl⟩
abbrev main_c_12 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_13 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_call1_cst : Ref sig .tc := ⟨.hbm, 93, rfl⟩
abbrev main_call1_v0 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_call2_cst : Ref sig .tc := ⟨.hbm, 104, rfl⟩
abbrev main_call2_v0 : Ref sig .tc := ⟨.hbm, 105, rfl⟩
abbrev main_call2_cst_0 : Ref sig .tc := ⟨.hbm, 106, rfl⟩
abbrev main_call2_v1 : Ref sig .tc := ⟨.hbm, 107, rfl⟩
abbrev main_call2_v2 : Ref sig .tc := ⟨.hbm, 108, rfl⟩
abbrev main_call2_v3 : Ref sig .tc := ⟨.hbm, 109, rfl⟩
abbrev main_call2_v4 : Ref sig .tc := ⟨.hbm, 110, rfl⟩
abbrev main_call2_v5 : Ref sig .tc := ⟨.hbm, 111, rfl⟩
abbrev main_call2_v6 : Ref sig .tc := ⟨.hbm, 112, rfl⟩
abbrev main_call2_cst_1 : Ref sig .tc := ⟨.hbm, 113, rfl⟩
abbrev main_call2_v7 : Ref sig .tc := ⟨.hbm, 114, rfl⟩
abbrev main_call2_v8 : Ref sig .tc := ⟨.hbm, 115, rfl⟩
abbrev main_call2_v9 : Ref sig .tc := ⟨.hbm, 116, rfl⟩
abbrev main_call2_v10 : Ref sig .tc := ⟨.hbm, 117, rfl⟩
abbrev main_v74 : Ref sig .tc := ⟨.hbm, 118, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  dot_S50000x64_S64x64_S50000x64_1_0_0_1_n_n_wf : DotDims.WF S50000x64 S64x64 S50000x64 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x40_S50000x40_1_0_0_1_n_n_wf : DotDims.WF S50000x64 S64x40 S50000x40 [1] [0] [0] [1] [] []

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x40_S50000x40_1_0_0_1_n_n : DotDims S50000x64 S64x40 S50000x40 where
  lhsContracting := [1]
  rhsContracting := [0]
  lhsNonContracting := [0]
  rhsNonContracting := [1]
  lhsBatch := []
  rhsBatch := []
  wf := dot_S50000x64_S64x40_S50000x40_1_0_0_1_n_n_wf

class Facts : Prop extends Facts₀ where

variable [Facts]
-- ==== Proof.Spec.lean ====
import Idealize.ShloMosaic.PureOps.Ideal
import Idealize.ShloMosaic.Lib.ValueIdx

noncomputable section

open scoped BigOperators

namespace Cert.Spec

open Idealize.ShloMosaic

abbrev NN : Nat := 50000
abbrev EE : Nat := 800000
abbrev EP : Nat := 802816
abbrev DD : Nat := 64

def lin {n k d : Nat} (X : Fin n → Fin k → EReal) (W : Fin k → Fin d → EReal) (b : Fin d → EReal) : Fin n → Fin d → EReal :=
  fun p q => (∑ l : Fin k, X p l * W l q) + b q

def relu {n d : Nat} (X : Fin n → Fin d → EReal) : Fin n → Fin d → EReal := fun p q => max (X p q) 0

def hot (x : BitVec 32) (n : Nat) : EReal := if x = BitVec.ofNat 32 n then 1 else 0

def pick (dstp : Fin EP → BitVec 32) (H : Fin NN → Fin DD → EReal) (e : Fin EP) (q : Fin DD) : EReal :=
  ∑ n : Fin NN, hot (dstp e) n.val * H n q

def aggHot (srcp dstp : Fin EP → BitVec 32) (wp : Fin EP → EReal) (H : Fin NN → Fin DD → EReal) : Fin NN → Fin DD → EReal :=
  fun p q => ∑ e : Fin EP, hot (srcp e) p.val * (pick dstp H e q * wp e)

def nodeOf (x : BitVec 32) : Fin NN :=
  ⟨min (if x.toInt < 0 then x + BitVec.ofNat 32 NN else x).toInt.toNat (NN - 1), by unfold NN; omega⟩

def aggIdx (src dst : Fin EE → BitVec 32) (w : Fin EE → EReal) (H : Fin NN → Fin DD → EReal) : Fin NN → Fin DD → EReal :=
  fun p q => 0 + ∑ e ∈ Finset.univ.filter (fun e : Fin EE => (src e).toInt = (p.val : ℤ)), H (nodeOf (dst e)) q * w e

def padTo {α : Type} (x : Fin EE → α) (z : α) : Fin EP → α :=
  fun e => if h : e.val < EE then x ⟨e.val, h⟩ else z

def rowmax {n d : Nat} (Y : Fin n → Fin d → EReal) (p : Fin n) : EReal := Finset.univ.sup (fun k : Fin d => Y p k)

end Cert.Spec

end
-- ==== Proof.SpecLsm.lean ====
import proofs.«414250_j49357764165687_1_alg».proof.Proof.Spec

noncomputable section

open scoped BigOperators

namespace Cert.Spec

open Idealize.ShloMosaic

def lsm {n d : Nat} (Y : Fin n → Fin d → EReal) : Fin n → Fin d → EReal :=
  fun p q => (Y p q - rowmax Y p)
    - Idealize.ShloMosaic.Ideal.log (∑ k : Fin d, Idealize.ShloMosaic.Ideal.exp (Y p k - rowmax Y p))

theorem lsm_apply {n d : Nat} (Y : Fin n → Fin d → EReal) (p : Fin n) (q : Fin d) :
    lsm Y p q = (Y p q - rowmax Y p)
      - Idealize.ShloMosaic.Ideal.log (∑ k : Fin d, Idealize.ShloMosaic.Ideal.exp (Y p k - rowmax Y p)) := rfl

end Cert.Spec

end
-- ==== Proof.SpecW.lean ====
import Idealize.ShloMosaic.PureOps.Ideal

noncomputable section

namespace Cert.SpecW

open Idealize.ShloMosaic

def scatDims : ScatterDims (⟨1, ![50000]⟩ : Shape) (⟨2, ![800000, 1]⟩ : Shape) (⟨1, ![800000]⟩ : Shape) where
  updateWindowDims := []
  insertedWindowDims := [0]
  scatterDimsToOperandDims := [0]
  indexVectorDim := 1

def gathDims : GatherDims (⟨1, ![50000]⟩ : Shape) (⟨2, ![800000, 1]⟩ : Shape) (⟨1, ![800000]⟩ : Shape) where
  offsetDims := []
  collapsedSliceDims := [0]
  operandBatchingDims := []
  startIndicesBatchingDims := []
  startIndexMap := [0]
  indexVectorDim := 1
  sliceSizes := ![1]

theorem bc0E : (⟨0, ![]⟩ : Shape).BroadcastsInDim (⟨1, ![800000]⟩ : Shape) (![] : Fin 0 → Fin (⟨1, ![800000]⟩ : Shape).rank) := by decide
theorem bc0N : (⟨0, ![]⟩ : Shape).BroadcastsInDim (⟨1, ![50000]⟩ : Shape) (![] : Fin 0 → Fin (⟨1, ![50000]⟩ : Shape).rank) := by decide
theorem bcE1 : (⟨1, ![800000]⟩ : Shape).BroadcastsInDim (⟨2, ![800000, 1]⟩ : Shape) (![0] : Fin 1 → Fin (⟨2, ![800000, 1]⟩ : Shape).rank) := by decide

def wChain (srcv : (⟨1, ![800000]⟩ : Shape).Idx → BitVec 32) : (⟨1, ![800000]⟩ : Shape).Idx → EReal :=
  Host.divf (F := Ideal) (φ := .f32)
    (broadcastInDim (⟨1, ![800000]⟩ : Shape) ![] bc0E (constant (F := Ideal) (⟨0, ![]⟩ : Shape) .f32 0x3F800000#32))
    (Host.gather gathDims
      (Host.scatterAdd (F := Ideal) (φ := .f32) scatDims
        (broadcastInDim (⟨1, ![50000]⟩ : Shape) ![] bc0N (constant (F := Ideal) (⟨0, ![]⟩ : Shape) .f32 0x00000000#32))
        (broadcastInDim (⟨2, ![800000, 1]⟩ : Shape) ![0] bcE1 srcv)
        (broadcastInDim (⟨1, ![800000]⟩ : Shape) ![] bc0E (constant (F := Ideal) (⟨0, ![]⟩ : Shape) .f32 0x3F800000#32)))
      (broadcastInDim (⟨2, ![800000, 1]⟩ : Shape) ![0] bcE1
        (select (cmpi .slt srcv (broadcastInDim (⟨1, ![800000]⟩ : Shape) ![] bc0E (constantI (⟨0, ![]⟩ : Shape) 32 0#32)))
          (addi srcv (broadcastInDim (⟨1, ![800000]⟩ : Shape) ![] bc0E (constantI (⟨0, ![]⟩ : Shape) 32 50000#32)))
          srcv)))

end Cert.SpecW

end
-- ==== Proof.SpecModel.lean ====
import proofs.«414250_j49357764165687_1_alg».proof.Proof.Spec
import proofs.«414250_j49357764165687_1_alg».proof.Proof.SpecLsm
import proofs.«414250_j49357764165687_1_alg».proof.Proof.SpecW

noncomputable section

namespace Cert.Spec

open Idealize.ShloMosaic Idealize.ShloMosaic.ValueIdx

def srcOf (ei : (⟨2, ![2, 800000]⟩ : Shape).Idx → BitVec 32) : Fin EE → BitVec 32 := fun e => ei (ix2 (0 : Fin 2) e)
def dstOf (ei : (⟨2, ![2, 800000]⟩ : Shape).Idx → BitVec 32) : Fin EE → BitVec 32 := fun e => ei (ix2 (1 : Fin 2) e)

def srcArr (ei : (⟨2, ![2, 800000]⟩ : Shape).Idx → BitVec 32) : (⟨1, ![800000]⟩ : Shape).Idx → BitVec 32 :=
  fun i => ei (ix2 (0 : Fin 2) ⟨(i 0).val, (i 0).isLt⟩)

def wOf (ei : (⟨2, ![2, 800000]⟩ : Shape).Idx → BitVec 32) : Fin EE → EReal := fun e => Cert.SpecW.wChain (srcArr ei) (ix1 e)

def round (ei : (⟨2, ![2, 800000]⟩ : Shape).Idx → BitVec 32) (X : Fin NN → Fin DD → EReal) (W : Fin DD → Fin DD → EReal) (b : Fin DD → EReal) :
    Fin NN → Fin DD → EReal :=
  relu (aggIdx (srcOf ei) (dstOf ei) (wOf ei) (lin X W b))

def model (X : Fin NN → Fin DD → EReal) (ei : (⟨2, ![2, 800000]⟩ : Shape).Idx → BitVec 32)
    (W1 : Fin DD → Fin DD → EReal) (b1 : Fin DD → EReal) (W2 : Fin DD → Fin DD → EReal) (b2 : Fin DD → EReal)
    (Wp1 : Fin DD → Fin DD → EReal) (bp1 : Fin DD → EReal) (Wp2 : Fin DD → Fin 40 → EReal) (bp2 : Fin 40 → EReal) :
    Fin NN → Fin 40 → EReal :=
  lsm (lin (lin (round ei (round ei X W1 b1) W2 b2) Wp1 bp1) Wp2 bp2)

end Cert.Spec

end
-- ==== Proof.RefReadP.lean ====
import proofs.«414250_j49357764165687_1_alg».proof.Proof.Gen.ReferenceIdeal
import Idealize.ShloMosaic.Lib.Pipeline.Value
import Idealize.ShloMosaic.Lib.ValueIdx
import Idealize.ShloMosaic.PureOps.Ideal.Laws

noncomputable section

namespace Cert.ReferenceIdeal.ReadP

open Cert.ReferenceIdeal Cert.ReferenceIdeal.Gen Idealize.ShloMosaic Idealize.ShloMosaic.TcCoe Idealize.SL.Sem Idealize.ShloMosaic.StableHlo

variable {F : FTy → Type} [FloatOps F]

section

variable (x0 : (⟨S50000x64, .f32⟩ : BufTy).Contents (Elt F)) (x1 : (⟨S2x800000, .i32⟩ : BufTy).Contents (Elt F))
  (x2 : (⟨S64x64, .f32⟩ : BufTy).Contents (Elt F)) (x3 : (⟨S64, .f32⟩ : BufTy).Contents (Elt F))
  (x4 : (⟨S64x64, .f32⟩ : BufTy).Contents (Elt F)) (x5 : (⟨S64, .f32⟩ : BufTy).Contents (Elt F))
  (x6 : (⟨S64x64, .f32⟩ : BufTy).Contents (Elt F)) (x7 : (⟨S64, .f32⟩ : BufTy).Contents (Elt F))
  (x8 : (⟨S64x40, .f32⟩ : BufTy).Contents (Elt F)) (x9 : (⟨S40, .f32⟩ : BufTy).Contents (Elt F))

def val_main_v0 : (⟨S1x800000, .i32⟩ : BufTy).Contents (Elt F) :=
  extractStridedSlice S1x800000 ![0, 0] (x1) slices_S2x800000_S1x800000_0_0
abbrev idx_main_v0 (i : S1x800000.Idx) : S2x800000.Idx := fun a => match a with
  | ⟨0, _⟩ => ⟨(i 0).val, by have h0 : (i 0).val < 1 := (i 0).isLt; show (i 0).val < 2; omega⟩
  | ⟨1, _⟩ => ⟨(i 1).val, (i 1).isLt⟩
theorem val_main_v0_apply (i : S1x800000.Idx) :
    val_main_v0 (F := F) x1 i = x1 (idx_main_v0 i) := by
  unfold val_main_v0
  exact extractStridedSlice_apply ![0, 0] x1 slices_S2x800000_S1x800000_0_0 i (idx_main_v0 i) (fun a => match a with
    | ⟨0, _⟩ => by show (i 0).val = 0 + (i 0).val; omega
    | ⟨1, _⟩ => by show (i 1).val = 0 + (i 1).val; omega)

def val_main_v1 : (⟨S800000, .i32⟩ : BufTy).Contents (Elt F) :=
  shapeCast _ (val_main_v0 (F := F) x1) shapeCasts_S1x800000_S800000
abbrev idx_main_v1 (i : S800000.Idx) : S1x800000.Idx := fun a => match a with
  | ⟨0, _⟩ => ⟨0, Nat.one_pos⟩
  | ⟨1, _⟩ => ⟨((i 0).val) % 800000, by have h0 : (i 0).val < 800000 := (i 0).isLt; show ((i 0).val) % 800000 < 800000; omega⟩
theorem val_main_v1_apply (i : S800000.Idx) :
    val_main_v1 (F := F) x1 i = val_main_v0 (F := F) x1 (idx_main_v1 i) := by
  unfold val_main_v1
  generalize val_main_v0 (F := F) x1 = y
  exact shapeCast_apply y shapeCasts_S1x800000_S800000 i (idx_main_v1 i)
    (by rewrite [Shape.rowMajor_val_two, Shape.rowMajor_val_one]; have h0 : (i 0).val < 800000 := (i 0).isLt; show 0 * 800000 + ((i 0).val) % 800000 = (i 0).val; omega)

def val_main_v2 : (⟨S1x800000, .i32⟩ : BufTy).Contents (Elt F) :=
  extractStridedSlice S1x800000 ![1, 0] (x1) slices_S2x800000_S1x800000_1_0
abbrev idx_main_v2 (i : S1x800000.Idx) : S2x800000.Idx := fun a => match a with
  | ⟨0, _⟩ => ⟨1 + (i 0).val, by have h0 : (i 0).val < 1 := (i 0).isLt; show 1 + (i 0).val < 2; omega⟩
  | ⟨1, _⟩ => ⟨(i 1).val, (i 1).isLt⟩
theorem val_main_v2_apply (i : S1x800000.Idx) :
    val_main_v2 (F := F) x1 i = x1 (idx_main_v2 i) := by
  unfold val_main_v2
  exact extractStridedSlice_apply ![1, 0] x1 slices_S2x800000_S1x800000_1_0 i (idx_main_v2 i) (fun a => match a with
    | ⟨0, _⟩ => by show 1 + (i 0).val = 1 + (i 0).val; omega
    | ⟨1, _⟩ => by show (i 1).val = 0 + (i 1).val; omega)

def val_main_v3 : (⟨S800000, .i32⟩ : BufTy).Contents (Elt F) :=
  shapeCast _ (val_main_v2 (F := F) x1) shapeCasts_S1x800000_S800000
abbrev idx_main_v3 (i : S800000.Idx) : S1x800000.Idx := fun a => match a with
  | ⟨0, _⟩ => ⟨0, Nat.one_pos⟩
  | ⟨1, _⟩ => ⟨((i 0).val) % 800000, by have h0 : (i 0).val < 800000 := (i 0).isLt; show ((i 0).val) % 800000 < 800000; omega⟩
theorem val_main_v3_apply (i : S800000.Idx) :
    val_main_v3 (F := F) x1 i = val_main_v2 (F := F) x1 (idx_main_v3 i) := by
  unfold val_main_v3
  generalize val_main_v2 (F := F) x1 = y
  exact shapeCast_apply y shapeCasts_S1x800000_S800000 i (idx_main_v3 i)
    (by rewrite [Shape.rowMajor_val_two, Shape.rowMajor_val_one]; have h0 : (i 0).val < 800000 := (i 0).isLt; show 0 * 800000 + ((i 0).val) % 800000 = (i 0).val; omega)

def val_main_v4 : (⟨S50000x64, .f32⟩ : BufTy).Contents (Elt F) :=
  Host.dotGeneral dot_S50000x64_S64x64_S50000x64_1_0_0_1_n_n none (x0) (x2)
theorem lhs_main_v4_0 (i : S50000x64.Idx) (q : dot_S50000x64_S64x64_S50000x64_1_0_0_1_n_n.contr.Idx) :
    (dot_S50000x64_S64x64_S50000x64_1_0_0_1_n_n.lhsIdx i q 0).val = (i 0).val := by
  unfold DotDims.lhsIdx
  rw [dif_neg (show ¬(0 : Fin S50000x64.rank) ∈ dot_S50000x64_S64x64_S50000x64_1_0_0_1_n_n.lhsBatch by decide), dif_pos (show (0 : Fin S50000x64.rank) ∈ dot_S50000x64_S64x64_S50000x64_1_0_0_1_n_n.lhsNonContracting by decide)]
  rfl
theorem lhs_main_v4_1 (i : S50000x64.Idx) (q : dot_S50000x64_S64x64_S50000x64_1_0_0_1_n_n.contr.Idx) :
    (dot_S50000x64_S64x64_S50000x64_1_0_0_1_n_n.lhsIdx i q 1).val = (q ⟨0, by decide⟩).val :=
  dot_S50000x64_S64x64_S50000x64_1_0_0_1_n_n.lhsIdx_val_of_single rfl i q
theorem rhs_main_v4_0 (i : S50000x64.Idx) (q : dot_S50000x64_S64x64_S50000x64_1_0_0_1_n_n.contr.Idx) :
    (dot_S50000x64_S64x64_S50000x64_1_0_0_1_n_n.rhsIdx i q 0).val = (q ⟨0, by decide⟩).val :=
  dot_S50000x64_S64x64_S50000x64_1_0_0_1_n_n.rhsIdx_val_of_single rfl i q
theorem rhs_main_v4_1 (i : S50000x64.Idx) (q : dot_S50000x64_S64x64_S50000x64_1_0_0_1_n_n.contr.Idx) :
    (dot_S50000x64_S64x64_S50000x64_1_0_0_1_n_n.rhsIdx i q 1).val = (i 1).val := by
  unfold DotDims.rhsIdx
  rw [dif_neg (show ¬(1 : Fin S64x64.rank) ∈ dot_S50000x64_S64x64_S50000x64_1_0_0_1_n_n.rhsBatch by decide), dif_pos (show (1 : Fin S64x64.rank) ∈ dot_S50000x64_S64x64_S50000x64_1_0_0_1_n_n.rhsNonContracting by decide)]
  rfl
abbrev lidx_main_v4 (i : S50000x64.Idx) (k : Fin 64) : S50000x64.Idx := fun a => match a with
  | ⟨0, _⟩ => ⟨(i 0).val, (i 0).isLt⟩
  | ⟨1, _⟩ => ⟨k.val, k.isLt⟩
abbrev ridx_main_v4 (i : S50000x64.Idx) (k : Fin 64) : S64x64.Idx := fun a => match a with
  | ⟨0, _⟩ => ⟨k.val, k.isLt⟩
  | ⟨1, _⟩ => ⟨(i 1).val, (i 1).isLt⟩
def val_main_v5 : (⟨S1x64, .f32⟩ : BufTy).Contents (Elt F) :=
  broadcastInDim S1x64 ![1] bcast_S64_S1x64_1 (x3)
abbrev idx_main_v5 (i : S1x64.Idx) : S64.Idx := fun a => match a with
  | ⟨0, _⟩ => ⟨(i 1).val, (i 1).isLt⟩
theorem val_main_v5_apply (i : S1x64.Idx) :
    val_main_v5 (F := F) x3 i = x3 (idx_main_v5 i) := by
  unfold val_main_v5
  exact broadcastInDim_apply _ bcast_S64_S1x64_1 x3 i (idx_main_v5 i) (fun a => match a with
    | ⟨0, _⟩ => by show (i 1).val = if (64 : Nat) = 1 then 0 else (i 1).val; rw [if_neg (by decide)])

def val_main_v6 : (⟨S50000x64, .f32⟩ : BufTy).Contents (Elt F) :=
  broadcastInDim S50000x64 ![0, 1] bcast_S1x64_S50000x64_0_1 (val_main_v5 (F := F) x3)
abbrev idx_main_v6 (i : S50000x64.Idx) : S1x64.Idx := fun a => match a with
  | ⟨0, _⟩ => ⟨0, Nat.one_pos⟩
  | ⟨1, _⟩ => ⟨(i 1).val, (i 1).isLt⟩
theorem val_main_v6_apply (i : S50000x64.Idx) :
    val_main_v6 (F := F) x3 i = val_main_v5 (F := F) x3 (idx_main_v6 i) := by
  unfold val_main_v6
  generalize val_main_v5 (F := F) x3 = y
  exact broadcastInDim_apply _ bcast_S1x64_S50000x64_0_1 y i (idx_main_v6 i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])

def val_main_v7 : (⟨S50000x64, .f32⟩ : BufTy).Contents (Elt F) :=
  addf (val_main_v4 (F := F) x0 x2) (val_main_v6 (F := F) x3)
theorem val_main_v7_apply (i : S50000x64.Idx) :
    val_main_v7 (F := F) x0 x2 x3 i = FloatOps.addf (val_main_v4 (F := F) x0 x2 i) (val_main_v6 (F := F) x3 i) := rfl

def val_main_cst : (⟨S_, .f32⟩ : BufTy).Contents (Elt F) :=
  constant S_ .f32 0x3F800000#32

def val_main_v8 : (⟨S800000, .f32⟩ : BufTy).Contents (Elt F) :=
  broadcastInDim S800000 ![] bcast_S_S800000 (val_main_cst (F := F))

def val_main_cst_0 : (⟨S_, .f32⟩ : BufTy).Contents (Elt F) :=
  constant S_ .f32 0x00000000#32

def val_main_v9 : (⟨S50000, .f32⟩ : BufTy).Contents (Elt F) :=
  broadcastInDim S50000 ![] bcast_S_S50000 (val_main_cst_0 (F := F))

def val_main_v10 : (⟨S800000x1, .i32⟩ : BufTy).Contents (Elt F) :=
  broadcastInDim S800000x1 ![0] bcast_S800000_S800000x1_0 (val_main_v1 (F := F) x1)

def val_main_v11 : (⟨S50000, .f32⟩ : BufTy).Contents (Elt F) :=
  Host.scatterAdd scatter_S50000_S800000x1_S800000_n_0_0_1 (val_main_v9 (F := F)) (val_main_v10 (F := F) x1) (val_main_v8 (F := F))

def val_main_c : (⟨S_, .i32⟩ : BufTy).Contents (Elt F) :=
  constantI S_ 32 0#32

def val_main_v12 : (⟨S800000, .i32⟩ : BufTy).Contents (Elt F) :=
  broadcastInDim S800000 ![] bcast_S_S800000 (val_main_c (F := F))

def val_main_v13 : (⟨S800000, .i1⟩ : BufTy).Contents (Elt F) :=
  cmpi .slt (val_main_v1 (F := F) x1) (val_main_v12 (F := F))

def val_main_c_1 : (⟨S_, .i32⟩ : BufTy).Contents (Elt F) :=
  constantI S_ 32 50000#32

def val_main_v14 : (⟨S800000, .i32⟩ : BufTy).Contents (Elt F) :=
  broadcastInDim S800000 ![] bcast_S_S800000 (val_main_c_1 (F := F))

def val_main_v15 : (⟨S800000, .i32⟩ : BufTy).Contents (Elt F) :=
  addi (val_main_v1 (F := F) x1) (val_main_v14 (F := F))

def val_main_v16 : (⟨S800000, .i32⟩ : BufTy).Contents (Elt F) :=
  select (val_main_v13 (F := F) x1) (val_main_v15 (F := F) x1) (val_main_v1 (F := F) x1)

def val_main_v17 : (⟨S800000x1, .i32⟩ : BufTy).Contents (Elt F) :=
  broadcastInDim S800000x1 ![0] bcast_S800000_S800000x1_0 (val_main_v16 (F := F) x1)

def val_main_v18 : (⟨S800000, .f32⟩ : BufTy).Contents (Elt F) :=
  Host.gather gather_S50000_S800000x1_S800000_n_0_n_n_0_1_1 (val_main_v11 (F := F) x1) (val_main_v17 (F := F) x1)

def val_main_cst_2 : (⟨S_, .f32⟩ : BufTy).Contents (Elt F) :=
  constant S_ .f32 0x3F800000#32

def val_main_v19 : (⟨S800000, .f32⟩ : BufTy).Contents (Elt F) :=
  broadcastInDim S800000 ![] bcast_S_S800000 (val_main_cst_2 (F := F))

def val_main_v20 : (⟨S800000, .f32⟩ : BufTy).Contents (Elt F) :=
  Host.divf (val_main_v19 (F := F)) (val_main_v18 (F := F) x1)

def val_main_c_3 : (⟨S_, .i32⟩ : BufTy).Contents (Elt F) :=
  constantI S_ 32 0#32
theorem val_main_c_3_apply (i : S_.Idx) :
    val_main_c_3 (F := F) i = 0#32 := rfl

def val_main_v21 : (⟨S800000, .i32⟩ : BufTy).Contents (Elt F) :=
  broadcastInDim S800000 ![] bcast_S_S800000 (val_main_c_3 (F := F))
abbrev idx_main_v21 (i : S800000.Idx) : S_.Idx := fun a => a.elim0
theorem val_main_v21_apply (i : S800000.Idx) :
    val_main_v21 (F := F) i = val_main_c_3 (F := F) (idx_main_v21 i) := by
  unfold val_main_v21
  generalize val_main_c_3 (F := F) = y
  exact broadcastInDim_apply _ bcast_S_S800000 y i (idx_main_v21 i) (fun a => a.elim0)

def val_main_v22 : (⟨S800000, .i1⟩ : BufTy).Contents (Elt F) :=
  cmpi .slt (val_main_v3 (F := F) x1) (val_main_v21 (F := F))
theorem val_main_v22_apply (i : S800000.Idx) :
    val_main_v22 (F := F) x1 i = IntOp.cmpi .slt (val_main_v3 (F := F) x1 i) (val_main_v21 (F := F) i) := rfl

def val_main_c_4 : (⟨S_, .i32⟩ : BufTy).Contents (Elt F) :=
  constantI S_ 32 50000#32
theorem val_main_c_4_apply (i : S_.Idx) :
    val_main_c_4 (F := F) i = 50000#32 := rfl

def val_main_v23 : (⟨S800000, .i32⟩ : BufTy).Contents (Elt F) :=
  broadcastInDim S800000 ![] bcast_S_S800000 (val_main_c_4 (F := F))
abbrev idx_main_v23 (i : S800000.Idx) : S_.Idx := fun a => a.elim0
theorem val_main_v23_apply (i : S800000.Idx) :
    val_main_v23 (F := F) i = val_main_c_4 (F := F) (idx_main_v23 i) := by
  unfold val_main_v23
  generalize val_main_c_4 (F := F) = y
  exact broadcastInDim_apply _ bcast_S_S800000 y i (idx_main_v23 i) (fun a => a.elim0)

def val_main_v24 : (⟨S800000, .i32⟩ : BufTy).Contents (Elt F) :=
  addi (val_main_v3 (F := F) x1) (val_main_v23 (F := F))
theorem val_main_v24_apply (i : S800000.Idx) :
    val_main_v24 (F := F) x1 i = IntOp.addi (val_main_v3 (F := F) x1 i) (val_main_v23 (F := F) i) := rfl

def val_main_v25 : (⟨S800000, .i32⟩ : BufTy).Contents (Elt F) :=
  select (val_main_v22 (F := F) x1) (val_main_v24 (F := F) x1) (val_main_v3 (F := F) x1)
theorem val_main_v25_apply (i : S800000.Idx) :
    val_main_v25 (F := F) x1 i = Scalar.select (val_main_v22 (F := F) x1 i) (val_main_v24 (F := F) x1 i) (val_main_v3 (F := F) x1 i) := rfl

def val_main_v26 : (⟨S800000x1, .i32⟩ : BufTy).Contents (Elt F) :=
  broadcastInDim S800000x1 ![0] bcast_S800000_S800000x1_0 (val_main_v25 (F := F) x1)
abbrev idx_main_v26 (i : S800000x1.Idx) : S800000.Idx := fun a => match a with
  | ⟨0, _⟩ => ⟨(i 0).val, (i 0).isLt⟩
theorem val_main_v26_apply (i : S800000x1.Idx) :
    val_main_v26 (F := F) x1 i = val_main_v25 (F := F) x1 (idx_main_v26 i) := by
  unfold val_main_v26
  generalize val_main_v25 (F := F) x1 = y
  exact broadcastInDim_apply _ bcast_S800000_S800000x1_0 y i (idx_main_v26 i) (fun a => match a with
    | ⟨0, _⟩ => by show (i 0).val = if (800000 : Nat) = 1 then 0 else (i 0).val; rw [if_neg (by decide)])

def val_main_v27 : (⟨S800000x64, .f32⟩ : BufTy).Contents (Elt F) :=
  Host.gather gather_S50000x64_S800000x1_S800000x64_1_0_n_n_0_1_164 (val_main_v7 (F := F) x0 x2 x3) (val_main_v26 (F := F) x1)

def val_main_v28 : (⟨S800000x1, .f32⟩ : BufTy).Contents (Elt F) :=
  broadcastInDim S800000x1 ![0] bcast_S800000_S800000x1_0 (val_main_v20 (F := F) x1)
abbrev idx_main_v28 (i : S800000x1.Idx) : S800000.Idx := fun a => match a with
  | ⟨0, _⟩ => ⟨(i 0).val, (i 0).isLt⟩
theorem val_main_v28_apply (i : S800000x1.Idx) :
    val_main_v28 (F := F) x1 i = val_main_v20 (F := F) x1 (idx_main_v28 i) := by
  unfold val_main_v28
  generalize val_main_v20 (F := F) x1 = y
  exact broadcastInDim_apply _ bcast_S800000_S800000x1_0 y i (idx_main_v28 i) (fun a => match a with
    | ⟨0, _⟩ => by show (i 0).val = if (800000 : Nat) = 1 then 0 else (i 0).val; rw [if_neg (by decide)])

def val_main_v29 : (⟨S800000x64, .f32⟩ : BufTy).Contents (Elt F) :=
  broadcastInDim S800000x64 ![0, 1] bcast_S800000x1_S800000x64_0_1 (val_main_v28 (F := F) x1)
abbrev idx_main_v29 (i : S800000x64.Idx) : S800000x1.Idx := fun a => match a with
  | ⟨0, _⟩ => ⟨(i 0).val, (i 0).isLt⟩
  | ⟨1, _⟩ => ⟨0, Nat.one_pos⟩
theorem val_main_v29_apply (i : S800000x64.Idx) :
    val_main_v29 (F := F) x1 i = val_main_v28 (F := F) x1 (idx_main_v29 i) := by
  unfold val_main_v29
  generalize val_main_v28 (F := F) x1 = y
  exact broadcastInDim_apply _ bcast_S800000x1_S800000x64_0_1 y i (idx_main_v29 i) (fun a => match a with
    | ⟨0, _⟩ => by show (i 0).val = if (800000 : Nat) = 1 then 0 else (i 0).val; rw [if_neg (by decide)]
    | ⟨1, _⟩ => by show 0 = if (1 : Nat) = 1 then 0 else (i 1).val; rw [if_pos rfl])

def val_main_v30 : (⟨S800000x64, .f32⟩ : BufTy).Contents (Elt F) :=
  mulf (val_main_v27 (F := F) x0 x1 x2 x3) (val_main_v29 (F := F) x1)

def val_main_cst_5 : (⟨S_, .f32⟩ : BufTy).Contents (Elt F) :=
  constant S_ .f32 0x00000000#32
theorem val_main_cst_5_apply (i : S_.Idx) :
    val_main_cst_5 (F := F) i = FloatOps.ofBits .f32 0x00000000#32 := rfl

def val_main_v31 : (⟨S50000x64, .f32⟩ : BufTy).Contents (Elt F) :=
  broadcastInDim S50000x64 ![] bcast_S_S50000x64 (val_main_cst_5 (F := F))
abbrev idx_main_v31 (i : S50000x64.Idx) : S_.Idx := fun a => a.elim0
theorem val_main_v31_apply (i : S50000x64.Idx) :
    val_main_v31 (F := F) i = val_main_cst_5 (F := F) (idx_main_v31 i) := by
  unfold val_main_v31
  generalize val_main_cst_5 (F := F) = y
  exact broadcastInDim_apply _ bcast_S_S50000x64 y i (idx_main_v31 i) (fun a => a.elim0)

def val_main_v32 : (⟨S800000x1, .i32⟩ : BufTy).Contents (Elt F) :=
  broadcastInDim S800000x1 ![0] bcast_S800000_S800000x1_0 (val_main_v1 (F := F) x1)
abbrev idx_main_v32 (i : S800000x1.Idx) : S800000.Idx := fun a => match a with
  | ⟨0, _⟩ => ⟨(i 0).val, (i 0).isLt⟩
theorem val_main_v32_apply (i : S800000x1.Idx) :
    val_main_v32 (F := F) x1 i = val_main_v1 (F := F) x1 (idx_main_v32 i) := by
  unfold val_main_v32
  generalize val_main_v1 (F := F) x1 = y
  exact broadcastInDim_apply _ bcast_S800000_S800000x1_0 y i (idx_main_v32 i) (fun a => match a with
    | ⟨0, _⟩ => by show (i 0).val = if (800000 : Nat) = 1 then 0 else (i 0).val; rw [if_neg (by decide)])

def val_main_v33 : (⟨S50000x64, .f32⟩ : BufTy).Contents (Elt F) :=
  Host.scatterAdd scatter_S50000x64_S800000x1_S800000x64_1_0_0_1 (val_main_v31 (F := F)) (val_main_v32 (F := F) x1) (val_main_v30 (F := F) x0 x1 x2 x3)

def val_main_call0_cst : (⟨S_, .f32⟩ : BufTy).Contents (Elt F) :=
  constant S_ .f32 0x00000000#32
def val_main_call0_v0 : (⟨S50000x64, .f32⟩ : BufTy).Contents (Elt F) :=
  broadcastInDim S50000x64 ![] bcast_S_S50000x64 (val_main_call0_cst (F := F))
def val_main_v34 : (⟨S50000x64, .f32⟩ : BufTy).Contents (Elt F) :=
  maximumf (val_main_v33 (F := F) x0 x1 x2 x3) (val_main_call0_v0 (F := F))

def val_main_v35 : (⟨S50000x64, .f32⟩ : BufTy).Contents (Elt F) :=
  Host.dotGeneral dot_S50000x64_S64x64_S50000x64_1_0_0_1_n_n none (val_main_v34 (F := F) x0 x1 x2 x3) (x4)
def val_main_v36 : (⟨S1x64, .f32⟩ : BufTy).Contents (Elt F) :=
  broadcastInDim S1x64 ![1] bcast_S64_S1x64_1 (x5)
def val_main_v37 : (⟨S50000x64, .f32⟩ : BufTy).Contents (Elt F) :=
  broadcastInDim S50000x64 ![0, 1] bcast_S1x64_S50000x64_0_1 (val_main_v36 (F := F) x5)
def val_main_v38 : (⟨S50000x64, .f32⟩ : BufTy).Contents (Elt F) :=
  addf (val_main_v35 (F := F) x0 x1 x2 x3 x4) (val_main_v37 (F := F) x5)
def val_main_cst_6 : (⟨S_, .f32⟩ : BufTy).Contents (Elt F) :=
  constant S_ .f32 0x3F800000#32

def val_main_v39 : (⟨S800000, .f32⟩ : BufTy).Contents (Elt F) :=
  broadcastInDim S800000 ![] bcast_S_S800000 (val_main_cst_6 (F := F))

def val_main_cst_7 : (⟨S_, .f32⟩ : BufTy).Contents (Elt F) :=
  constant S_ .f32 0x00000000#32

def val_main_v40 : (⟨S50000, .f32⟩ : BufTy).Contents (Elt F) :=
  broadcastInDim S50000 ![] bcast_S_S50000 (val_main_cst_7 (F := F))

def val_main_v41 : (⟨S800000x1, .i32⟩ : BufTy).Contents (Elt F) :=
  broadcastInDim S800000x1 ![0] bcast_S800000_S800000x1_0 (val_main_v1 (F := F) x1)

def val_main_v42 : (⟨S50000, .f32⟩ : BufTy).Contents (Elt F) :=
  Host.scatterAdd scatter_S50000_S800000x1_S800000_n_0_0_1 (val_main_v40 (F := F)) (val_main_v41 (F := F) x1) (val_main_v39 (F := F))

def val_main_c_8 : (⟨S_, .i32⟩ : BufTy).Contents (Elt F) :=
  constantI S_ 32 0#32

def val_main_v43 : (⟨S800000, .i32⟩ : BufTy).Contents (Elt F) :=
  broadcastInDim S800000 ![] bcast_S_S800000 (val_main_c_8 (F := F))

def val_main_v44 : (⟨S800000, .i1⟩ : BufTy).Contents (Elt F) :=
  cmpi .slt (val_main_v1 (F := F) x1) (val_main_v43 (F := F))

def val_main_c_9 : (⟨S_, .i32⟩ : BufTy).Contents (Elt F) :=
  constantI S_ 32 50000#32

def val_main_v45 : (⟨S800000, .i32⟩ : BufTy).Contents (Elt F) :=
  broadcastInDim S800000 ![] bcast_S_S800000 (val_main_c_9 (F := F))

def val_main_v46 : (⟨S800000, .i32⟩ : BufTy).Contents (Elt F) :=
  addi (val_main_v1 (F := F) x1) (val_main_v45 (F := F))

def val_main_v47 : (⟨S800000, .i32⟩ : BufTy).Contents (Elt F) :=
  select (val_main_v44 (F := F) x1) (val_main_v46 (F := F) x1) (val_main_v1 (F := F) x1)

def val_main_v48 : (⟨S800000x1, .i32⟩ : BufTy).Contents (Elt F) :=
  broadcastInDim S800000x1 ![0] bcast_S800000_S800000x1_0 (val_main_v47 (F := F) x1)

def val_main_v49 : (⟨S800000, .f32⟩ : BufTy).Contents (Elt F) :=
  Host.gather gather_S50000_S800000x1_S800000_n_0_n_n_0_1_1 (val_main_v42 (F := F) x1) (val_main_v48 (F := F) x1)

def val_main_cst_10 : (⟨S_, .f32⟩ : BufTy).Contents (Elt F) :=
  constant S_ .f32 0x3F800000#32

def val_main_v50 : (⟨S800000, .f32⟩ : BufTy).Contents (Elt F) :=
  broadcastInDim S800000 ![] bcast_S_S800000 (val_main_cst_10 (F := F))

def val_main_v51 : (⟨S800000, .f32⟩ : BufTy).Contents (Elt F) :=
  Host.divf (val_main_v50 (F := F)) (val_main_v49 (F := F) x1)

def val_main_c_11 : (⟨S_, .i32⟩ : BufTy).Contents (Elt F) :=
  constantI S_ 32 0#32
def val_main_v52 : (⟨S800000, .i32⟩ : BufTy).Contents (Elt F) :=
  broadcastInDim S800000 ![] bcast_S_S800000 (val_main_c_11 (F := F))
def val_main_v53 : (⟨S800000, .i1⟩ : BufTy).Contents (Elt F) :=
  cmpi .slt (val_main_v3 (F := F) x1) (val_main_v52 (F := F))
def val_main_c_12 : (⟨S_, .i32⟩ : BufTy).Contents (Elt F) :=
  constantI S_ 32 50000#32
def val_main_v54 : (⟨S800000, .i32⟩ : BufTy).Contents (Elt F) :=
  broadcastInDim S800000 ![] bcast_S_S800000 (val_main_c_12 (F := F))
def val_main_v55 : (⟨S800000, .i32⟩ : BufTy).Contents (Elt F) :=
  addi (val_main_v3 (F := F) x1) (val_main_v54 (F := F))
def val_main_v56 : (⟨S800000, .i32⟩ : BufTy).Contents (Elt F) :=
  select (val_main_v53 (F := F) x1) (val_main_v55 (F := F) x1) (val_main_v3 (F := F) x1)
def val_main_v57 : (⟨S800000x1, .i32⟩ : BufTy).Contents (Elt F) :=
  broadcastInDim S800000x1 ![0] bcast_S800000_S800000x1_0 (val_main_v56 (F := F) x1)
def val_main_v58 : (⟨S800000x64, .f32⟩ : BufTy).Contents (Elt F) :=
  Host.gather gather_S50000x64_S800000x1_S800000x64_1_0_n_n_0_1_164 (val_main_v38 (F := F) x0 x1 x2 x3 x4 x5) (val_main_v57 (F := F) x1)

def val_main_v59 : (⟨S800000x1, .f32⟩ : BufTy).Contents (Elt F) :=
  broadcastInDim S800000x1 ![0] bcast_S800000_S800000x1_0 (val_main_v51 (F := F) x1)
def val_main_v60 : (⟨S800000x64, .f32⟩ : BufTy).Contents (Elt F) :=
  broadcastInDim S800000x64 ![0, 1] bcast_S800000x1_S800000x64_0_1 (val_main_v59 (F := F) x1)
def val_main_v61 : (⟨S800000x64, .f32⟩ : BufTy).Contents (Elt F) :=
  mulf (val_main_v58 (F := F) x0 x1 x2 x3 x4 x5) (val_main_v60 (F := F) x1)

def val_main_cst_13 : (⟨S_, .f32⟩ : BufTy).Contents (Elt F) :=
  constant S_ .f32 0x00000000#32
def val_main_v62 : (⟨S50000x64, .f32⟩ : BufTy).Contents (Elt F) :=
  broadcastInDim S50000x64 ![] bcast_S_S50000x64 (val_main_cst_13 (F := F))
def val_main_v63 : (⟨S800000x1, .i32⟩ : BufTy).Contents (Elt F) :=
  broadcastInDim S800000x1 ![0] bcast_S800000_S800000x1_0 (val_main_v1 (F := F) x1)
def val_main_v64 : (⟨S50000x64, .f32⟩ : BufTy).Contents (Elt F) :=
  Host.scatterAdd scatter_S50000x64_S800000x1_S800000x64_1_0_0_1 (val_main_v62 (F := F)) (val_main_v63 (F := F) x1) (val_main_v61 (F := F) x0 x1 x2 x3 x4 x5)

def val_main_call1_cst : (⟨S_, .f32⟩ : BufTy).Contents (Elt F) :=
  constant S_ .f32 0x00000000#32
def val_main_call1_v0 : (⟨S50000x64, .f32⟩ : BufTy).Contents (Elt F) :=
  broadcastInDim S50000x64 ![] bcast_S_S50000x64 (val_main_call1_cst (F := F))
def val_main_v65 : (⟨S50000x64, .f32⟩ : BufTy).Contents (Elt F) :=
  maximumf (val_main_v64 (F := F) x0 x1 x2 x3 x4 x5) (val_main_call1_v0 (F := F))

def val_main_v66 : (⟨S50000x64, .f32⟩ : BufTy).Contents (Elt F) :=
  Host.dotGeneral dot_S50000x64_S64x64_S50000x64_1_0_0_1_n_n none (val_main_v65 (F := F) x0 x1 x2 x3 x4 x5) (x6)
def val_main_v67 : (⟨S1x64, .f32⟩ : BufTy).Contents (Elt F) :=
  broadcastInDim S1x64 ![1] bcast_S64_S1x64_1 (x7)
def val_main_v68 : (⟨S50000x64, .f32⟩ : BufTy).Contents (Elt F) :=
  broadcastInDim S50000x64 ![0, 1] bcast_S1x64_S50000x64_0_1 (val_main_v67 (F := F) x7)
def val_main_v69 : (⟨S50000x64, .f32⟩ : BufTy).Contents (Elt F) :=
  addf (val_main_v66 (F := F) x0 x1 x2 x3 x4 x5 x6) (val_main_v68 (F := F) x7)
def val_main_v70 : (⟨S50000x40, .f32⟩ : BufTy).Contents (Elt F) :=
  Host.dotGeneral dot_S50000x64_S64x40_S50000x40_1_0_0_1_n_n none (val_main_v69 (F := F) x0 x1 x2 x3 x4 x5 x6 x7) (x8)
theorem lhs_main_v70_0 (i : S50000x40.Idx) (q : dot_S50000x64_S64x40_S50000x40_1_0_0_1_n_n.contr.Idx) :
    (dot_S50000x64_S64x40_S50000x40_1_0_0_1_n_n.lhsIdx i q 0).val = (i 0).val := by
  unfold DotDims.lhsIdx
  rw [dif_neg (show ¬(0 : Fin S50000x64.rank) ∈ dot_S50000x64_S64x40_S50000x40_1_0_0_1_n_n.lhsBatch by decide), dif_pos (show (0 : Fin S50000x64.rank) ∈ dot_S50000x64_S64x40_S50000x40_1_0_0_1_n_n.lhsNonContracting by decide)]
  rfl
theorem lhs_main_v70_1 (i : S50000x40.Idx) (q : dot_S50000x64_S64x40_S50000x40_1_0_0_1_n_n.contr.Idx) :
    (dot_S50000x64_S64x40_S50000x40_1_0_0_1_n_n.lhsIdx i q 1).val = (q ⟨0, by decide⟩).val :=
  dot_S50000x64_S64x40_S50000x40_1_0_0_1_n_n.lhsIdx_val_of_single rfl i q
theorem rhs_main_v70_0 (i : S50000x40.Idx) (q : dot_S50000x64_S64x40_S50000x40_1_0_0_1_n_n.contr.Idx) :
    (dot_S50000x64_S64x40_S50000x40_1_0_0_1_n_n.rhsIdx i q 0).val = (q ⟨0, by decide⟩).val :=
  dot_S50000x64_S64x40_S50000x40_1_0_0_1_n_n.rhsIdx_val_of_single rfl i q
theorem rhs_main_v70_1 (i : S50000x40.Idx) (q : dot_S50000x64_S64x40_S50000x40_1_0_0_1_n_n.contr.Idx) :
    (dot_S50000x64_S64x40_S50000x40_1_0_0_1_n_n.rhsIdx i q 1).val = (i 1).val := by
  unfold DotDims.rhsIdx
  rw [dif_neg (show ¬(1 : Fin S64x40.rank) ∈ dot_S50000x64_S64x40_S50000x40_1_0_0_1_n_n.rhsBatch by decide), dif_pos (show (1 : Fin S64x40.rank) ∈ dot_S50000x64_S64x40_S50000x40_1_0_0_1_n_n.rhsNonContracting by decide)]
  rfl
abbrev lidx_main_v70 (i : S50000x40.Idx) (k : Fin 64) : S50000x64.Idx := fun a => match a with
  | ⟨0, _⟩ => ⟨(i 0).val, (i 0).isLt⟩
  | ⟨1, _⟩ => ⟨k.val, k.isLt⟩
abbrev ridx_main_v70 (i : S50000x40.Idx) (k : Fin 64) : S64x40.Idx := fun a => match a with
  | ⟨0, _⟩ => ⟨k.val, k.isLt⟩
  | ⟨1, _⟩ => ⟨(i 1).val, (i 1).isLt⟩
def val_main_v71 : (⟨S1x40, .f32⟩ : BufTy).Contents (Elt F) :=
  broadcastInDim S1x40 ![1] bcast_S40_S1x40_1 (x9)
abbrev idx_main_v71 (i : S1x40.Idx) : S40.Idx := fun a => match a with
  | ⟨0, _⟩ => ⟨(i 1).val, (i 1).isLt⟩
theorem val_main_v71_apply (i : S1x40.Idx) :
    val_main_v71 (F := F) x9 i = x9 (idx_main_v71 i) := by
  unfold val_main_v71
  exact broadcastInDim_apply _ bcast_S40_S1x40_1 x9 i (idx_main_v71 i) (fun a => match a with
    | ⟨0, _⟩ => by show (i 1).val = if (40 : Nat) = 1 then 0 else (i 1).val; rw [if_neg (by decide)])

def val_main_v72 : (⟨S50000x40, .f32⟩ : BufTy).Contents (Elt F) :=
  broadcastInDim S50000x40 ![0, 1] bcast_S1x40_S50000x40_0_1 (val_main_v71 (F := F) x9)
abbrev idx_main_v72 (i : S50000x40.Idx) : S1x40.Idx := fun a => match a with
  | ⟨0, _⟩ => ⟨0, Nat.one_pos⟩
  | ⟨1, _⟩ => ⟨(i 1).val, (i 1).isLt⟩
theorem val_main_v72_apply (i : S50000x40.Idx) :
    val_main_v72 (F := F) x9 i = val_main_v71 (F := F) x9 (idx_main_v72 i) := by
  unfold val_main_v72
  generalize val_main_v71 (F := F) x9 = y
  exact broadcastInDim_apply _ bcast_S1x40_S50000x40_0_1 y i (idx_main_v72 i) (fun a => match a with
    | ⟨0, _⟩ => by show 0 = if (1 : Nat) = 1 then 0 else (i 0).val; rw [if_pos rfl]
    | ⟨1, _⟩ => by show (i 1).val = if (40 : Nat) = 1 then 0 else (i 1).val; rw [if_neg (by decide)])

def val_main_v73 : (⟨S50000x40, .f32⟩ : BufTy).Contents (Elt F) :=
  addf (val_main_v70 (F := F) x0 x1 x2 x3 x4 x5 x6 x7 x8) (val_main_v72 (F := F) x9)
theorem val_main_v73_apply (i : S50000x40.Idx) :
    val_main_v73 (F := F) x0 x1 x2 x3 x4 x5 x6 x7 x8 x9 i = FloatOps.addf (val_main_v70 (F := F) x0 x1 x2 x3 x4 x5 x6 x7 x8 i) (val_main_v72 (F := F) x9 i) := rfl

def val_main_call2_cst : (⟨S_, .f32⟩ : BufTy).Contents (Elt F) :=
  constant S_ .f32 0xFF800000#32
theorem val_main_call2_cst_apply (i : S_.Idx) :
    val_main_call2_cst (F := F) i = FloatOps.ofBits .f32 0xFF800000#32 := rfl

def val_main_call2_v0 : (⟨S50000, .f32⟩ : BufTy).Contents (Elt F) :=
  Host.reduce FloatOps.maximumf (val_main_v73 (F := F) x0 x1 x2 x3 x4 x5 x6 x7 x8 x9) (val_main_call2_cst (F := F)) reducesTo_S50000x40_S50000_d1 h_S_

def val_main_call2_cst_0 : (⟨S_, .f32⟩ : BufTy).Contents (Elt F) :=
  constant S_ .f32 0xFF800000#32
theorem val_main_call2_cst_0_apply (i : S_.Idx) :
    val_main_call2_cst_0 (F := F) i = FloatOps.ofBits .f32 0xFF800000#32 := rfl

def val_main_call2_v1 : (⟨S50000, .f32⟩ : BufTy).Contents (Elt F) :=
  broadcastInDim S50000 ![] bcast_S_S50000 (val_main_call2_cst_0 (F := F))
abbrev idx_main_call2_v1 (i : S50000.Idx) : S_.Idx := fun a => a.elim0
theorem val_main_call2_v1_apply (i : S50000.Idx) :
    val_main_call2_v1 (F := F) i = val_main_call2_cst_0 (F := F) (idx_main_call2_v1 i) := by
  unfold val_main_call2_v1
  generalize val_main_call2_cst_0 (F := F) = y
  exact broadcastInDim_apply _ bcast_S_S50000 y i (idx_main_call2_v1 i) (fun a => a.elim0)

def val_main_call2_v2 : (⟨S50000, .f32⟩ : BufTy).Contents (Elt F) :=
  maximumf (val_main_call2_v1 (F := F)) (val_main_call2_v0 (F := F) x0 x1 x2 x3 x4 x5 x6 x7 x8 x9)
theorem val_main_call2_v2_apply (i : S50000.Idx) :
    val_main_call2_v2 (F := F) x0 x1 x2 x3 x4 x5 x6 x7 x8 x9 i = FloatOps.maximumf (val_main_call2_v1 (F := F) i) (val_main_call2_v0 (F := F) x0 x1 x2 x3 x4 x5 x6 x7 x8 x9 i) := rfl

def val_main_call2_v3 : (⟨S50000x1, .f32⟩ : BufTy).Contents (Elt F) :=
  broadcastInDim S50000x1 ![0] bcast_S50000_S50000x1_0 (val_main_call2_v2 (F := F) x0 x1 x2 x3 x4 x5 x6 x7 x8 x9)
abbrev idx_main_call2_v3 (i : S50000x1.Idx) : S50000.Idx := fun a => match a with
  | ⟨0, _⟩ => ⟨(i 0).val, (i 0).isLt⟩
theorem val_main_call2_v3_apply (i : S50000x1.Idx) :
    val_main_call2_v3 (F := F) x0 x1 x2 x3 x4 x5 x6 x7 x8 x9 i = val_main_call2_v2 (F := F) x0 x1 x2 x3 x4 x5 x6 x7 x8 x9 (idx_main_call2_v3 i) := by
  unfold val_main_call2_v3
  generalize val_main_call2_v2 (F := F) x0 x1 x2 x3 x4 x5 x6 x7 x8 x9 = y
  exact broadcastInDim_apply _ bcast_S50000_S50000x1_0 y i (idx_main_call2_v3 i) (fun a => match a with
    | ⟨0, _⟩ => by show (i 0).val = if (50000 : Nat) = 1 then 0 else (i 0).val; rw [if_neg (by decide)])

def val_main_call2_v4 : (⟨S50000x40, .f32⟩ : BufTy).Contents (Elt F) :=
  broadcastInDim S50000x40 ![0, 1] bcast_S50000x1_S50000x40_0_1 (val_main_call2_v3 (F := F) x0 x1 x2 x3 x4 x5 x6 x7 x8 x9)
abbrev idx_main_call2_v4 (i : S50000x40.Idx) : S50000x1.Idx := fun a => match a with
  | ⟨0, _⟩ => ⟨(i 0).val, (i 0).isLt⟩
  | ⟨1, _⟩ => ⟨0, Nat.one_pos⟩
theorem val_main_call2_v4_apply (i : S50000x40.Idx) :
    val_main_call2_v4 (F := F) x0 x1 x2 x3 x4 x5 x6 x7 x8 x9 i = val_main_call2_v3 (F := F) x0 x1 x2 x3 x4 x5 x6 x7 x8 x9 (idx_main_call2_v4 i) := by
  unfold val_main_call2_v4
  generalize val_main_call2_v3 (F := F) x0 x1 x2 x3 x4 x5 x6 x7 x8 x9 = y
  exact broadcastInDim_apply _ bcast_S50000x1_S50000x40_0_1 y i (idx_main_call2_v4 i) (fun a => match a with
    | ⟨0, _⟩ => by show (i 0).val = if (50000 : Nat) = 1 then 0 else (i 0).val; rw [if_neg (by decide)]
    | ⟨1, _⟩ => by show 0 = if (1 : Nat) = 1 then 0 else (i 1).val; rw [if_pos rfl])

def val_main_call2_v5 : (⟨S50000x40, .f32⟩ : BufTy).Contents (Elt F) :=
  subf (val_main_v73 (F := F) x0 x1 x2 x3 x4 x5 x6 x7 x8 x9) (val_main_call2_v4 (F := F) x0 x1 x2 x3 x4 x5 x6 x7 x8 x9)
theorem val_main_call2_v5_apply (i : S50000x40.Idx) :
    val_main_call2_v5 (F := F) x0 x1 x2 x3 x4 x5 x6 x7 x8 x9 i = FloatOps.subf (val_main_v73 (F := F) x0 x1 x2 x3 x4 x5 x6 x7 x8 x9 i) (val_main_call2_v4 (F := F) x0 x1 x2 x3 x4 x5 x6 x7 x8 x9 i) := rfl

def val_main_call2_v6 : (⟨S50000x40, .f32⟩ : BufTy).Contents (Elt F) :=
  Host.exp (val_main_call2_v5 (F := F) x0 x1 x2 x3 x4 x5 x6 x7 x8 x9)
theorem val_main_call2_v6_apply (i : S50000x40.Idx) :
    val_main_call2_v6 (F := F) x0 x1 x2 x3 x4 x5 x6 x7 x8 x9 i = FloatOps.hostUnary .exp (val_main_call2_v5 (F := F) x0 x1 x2 x3 x4 x5 x6 x7 x8 x9 i) := rfl

def val_main_call2_cst_1 : (⟨S_, .f32⟩ : BufTy).Contents (Elt F) :=
  constant S_ .f32 0x00000000#32
theorem val_main_call2_cst_1_apply (i : S_.Idx) :
    val_main_call2_cst_1 (F := F) i = FloatOps.ofBits .f32 0x00000000#32 := rfl

def val_main_call2_v7 : (⟨S50000, .f32⟩ : BufTy).Contents (Elt F) :=
  Host.reduceAdd (val_main_call2_v6 (F := F) x0 x1 x2 x3 x4 x5 x6 x7 x8 x9) (val_main_call2_cst_1 (F := F)) reducesTo_S50000x40_S50000_d1 h_S_
abbrev idx_main_call2_v7 (i : S50000.Idx) (k : Fin 40) : S50000x40.Idx := fun a => match a with
  | ⟨0, _⟩ => ⟨(i 0).val, (i 0).isLt⟩
  | ⟨1, _⟩ => ⟨k.val, k.isLt⟩
def val_main_call2_v8 : (⟨S50000x1, .f32⟩ : BufTy).Contents (Elt F) :=
  broadcastInDim S50000x1 ![0] bcast_S50000_S50000x1_0 (val_main_call2_v7 (F := F) x0 x1 x2 x3 x4 x5 x6 x7 x8 x9)
abbrev idx_main_call2_v8 (i : S50000x1.Idx) : S50000.Idx := fun a => match a with
  | ⟨0, _⟩ => ⟨(i 0).val, (i 0).isLt⟩
theorem val_main_call2_v8_apply (i : S50000x1.Idx) :
    val_main_call2_v8 (F := F) x0 x1 x2 x3 x4 x5 x6 x7 x8 x9 i = val_main_call2_v7 (F := F) x0 x1 x2 x3 x4 x5 x6 x7 x8 x9 (idx_main_call2_v8 i) := by
  unfold val_main_call2_v8
  generalize val_main_call2_v7 (F := F) x0 x1 x2 x3 x4 x5 x6 x7 x8 x9 = y
  exact broadcastInDim_apply _ bcast_S50000_S50000x1_0 y i (idx_main_call2_v8 i) (fun a => match a with
    | ⟨0, _⟩ => by show (i 0).val = if (50000 : Nat) = 1 then 0 else (i 0).val; rw [if_neg (by decide)])

def val_main_call2_v9 : (⟨S50000x1, .f32⟩ : BufTy).Contents (Elt F) :=
  Host.log (val_main_call2_v8 (F := F) x0 x1 x2 x3 x4 x5 x6 x7 x8 x9)
theorem val_main_call2_v9_apply (i : S50000x1.Idx) :
    val_main_call2_v9 (F := F) x0 x1 x2 x3 x4 x5 x6 x7 x8 x9 i = FloatOps.hostUnary .log (val_main_call2_v8 (F := F) x0 x1 x2 x3 x4 x5 x6 x7 x8 x9 i) := rfl

def val_main_call2_v10 : (⟨S50000x40, .f32⟩ : BufTy).Contents (Elt F) :=
  broadcastInDim S50000x40 ![0, 1] bcast_S50000x1_S50000x40_0_1 (val_main_call2_v9 (F := F) x0 x1 x2 x3 x4 x5 x6 x7 x8 x9)
abbrev idx_main_call2_v10 (i : S50000x40.Idx) : S50000x1.Idx := fun a => match a with
  | ⟨0, _⟩ => ⟨(i 0).val, (i 0).isLt⟩
  | ⟨1, _⟩ => ⟨0, Nat.one_pos⟩
theorem val_main_call2_v10_apply (i : S50000x40.Idx) :
    val_main_call2_v10 (F := F) x0 x1 x2 x3 x4 x5 x6 x7 x8 x9 i = val_main_call2_v9 (F := F) x0 x1 x2 x3 x4 x5 x6 x7 x8 x9 (idx_main_call2_v10 i) := by
  unfold val_main_call2_v10
  generalize val_main_call2_v9 (F := F) x0 x1 x2 x3 x4 x5 x6 x7 x8 x9 = y
  exact broadcastInDim_apply _ bcast_S50000x1_S50000x40_0_1 y i (idx_main_call2_v10 i) (fun a => match a with
    | ⟨0, _⟩ => by show (i 0).val = if (50000 : Nat) = 1 then 0 else (i 0).val; rw [if_neg (by decide)]
    | ⟨1, _⟩ => by show 0 = if (1 : Nat) = 1 then 0 else (i 1).val; rw [if_pos rfl])

def val_main_v74 : (⟨S50000x40, .f32⟩ : BufTy).Contents (Elt F) :=
  subf (val_main_call2_v5 (F := F) x0 x1 x2 x3 x4 x5 x6 x7 x8 x9) (val_main_call2_v10 (F := F) x0 x1 x2 x3 x4 x5 x6 x7 x8 x9)
theorem val_main_v74_apply (i : S50000x40.Idx) :
    val_main_v74 (F := F) x0 x1 x2 x3 x4 x5 x6 x7 x8 x9 i = FloatOps.subf (val_main_call2_v5 (F := F) x0 x1 x2 x3 x4 x5 x6 x7 x8 x9 i) (val_main_call2_v10 (F := F) x0 x1 x2 x3 x4 x5 x6 x7 x8 x9 i) := rfl

end

section

variable (x0 : (⟨S50000x64, .f32⟩ : BufTy).Contents (Elt Ideal)) (x1 : (⟨S2x800000, .i32⟩ : BufTy).Contents (Elt Ideal))
  (x2 : (⟨S64x64, .f32⟩ : BufTy).Contents (Elt Ideal)) (x3 : (⟨S64, .f32⟩ : BufTy).Contents (Elt Ideal))
  (x4 : (⟨S64x64, .f32⟩ : BufTy).Contents (Elt Ideal)) (x5 : (⟨S64, .f32⟩ : BufTy).Contents (Elt Ideal))
  (x6 : (⟨S64x64, .f32⟩ : BufTy).Contents (Elt Ideal)) (x7 : (⟨S64, .f32⟩ : BufTy).Contents (Elt Ideal))
  (x8 : (⟨S64x40, .f32⟩ : BufTy).Contents (Elt Ideal)) (x9 : (⟨S40, .f32⟩ : BufTy).Contents (Elt Ideal))

theorem val_main_v4_apply (i : S50000x64.Idx) :
    val_main_v4 (F := Ideal) x0 x2 i = ∑ k : Fin 64, x0 (lidx_main_v4 i k) * x2 (ridx_main_v4 i k) := by
  unfold val_main_v4
  simp only [Host.dotGeneral]
  rw [Ideal.dotGeneral_apply, ← Equiv.sum_comp (ValueIdx.contrEquiv1 dot_S50000x64_S64x64_S50000x64_1_0_0_1_n_n 64 rfl rfl).symm]
  refine Finset.sum_congr rfl fun k _ => ?_
  have hk := ValueIdx.contrEquiv1_symm_val dot_S50000x64_S64x64_S50000x64_1_0_0_1_n_n 64 rfl rfl k
  have el : dot_S50000x64_S64x64_S50000x64_1_0_0_1_n_n.lhsIdx i ((ValueIdx.contrEquiv1 dot_S50000x64_S64x64_S50000x64_1_0_0_1_n_n 64 rfl rfl).symm k) = lidx_main_v4 i k := funext fun a => Fin.ext (by
    match a with
    | ⟨0, _⟩ => exact lhs_main_v4_0 _ _
    | ⟨1, _⟩ => exact (lhs_main_v4_1 _ _).trans hk)
  have er : dot_S50000x64_S64x64_S50000x64_1_0_0_1_n_n.rhsIdx i ((ValueIdx.contrEquiv1 dot_S50000x64_S64x64_S50000x64_1_0_0_1_n_n 64 rfl rfl).symm k) = ridx_main_v4 i k := funext fun a => Fin.ext (by
    match a with
    | ⟨0, _⟩ => exact (rhs_main_v4_0 _ _).trans hk
    | ⟨1, _⟩ => exact rhs_main_v4_1 _ _)
  rw [el, er]

theorem val_main_v70_apply (i : S50000x40.Idx) :
    val_main_v70 (F := Ideal) x0 x1 x2 x3 x4 x5 x6 x7 x8 i = ∑ k : Fin 64, (val_main_v69 (F := Ideal) x0 x1 x2 x3 x4 x5 x6 x7) (lidx_main_v70 i k) * x8 (ridx_main_v70 i k) := by
  unfold val_main_v70
  generalize val_main_v69 (F := Ideal) x0 x1 x2 x3 x4 x5 x6 x7 = y0
  simp only [Host.dotGeneral]
  rw [Ideal.dotGeneral_apply, ← Equiv.sum_comp (ValueIdx.contrEquiv1 dot_S50000x64_S64x40_S50000x40_1_0_0_1_n_n 64 rfl rfl).symm]
  refine Finset.sum_congr rfl fun k _ => ?_
  have hk := ValueIdx.contrEquiv1_symm_val dot_S50000x64_S64x40_S50000x40_1_0_0_1_n_n 64 rfl rfl k
  have el : dot_S50000x64_S64x40_S50000x40_1_0_0_1_n_n.lhsIdx i ((ValueIdx.contrEquiv1 dot_S50000x64_S64x40_S50000x40_1_0_0_1_n_n 64 rfl rfl).symm k) = lidx_main_v70 i k := funext fun a => Fin.ext (by
    match a with
    | ⟨0, _⟩ => exact lhs_main_v70_0 _ _
    | ⟨1, _⟩ => exact (lhs_main_v70_1 _ _).trans hk)
  have er : dot_S50000x64_S64x40_S50000x40_1_0_0_1_n_n.rhsIdx i ((ValueIdx.contrEquiv1 dot_S50000x64_S64x40_S50000x40_1_0_0_1_n_n 64 rfl rfl).symm k) = ridx_main_v70 i k := funext fun a => Fin.ext (by
    match a with
    | ⟨0, _⟩ => exact (rhs_main_v70_0 _ _).trans hk
    | ⟨1, _⟩ => exact rhs_main_v70_1 _ _)
  rw [el, er]

theorem val_main_call2_v7_apply (i : S50000.Idx) :
    val_main_call2_v7 (F := Ideal) x0 x1 x2 x3 x4 x5 x6 x7 x8 x9 i = (val_main_call2_cst_1 (F := Ideal)) (Shape.Idx.first h_S_) + ∑ k : Fin 40, (val_main_call2_v6 (F := Ideal) x0 x1 x2 x3 x4 x5 x6 x7 x8 x9) (idx_main_call2_v7 i k) := by
  unfold val_main_call2_v7
  generalize val_main_call2_v6 (F := Ideal) x0 x1 x2 x3 x4 x5 x6 x7 x8 x9 = y0
  simp only [Host.reduceAdd, Ideal.hostReduceAdd_def]
  rw [Ideal.hostReduceAdd_single reducesTo_S50000x40_S50000_d1 (by decide)]
  refine congrArg (_ + ·) (Finset.sum_congr rfl fun k _ => ?_)
  exact congrArg y0 (funext fun a => Fin.ext (by match a with | ⟨0, _⟩ => rfl | ⟨1, _⟩ => rfl))

end

end Cert.ReferenceIdeal.ReadP

end
-- ==== Proof.LibAfter.lean ====
import Idealize.ShloMosaic.Lib.StableHlo.Run
import Idealize.ShloMosaic.Lib.Pipeline.Frame

namespace Cert.LibAfter

open Idealize.ShloMosaic Idealize.ShloMosaic.StableHlo

variable {τ : Topo} {sig : RefSig} {Val : EltTy → Type} {ops : List (HloOp τ sig Val)} {W : List (Ref sig .tc)}

/-- A line whose operations write, one each and in order, the buffers listed in `W` leaves every buffer outside `W` as it was. -/
theorem after_keep (hW : ops.map HloOp.writes = W.map fun r => {Proc.devRef .tc r}) {r : Ref sig .tc} (hr : r ∉ W)
    (V : Valuation τ sig Val) : after ops V (Proc.devRef .tc r) = V (Proc.devRef .tc r) :=
  after_of_forall_not_mem ops V fun op hop hb => by
    obtain ⟨y, hy, e⟩ := List.mem_map.mp (hW ▸ List.mem_map_of_mem hop)
    rw [← e, Finset.mem_singleton] at hb
    exact hr (Proc.devRef_injective _ hb ▸ hy)

/-- The first `a + b` operations are the first `a`, then the next `b`. -/
theorem after_take_add (ops : List (HloOp τ sig Val)) (a b : Nat) (V : Valuation τ sig Val) :
    after (ops.take (a + b)) V = after ((ops.drop a).take b) (after (ops.take a) V) := by
  rw [List.take_add, after_append]

/-- A buffer that operations `a` to `a + b` do not write holds after them what it held before them. -/
theorem after_take_keep (hW : ops.map HloOp.writes = W.map fun r => {Proc.devRef .tc r}) (a b : Nat) {r : Ref sig .tc}
    (hr : r ∉ (W.drop a).take b) (V : Valuation τ sig Val) :
    after (ops.take (a + b)) V (Proc.devRef .tc r) = after (ops.take a) V (Proc.devRef .tc r) := by
  rw [after_take_add]
  exact after_keep (by simp only [List.map_take, List.map_drop, hW]) hr _

end Cert.LibAfter
-- ==== Proof.RefRun.lean ====
import proofs.«414250_j49357764165687_1_alg».proof.Proof.RefRunP
import proofs.«414250_j49357764165687_1_alg».proof.Proof.RefReadP
import proofs.«414250_j49357764165687_1_alg».proof.Proof.LibAfter
import Idealize.ShloMosaic.Lib.StableHlo.Run
import Idealize.ShloMosaic.Lib.Pipeline.Frame

set_option maxRecDepth 8192

noncomputable section

namespace Cert.RefRun

open Cert.ReferenceIdeal Cert.ReferenceIdeal.Gen Cert.LibAfter Idealize.ShloMosaic Idealize.ShloMosaic.TcCoe Idealize.SL.Sem Idealize.ShloMosaic.StableHlo

variable {F : FTy → Type} [FloatOps F]

theorem ofBuf_toBuf {T : BufTy} (x : TRef sig T) (v : T.Contents (Elt F)) : x.ofBuf (x.toBuf v) = v := by
  rcases x with ⟨r, rfl, h1, h2⟩
  rfl

/-- The buffers the 109 operations write, one each, in order. -/
abbrev written : List (Ref sig .tc) :=
  [main_v0, main_v1, main_v2, main_v3, main_v4, main_v5, main_v6, main_v7, main_cst, main_v8, main_cst_0, main_v9,
   main_v10, main_v11, main_c, main_v12, main_v13, main_c_1, main_v14, main_v15, main_v16, main_v17, main_v18, main_cst_2,
   main_v19, main_v20, main_c_3, main_v21, main_v22, main_c_4, main_v23, main_v24, main_v25, main_v26, main_v27, main_v28,
   main_v29, main_v30, main_cst_5, main_v31, main_v32, main_v33, main_call0_cst, main_call0_v0, main_v34, main_v35,
   main_v36, main_v37, main_v38, main_cst_6, main_v39, main_cst_7, main_v40, main_v41, main_v42, main_c_8, main_v43,
   main_v44, main_c_9, main_v45, main_v46, main_v47, main_v48, main_v49, main_cst_10, main_v50, main_v51, main_c_11,
   main_v52, main_v53, main_c_12, main_v54, main_v55, main_v56, main_v57, main_v58, main_v59, main_v60, main_v61,
   main_cst_13, main_v62, main_v63, main_v64, main_call1_cst, main_call1_v0, main_v65, main_v66, main_v67, main_v68,
   main_v69, main_v70, main_v71, main_v72, main_v73, main_call2_cst, main_call2_v0, main_call2_cst_0, main_call2_v1,
   main_call2_v2, main_call2_v3, main_call2_v4, main_call2_v5, main_call2_v6, main_call2_cst_1, main_call2_v7,
   main_call2_v8, main_call2_v9, main_call2_v10, main_v74]

theorem ops_writes : (ValueP.ops : List (HloOp τ sig (Elt F))).map HloOp.writes = written.map fun r => {Proc.devRef .tc r} := rfl

/-- Operations `a` to `a + b` of the line. -/
abbrev seg (a b : Nat) : List (HloOp τ sig (Elt F)) := List.take b (List.drop a ValueP.ops)

variable (V : Valuation τ sig (Elt F))
  (x0 : (⟨S50000x64, .f32⟩ : BufTy).Contents (Elt F)) (x1 : (⟨S2x800000, .i32⟩ : BufTy).Contents (Elt F))
  (x2 : (⟨S64x64, .f32⟩ : BufTy).Contents (Elt F)) (x3 : (⟨S64, .f32⟩ : BufTy).Contents (Elt F))
  (x4 : (⟨S64x64, .f32⟩ : BufTy).Contents (Elt F)) (x5 : (⟨S64, .f32⟩ : BufTy).Contents (Elt F))
  (x6 : (⟨S64x64, .f32⟩ : BufTy).Contents (Elt F)) (x7 : (⟨S64, .f32⟩ : BufTy).Contents (Elt F))
  (x8 : (⟨S64x40, .f32⟩ : BufTy).Contents (Elt F)) (x9 : (⟨S40, .f32⟩ : BufTy).Contents (Elt F))

/-! Each stretch computes its last stage from the stages and arguments it reads. -/

theorem c0_v1 (h_arg1 : V main_arg1 = x1) :
    after (seg 0 8) V main_v1 = ReadP.val_main_v1 x1 := by
  simp only [seg, ValueP.ops, List.drop_succ_cons, List.drop_zero, List.take_succ_cons, List.take_zero]
  after_results_simp
  rw [h_arg1]
  simp only [ReadP.val_main_v1, ReadP.val_main_v0] <;> rfl

theorem c0_v3 (h_arg1 : V main_arg1 = x1) :
    after (seg 0 8) V main_v3 = ReadP.val_main_v3 x1 := by
  simp only [seg, ValueP.ops, List.drop_succ_cons, List.drop_zero, List.take_succ_cons, List.take_zero]
  after_results_simp
  rw [h_arg1]
  simp only [ReadP.val_main_v3, ReadP.val_main_v2] <;> rfl

theorem c0_v7 (h_arg0 : V main_arg0 = x0) (h_arg2 : V main_arg2 = x2) (h_arg3 : V main_arg3 = x3) :
    after (seg 0 8) V main_v7 = ReadP.val_main_v7 x0 x2 x3 := by
  simp only [seg, ValueP.ops, List.drop_succ_cons, List.drop_zero, List.take_succ_cons, List.take_zero]
  after_results_simp
  rw [h_arg0, h_arg2, h_arg3]
  simp only [ReadP.val_main_v7, ReadP.val_main_v6, ReadP.val_main_v5, ReadP.val_main_v4] <;> rfl

theorem c1_v20 (h_v1 : V main_v1 = ReadP.val_main_v1 x1) :
    after (seg 8 18) V main_v20 = ReadP.val_main_v20 x1 := by
  simp only [seg, ValueP.ops, List.drop_succ_cons, List.drop_zero, List.take_succ_cons, List.take_zero]
  after_results_simp
  rw [h_v1]
  simp only [ReadP.val_main_v20, ReadP.val_main_v19, ReadP.val_main_cst_2, ReadP.val_main_v18, ReadP.val_main_v17, ReadP.val_main_v16, ReadP.val_main_v15, ReadP.val_main_v14, ReadP.val_main_c_1, ReadP.val_main_v13, ReadP.val_main_v12, ReadP.val_main_c, ReadP.val_main_v11, ReadP.val_main_v10, ReadP.val_main_v9, ReadP.val_main_cst_0, ReadP.val_main_v8, ReadP.val_main_cst] <;> rfl

theorem c2_v38 (h_v1 : V main_v1 = ReadP.val_main_v1 x1) (h_v7 : V main_v7 = ReadP.val_main_v7 x0 x2 x3) (h_v3 : V main_v3 = ReadP.val_main_v3 x1) (h_v20 : V main_v20 = ReadP.val_main_v20 x1) (h_arg4 : V main_arg4 = x4) (h_arg5 : V main_arg5 = x5) :
    after (seg 26 23) V main_v38 = ReadP.val_main_v38 x0 x1 x2 x3 x4 x5 := by
  simp only [seg, ValueP.ops, List.drop_succ_cons, List.drop_zero, List.take_succ_cons, List.take_zero]
  after_results_simp
  try simp only [ofBuf_toBuf]
  try simp only [TRef.ofBuf, TRef.toBuf, cast_eq]
  rw [h_v1, h_v7, h_v3, h_v20, h_arg4, h_arg5]
  simp only [ReadP.val_main_v38, ReadP.val_main_v37, ReadP.val_main_v36, ReadP.val_main_v35, ReadP.val_main_v34, ReadP.val_main_call0_v0, ReadP.val_main_call0_cst, ReadP.val_main_v33, ReadP.val_main_v32, ReadP.val_main_v31, ReadP.val_main_cst_5, ReadP.val_main_v30, ReadP.val_main_v29, ReadP.val_main_v28, ReadP.val_main_v27, ReadP.val_main_v26, ReadP.val_main_v25, ReadP.val_main_v24, ReadP.val_main_v23, ReadP.val_main_c_4, ReadP.val_main_v22, ReadP.val_main_v21, ReadP.val_main_c_3] <;> rfl

theorem c3_v51 (h_v1 : V main_v1 = ReadP.val_main_v1 x1) :
    after (seg 49 18) V main_v51 = ReadP.val_main_v51 x1 := by
  simp only [seg, ValueP.ops, List.drop_succ_cons, List.drop_zero, List.take_succ_cons, List.take_zero]
  after_results_simp
  rw [h_v1]
  simp only [ReadP.val_main_v51, ReadP.val_main_v50, ReadP.val_main_cst_10, ReadP.val_main_v49, ReadP.val_main_v48, ReadP.val_main_v47, ReadP.val_main_v46, ReadP.val_main_v45, ReadP.val_main_c_9, ReadP.val_main_v44, ReadP.val_main_v43, ReadP.val_main_c_8, ReadP.val_main_v42, ReadP.val_main_v41, ReadP.val_main_v40, ReadP.val_main_cst_7, ReadP.val_main_v39, ReadP.val_main_cst_6] <;> rfl

theorem c4_v73 (h_v1 : V main_v1 = ReadP.val_main_v1 x1) (h_v38 : V main_v38 = ReadP.val_main_v38 x0 x1 x2 x3 x4 x5) (h_v3 : V main_v3 = ReadP.val_main_v3 x1) (h_v51 : V main_v51 = ReadP.val_main_v51 x1) (h_arg6 : V main_arg6 = x6) (h_arg7 : V main_arg7 = x7) (h_arg8 : V main_arg8 = x8) (h_arg9 : V main_arg9 = x9) :
    after (seg 67 27) V main_v73 = ReadP.val_main_v73 x0 x1 x2 x3 x4 x5 x6 x7 x8 x9 := by
  simp only [seg, ValueP.ops, List.drop_succ_cons, List.drop_zero, List.take_succ_cons, List.take_zero]
  after_results_simp
  try simp only [ofBuf_toBuf]
  try simp only [TRef.ofBuf, TRef.toBuf, cast_eq]
  rw [h_v1, h_v38, h_v3, h_v51, h_arg6, h_arg7, h_arg8, h_arg9]
  simp only [ReadP.val_main_v73, ReadP.val_main_v72, ReadP.val_main_v71, ReadP.val_main_v70, ReadP.val_main_v69, ReadP.val_main_v68, ReadP.val_main_v67, ReadP.val_main_v66, ReadP.val_main_v65, ReadP.val_main_call1_v0, ReadP.val_main_call1_cst, ReadP.val_main_v64, ReadP.val_main_v63, ReadP.val_main_v62, ReadP.val_main_cst_13, ReadP.val_main_v61, ReadP.val_main_v60, ReadP.val_main_v59, ReadP.val_main_v58, ReadP.val_main_v57, ReadP.val_main_v56, ReadP.val_main_v55, ReadP.val_main_v54, ReadP.val_main_c_12, ReadP.val_main_v53, ReadP.val_main_v52, ReadP.val_main_c_11] <;> rfl

theorem c5_call2_v5 (h_v73 : V main_v73 = ReadP.val_main_v73 x0 x1 x2 x3 x4 x5 x6 x7 x8 x9) :
    after (seg 94 8) V main_call2_v5 = ReadP.val_main_call2_v5 x0 x1 x2 x3 x4 x5 x6 x7 x8 x9 := by
  simp only [seg, ValueP.ops, List.drop_succ_cons, List.drop_zero, List.take_succ_cons, List.take_zero]
  after_results_simp
  try simp only [ofBuf_toBuf]
  try simp only [TRef.ofBuf, TRef.toBuf, cast_eq]
  rw [h_v73]
  simp only [ReadP.val_main_call2_v5, ReadP.val_main_call2_v4, ReadP.val_main_call2_v3, ReadP.val_main_call2_v2, ReadP.val_main_call2_v1, ReadP.val_main_call2_cst_0, ReadP.val_main_call2_v0, ReadP.val_main_call2_cst] <;> rfl

theorem c6_v74 (h_call2_v5 : V main_call2_v5 = ReadP.val_main_call2_v5 x0 x1 x2 x3 x4 x5 x6 x7 x8 x9) :
    after (seg 102 7) V main_v74 = ReadP.val_main_v74 x0 x1 x2 x3 x4 x5 x6 x7 x8 x9 := by
  simp only [seg, ValueP.ops, List.drop_succ_cons, List.drop_zero, List.take_succ_cons, List.take_zero]
  after_results_simp
  try simp only [ofBuf_toBuf]
  try simp only [TRef.ofBuf, TRef.toBuf, cast_eq]
  rw [h_call2_v5]
  simp only [ReadP.val_main_v74, ReadP.val_main_call2_v10, ReadP.val_main_call2_v9, ReadP.val_main_call2_v8, ReadP.val_main_call2_v7, ReadP.val_main_call2_cst_1, ReadP.val_main_call2_v6] <;> rfl

/-! The line is cut at the stretch ends; a stage is carried from where it is made to where it is read. -/

theorem step (a b : Nat) (r : Ref sig .tc) :
    after (List.take (a + b) ValueP.ops) V r = after (seg a b) (after (List.take a ValueP.ops) V) r :=
  congrFun (after_take_add ValueP.ops a b V) r

theorem keep (a b : Nat) (r : Ref sig .tc) (hr : r ∉ List.take b (List.drop a written)) :
    after (List.take (a + b) ValueP.ops) V r = after (List.take a ValueP.ops) V r :=
  after_take_keep ops_writes a b hr V

/-- No operation writes an argument. -/
theorem arg_kept (r : Ref sig .tc) (hr : r ∉ written) : after ValueP.ops V r = V r :=
  after_keep ops_writes hr V

/-- The result buffer after the whole line is the last stage of the staged value. -/
theorem after_v74 (h0 : V main_arg0 = x0) (h1 : V main_arg1 = x1) (h2 : V main_arg2 = x2) (h3 : V main_arg3 = x3) (h4 : V main_arg4 = x4) (h5 : V main_arg5 = x5) (h6 : V main_arg6 = x6) (h7 : V main_arg7 = x7) (h8 : V main_arg8 = x8) (h9 : V main_arg9 = x9) :
    after ValueP.ops V main_v74 = ReadP.val_main_v74 x0 x1 x2 x3 x4 x5 x6 x7 x8 x9 := by
  have v1 := (step V 0 8 main_v1).trans (c0_v1 _ x1 h1)
  have v3 := (step V 0 8 main_v3).trans (c0_v3 _ x1 h1)
  have v7 := (step V 0 8 main_v7).trans (c0_v7 _ x0 x2 x3 h0 h2 h3)
  have v20 := (step V 8 18 main_v20).trans (c1_v20 _ x1 v1)
  have v1' := (keep V 8 18 main_v1 (by decide)).trans v1
  have v3' := (keep V 8 18 main_v3 (by decide)).trans v3
  have v38 := (step V 26 23 main_v38).trans (c2_v38 _ x0 x1 x2 x3 x4 x5 v1' ((keep V 8 18 main_v7 (by decide)).trans v7) v3' v20
    ((keep V 0 26 main_arg4 (by decide)).trans h4) ((keep V 0 26 main_arg5 (by decide)).trans h5))
  have v1'' := (keep V 26 23 main_v1 (by decide)).trans v1'
  have v51 := (step V 49 18 main_v51).trans (c3_v51 _ x1 v1'')
  have v73 := (step V 67 27 main_v73).trans (c4_v73 _ x0 x1 x2 x3 x4 x5 x6 x7 x8 x9 ((keep V 49 18 main_v1 (by decide)).trans v1'')
    ((keep V 49 18 main_v38 (by decide)).trans v38) ((keep V 26 41 main_v3 (by decide)).trans v3') v51
    ((keep V 0 67 main_arg6 (by decide)).trans h6) ((keep V 0 67 main_arg7 (by decide)).trans h7)
    ((keep V 0 67 main_arg8 (by decide)).trans h8) ((keep V 0 67 main_arg9 (by decide)).trans h9))
  have v5 := (step V 94 8 main_call2_v5).trans (c5_call2_v5 _ x0 x1 x2 x3 x4 x5 x6 x7 x8 x9 v73)
  exact (step V 102 7 main_v74).trans (c6_v74 _ x0 x1 x2 x3 x4 x5 x6 x7 x8 x9 v5)

/-- Every weakly fair execution of the reference ends with the result buffer at the staged value of the launch contents of
    the ten arguments, and the arguments as launched. -/
theorem ref_run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v74) = ReadP.val_main_v74 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨(h c main_v74).trans (after_v74 _ _ _ _ _ _ _ _ _ _ _ rfl rfl rfl rfl rfl rfl rfl rfl rfl rfl),
     (h c main_arg0).trans (arg_kept _ _ (by decide)),
     (h c main_arg1).trans (arg_kept _ _ (by decide)),
     (h c main_arg2).trans (arg_kept _ _ (by decide)),
     (h c main_arg3).trans (arg_kept _ _ (by decide)),
     (h c main_arg4).trans (arg_kept _ _ (by decide)),
     (h c main_arg5).trans (arg_kept _ _ (by decide)),
     (h c main_arg6).trans (arg_kept _ _ (by decide)),
     (h c main_arg7).trans (arg_kept _ _ (by decide)),
     (h c main_arg8).trans (arg_kept _ _ (by decide)),
     (h c main_arg9).trans (arg_kept _ _ (by decide))⟩)
    (run_seq ValueP.scopedRefs_eq ValueP.scopedSems_eq defs main (fun _ => ValueP.ops) ValueP.main_eq (fun _ => ValueP.ops_sub) m ρ)

end Cert.RefRun

end
-- ==== Proof.LibGather.lean ====
import Idealize.ShloMosaic.PureOps
import Idealize.ShloMosaic.Lib.ValueIdx

noncomputable section

namespace Cert.LibGather

open Idealize.ShloMosaic Idealize.ShloMosaic.ValueIdx

abbrev rowGather (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

theorem gather_row_apply {α : Type} {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (k : Fin C) :
    Host.gather (rowGather N R C wf) x idx (ix2 r k)
      = x (ix2 ⟨min (idx (ix2 r (⟨0, Nat.one_pos⟩ : Fin 1))).toInt.toNat (N - 1), by omega⟩ k) := by
  unfold Host.gather
  congr 1

  have h0 : (rowGather N R C wf).start (ix2 r k) idx (0 : Fin 2) + (rowGather N R C wf).batchCoord (ix2 r k) (0 : Fin 2)
      + (rowGather N R C wf).offCoord (ix2 r k) (0 : Fin 2) = min (idx (ix2 r (⟨0, Nat.one_pos⟩ : Fin 1))).toInt.toNat (N - 1) := by
    rw [GatherDims.batchCoord_eq_zero _ _ _ List.not_mem_nil, GatherDims.offCoord_eq_zero _ _ _
      (fun h => ((GatherDims.mem_sKept _ _).mp h).1 (List.mem_singleton.mpr rfl))]
    simp only [Nat.add_zero]
    unfold GatherDims.start
    rw [dif_pos (show (0 : Fin 2) ∈ (rowGather N R C wf).startIndexMap from List.mem_singleton.mpr rfl)]
    have hsi : (rowGather N R C wf).siIdx (ix2 r k) ⟨List.idxOf (0 : Fin 2) (rowGather N R C wf).startIndexMap,
        List.idxOf_lt_length_iff.2 (List.mem_singleton.mpr rfl)⟩ = ix2 r (⟨0, Nat.one_pos⟩ : Fin 1) := by
      funext b; refine Fin.ext ?_
      match b with
      | ⟨0, _⟩ => rfl
      | ⟨1, _⟩ => rfl
    rw [hsi]
    rfl

  have h1 : (rowGather N R C wf).start (ix2 r k) idx (1 : Fin 2) + (rowGather N R C wf).batchCoord (ix2 r k) (1 : Fin 2)
      + (rowGather N R C wf).offCoord (ix2 r k) (1 : Fin 2) = k.val := by
    have hm : (1 : Fin 2) ∉ (rowGather N R C wf).startIndexMap :=
      show (1 : Fin 2) ∉ ([0] : List (Fin 2)) by decide
    have hs : (rowGather N R C wf).start (ix2 r k) idx (1 : Fin 2) = 0 := by
      unfold GatherDims.start; rw [dif_neg hm]
    have hk : (1 : Fin 2) ∈ (rowGather N R C wf).sKept :=
      (GatherDims.mem_sKept _ _).mpr ⟨show (1 : Fin 2) ∉ ([0] : List (Fin 2)) by decide, List.not_mem_nil⟩
    have ho : (rowGather N R C wf).offCoord (ix2 r k) (1 : Fin 2) = k.val := by
      unfold GatherDims.offCoord; rw [dif_pos hk]; rfl
    rw [GatherDims.batchCoord_eq_zero _ _ _ List.not_mem_nil, hs, ho, Nat.add_zero, Nat.zero_add]
  funext a
  refine Fin.ext ?_
  match a with
  | ⟨0, _⟩ => exact h0
  | ⟨1, _⟩ => exact h1

end Cert.LibGather

end
-- ==== Proof.LibScatter.lean ====
import Idealize.ShloMosaic.PureOps.Ideal
import Idealize.ShloMosaic.Lib.ValueIdx

noncomputable section

open scoped BigOperators

namespace Cert.LibScatter

open Idealize.ShloMosaic Idealize.ShloMosaic.ValueIdx

abbrev rowScatter (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section Facts
variable {N R C w : Nat} (wf : ScatterDims.WF ⟨2, ![N, C]⟩ ⟨2, ![R, 1]⟩ ⟨2, ![R, C]⟩ [1] [0] [0] 1)
    (idx : IVec ⟨2, ![R, 1]⟩ w) (r : Fin R) (k : Fin C)

private theorem window0 : (rowScatter N R C wf).window (ix2 r k) 0 = 0 := rfl

private theorem window1 : (rowScatter N R C wf).window (ix2 r k) 1 = k.val := rfl

private theorem start1 : (rowScatter N R C wf).start (ix2 r k) idx 1 = 0 := rfl

private theorem start0 : (rowScatter N R C wf).start (ix2 r k) idx 0 = (idx (ix2 r (⟨0, Nat.one_pos⟩ : Fin 1))).toInt := by
  unfold ScatterDims.start
  rw [dif_pos (show (0 : Fin 2) ∈ (rowScatter N R C wf).scatterDimsToOperandDims from List.mem_singleton.mpr rfl)]
  congr 2
  funext b
  refine Fin.ext ?_
  match b with
  | ⟨0, _⟩ => rfl
  | ⟨1, _⟩ => rfl
end Facts

theorem rowScatter_resultIdx {N R C w : Nat} (wf : ScatterDims.WF ⟨2, ![N, C]⟩ ⟨2, ![R, 1]⟩ ⟨2, ![R, C]⟩ [1] [0] [0] 1)
    (idx : IVec ⟨2, ![R, 1]⟩ w) (r : Fin R) (k : Fin C) (p : Fin N) (k' : Fin C) :
    (rowScatter N R C wf).resultIdx? (ix2 r k) idx = some (ix2 p k')
      ↔ (idx (ix2 r (⟨0, Nat.one_pos⟩ : Fin 1))).toInt = (p.val : ℤ) ∧ k = k' := by
  have hs0 := start0 wf idx r k
  have hs1 := start1 wf idx r k
  have hw0 := window0 wf r k
  have hw1 := window1 wf r k
  unfold ScatterDims.resultIdx?
  split
  ·
    rename_i h
    rw [Option.some.injEq]
    constructor
    · intro hf
      have h0 := congrArg Fin.val (congrFun hf 0)
      have h1 := congrArg Fin.val (congrFun hf 1)
      have hb0 := h 0
      have hb1 := h 1
      simp only [hs0, hs1, hw0, hw1] at h0 h1 hb0 hb1
      change _ = p.val at h0
      change _ = k'.val at h1
      refine ⟨by omega, Fin.ext (by omega)⟩
    · rintro ⟨hp, rfl⟩
      funext a
      refine Fin.ext ?_
      match a with
      | ⟨0, _⟩ =>
        show ((rowScatter N R C wf).start (ix2 r k) idx 0 + (rowScatter N R C wf).window (ix2 r k) 0).toNat = p.val
        rw [hs0, hw0, hp]; simp
      | ⟨1, _⟩ =>
        show ((rowScatter N R C wf).start (ix2 r k) idx 1 + (rowScatter N R C wf).window (ix2 r k) 1).toNat = k.val
        rw [hs1, hw1]; simp
  ·
    rename_i h
    constructor
    · intro hf; exact absurd hf (by simp)
    · rintro ⟨hp, rfl⟩
      exfalso
      apply h
      intro a
      match a with
      | ⟨0, _⟩ =>
        show 0 ≤ (rowScatter N R C wf).start (ix2 r k) idx 0 + (rowScatter N R C wf).window (ix2 r k) 0 ∧
          (rowScatter N R C wf).start (ix2 r k) idx 0 + (rowScatter N R C wf).window (ix2 r k) 0 < (N : ℤ)
        rw [hs0, hw0, hp]
        have := p.isLt
        constructor <;> omega
      | ⟨1, _⟩ =>
        show 0 ≤ (rowScatter N R C wf).start (ix2 r k) idx 1 + (rowScatter N R C wf).window (ix2 r k) 1 ∧
          (rowScatter N R C wf).start (ix2 r k) idx 1 + (rowScatter N R C wf).window (ix2 r k) 1 < (C : ℤ)
        rw [hs1, hw1]
        have := k.isLt
        constructor <;> omega

theorem scatterAdd_row_apply {N R C w : Nat} (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (p : Fin N) (k : Fin C) :
    Ideal.hostScatterAdd (rowScatter N R C wf) x idx upd (ix2 p k)
      = x (ix2 p k) + ∑ r ∈ Finset.univ.filter (fun r : Fin R => (idx (ix2 r (⟨0, Nat.one_pos⟩ : Fin 1))).toInt = (p.val : ℤ)),
          upd (ix2 r k) := by
  unfold Ideal.hostScatterAdd
  congr 1
  symm

  refine Finset.sum_bij (fun r _ => ix2 r k) ?_ ?_ ?_ ?_
  · intro r hr
    rw [Finset.mem_filter] at hr ⊢
    exact ⟨Finset.mem_univ _, (rowScatter_resultIdx wf idx r k p k).mpr ⟨hr.2, rfl⟩⟩
  · intro r₁ _ r₂ _ h
    exact congrFun h 0
  · intro j hj
    obtain ⟨a, b, rfl⟩ : ∃ (a : Fin R) (b : Fin C), j = ix2 a b := ⟨j 0, j 1, eq_ix2 j⟩
    rw [Finset.mem_filter] at hj
    have hj2 := (rowScatter_resultIdx wf idx a b p k).mp hj.2
    refine ⟨a, ?_, ?_⟩
    · rw [Finset.mem_filter]; exact ⟨Finset.mem_univ _, hj2.1⟩
    · rw [hj2.2]
  · intro r _; rfl

end Cert.LibScatter

end
-- ==== Proof.RefOps.lean ====
import proofs.«414250_j49357764165687_1_alg».proof.Proof.Gen.ReferenceIdeal
import proofs.«414250_j49357764165687_1_alg».proof.Proof.Spec
import proofs.«414250_j49357764165687_1_alg».proof.Proof.LibGather
import proofs.«414250_j49357764165687_1_alg».proof.Proof.LibScatter
import Idealize.ShloMosaic.Lib.ValueIdx
import Idealize.ShloMosaic.PureOps.Ideal.Laws

noncomputable section

open scoped BigOperators

namespace Cert.RefOps

open Cert.ReferenceIdeal Cert.ReferenceIdeal.Gen Idealize.ShloMosaic Idealize.ShloMosaic.ValueIdx

theorem gather_rec_eq : gather_S50000x64_S800000x1_S800000x64_1_0_n_n_0_1_164
    = Cert.LibGather.rowGather 50000 800000 64 gather_S50000x64_S800000x1_S800000x64_1_0_n_n_0_1_164_wf := rfl

theorem scatter_rec_eq : scatter_S50000x64_S800000x1_S800000x64_1_0_0_1
    = Cert.LibScatter.rowScatter 50000 800000 64 scatter_S50000x64_S800000x1_S800000x64_1_0_0_1_wf := rfl

theorem wrap_eq (d : BitVec 32) :
    Scalar.select (IntOp.cmpi .slt d 0#32) (IntOp.addi d 50000#32) d
      = if d.toInt < 0 then d + BitVec.ofNat 32 Cert.Spec.NN else d := by
  have h0 : (0#32 : BitVec 32).toInt = 0 := by decide
  unfold Scalar.select IntOp.cmpi IntOp.addi
  simp only [BitVec.slt, h0]
  by_cases h : d.toInt < 0
  · simp [h]
  · simp [h]

theorem clamp_wrap_eq (d : BitVec 32) :
    min (Scalar.select (IntOp.cmpi .slt d 0#32) (IntOp.addi d 50000#32) d).toInt.toNat (50000 - 1) = (Cert.Spec.nodeOf d).val := by
  rw [wrap_eq]; rfl

theorem agg_read (H Z Z' : S50000x64.Idx → EReal) (si gi : IVec S800000x1 32) (wb : S800000x64.Idx → EReal)
    (src dst : Fin 800000 → BitVec 32) (w : Fin 800000 → EReal)
    (hZ : ∀ i, Z i = 0) (hZ' : ∀ i, Z' i = 0)
    (hsi : ∀ e : Fin 800000, si (ix2 e (⟨0, Nat.one_pos⟩ : Fin 1)) = src e)
    (hgi : ∀ e : Fin 800000, min (gi (ix2 e (⟨0, Nat.one_pos⟩ : Fin 1))).toInt.toNat (50000 - 1) = (Cert.Spec.nodeOf (dst e)).val)
    (hwb : ∀ (e : Fin 800000) (k : Fin 64), wb (ix2 e k) = w e)
    (p : Fin 50000) (k : Fin 64) :
    (maximumf (F := Ideal) (φ := .f32)
        (Host.scatterAdd (F := Ideal) (φ := .f32) scatter_S50000x64_S800000x1_S800000x64_1_0_0_1 Z si
          (mulf (F := Ideal) (φ := .f32) (Host.gather gather_S50000x64_S800000x1_S800000x64_1_0_n_n_0_1_164 H gi) wb)) Z'
        : S50000x64.Idx → EReal) (ix2 p k)
      = Cert.Spec.relu (Cert.Spec.aggIdx src dst w (fun a l => H (ix2 a l))) p k := by
  rw [maximumf_apply, hZ']
  unfold Host.scatterAdd
  rw [Ideal.hostScatterAdd_def, scatter_rec_eq, Cert.LibScatter.scatterAdd_row_apply, hZ]
  show max (0 + _) 0 = max (0 + _) 0
  refine congrArg (fun t => max (0 + t) 0) (Finset.sum_congr (Finset.filter_congr fun e _ => by rw [hsi]) fun e _ => ?_)
  rw [mulf_apply, hwb, gather_rec_eq, Cert.LibGather.gather_row_apply (by decide)]
  exact congrArg (fun n => H (ix2 n k) * w e) (Fin.ext (hgi e))

theorem fold_max_eq_sup {ι : Type} [DecidableEq ι] (f : ι → EReal) (s : Finset ι) : s.fold max ⊥ f = s.sup f := by
  refine Finset.induction_on s ?_ ?_
  · simp
  · intro a s ha ih
    rw [Finset.fold_insert ha, Finset.sup_insert, ih]

theorem lift_ix (hR : S50000x40.Reduces [1] S50000) (p : Fin 50000) (k : Fin (S50000x40.size 1)) :
    hR.lift (ix1 p) k = ix2 p (⟨k.val, k.isLt⟩ : Fin 40) := by
  funext c; apply Fin.ext
  fin_cases c <;> rfl

theorem rowmax_read (Y : S50000x40.Idx → EReal) (cst : S_.Idx → EReal) (hc : ∀ i, cst i = ⊥) (p : Fin 50000) :
    Host.reduce (FloatOps.maximumf (F := Ideal) (φ := .f32)) Y cst reducesTo_S50000x40_S50000_d1 h_S_ (ix1 p)
      = Cert.Spec.rowmax (fun a b => Y (ix2 a b)) p := by
  have hR : S50000x40.Reduces [1] S50000 := by decide
  rw [Host.reduce_eq_fold_single (FloatOps.maximumf (F := Ideal) (φ := .f32)) Y cst reducesTo_S50000x40_S50000_d1 hR h_S_ (ix1 p), hc]
  have hf : (Y ∘ hR.lift (ix1 p)) = fun k : Fin 40 => Y (ix2 p k) := funext fun k => congrArg Y (lift_ix hR p k)
  unfold Cert.Spec.rowmax
  rw [← fold_max_eq_sup]
  exact congrArg (fun f => Finset.fold max ⊥ f (Finset.univ : Finset (Fin 40))) hf

end Cert.RefOps

end
-- ==== Proof.RefSide.lean ====
import proofs.«414250_j49357764165687_1_alg».proof.Proof.RefReadP
import proofs.«414250_j49357764165687_1_alg».proof.Proof.RefOps
import proofs.«414250_j49357764165687_1_alg».proof.Proof.Spec
import proofs.«414250_j49357764165687_1_alg».proof.Proof.SpecLsm
import proofs.«414250_j49357764165687_1_alg».proof.Proof.SpecW
import proofs.«414250_j49357764165687_1_alg».proof.Proof.SpecModel
import proofs.«414250_j49357764165687_1_alg».proof.Proof.LibGather
import proofs.«414250_j49357764165687_1_alg».proof.Proof.LibScatter
import Idealize.ShloMosaic.Lib.ValueIdx
import Idealize.ShloMosaic.PureOps.Ideal.Laws

noncomputable section

open scoped BigOperators

namespace Cert.RefSide

open Cert.ReferenceIdeal Cert.ReferenceIdeal.Gen Cert.ReferenceIdeal.ReadP Idealize.ShloMosaic Idealize.ShloMosaic.ValueIdx
  Idealize.ShloMosaic.TcCoe Idealize.SL.Sem Idealize.ShloMosaic.StableHlo

section Stages

variable (x0 : (⟨S50000x64, .f32⟩ : BufTy).Contents (Elt Ideal)) (x1 : (⟨S2x800000, .i32⟩ : BufTy).Contents (Elt Ideal))
  (x2 : (⟨S64x64, .f32⟩ : BufTy).Contents (Elt Ideal)) (x3 : (⟨S64, .f32⟩ : BufTy).Contents (Elt Ideal))
  (x4 : (⟨S64x64, .f32⟩ : BufTy).Contents (Elt Ideal)) (x5 : (⟨S64, .f32⟩ : BufTy).Contents (Elt Ideal))
  (x6 : (⟨S64x64, .f32⟩ : BufTy).Contents (Elt Ideal)) (x7 : (⟨S64, .f32⟩ : BufTy).Contents (Elt Ideal))
  (x8 : (⟨S64x40, .f32⟩ : BufTy).Contents (Elt Ideal)) (x9 : (⟨S40, .f32⟩ : BufTy).Contents (Elt Ideal))

theorem v1_eq : val_main_v1 (F := Ideal) x1 = Cert.Spec.srcArr x1 := by
  funext i
  rw [val_main_v1_apply, val_main_v0_apply]
  unfold Cert.Spec.srcArr
  refine congrArg x1 ?_
  funext a; apply Fin.ext
  match a with
  | ⟨0, _⟩ => rfl
  | ⟨1, _⟩ => exact Nat.mod_eq_of_lt (i 0).isLt

theorem v1_read (e : Fin 800000) : val_main_v1 (F := Ideal) x1 (ix1 e) = Cert.Spec.srcOf x1 e := by
  rw [v1_eq]; rfl

theorem v3_read (e : Fin 800000) : val_main_v3 (F := Ideal) x1 (ix1 e) = Cert.Spec.dstOf x1 e := by
  rw [val_main_v3_apply, val_main_v2_apply]
  unfold Cert.Spec.dstOf
  refine congrArg x1 ?_
  funext a; apply Fin.ext
  match a with
  | ⟨0, _⟩ => rfl
  | ⟨1, _⟩ => exact Nat.mod_eq_of_lt e.isLt

theorem v20_eq : val_main_v20 (F := Ideal) x1 = Cert.SpecW.wChain (Cert.Spec.srcArr x1) := by
  rw [← v1_eq]; rfl

theorem v29_read (e : Fin 800000) (k : Fin 64) : val_main_v29 (F := Ideal) x1 (ix2 e k) = Cert.Spec.wOf x1 e := by
  rw [val_main_v29_apply, val_main_v28_apply, v20_eq]
  unfold Cert.Spec.wOf
  exact congrArg (Cert.SpecW.wChain (Cert.Spec.srcArr x1)) (funext fun a => match a with | ⟨0, _⟩ => rfl)

theorem v26_read (e : Fin 800000) :
    min (val_main_v26 (F := Ideal) x1 (ix2 e (⟨0, Nat.one_pos⟩ : Fin 1))).toInt.toNat (50000 - 1)
      = (Cert.Spec.nodeOf (Cert.Spec.dstOf x1 e)).val := by
  rw [val_main_v26_apply, val_main_v25_apply, val_main_v22_apply, val_main_v24_apply, val_main_v21_apply, val_main_c_3_apply,
    val_main_v23_apply, val_main_c_4_apply,
    show idx_main_v26 (ix2 e (⟨0, Nat.one_pos⟩ : Fin 1)) = ix1 e from funext fun a => match a with | ⟨0, _⟩ => rfl, v3_read]
  exact Cert.RefOps.clamp_wrap_eq _

theorem v32_read (e : Fin 800000) : val_main_v32 (F := Ideal) x1 (ix2 e (⟨0, Nat.one_pos⟩ : Fin 1)) = Cert.Spec.srcOf x1 e := by
  rw [val_main_v32_apply,
    show idx_main_v32 (ix2 e (⟨0, Nat.one_pos⟩ : Fin 1)) = ix1 e from funext fun a => match a with | ⟨0, _⟩ => rfl, v1_read]

theorem v31_zero (i : S50000x64.Idx) : val_main_v31 (F := Ideal) i = 0 := by
  rw [val_main_v31_apply, val_main_cst_5_apply, Ideal.ofBits_def, Ideal.ofBits_zero_f32]
theorem call0_zero (i : S50000x64.Idx) : val_main_call0_v0 (F := Ideal) i = 0 := v31_zero i

theorem v7_read (p : Fin 50000) (q : Fin 64) :
    val_main_v7 (F := Ideal) x0 x2 x3 (ix2 p q)
      = Cert.Spec.lin (fun a l => x0 (ix2 a l)) (fun l r => x2 (ix2 l r)) (fun r => x3 (ix1 r)) p q := by
  rw [val_main_v7_apply, val_main_v4_apply, val_main_v6_apply, val_main_v5_apply, Ideal.addf_def]
  unfold Cert.Spec.lin
  refine congrArg₂ (· + ·) (Finset.sum_congr rfl fun k _ => ?_) (congrArg x3 (funext fun a => match a with | ⟨0, _⟩ => rfl))
  exact congrArg₂ (· * ·) (congrArg x0 (funext fun a => match a with | ⟨0, _⟩ => rfl | ⟨1, _⟩ => rfl))
    (congrArg x2 (funext fun a => match a with | ⟨0, _⟩ => rfl | ⟨1, _⟩ => rfl))

theorem v34_read (p : Fin 50000) (k : Fin 64) :
    val_main_v34 (F := Ideal) x0 x1 x2 x3 (ix2 p k)
      = Cert.Spec.relu (Cert.Spec.aggIdx (Cert.Spec.srcOf x1) (Cert.Spec.dstOf x1) (Cert.Spec.wOf x1)
          (fun a l => val_main_v7 (F := Ideal) x0 x2 x3 (ix2 a l))) p k := by
  unfold val_main_v34 val_main_v33 val_main_v30 val_main_v27
  exact Cert.RefOps.agg_read (val_main_v7 (F := Ideal) x0 x2 x3) (val_main_v31 (F := Ideal)) (val_main_call0_v0 (F := Ideal))
    (val_main_v32 (F := Ideal) x1) (val_main_v26 (F := Ideal) x1) (val_main_v29 (F := Ideal) x1)
    (Cert.Spec.srcOf x1) (Cert.Spec.dstOf x1) (Cert.Spec.wOf x1) v31_zero call0_zero (v32_read x1) (v26_read x1) (v29_read x1) p k

/-- The later 64-column layers and the second round are the first ones at other operands: their stages unfold to the same operations. -/
theorem v38_read (p : Fin 50000) (q : Fin 64) :
    val_main_v38 (F := Ideal) x0 x1 x2 x3 x4 x5 (ix2 p q)
      = Cert.Spec.lin (fun a l => val_main_v34 (F := Ideal) x0 x1 x2 x3 (ix2 a l)) (fun l r => x4 (ix2 l r)) (fun r => x5 (ix1 r)) p q :=
  v7_read (val_main_v34 (F := Ideal) x0 x1 x2 x3) x4 x5 p q

theorem v65_read (p : Fin 50000) (k : Fin 64) :
    val_main_v65 (F := Ideal) x0 x1 x2 x3 x4 x5 (ix2 p k)
      = Cert.Spec.relu (Cert.Spec.aggIdx (Cert.Spec.srcOf x1) (Cert.Spec.dstOf x1) (Cert.Spec.wOf x1)
          (fun a l => val_main_v38 (F := Ideal) x0 x1 x2 x3 x4 x5 (ix2 a l))) p k :=
  v34_read (val_main_v34 (F := Ideal) x0 x1 x2 x3) x1 x4 x5 p k

theorem v69_read (p : Fin 50000) (q : Fin 64) :
    val_main_v69 (F := Ideal) x0 x1 x2 x3 x4 x5 x6 x7 (ix2 p q)
      = Cert.Spec.lin (fun a l => val_main_v65 (F := Ideal) x0 x1 x2 x3 x4 x5 (ix2 a l)) (fun l r => x6 (ix2 l r)) (fun r => x7 (ix1 r)) p q :=
  v7_read (val_main_v65 (F := Ideal) x0 x1 x2 x3 x4 x5) x6 x7 p q

theorem v73_read (p : Fin 50000) (q : Fin 40) :
    val_main_v73 (F := Ideal) x0 x1 x2 x3 x4 x5 x6 x7 x8 x9 (ix2 p q)
      = Cert.Spec.lin (fun a l => val_main_v69 (F := Ideal) x0 x1 x2 x3 x4 x5 x6 x7 (ix2 a l)) (fun l r => x8 (ix2 l r)) (fun r => x9 (ix1 r)) p q := by
  rw [val_main_v73_apply, val_main_v70_apply, val_main_v72_apply, val_main_v71_apply, Ideal.addf_def]
  unfold Cert.Spec.lin
  refine congrArg₂ (· + ·) (Finset.sum_congr rfl fun k _ => ?_) (congrArg x9 (funext fun a => match a with | ⟨0, _⟩ => rfl))
  exact congrArg₂ (· * ·) (congrArg (val_main_v69 (F := Ideal) x0 x1 x2 x3 x4 x5 x6 x7) (funext fun a => match a with | ⟨0, _⟩ => rfl | ⟨1, _⟩ => rfl))
    (congrArg x8 (funext fun a => match a with | ⟨0, _⟩ => rfl | ⟨1, _⟩ => rfl))

theorem ofBits_neg_inf : Ideal.ofBits .f32 0xFF800000#32 = (⊥ : EReal) := by simp [Ideal.ofBits, Ideal.ieee]

theorem call2_cst_bot (i : S_.Idx) : val_main_call2_cst (F := Ideal) i = (⊥ : EReal) := by
  rw [val_main_call2_cst_apply, Ideal.ofBits_def, ofBits_neg_inf]
theorem call2_v1_bot (i : S50000.Idx) : val_main_call2_v1 (F := Ideal) i = (⊥ : EReal) := by
  rw [val_main_call2_v1_apply, val_main_call2_cst_0_apply, Ideal.ofBits_def, ofBits_neg_inf]

theorem call2_v2_read (p : Fin 50000) :
    val_main_call2_v2 (F := Ideal) x0 x1 x2 x3 x4 x5 x6 x7 x8 x9 (ix1 p)
      = Cert.Spec.rowmax (fun a b => val_main_v73 (F := Ideal) x0 x1 x2 x3 x4 x5 x6 x7 x8 x9 (ix2 a b)) p := by
  rw [val_main_call2_v2_apply, call2_v1_bot, Ideal.maximumf_def]
  unfold val_main_call2_v0
  rw [Cert.RefOps.rowmax_read _ _ call2_cst_bot p]
  exact max_bot_left _

theorem call2_v4_read (p : Fin 50000) (k : Fin 40) :
    val_main_call2_v4 (F := Ideal) x0 x1 x2 x3 x4 x5 x6 x7 x8 x9 (ix2 p k)
      = Cert.Spec.rowmax (fun a b => val_main_v73 (F := Ideal) x0 x1 x2 x3 x4 x5 x6 x7 x8 x9 (ix2 a b)) p := by
  rw [val_main_call2_v4_apply, val_main_call2_v3_apply,
    show idx_main_call2_v3 (idx_main_call2_v4 (ix2 p k)) = ix1 p from funext fun a => match a with | ⟨0, _⟩ => rfl, call2_v2_read]

theorem call2_v5_read (p : Fin 50000) (k : Fin 40) :
    val_main_call2_v5 (F := Ideal) x0 x1 x2 x3 x4 x5 x6 x7 x8 x9 (ix2 p k)
      = val_main_v73 (F := Ideal) x0 x1 x2 x3 x4 x5 x6 x7 x8 x9 (ix2 p k)
        - Cert.Spec.rowmax (fun a b => val_main_v73 (F := Ideal) x0 x1 x2 x3 x4 x5 x6 x7 x8 x9 (ix2 a b)) p := by
  rw [val_main_call2_v5_apply, Ideal.subf_def, call2_v4_read]

theorem call2_v7_read (p : Fin 50000) :
    val_main_call2_v7 (F := Ideal) x0 x1 x2 x3 x4 x5 x6 x7 x8 x9 (ix1 p)
      = ∑ k : Fin 40, Ideal.exp (val_main_v73 (F := Ideal) x0 x1 x2 x3 x4 x5 x6 x7 x8 x9 (ix2 p k)
          - Cert.Spec.rowmax (fun a b => val_main_v73 (F := Ideal) x0 x1 x2 x3 x4 x5 x6 x7 x8 x9 (ix2 a b)) p) := by
  rw [val_main_call2_v7_apply, val_main_call2_cst_1_apply, Ideal.ofBits_def, Ideal.ofBits_zero_f32, zero_add]
  refine Finset.sum_congr rfl fun k _ => ?_
  rw [show idx_main_call2_v7 (ix1 p) k = ix2 p k from funext fun a => match a with | ⟨0, _⟩ => rfl | ⟨1, _⟩ => rfl,
    val_main_call2_v6_apply, Ideal.hostUnary_exp_def, call2_v5_read]

theorem call2_v10_read (p : Fin 50000) (q : Fin 40) :
    val_main_call2_v10 (F := Ideal) x0 x1 x2 x3 x4 x5 x6 x7 x8 x9 (ix2 p q)
      = Ideal.log (∑ k : Fin 40, Ideal.exp (val_main_v73 (F := Ideal) x0 x1 x2 x3 x4 x5 x6 x7 x8 x9 (ix2 p k)
          - Cert.Spec.rowmax (fun a b => val_main_v73 (F := Ideal) x0 x1 x2 x3 x4 x5 x6 x7 x8 x9 (ix2 a b)) p)) := by
  rw [val_main_call2_v10_apply, val_main_call2_v9_apply, Ideal.hostUnary_log_def, val_main_call2_v8_apply,
    show idx_main_call2_v8 (idx_main_call2_v10 (ix2 p q)) = ix1 p from funext fun a => match a with | ⟨0, _⟩ => rfl, call2_v7_read]

theorem v74_read (p : Fin 50000) (q : Fin 40) :
    val_main_v74 (F := Ideal) x0 x1 x2 x3 x4 x5 x6 x7 x8 x9 (ix2 p q)
      = Cert.Spec.lsm (fun a b => val_main_v73 (F := Ideal) x0 x1 x2 x3 x4 x5 x6 x7 x8 x9 (ix2 a b)) p q := by
  rw [val_main_v74_apply, Ideal.subf_def, call2_v5_read, call2_v10_read]
  rfl

theorem v34_round :
    (fun a l => val_main_v34 (F := Ideal) x0 x1 x2 x3 (ix2 a l))
      = Cert.Spec.round x1 (fun a b => x0 (ix2 a b)) (fun a b => x2 (ix2 a b)) (fun a => x3 (ix1 a)) := by
  funext a l
  rw [v34_read]
  unfold Cert.Spec.round
  rw [show (fun a l => val_main_v7 (F := Ideal) x0 x2 x3 (ix2 a l)) = Cert.Spec.lin (fun a b => x0 (ix2 a b)) (fun a b => x2 (ix2 a b)) (fun a => x3 (ix1 a))
    from funext fun a => funext fun l => v7_read x0 x2 x3 a l]

theorem v65_round :
    (fun a l => val_main_v65 (F := Ideal) x0 x1 x2 x3 x4 x5 (ix2 a l))
      = Cert.Spec.round x1 (Cert.Spec.round x1 (fun a b => x0 (ix2 a b)) (fun a b => x2 (ix2 a b)) (fun a => x3 (ix1 a)))
          (fun a b => x4 (ix2 a b)) (fun a => x5 (ix1 a)) := by
  funext a l
  rw [v65_read]
  unfold Cert.Spec.round
  rw [show (fun a l => val_main_v38 (F := Ideal) x0 x1 x2 x3 x4 x5 (ix2 a l))
      = Cert.Spec.lin (fun a l => val_main_v34 (F := Ideal) x0 x1 x2 x3 (ix2 a l)) (fun a b => x4 (ix2 a b)) (fun a => x5 (ix1 a))
    from funext fun a => funext fun l => v38_read x0 x1 x2 x3 x4 x5 a l, v34_round]
  rfl

theorem ref_val (p : Fin 50000) (q : Fin 40) :
    (val_main_v74 (F := Ideal) x0 x1 x2 x3 x4 x5 x6 x7 x8 x9 : S50000x40.Idx → EReal) (ix2 p q)
      = Cert.Spec.model (fun a b => x0 (ix2 a b)) x1 (fun a b => x2 (ix2 a b)) (fun a => x3 (ix1 a))
          (fun a b => x4 (ix2 a b)) (fun a => x5 (ix1 a)) (fun a b => x6 (ix2 a b)) (fun a => x7 (ix1 a))
          (fun a b => x8 (ix2 a b)) (fun a => x9 (ix1 a)) p q := by
  rw [v74_read]
  unfold Cert.Spec.model
  rw [show (fun a b => val_main_v73 (F := Ideal) x0 x1 x2 x3 x4 x5 x6 x7 x8 x9 (ix2 a b))
      = Cert.Spec.lin (fun a l => val_main_v69 (F := Ideal) x0 x1 x2 x3 x4 x5 x6 x7 (ix2 a l)) (fun a b => x8 (ix2 a b)) (fun a => x9 (ix1 a))
    from funext fun a => funext fun b => v73_read x0 x1 x2 x3 x4 x5 x6 x7 x8 x9 a b,
    show (fun a l => val_main_v69 (F := Ideal) x0 x1 x2 x3 x4 x5 x6 x7 (ix2 a l))
      = Cert.Spec.lin (fun a l => val_main_v65 (F := Ideal) x0 x1 x2 x3 x4 x5 (ix2 a l)) (fun a b => x6 (ix2 a b)) (fun a => x7 (ix1 a))
    from funext fun a => funext fun l => v69_read x0 x1 x2 x3 x4 x5 x6 x7 a l,
    v65_round]

end Stages

end Cert.RefSide

end
-- ==== Proof.K.Lin0Defs.lean ====
/-
  A dense layer's kernel region (a block of 5000 rows of the input times the 64x64 weight, plus the bias row), read at
  the contents V the region is entered with: each window's block at a grid point, what the body leaves in the output
  window's buffer as a function of the three input blocks, and the region's proof data.
-/
import proofs.«414250_j49357764165687_1_alg».proof.Proof.Gen.Kernel.Launch
import proofs.«414250_j49357764165687_1_alg».proof.Proof.Gen.Kernel.Skeleton
import proofs.«414250_j49357764165687_1_alg».proof.Proof.Gen.Kernel.Points
import proofs.«414250_j49357764165687_1_alg».proof.Proof.Gen.Kernel.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 5000x64 block, the whole weight and the whole bias row: the body's three loads and its one store. -/
abbrev rX0 : Rect S5000x64 := Rect.unit (s := S5000x64) ![0, 0] S5000x64.size inb_S5000x64_S5000x64_0_0
abbrev rW0 : Rect S64x64 := Rect.unit (s := S64x64) ![0, 0] S64x64.size inb_S64x64_S64x64_0_0
abbrev rB0 : Rect S64 := Rect.unit (s := S64) ![0] S64.size inb_S64_S64_0

/-- The output window's buffer after the body: one whole-block store of the product plus bias. -/
def out0_3 (x0 : Vec F S5000x64 .f32) (x1 : Vec F S64x64 .f32) (x2 : Vec F S64 .f32) : Vec F S5000x64 .f32 :=
  View.canon [⟨rX0, k0_pay1 (View.ld x0 rX0) (View.ld x1 rW0) (View.ld x2 rB0)⟩]

/-- The region's proof data on core c: the arrays as entered; each input's buffer at its block, the output's at the
    product plus bias of the input blocks; the scoped rest and the generator register untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

end Cert.Kernel.H

end
-- ==== Proof.K.Agg1Defs.lean ====
/-
  The first layer's aggregation kernel region (196 tiles of 4096 edges; per tile the scratch is zeroed, the scratch
  gathers the rows of h named by the tile's target column as fifty one-hot products, and the scratch times the edge
  weights is scattered into the output buffer by the source column as fifty transposed one-hot products), read at the
  contents V the region is entered with: each window's block at a grid point; the body's run at the first point, at a
  middle point and at the last point, each as a triple whose witness is the list of pieces the output buffer ends with;
  what the output buffer holds after each point, by recursion on the point; and the region's proof data.

  WHAT THE TWO BUFFERS RECEIVE AT A POINT, IN ORDER (v7 the target tile, v10 the source tile, v13 the weight tile):
  * the scratch, at every point: (1) a store of the whole buffer, k1_pay2 (zeros); (2) the first loop, trips k = 0 … 49
    in order: trip k loads rows 1000k … 1000k+999 of the h buffer (v33) and the whole scratch (v41) and stores the whole
    scratch, k1_pay3 v7 k v33 v41. After the loop the whole scratch is loaded once: v17.
  * the output buffer: AT THE FIRST POINT (0) a store of the whole buffer, k1_pay1 (zeros); AT EVERY POINT the second
    loop, trips k = 0 … 49 in order: trip k loads rows 1000k … 1000k+999 of the output buffer (v40) and stores those
    rows, k1_pay4 v10 v13 v17 k v40; AT THE LAST POINT then a load of the whole buffer (v25) and a store of the whole
    buffer, k1_pay5 v25 (the maximum with zero). At a point that is not the first the buffer is found at what the point
    before left: it is written back only after the last point.
  The piece lists the runs find (last store first): at the first point  pb_k1_t2 … G 50 ++ [whole ↦ k1_pay1]  with G
  the buffer over junk after that one store; at a middle point  pb_k1_t2 … G 50  with G the buffer as found; at the
  last point  (whole ↦ k1_pay5 v25) :: pb_k1_t2 … G 50.
-/
import proofs.«414250_j49357764165687_1_alg».proof.Proof.Gen.Kernel.Launch
import proofs.«414250_j49357764165687_1_alg».proof.Proof.Gen.Kernel.Skeleton
import proofs.«414250_j49357764165687_1_alg».proof.Proof.Gen.Kernel.Points
import proofs.«414250_j49357764165687_1_alg».proof.Proof.Gen.Kernel.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's two conditionals -/

/-- The condition of the body's first conditional (the output buffer is zeroed), from the grid coordinates. -/
abbrev cond1_a (i : grid1.Coords) : Prop := (Scalar.cmpi .ne (Scalar.extui (Scalar.cmpi .eq (BitVec.ofNat 32 (i 0).val) 0#32)) 0#32) = 1#1
/-- The condition of the body's last conditional (the output buffer is passed through the maximum with zero). -/
abbrev cond1_z (i : grid1.Coords) : Prop := (Scalar.cmpi .ne (Scalar.extui (Scalar.cmpi .eq (BitVec.ofNat 32 (i 0).val) 195#32)) 0#32) = 1#1
/-- The first holds at the first point only, the last at the last point only: decided over the grid. -/
theorem hcond1_a : ∀ t : Fin cfg1.N, cond1_a (grid1.coords t) ↔ t.val % 196 = 0 :=
  (by decide +kernel : ∀ t : Fin grid1.N, cond1_a (grid1.coords t) ↔ t.val % 196 = 0)
theorem hcond1_z : ∀ t : Fin cfg1.N, cond1_z (grid1.coords t) ↔ t.val % 196 = 195 :=
  (by decide +kernel : ∀ t : Fin grid1.N, cond1_z (grid1.coords t) ↔ t.val % 196 = 195)

theorem cond1_a_of (t : Fin cfg1.N) (h : t.val = 0) : cond1_a (grid1.coords t) := (hcond1_a t).mpr (by omega)
theorem not_cond1_a (t : Fin cfg1.N) (h : t.val ≠ 0) : ¬cond1_a (grid1.coords t) := fun hc => by
  have hm := (hcond1_a t).mp hc
  have hN : t.val < 196 := lt_of_lt_of_eq t.isLt (show cfg1.N = 196 from N_1)
  omega
theorem cond1_z_of (t : Fin cfg1.N) (h : t.val = 195) : cond1_z (grid1.coords t) := (hcond1_z t).mpr (by omega)
theorem not_cond1_z (t : Fin cfg1.N) (h : t.val ≠ 195) : ¬cond1_z (grid1.coords t) := fun hc => by
  have hm := (hcond1_z t).mp hc
  have hN : t.val < 196 := lt_of_lt_of_eq t.isLt (show cfg1.N = 196 from N_1)
  omega

/-! ## The memrefs the body is called with at a point -/

/-- Each window's current staging memref at point t, spelled as the pipeline passes it, and its wholeness:
    S the source tile, D the target tile, W the weight tile, H the rows of h, O the output; X the scratch. -/
abbrev mS1 (t : Fin cfg1.N) : Memref sig .tc .vmem S4096 .i32 := win1_0.stage (cfg1.slots t 0)
abbrev hS1 (t : Fin cfg1.N) : (mS1 t).IsWhole := hstage1_0 ((cfg1.slots t 0).cast nbuf1_0)
abbrev mD1 (t : Fin cfg1.N) : Memref sig .tc .vmem S4096 .i32 := win1_1.stage (cfg1.slots t 1)
abbrev hD1 (t : Fin cfg1.N) : (mD1 t).IsWhole := hstage1_1 ((cfg1.slots t 1).cast nbuf1_1)
abbrev mW1 (t : Fin cfg1.N) : Memref sig .tc .vmem S4096 .f32 := win1_2.stage (cfg1.slots t 2)
abbrev hW1 (t : Fin cfg1.N) : (mW1 t).IsWhole := hstage1_2 ((cfg1.slots t 2).cast nbuf1_2)
abbrev mH1 (t : Fin cfg1.N) : Memref sig .tc .vmem S50000x64 .bf16 := win1_3.stage (cfg1.slots t 3)
abbrev hH1 (t : Fin cfg1.N) : (mH1 t).IsWhole := hstage1_3 ((cfg1.slots t 3).cast nbuf1_3)
abbrev mO1 (t : Fin cfg1.N) : Memref sig .tc .vmem S50000x64 .f32 := win1_4.stage (cfg1.slots t 4)
abbrev hO1 (t : Fin cfg1.N) : (mO1 t).IsWhole := hstage1_4 ((cfg1.slots t 4).cast nbuf1_4)
abbrev mX1 : Memref sig .tc .vmem S4096x64 .f32 := Memref.whole cc1_scratch0
abbrev hX1 : (mX1).IsWhole := Memref.isWhole_whole _

/-! ## The body's run, case by case -/

set_option maxHeartbeats 4000000 in
/-- THE FIRST POINT (the first conditional taken, the last not). On whole memrefs — the four inputs at their contents, the output buffer and the scratch at anything — the body runs to the continuation holding the inputs as they were, the output buffer with the pieces `L` written and the scratch at some contents; `L` is the witness the run finds. -/
noncomputable def kernelRun1_A (c : Dev nD) (i : grid1.Coords)
    (mS : Memref sig .tc .vmem S4096 .i32) (hS : mS.IsWhole) (mD : Memref sig .tc .vmem S4096 .i32) (hD : mD.IsWhole)
    (mW : Memref sig .tc .vmem S4096 .f32) (hW : mW.IsWhole) (mH : Memref sig .tc .vmem S50000x64 .bf16) (hH : mH.IsWhole)
    (mO : Memref sig .tc .vmem S50000x64 .f32) (hO : mO.IsWhole) (mX : Memref sig .tc .vmem S4096x64 .f32) (hX : mX.IsWhole)
    (hca : cond1_a i) (hcz : ¬cond1_z i)
    (xs : Vec F S4096 .i32) (xd : Vec F S4096 .i32) (xw : Vec F S4096 .f32) (xh : Vec F S50000x64 .bf16) :
    { L : List (View.Piece (Elt F) S50000x64 .f32) //
      ∀ (E : Set ℕ) (K : PUnit → sProp 𝕄),
        iprop(owns (c : Thread nD τ) mS fullShare xs ∗ owns (c : Thread nD τ) mD fullShare xd ∗ owns (c : Thread nD τ) mW fullShare xw
            ∗ owns (c : Thread nD τ) mH fullShare xh ∗ (∃ d, owns (c : Thread nD τ) mO fullShare d)
            ∗ (∃ X, owns (c : Thread nD τ) mX fullShare X)
            ∗ (iprop(owns (c : Thread nD τ) mS fullShare xs ∗ owns (c : Thread nD τ) mD fullShare xd ∗ owns (c : Thread nD τ) mW fullShare xw
                ∗ owns (c : Thread nD τ) mH fullShare xh
                ∗ (∃ f, mO.view.loc (c : Thread nD τ) ↦[mO.view.set]{fullShare} mO.view.writes (Elt F) f L)
                ∗ (∃ X, owns (c : Thread nD τ) mX fullShare X)) -∗ K ⟨⟩))
          ⊢ wp frame (wpE (defs₀ (F := F)) Variants.none c none) E (cc1_kernel i mS hS mD hD mW hW mH hH mO hO mX hX) K } := by
  refine ⟨?_, fun E K => ?run⟩
  case run =>
    simp only [cc1_kernel_eq_skeleton]; unfold cc1_kernel_skel
    unfold owns
    iintro ⟨⟨%fs, %hfs, HS⟩, ⟨%fd, %hfd, HD⟩, ⟨%fw, %hfw, HW⟩, ⟨%fh, %hfh, HH⟩, ⟨%d, %fo, -, HO⟩, ⟨%xg, %g, -, HX⟩, Hk⟩
    obtain rfl := hS.eq_unread hfs; obtain rfl := hD.eq_unread hfd; obtain rfl := hW.eq_unread hfw
    obtain rfl := hH.eq_unread hfh
    sl_exec (disch := first | exact hca | exact hcz)
    sl_step
    iapply Hk
    isplitl [HS]
    · iexists _; isplitr; · ipureintro; exact hS.read_unread _
      iexact HS
    isplitl [HD]
    · iexists _; isplitr; · ipureintro; exact hD.read_unread _
      iexact HD
    isplitl [HW]
    · iexists _; isplitr; · ipureintro; exact hW.read_unread _
      iexact HW
    isplitl [HH]
    · iexists _; isplitr; · ipureintro; exact hH.read_unread _
      iexact HH
    isplitl [HO]
    · iexists _; iexact HO
    iexists _; iexists _; isplitr
    swap; · iexact HX
    ipureintro; rfl

set_option maxHeartbeats 4000000 in
/-- A MIDDLE POINT (neither conditional taken): as at the first point, but the output buffer is found at contents `xo`, which the body's second loop reads back. -/
noncomputable def kernelRun1_B (c : Dev nD) (i : grid1.Coords)
    (mS : Memref sig .tc .vmem S4096 .i32) (hS : mS.IsWhole) (mD : Memref sig .tc .vmem S4096 .i32) (hD : mD.IsWhole)
    (mW : Memref sig .tc .vmem S4096 .f32) (hW : mW.IsWhole) (mH : Memref sig .tc .vmem S50000x64 .bf16) (hH : mH.IsWhole)
    (mO : Memref sig .tc .vmem S50000x64 .f32) (hO : mO.IsWhole) (mX : Memref sig .tc .vmem S4096x64 .f32) (hX : mX.IsWhole)
    (hca : ¬cond1_a i) (hcz : ¬cond1_z i)
    (xs : Vec F S4096 .i32) (xd : Vec F S4096 .i32) (xw : Vec F S4096 .f32) (xh : Vec F S50000x64 .bf16) (xo : Vec F S50000x64 .f32) :
    { L : List (View.Piece (Elt F) S50000x64 .f32) //
      ∀ (E : Set ℕ) (K : PUnit → sProp 𝕄),
        iprop(owns (c : Thread nD τ) mS fullShare xs ∗ owns (c : Thread nD τ) mD fullShare xd ∗ owns (c : Thread nD τ) mW fullShare xw
            ∗ owns (c : Thread nD τ) mH fullShare xh ∗ owns (c : Thread nD τ) mO fullShare xo
            ∗ (∃ X, owns (c : Thread nD τ) mX fullShare X)
            ∗ (iprop(owns (c : Thread nD τ) mS fullShare xs ∗ owns (c : Thread nD τ) mD fullShare xd ∗ owns (c : Thread nD τ) mW fullShare xw
                ∗ owns (c : Thread nD τ) mH fullShare xh
                ∗ (∃ f, mO.view.loc (c : Thread nD τ) ↦[mO.view.set]{fullShare} mO.view.writes (Elt F) f L)
                ∗ (∃ X, owns (c : Thread nD τ) mX fullShare X)) -∗ K ⟨⟩))
          ⊢ wp frame (wpE (defs₀ (F := F)) Variants.none c none) E (cc1_kernel i mS hS mD hD mW hW mH hH mO hO mX hX) K } := by
  refine ⟨?_, fun E K => ?run⟩
  case run =>
    simp only [cc1_kernel_eq_skeleton]; unfold cc1_kernel_skel
    unfold owns
    iintro ⟨⟨%fs, %hfs, HS⟩, ⟨%fd, %hfd, HD⟩, ⟨%fw, %hfw, HW⟩, ⟨%fh, %hfh, HH⟩, ⟨%fo, %hfo, HO⟩, ⟨%xg, %g, -, HX⟩, Hk⟩
    obtain rfl := hS.eq_unread hfs; obtain rfl := hD.eq_unread hfd; obtain rfl := hW.eq_unread hfw
    obtain rfl := hH.eq_unread hfh; obtain rfl := hO.eq_unread hfo
    sl_exec (disch := first | exact hca | exact hcz)
    sl_step
    iapply Hk
    isplitl [HS]
    · iexists _; isplitr; · ipureintro; exact hS.read_unread _
      iexact HS
    isplitl [HD]
    · iexists _; isplitr; · ipureintro; exact hD.read_unread _
      iexact HD
    isplitl [HW]
    · iexists _; isplitr; · ipureintro; exact hW.read_unread _
      iexact HW
    isplitl [HH]
    · iexists _; isplitr; · ipureintro; exact hH.read_unread _
      iexact HH
    isplitl [HO]
    · iexists _; iexact HO
    iexists _; iexists _; isplitr
    swap; · iexact HX
    ipureintro; rfl

set_option maxHeartbeats 4000000 in
set_option maxRecDepth 65536 in
/-- THE LAST POINT (the first conditional not taken, the last taken): as at a middle point, then the whole output buffer is read and stored back through the final payload. -/
noncomputable def kernelRun1_C (c : Dev nD) (i : grid1.Coords)
    (mS : Memref sig .tc .vmem S4096 .i32) (hS : mS.IsWhole) (mD : Memref sig .tc .vmem S4096 .i32) (hD : mD.IsWhole)
    (mW : Memref sig .tc .vmem S4096 .f32) (hW : mW.IsWhole) (mH : Memref sig .tc .vmem S50000x64 .bf16) (hH : mH.IsWhole)
    (mO : Memref sig .tc .vmem S50000x64 .f32) (hO : mO.IsWhole) (mX : Memref sig .tc .vmem S4096x64 .f32) (hX : mX.IsWhole)
    (hca : ¬cond1_a i) (hcz : cond1_z i)
    (xs : Vec F S4096 .i32) (xd : Vec F S4096 .i32) (xw : Vec F S4096 .f32) (xh : Vec F S50000x64 .bf16) (xo : Vec F S50000x64 .f32) :
    { L : List (View.Piece (Elt F) S50000x64 .f32) //
      ∀ (E : Set ℕ) (K : PUnit → sProp 𝕄),
        iprop(owns (c : Thread nD τ) mS fullShare xs ∗ owns (c : Thread nD τ) mD fullShare xd ∗ owns (c : Thread nD τ) mW fullShare xw
            ∗ owns (c : Thread nD τ) mH fullShare xh ∗ owns (c : Thread nD τ) mO fullShare xo
            ∗ (∃ X, owns (c : Thread nD τ) mX fullShare X)
            ∗ (iprop(owns (c : Thread nD τ) mS fullShare xs ∗ owns (c : Thread nD τ) mD fullShare xd ∗ owns (c : Thread nD τ) mW fullShare xw
                ∗ owns (c : Thread nD τ) mH fullShare xh
                ∗ (∃ f, mO.view.loc (c : Thread nD τ) ↦[mO.view.set]{fullShare} mO.view.writes (Elt F) f L)
                ∗ (∃ X, owns (c : Thread nD τ) mX fullShare X)) -∗ K ⟨⟩))
          ⊢ wp frame (wpE (defs₀ (F := F)) Variants.none c none) E (cc1_kernel i mS hS mD hD mW hW mH hH mO hO mX hX) K } := by
  refine ⟨?_, fun E K => ?run⟩
  case run =>
    simp only [cc1_kernel_eq_skeleton]; unfold cc1_kernel_skel
    unfold owns
    iintro ⟨⟨%fs, %hfs, HS⟩, ⟨%fd, %hfd, HD⟩, ⟨%fw, %hfw, HW⟩, ⟨%fh, %hfh, HH⟩, ⟨%fo, %hfo, HO⟩, ⟨%xg, %g, -, HX⟩, Hk⟩
    obtain rfl := hS.eq_unread hfs; obtain rfl := hD.eq_unread hfd; obtain rfl := hW.eq_unread hfw
    obtain rfl := hH.eq_unread hfh; obtain rfl := hO.eq_unread hfo
    sl_exec (disch := first | exact hca | exact hcz)
    sl_step
    iapply Hk
    isplitl [HS]
    · iexists _; isplitr; · ipureintro; exact hS.read_unread _
      iexact HS
    isplitl [HD]
    · iexists _; isplitr; · ipureintro; exact hD.read_unread _
      iexact HD
    isplitl [HW]
    · iexists _; isplitr; · ipureintro; exact hW.read_unread _
      iexact HW
    isplitl [HH]
    · iexists _; isplitr; · ipureintro; exact hH.read_unread _
      iexact HH
    isplitl [HO]
    · iexists (hO.unread xo)
      have e : (kernelRun1_C.sl.HO_w1 c i mS hS mD hD mW hW mH hH mO hO mX hX xs xd xw xh xo : BufTy.Contents (Elt F) mO.view.ty)
          = mO.view.writes (Elt F) (hO.unread xo)
              (⟨Rect.unit (s := S50000x64) ![0, 0] S50000x64.size inb_S50000x64_S50000x64_0_0,
                  k1_pay5 (kernelRun1_C.sl.v25 c i mS hS mD hD mW hW mH hH mO hO mX hX xs xd xw xh xo)⟩ ::
                pb_k1_t2 Variants.none c none i mS hS mD hD mW hW mH hH mO hO mX hX
                  (View.readAt (Elt F) mS.view (Rect.unit ![0] S4096.size inb_S4096_S4096_0).toLoadRect (hS.unread xs))
                  (View.readAt (Elt F) mW.view (Rect.unit ![0] S4096.size inb_S4096_S4096_0).toLoadRect (hW.unread xw))
                  (kernelRun1_C.sl.v17 c i mS hS mD hD mW hW mH hH mO hO mX hX xd xh) (hO.unread xo)
                  (Scf.trips k1_t2_loop.lb k1_t2_loop.ub k1_t2_loop.st)) := by
        unfold kernelRun1_C.sl.HO_w1
        exact rfl
      rw [e]
      iexact HO
    iexists _; iexists _; isplitr
    swap; · iexact HX
    ipureintro; rfl

/-! ## What the output buffer holds after the body, case by case -/

/-- At the first point the pieces cover the output buffer: the store of zeros is of the whole buffer. -/
theorem cover1_A (c : Dev nD) (i : grid1.Coords)
    (mS : Memref sig .tc .vmem S4096 .i32) (hS : mS.IsWhole) (mD : Memref sig .tc .vmem S4096 .i32) (hD : mD.IsWhole)
    (mW : Memref sig .tc .vmem S4096 .f32) (hW : mW.IsWhole) (mH : Memref sig .tc .vmem S50000x64 .bf16) (hH : mH.IsWhole)
    (mO : Memref sig .tc .vmem S50000x64 .f32) (hO : mO.IsWhole) (mX : Memref sig .tc .vmem S4096x64 .f32) (hX : mX.IsWhole)
    (hca : cond1_a i) (hcz : ¬cond1_z i)
    (xs : Vec F S4096 .i32) (xd : Vec F S4096 .i32) (xw : Vec F S4096 .f32) (xh : Vec F S50000x64 .bf16) (y : S50000x64.Idx) :
    ∃ pc ∈ (kernelRun1_A c i mS hS mD hD mW hW mH hH mO hO mX hX hca hcz xs xd xw xh).1, y ∈ pc.1.set :=
  View.cover_of_wholeMem _ (by sl_whole_mem) y

/-- What the output buffer holds after the body in this case: the pieces read back over junk. -/
def out1_A (c : Dev nD) (i : grid1.Coords)
    (mS : Memref sig .tc .vmem S4096 .i32) (hS : mS.IsWhole) (mD : Memref sig .tc .vmem S4096 .i32) (hD : mD.IsWhole)
    (mW : Memref sig .tc .vmem S4096 .f32) (hW : mW.IsWhole) (mH : Memref sig .tc .vmem S50000x64 .bf16) (hH : mH.IsWhole)
    (mO : Memref sig .tc .vmem S50000x64 .f32) (hO : mO.IsWhole) (mX : Memref sig .tc .vmem S4096x64 .f32) (hX : mX.IsWhole)
    (hca : cond1_a i) (hcz : ¬cond1_z i)
    (xs : Vec F S4096 .i32) (xd : Vec F S4096 .i32) (xw : Vec F S4096 .f32) (xh : Vec F S50000x64 .bf16) : Vec F S50000x64 .f32 :=
  mO.view.read (Elt F) (mO.view.writes (Elt F) mO.view.junk (kernelRun1_A c i mS hS mD hD mW hW mH hH mO hO mX hX hca hcz xs xd xw xh).1)

/-- At a middle point the pieces cover the output buffer: the second loop's fifty stores of a thousand rows tile it. -/
theorem cover1_B (c : Dev nD) (i : grid1.Coords)
    (mS : Memref sig .tc .vmem S4096 .i32) (hS : mS.IsWhole) (mD : Memref sig .tc .vmem S4096 .i32) (hD : mD.IsWhole)
    (mW : Memref sig .tc .vmem S4096 .f32) (hW : mW.IsWhole) (mH : Memref sig .tc .vmem S50000x64 .bf16) (hH : mH.IsWhole)
    (mO : Memref sig .tc .vmem S50000x64 .f32) (hO : mO.IsWhole) (mX : Memref sig .tc .vmem S4096x64 .f32) (hX : mX.IsWhole)
    (hca : ¬cond1_a i) (hcz : ¬cond1_z i)
    (xs : Vec F S4096 .i32) (xd : Vec F S4096 .i32) (xw : Vec F S4096 .f32) (xh : Vec F S50000x64 .bf16) (xo : Vec F S50000x64 .f32) (y : S50000x64.Idx) :
    ∃ pc ∈ (kernelRun1_B c i mS hS mD hD mW hW mH hH mO hO mX hX hca hcz xs xd xw xh xo).1, y ∈ pc.1.set :=
  View.cover_of_tiledL (kernelRun1_B c i mS hS mD hD mW hW mH hH mO hO mX hX hca hcz xs xd xw xh xo).1 S1000x64.size (by sl_kernel_rfl) y

/-- What the output buffer holds after the body in this case: the pieces read back over junk. -/
def out1_B (c : Dev nD) (i : grid1.Coords)
    (mS : Memref sig .tc .vmem S4096 .i32) (hS : mS.IsWhole) (mD : Memref sig .tc .vmem S4096 .i32) (hD : mD.IsWhole)
    (mW : Memref sig .tc .vmem S4096 .f32) (hW : mW.IsWhole) (mH : Memref sig .tc .vmem S50000x64 .bf16) (hH : mH.IsWhole)
    (mO : Memref sig .tc .vmem S50000x64 .f32) (hO : mO.IsWhole) (mX : Memref sig .tc .vmem S4096x64 .f32) (hX : mX.IsWhole)
    (hca : ¬cond1_a i) (hcz : ¬cond1_z i)
    (xs : Vec F S4096 .i32) (xd : Vec F S4096 .i32) (xw : Vec F S4096 .f32) (xh : Vec F S50000x64 .bf16) (xo : Vec F S50000x64 .f32) : Vec F S50000x64 .f32 :=
  mO.view.read (Elt F) (mO.view.writes (Elt F) mO.view.junk (kernelRun1_B c i mS hS mD hD mW hW mH hH mO hO mX hX hca hcz xs xd xw xh xo).1)

/-- At the last point the pieces cover the output buffer: the last store is of the whole buffer. -/
theorem cover1_C (c : Dev nD) (i : grid1.Coords)
    (mS : Memref sig .tc .vmem S4096 .i32) (hS : mS.IsWhole) (mD : Memref sig .tc .vmem S4096 .i32) (hD : mD.IsWhole)
    (mW : Memref sig .tc .vmem S4096 .f32) (hW : mW.IsWhole) (mH : Memref sig .tc .vmem S50000x64 .bf16) (hH : mH.IsWhole)
    (mO : Memref sig .tc .vmem S50000x64 .f32) (hO : mO.IsWhole) (mX : Memref sig .tc .vmem S4096x64 .f32) (hX : mX.IsWhole)
    (hca : ¬cond1_a i) (hcz : cond1_z i)
    (xs : Vec F S4096 .i32) (xd : Vec F S4096 .i32) (xw : Vec F S4096 .f32) (xh : Vec F S50000x64 .bf16) (xo : Vec F S50000x64 .f32) (y : S50000x64.Idx) :
    ∃ pc ∈ (kernelRun1_C c i mS hS mD hD mW hW mH hH mO hO mX hX hca hcz xs xd xw xh xo).1, y ∈ pc.1.set :=
  View.cover_of_wholeMem _ (by sl_whole_mem) y

/-- What the output buffer holds after the body in this case: the pieces read back over junk. -/
def out1_C (c : Dev nD) (i : grid1.Coords)
    (mS : Memref sig .tc .vmem S4096 .i32) (hS : mS.IsWhole) (mD : Memref sig .tc .vmem S4096 .i32) (hD : mD.IsWhole)
    (mW : Memref sig .tc .vmem S4096 .f32) (hW : mW.IsWhole) (mH : Memref sig .tc .vmem S50000x64 .bf16) (hH : mH.IsWhole)
    (mO : Memref sig .tc .vmem S50000x64 .f32) (hO : mO.IsWhole) (mX : Memref sig .tc .vmem S4096x64 .f32) (hX : mX.IsWhole)
    (hca : ¬cond1_a i) (hcz : cond1_z i)
    (xs : Vec F S4096 .i32) (xd : Vec F S4096 .i32) (xw : Vec F S4096 .f32) (xh : Vec F S50000x64 .bf16) (xo : Vec F S50000x64 .f32) : Vec F S50000x64 .f32 :=
  mO.view.read (Elt F) (mO.view.writes (Elt F) mO.view.junk (kernelRun1_C c i mS hS mD hD mW hW mH hH mO hO mX hX hca hcz xs xd xw xh xo).1)

/-! ## What the output buffer holds after each point -/

/-- THE ACCUMULATION. What the output's staging buffer holds after the body at position n: the run of the point's case
    at the point's memrefs and input blocks; after the first point, over what the point before left (the buffer is not
    written back between). -/
def acc1 (c : Dev nD) : (n : ℕ) → n < cfg1.N → Vec F S50000x64 .f32
  | 0, hn => out1_A c (grid1.coords ⟨0, hn⟩) (mS1 ⟨0, hn⟩) (hS1 ⟨0, hn⟩) (mD1 ⟨0, hn⟩) (hD1 ⟨0, hn⟩) (mW1 ⟨0, hn⟩) (hW1 ⟨0, hn⟩) (mH1 ⟨0, hn⟩) (hH1 ⟨0, hn⟩) (mO1 ⟨0, hn⟩) (hO1 ⟨0, hn⟩) mX1 hX1 (cond1_a_of ⟨0, hn⟩ rfl) (not_cond1_z ⟨0, hn⟩ (show (0 : ℕ) ≠ 195 by decide)) (iblk1 V c 0 ⟨0, hn⟩) (iblk1 V c 1 ⟨0, hn⟩) (iblk1 V c 2 ⟨0, hn⟩) (iblk1 V c 3 ⟨0, hn⟩)
  | n + 1, hn =>
    if hz : n + 1 = 195 then
      out1_C c (grid1.coords ⟨n + 1, hn⟩) (mS1 ⟨n + 1, hn⟩) (hS1 ⟨n + 1, hn⟩) (mD1 ⟨n + 1, hn⟩) (hD1 ⟨n + 1, hn⟩) (mW1 ⟨n + 1, hn⟩) (hW1 ⟨n + 1, hn⟩) (mH1 ⟨n + 1, hn⟩) (hH1 ⟨n + 1, hn⟩) (mO1 ⟨n + 1, hn⟩) (hO1 ⟨n + 1, hn⟩) mX1 hX1 (not_cond1_a ⟨n + 1, hn⟩ (Nat.succ_ne_zero n)) (cond1_z_of ⟨n + 1, hn⟩ hz) (iblk1 V c 0 ⟨n + 1, hn⟩) (iblk1 V c 1 ⟨n + 1, hn⟩) (iblk1 V c 2 ⟨n + 1, hn⟩) (iblk1 V c 3 ⟨n + 1, hn⟩) (acc1 c n (Nat.lt_of_succ_lt hn))
    else
      out1_B c (grid1.coords ⟨n + 1, hn⟩) (mS1 ⟨n + 1, hn⟩) (hS1 ⟨n + 1, hn⟩) (mD1 ⟨n + 1, hn⟩) (hD1 ⟨n + 1, hn⟩) (mW1 ⟨n + 1, hn⟩) (hW1 ⟨n + 1, hn⟩) (mH1 ⟨n + 1, hn⟩) (hH1 ⟨n + 1, hn⟩) (mO1 ⟨n + 1, hn⟩) (hO1 ⟨n + 1, hn⟩) mX1 hX1 (not_cond1_a ⟨n + 1, hn⟩ (Nat.succ_ne_zero n)) (not_cond1_z ⟨n + 1, hn⟩ hz) (iblk1 V c 0 ⟨n + 1, hn⟩) (iblk1 V c 1 ⟨n + 1, hn⟩) (iblk1 V c 2 ⟨n + 1, hn⟩) (iblk1 V c 3 ⟨n + 1, hn⟩) (acc1 c n (Nat.lt_of_succ_lt hn))

/-- acc1 at the first point: the first case's contents. -/
theorem acc1_A (c : Dev nD) (t : Fin cfg1.N) (h0 : t.val = 0) :
    acc1 V c t.val t.isLt = out1_A c (grid1.coords t) (mS1 t) (hS1 t) (mD1 t) (hD1 t) (mW1 t) (hW1 t) (mH1 t) (hH1 t) (mO1 t) (hO1 t) mX1 hX1 (cond1_a_of t h0) (not_cond1_z t (by omega)) (iblk1 V c 0 t) (iblk1 V c 1 t) (iblk1 V c 2 t) (iblk1 V c 3 t) := by
  obtain ⟨n, hn⟩ := t
  cases n with
  | zero => exact rfl
  | succ n => exact absurd h0 (Nat.succ_ne_zero n)

/-- acc1 at a middle point: the middle case's contents, over what the point before left. -/
theorem acc1_B (c : Dev nD) (t : Fin cfg1.N) (h0 : t.val ≠ 0) (hz : t.val ≠ 195) :
    acc1 V c t.val t.isLt = out1_B c (grid1.coords t) (mS1 t) (hS1 t) (mD1 t) (hD1 t) (mW1 t) (hW1 t) (mH1 t) (hH1 t) (mO1 t) (hO1 t) mX1 hX1 (not_cond1_a t h0) (not_cond1_z t hz) (iblk1 V c 0 t) (iblk1 V c 1 t) (iblk1 V c 2 t) (iblk1 V c 3 t)
      (acc1 V c (t.val - 1) (Nat.lt_of_le_of_lt (Nat.sub_le _ _) t.isLt)) := by
  obtain ⟨n, hn⟩ := t
  cases n with
  | zero => exact absurd rfl h0
  | succ n => exact (dif_neg hz).trans rfl

/-- acc1 at the last point: the last case's contents, over what the point before left. -/
theorem acc1_C (c : Dev nD) (t : Fin cfg1.N) (hz : t.val = 195) :
    acc1 V c t.val t.isLt = out1_C c (grid1.coords t) (mS1 t) (hS1 t) (mD1 t) (hD1 t) (mW1 t) (hW1 t) (mH1 t) (hH1 t) (mO1 t) (hO1 t) mX1 hX1 (not_cond1_a t (by omega)) (cond1_z_of t hz) (iblk1 V c 0 t) (iblk1 V c 1 t) (iblk1 V c 2 t) (iblk1 V c 3 t)
      (acc1 V c (t.val - 1) (Nat.lt_of_le_of_lt (Nat.sub_le _ _) t.isLt)) := by
  obtain ⟨n, hn⟩ := t
  cases n with
  | zero => exact absurd hz (show (0 : ℕ) ≠ 195 by decide)
  | succ n => exact (dif_pos hz).trans rfl

/-! ## The region's proof data -/

/-- The region's proof data on core c: the arrays as entered; after the body at point t each input's buffer at its
    block and the output's at acc1; the scoped rest and the generator register untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => acc1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = acc1 V c t.val t.isLt := by dsimp only [dat1]

end Cert.Kernel.H

end
-- ==== Proof.K.Lin2Defs.lean ====
/-
  A dense layer's kernel region (a block of 5000 rows of the input times the 64x64 weight, plus the bias row), read at
  the contents V the region is entered with: each window's block at a grid point, what the body leaves in the output
  window's buffer as a function of the three input blocks, and the region's proof data.
-/
import proofs.«414250_j49357764165687_1_alg».proof.Proof.Gen.Kernel.Launch
import proofs.«414250_j49357764165687_1_alg».proof.Proof.Gen.Kernel.Skeleton
import proofs.«414250_j49357764165687_1_alg».proof.Proof.Gen.Kernel.Points
import proofs.«414250_j49357764165687_1_alg».proof.Proof.Gen.Kernel.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole 5000x64 block, the whole weight and the whole bias row: the body's three loads and its one store. -/
abbrev rX2 : Rect S5000x64 := Rect.unit (s := S5000x64) ![0, 0] S5000x64.size inb_S5000x64_S5000x64_0_0
abbrev rW2 : Rect S64x64 := Rect.unit (s := S64x64) ![0, 0] S64x64.size inb_S64x64_S64x64_0_0
abbrev rB2 : Rect S64 := Rect.unit (s := S64) ![0] S64.size inb_S64_S64_0

/-- The output window's buffer after the body: one whole-block store of the product plus bias. -/
def out2_3 (x0 : Vec F S5000x64 .f32) (x1 : Vec F S64x64 .f32) (x2 : Vec F S64 .f32) : Vec F S5000x64 .f32 :=
  View.canon [⟨rX2, k2_pay1 (View.ld x0 rX2) (View.ld x1 rW2) (View.ld x2 rB2)⟩]

/-- The region's proof data on core c: the arrays as entered; each input's buffer at its block, the output's at the
    product plus bias of the input blocks; the scoped rest and the generator register untouched; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

end Cert.Kernel.H

end
-- ==== Proof.K.Agg3Defs.lean ====
/-
  The second aggregation region runs the very kernel body the first one runs, on its own windows: its proof data are
  the first region's three runs of the body read at this region's windows.
-/
import proofs.«414250_j49357764165687_1_alg».proof.Proof.K.Agg1Defs

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Both aggregation regions call one kernel body. -/
theorem cc3_kernel_eq : @cc3_kernel F _ = @cc1_kernel F _ := rfl

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))
abbrev mS3 (t : Fin cfg3.N) : Memref sig .tc .vmem S4096 .i32 := win3_0.stage (cfg3.slots t 0)
abbrev hS3 (t : Fin cfg3.N) : (mS3 t).IsWhole := hstage3_0 ((cfg3.slots t 0).cast nbuf3_0)
abbrev mD3 (t : Fin cfg3.N) : Memref sig .tc .vmem S4096 .i32 := win3_1.stage (cfg3.slots t 1)
abbrev hD3 (t : Fin cfg3.N) : (mD3 t).IsWhole := hstage3_1 ((cfg3.slots t 1).cast nbuf3_1)
abbrev mW3 (t : Fin cfg3.N) : Memref sig .tc .vmem S4096 .f32 := win3_2.stage (cfg3.slots t 2)
abbrev hW3 (t : Fin cfg3.N) : (mW3 t).IsWhole := hstage3_2 ((cfg3.slots t 2).cast nbuf3_2)
abbrev mH3 (t : Fin cfg3.N) : Memref sig .tc .vmem S50000x64 .bf16 := win3_3.stage (cfg3.slots t 3)
abbrev hH3 (t : Fin cfg3.N) : (mH3 t).IsWhole := hstage3_3 ((cfg3.slots t 3).cast nbuf3_3)
abbrev mO3 (t : Fin cfg3.N) : Memref sig .tc .vmem S50000x64 .f32 := win3_4.stage (cfg3.slots t 4)
abbrev hO3 (t : Fin cfg3.N) : (mO3 t).IsWhole := hstage3_4 ((cfg3.slots t 4).cast nbuf3_4)
abbrev mX3 : Memref sig .tc .vmem S4096x64 .f32 := Memref.whole cc3_scratch0
abbrev hX3 : (mX3).IsWhole := Memref.isWhole_whole _

def acc3 (c : Dev nD) : (n : ℕ) → n < cfg3.N → Vec F S50000x64 .f32
  | 0, hn => out1_A c (grid3.coords ⟨0, hn⟩) (mS3 ⟨0, hn⟩) (hS3 ⟨0, hn⟩) (mD3 ⟨0, hn⟩) (hD3 ⟨0, hn⟩) (mW3 ⟨0, hn⟩) (hW3 ⟨0, hn⟩) (mH3 ⟨0, hn⟩) (hH3 ⟨0, hn⟩) (mO3 ⟨0, hn⟩) (hO3 ⟨0, hn⟩) mX3 hX3 (cond1_a_of ⟨0, hn⟩ rfl) (not_cond1_z ⟨0, hn⟩ (show (0 : ℕ) ≠ 195 by decide)) (iblk3 V c 0 ⟨0, hn⟩) (iblk3 V c 1 ⟨0, hn⟩) (iblk3 V c 2 ⟨0, hn⟩) (iblk3 V c 3 ⟨0, hn⟩)
  | n + 1, hn =>
    if hz : n + 1 = 195 then
      out1_C c (grid3.coords ⟨n + 1, hn⟩) (mS3 ⟨n + 1, hn⟩) (hS3 ⟨n + 1, hn⟩) (mD3 ⟨n + 1, hn⟩) (hD3 ⟨n + 1, hn⟩) (mW3 ⟨n + 1, hn⟩) (hW3 ⟨n + 1, hn⟩) (mH3 ⟨n + 1, hn⟩) (hH3 ⟨n + 1, hn⟩) (mO3 ⟨n + 1, hn⟩) (hO3 ⟨n + 1, hn⟩) mX3 hX3 (not_cond1_a ⟨n + 1, hn⟩ (Nat.succ_ne_zero n)) (cond1_z_of ⟨n + 1, hn⟩ hz) (iblk3 V c 0 ⟨n + 1, hn⟩) (iblk3 V c 1 ⟨n + 1, hn⟩) (iblk3 V c 2 ⟨n + 1, hn⟩) (iblk3 V c 3 ⟨n + 1, hn⟩) (acc3 c n (Nat.lt_of_succ_lt hn))
    else
      out1_B c (grid3.coords ⟨n + 1, hn⟩) (mS3 ⟨n + 1, hn⟩) (hS3 ⟨n + 1, hn⟩) (mD3 ⟨n + 1, hn⟩) (hD3 ⟨n + 1, hn⟩) (mW3 ⟨n + 1, hn⟩) (hW3 ⟨n + 1, hn⟩) (mH3 ⟨n + 1, hn⟩) (hH3 ⟨n + 1, hn⟩) (mO3 ⟨n + 1, hn⟩) (hO3 ⟨n + 1, hn⟩) mX3 hX3 (not_cond1_a ⟨n + 1, hn⟩ (Nat.succ_ne_zero n)) (not_cond1_z ⟨n + 1, hn⟩ hz) (iblk3 V c 0 ⟨n + 1, hn⟩) (iblk3 V c 1 ⟨n + 1, hn⟩) (iblk3 V c 2 ⟨n + 1, hn⟩) (iblk3 V c 3 ⟨n + 1, hn⟩) (acc3 c n (Nat.lt_of_succ_lt hn))

theorem acc3_A (c : Dev nD) (t : Fin cfg3.N) (h0 : t.val = 0) :
    acc3 V c t.val t.isLt = out1_A c (grid3.coords t) (mS3 t) (hS3 t) (mD3 t) (hD3 t) (mW3 t) (hW3 t) (mH3 t) (hH3 t) (mO3 t) (hO3 t) mX3 hX3 (cond1_a_of t h0) (not_cond1_z t (by omega)) (iblk3 V c 0 t) (iblk3 V c 1 t) (iblk3 V c 2 t) (iblk3 V c 3 t) := by
  obtain ⟨n, hn⟩ := t
  cases n with
  | zero => exact rfl
  | succ n => exact absurd h0 (Nat.succ_ne_zero n)

theorem acc3_B (c : Dev nD) (t : Fin cfg3.N) (h0 : t.val ≠ 0) (hz : t.val ≠ 195) :
    acc3 V c t.val t.isLt = out1_B c (grid3.coords t) (mS3 t) (hS3 t) (mD3 t) (hD3 t) (mW3 t) (hW3 t) (mH3 t) (hH3 t) (mO3 t) (hO3 t) mX3 hX3 (not_cond1_a t h0) (not_cond1_z t hz) (iblk3 V c 0 t) (iblk3 V c 1 t) (iblk3 V c 2 t) (iblk3 V c 3 t)
      (acc3 V c (t.val - 1) (Nat.lt_of_le_of_lt (Nat.sub_le _ _) t.isLt)) := by
  obtain ⟨n, hn⟩ := t
  cases n with
  | zero => exact absurd rfl h0
  | succ n => exact (dif_neg hz).trans rfl

theorem acc3_C (c : Dev nD) (t : Fin cfg3.N) (hz : t.val = 195) :
    acc3 V c t.val t.isLt = out1_C c (grid3.coords t) (mS3 t) (hS3 t) (mD3 t) (hD3 t) (mW3 t) (hW3 t) (mH3 t) (hH3 t) (mO3 t) (hO3 t) mX3 hX3 (not_cond1_a t (by omega)) (cond1_z_of t hz) (iblk3 V c 0 t) (iblk3 V c 1 t) (iblk3 V c 2 t) (iblk3 V c 3 t)
      (acc3 V c (t.val - 1) (Nat.lt_of_le_of_lt (Nat.sub_le _ _) t.isLt)) := by
  obtain ⟨n, hn⟩ := t
  cases n with
  | zero => exact absurd hz (show (0 : ℕ) ≠ 195 by decide)
  | succ n => exact (dif_pos hz).trans rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => acc3 V c t.val t.isLt
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = acc3 V c t.val t.isLt := by dsimp only [dat3]

end Cert.Kernel.H

end
-- ==== Proof.K.Lin4Defs.lean ====
/-
  The third dense layer's region runs the second one's kernel body on its own windows: its proof data are the second
  region's stored block read at this region's blocks.
-/
import proofs.«414250_j49357764165687_1_alg».proof.Proof.K.Lin2Defs

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (V : (c : Dev nD) → (b : Ref sig .tc) → Buf (Elt F) ((c : Thread nD τ).loc b))

/-- The two later dense layers of 64 columns call one kernel body. -/
theorem cc4_kernel_eq : @cc4_kernel F _ = @cc2_kernel F _ := rfl

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out2_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out2_3 (iblk4 V c 0 t) (iblk4 V c 1 t) (iblk4 V c 2 t) := by dsimp only [dat4]

end Cert.Kernel.H

end
-- ==== Proof.K.Lin5Defs.lean ====
/-
  The last kernel region (a block of 5000 rows times the 64x40 weight, plus the bias row, then each row's
  log-softmax: the row minus its maximum, minus the logarithm of the sum of the exponentials of that difference),
  read at the contents V the region is entered with: each window's block at a grid point, what the body leaves in
  the output window's buffer as a function of the three input blocks, and the region's proof data.
-/
import proofs.«414250_j49357764165687_1_alg».proof.Proof.Gen.Kernel.Launch
import proofs.«414250_j49357764165687_1_alg».proof.Proof.Gen.Kernel.Skeleton
import proofs.«414250_j49357764165687_1_alg».proof.Proof.Gen.Kernel.Points
import proofs.«414250_j49357764165687_1_alg».proof.Proof.Gen.Kernel.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (V : (c : Dev nD) → (b : Ref sig .tc) → Buf (Elt F) ((c : Thread nD τ).loc b))

/-- Window w's block at point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The whole 5000x64 block, the whole 64x40 weight and the whole bias row of 40: the body's three loads; the whole
    5000x40 block: its one store. -/
abbrev rX5 : Rect S5000x64 := Rect.unit (s := S5000x64) ![0, 0] S5000x64.size inb_S5000x64_S5000x64_0_0
abbrev rW5 : Rect S64x40 := Rect.unit (s := S64x40) ![0, 0] S64x40.size inb_S64x40_S64x40_0_0
abbrev rB5 : Rect S40 := Rect.unit (s := S40) ![0] S40.size inb_S40_S40_0
abbrev rO5 : Rect S5000x40 := Rect.unit (s := S5000x40) ![0, 0] S5000x40.size inb_S5000x40_S5000x40_0_0

/-- The output window's buffer after the body: one whole-block store of the row log-softmax of the product plus bias. -/
def out5_3 (x0 : Vec F S5000x64 .f32) (x1 : Vec F S64x40 .f32) (x2 : Vec F S40 .f32) : Vec F S5000x40 .f32 :=
  View.canon [⟨rO5, k5_pay1 (View.ld x0 rX5) (View.ld x1 rW5) (View.ld x2 rB5)⟩]

/-- The region's proof data on core c: the arrays as entered; each input's buffer at its block, the output's at the
    row log-softmax of the product plus bias of the input blocks; the scoped rest and the generator register
    untouched; nothing owed. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = out5_3 (iblk5 V c 0 t) (iblk5 V c 1 t) (iblk5 V c 2 t) := by dsimp only [dat5]

end Cert.Kernel.H

end
-- ==== Proof.K.Fold.lean ====
/-
  The contents of every unscoped buffer between the items of the kernel program's main function, with what each
  kernel region leaves in its result array named: region K's result is the final array of its own proof data, taken
  at the contents the region is entered with.  The names are fixed stage by stage, each stage reading only the
  stages before it, and the last stage serves every region.
-/
import proofs.«414250_j49357764165687_1_alg».proof.Proof.Gen.Kernel.Launch
import proofs.«414250_j49357764165687_1_alg».proof.Proof.Gen.Kernel.Skeleton
import proofs.«414250_j49357764165687_1_alg».proof.Proof.Gen.Kernel.Points
import proofs.«414250_j49357764165687_1_alg».proof.Proof.Gen.Kernel.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«414250_j49357764165687_1_alg».proof.Proof.K.Lin0Defs
import proofs.«414250_j49357764165687_1_alg».proof.Proof.K.Agg1Defs
import proofs.«414250_j49357764165687_1_alg».proof.Proof.K.Lin2Defs
import proofs.«414250_j49357764165687_1_alg».proof.Proof.K.Agg3Defs
import proofs.«414250_j49357764165687_1_alg».proof.Proof.K.Lin4Defs
import proofs.«414250_j49357764165687_1_alg».proof.Proof.K.Lin5Defs
import proofs.«414250_j49357764165687_1_alg».proof.Proof.Gen.Kernel.Regions

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ)

/-- A valuation read at the TensorCore's references. -/
abbrev atTc (W : Dev nD → Valuation τ sig (Elt F)) : (c : Dev nD) → (b : Ref sig .tc) → Buf (Elt F) ((c : Thread nD τ).loc b) :=
  fun c b => W c b

/-- Region 0 is entered at the contents after the first host stretch, which no region has touched. -/
abbrev Ein0 : (c : Dev nD) → (b : Ref sig .tc) → Buf (Elt F) ((c : Thread nD τ).loc b) := atTc (fun c => V1 m c)
/-- The buffers as region 0 leaves them: its arrays at the proof data's final contents, the rest as entered. -/
def U2 (c : Dev nD) : Valuation τ sig (Elt F) :=
  Pipeline.withArrays spec0 c (V1 m c) fun w => (dat0 (Ein0 m) c).arrAt w cfg0.N
/-- The stage that names region 0's result. -/
def outs2 : Outs (F := F) := fun _ r c => U2 m c r

/-- Region 1 is entered at the contents the earlier stages give. -/
abbrev Ein1 : (c : Dev nD) → (b : Ref sig .tc) → Buf (Elt F) ((c : Thread nD τ).loc b) := atTc (fun c => V9 m (outs2 m) c)
/-- The buffers as region 1 leaves them. -/
def U10 (c : Dev nD) : Valuation τ sig (Elt F) :=
  Pipeline.withArrays spec1 c (V9 m (outs2 m) c) fun w => (dat1 (Ein1 m) c).arrAt w cfg1.N
/-- The stage that also names region 1's result (item 10 of main). -/
def outs10 : Outs (F := F) := fun n r c => if n = 10 then U10 m c r else outs2 m n r c

/-- Region 2 is entered at the contents the earlier stages give. -/
abbrev Ein2 : (c : Dev nD) → (b : Ref sig .tc) → Buf (Elt F) ((c : Thread nD τ).loc b) := atTc (fun c => V10 m (outs10 m) c)
/-- The buffers as region 2 leaves them. -/
def U11 (c : Dev nD) : Valuation τ sig (Elt F) :=
  Pipeline.withArrays spec2 c (V10 m (outs10 m) c) fun w => (dat2 (Ein2 m) c).arrAt w cfg2.N
/-- The stage that also names region 2's result (item 11 of main). -/
def outs11 : Outs (F := F) := fun n r c => if n = 11 then U11 m c r else outs10 m n r c

/-- Region 3 is entered at the contents the earlier stages give. -/
abbrev Ein3 : (c : Dev nD) → (b : Ref sig .tc) → Buf (Elt F) ((c : Thread nD τ).loc b) := atTc (fun c => V18 m (outs11 m) c)
/-- The buffers as region 3 leaves them. -/
def U19 (c : Dev nD) : Valuation τ sig (Elt F) :=
  Pipeline.withArrays spec3 c (V18 m (outs11 m) c) fun w => (dat3 (Ein3 m) c).arrAt w cfg3.N
/-- The stage that also names region 3's result (item 19 of main). -/
def outs19 : Outs (F := F) := fun n r c => if n = 19 then U19 m c r else outs11 m n r c

/-- Region 4 is entered at the contents the earlier stages give. -/
abbrev Ein4 : (c : Dev nD) → (b : Ref sig .tc) → Buf (Elt F) ((c : Thread nD τ).loc b) := atTc (fun c => V19 m (outs19 m) c)
/-- The buffers as region 4 leaves them. -/
def U20 (c : Dev nD) : Valuation τ sig (Elt F) :=
  Pipeline.withArrays spec4 c (V19 m (outs19 m) c) fun w => (dat4 (Ein4 m) c).arrAt w cfg4.N
/-- The stage that also names region 4's result (item 20 of main). -/
def outs20 : Outs (F := F) := fun n r c => if n = 20 then U20 m c r else outs19 m n r c

/-- Region 5 is entered at the contents the earlier stages give. -/
abbrev Ein5 : (c : Dev nD) → (b : Ref sig .tc) → Buf (Elt F) ((c : Thread nD τ).loc b) := atTc (fun c => V20 m (outs20 m) c)
/-- The buffers as region 5 leaves them. -/
def U21 (c : Dev nD) : Valuation τ sig (Elt F) :=
  Pipeline.withArrays spec5 c (V20 m (outs20 m) c) fun w => (dat5 (Ein5 m) c).arrAt w cfg5.N
/-- The stage that also names region 5's result (item 21 of main). -/
def outs21 : Outs (F := F) := fun n r c => if n = 21 then U21 m c r else outs20 m n r c

/-- Every region's result named. -/
abbrev myOuts : Outs (F := F) := outs21 m

/-! What each stage says at an item it has named: the if-then-else on the item's number, resolved. -/
theorem outs10_2 (r : Ref sig .tc) (c : Dev nD) : outs10 m 2 r c = U2 m c r := by simp [outs10, outs2]
theorem outs11_2 (r : Ref sig .tc) (c : Dev nD) : outs11 m 2 r c = U2 m c r := by simp [outs11, outs10, outs2]
theorem outs11_10 (r : Ref sig .tc) (c : Dev nD) : outs11 m 10 r c = U10 m c r := by simp [outs11, outs10]
theorem outs19_2 (r : Ref sig .tc) (c : Dev nD) : outs19 m 2 r c = U2 m c r := by simp [outs19, outs11, outs10, outs2]
theorem outs19_10 (r : Ref sig .tc) (c : Dev nD) : outs19 m 10 r c = U10 m c r := by simp [outs19, outs11, outs10]
theorem outs19_11 (r : Ref sig .tc) (c : Dev nD) : outs19 m 11 r c = U11 m c r := by simp [outs19, outs11]
theorem outs20_2 (r : Ref sig .tc) (c : Dev nD) : outs20 m 2 r c = U2 m c r := by simp [outs20, outs19, outs11, outs10, outs2]
theorem outs20_10 (r : Ref sig .tc) (c : Dev nD) : outs20 m 10 r c = U10 m c r := by simp [outs20, outs19, outs11, outs10]
theorem outs20_11 (r : Ref sig .tc) (c : Dev nD) : outs20 m 11 r c = U11 m c r := by simp [outs20, outs19, outs11]
theorem outs20_19 (r : Ref sig .tc) (c : Dev nD) : outs20 m 19 r c = U19 m c r := by simp [outs20, outs19]
theorem myOuts_2 (r : Ref sig .tc) (c : Dev nD) : myOuts m 2 r c = U2 m c r := by simp [outs21, outs20, outs19, outs11, outs10, outs2]
theorem myOuts_10 (r : Ref sig .tc) (c : Dev nD) : myOuts m 10 r c = U10 m c r := by simp [outs21, outs20, outs19, outs11, outs10]
theorem myOuts_11 (r : Ref sig .tc) (c : Dev nD) : myOuts m 11 r c = U11 m c r := by simp [outs21, outs20, outs19, outs11]
theorem myOuts_19 (r : Ref sig .tc) (c : Dev nD) : myOuts m 19 r c = U19 m c r := by simp [outs21, outs20, outs19]
theorem myOuts_20 (r : Ref sig .tc) (c : Dev nD) : myOuts m 20 r c = U20 m c r := by simp [outs21, outs20]
theorem myOuts_21 (r : Ref sig .tc) (c : Dev nD) : myOuts m 21 r c = U21 m c r := by simp [outs21]

/-! The contents between two items read the named results only at the regions' result references, each at its own
    item: two namings that agree there give the same contents. -/
theorem V9_congr (o o' : Outs (F := F)) (c : Dev nD) (h2 : o 2 main_v4 c = o' 2 main_v4 c) : V9 m o c = V9 m o' c := by
  dsimp only [V9, V8, V7, V6, V5, V4, V3, V2]; rw [h2]
theorem V10_congr (o o' : Outs (F := F)) (c : Dev nD) (h2 : o 2 main_v4 c = o' 2 main_v4 c) (h10 : o 10 main_v22 c = o' 10 main_v22 c) :
    V10 m o c = V10 m o' c := by
  dsimp only [V10, V9, V8, V7, V6, V5, V4, V3, V2]; rw [h2, h10]
theorem V18_congr (o o' : Outs (F := F)) (c : Dev nD) (h2 : o 2 main_v4 c = o' 2 main_v4 c) (h10 : o 10 main_v22 c = o' 10 main_v22 c)
    (h11 : o 11 main_v23 c = o' 11 main_v23 c) : V18 m o c = V18 m o' c := by
  dsimp only [V18, V17, V16, V15, V14, V13, V12, V11, V10, V9, V8, V7, V6, V5, V4, V3, V2]; rw [h2, h10, h11]
theorem V19_congr (o o' : Outs (F := F)) (c : Dev nD) (h2 : o 2 main_v4 c = o' 2 main_v4 c) (h10 : o 10 main_v22 c = o' 10 main_v22 c)
    (h11 : o 11 main_v23 c = o' 11 main_v23 c) (h19 : o 19 main_v41 c = o' 19 main_v41 c) : V19 m o c = V19 m o' c := by
  dsimp only [V19, V18, V17, V16, V15, V14, V13, V12, V11, V10, V9, V8, V7, V6, V5, V4, V3, V2]; rw [h2, h10, h11, h19]
theorem V20_congr (o o' : Outs (F := F)) (c : Dev nD) (h2 : o 2 main_v4 c = o' 2 main_v4 c) (h10 : o 10 main_v22 c = o' 10 main_v22 c)
    (h11 : o 11 main_v23 c = o' 11 main_v23 c) (h19 : o 19 main_v41 c = o' 19 main_v41 c) (h20 : o 20 main_v42 c = o' 20 main_v42 c) :
    V20 m o c = V20 m o' c := by
  dsimp only [V20, V19, V18, V17, V16, V15, V14, V13, V12, V11, V10, V9, V8, V7, V6, V5, V4, V3, V2]; rw [h2, h10, h11, h19, h20]

/-! So the contents a region is entered with are the same under the last stage as under the stage that defined them. -/
theorem in0_eq (c : Dev nD) : V1 m c = V1 m c := rfl
theorem in1_eq (c : Dev nD) : V9 m (myOuts m) c = V9 m (outs2 m) c :=
  V9_congr m _ _ c (myOuts_2 m _ c)
theorem in2_eq (c : Dev nD) : V10 m (myOuts m) c = V10 m (outs10 m) c :=
  V10_congr m _ _ c ((myOuts_2 m _ c).trans (outs10_2 m _ c).symm) ((myOuts_10 m _ c).trans (by simp [outs10]))
theorem in3_eq (c : Dev nD) : V18 m (myOuts m) c = V18 m (outs11 m) c :=
  V18_congr m _ _ c ((myOuts_2 m _ c).trans (outs11_2 m _ c).symm) ((myOuts_10 m _ c).trans (outs11_10 m _ c).symm)
    ((myOuts_11 m _ c).trans (by simp [outs11]))
theorem in4_eq (c : Dev nD) : V19 m (myOuts m) c = V19 m (outs19 m) c :=
  V19_congr m _ _ c ((myOuts_2 m _ c).trans (outs19_2 m _ c).symm) ((myOuts_10 m _ c).trans (outs19_10 m _ c).symm)
    ((myOuts_11 m _ c).trans (outs19_11 m _ c).symm) ((myOuts_19 m _ c).trans (by simp [outs19]))
theorem in5_eq (c : Dev nD) : V20 m (myOuts m) c = V20 m (outs20 m) c :=
  V20_congr m _ _ c ((myOuts_2 m _ c).trans (outs20_2 m _ c).symm) ((myOuts_10 m _ c).trans (outs20_10 m _ c).symm)
    ((myOuts_11 m _ c).trans (outs20_11 m _ c).symm) ((myOuts_19 m _ c).trans (outs20_19 m _ c).symm) ((myOuts_20 m _ c).trans (by simp [outs20]))

/-- What the last stage says region K's result is. -/
theorem out0_eq (c : Dev nD) : myOuts m 2 main_v4 c = (dat0 (Ein0 m) c).arrAt 3 cfg0.N :=
  (myOuts_2 m main_v4 c).trans (Pipeline.withArrays_arr spec0 launch0.win.arr_inj c _ _ 3)
theorem out1_eq (c : Dev nD) : myOuts m 10 main_v22 c = (dat1 (Ein1 m) c).arrAt 4 cfg1.N :=
  (myOuts_10 m main_v22 c).trans (Pipeline.withArrays_arr spec1 launch1.win.arr_inj c _ _ 4)
theorem out2_eq (c : Dev nD) : myOuts m 11 main_v23 c = (dat2 (Ein2 m) c).arrAt 3 cfg2.N :=
  (myOuts_11 m main_v23 c).trans (Pipeline.withArrays_arr spec2 launch2.win.arr_inj c _ _ 3)
theorem out3_eq (c : Dev nD) : myOuts m 19 main_v41 c = (dat3 (Ein3 m) c).arrAt 4 cfg3.N :=
  (myOuts_19 m main_v41 c).trans (Pipeline.withArrays_arr spec3 launch3.win.arr_inj c _ _ 4)
theorem out4_eq (c : Dev nD) : myOuts m 20 main_v42 c = (dat4 (Ein4 m) c).arrAt 3 cfg4.N :=
  (myOuts_20 m main_v42 c).trans (Pipeline.withArrays_arr spec4 launch4.win.arr_inj c _ _ 3)
theorem out5_eq (c : Dev nD) : myOuts m 21 main_v43 c = (dat5 (Ein5 m) c).arrAt 3 cfg5.N :=
  (myOuts_21 m main_v43 c).trans (Pipeline.withArrays_arr spec5 launch5.win.arr_inj c _ _ 3)

/-! The result reference of a region reads back the result the naming gives it. -/
theorem V2_self (o : Outs (F := F)) (c : Dev nD) : V2 m o c main_v4 = o 2 main_v4 c := by simp only [V2, Function.update_self]
theorem V10_self (o : Outs (F := F)) (c : Dev nD) : V10 m o c main_v22 = o 10 main_v22 c := by simp only [V10, Function.update_self]
theorem V11_self (o : Outs (F := F)) (c : Dev nD) : V11 m o c main_v23 = o 11 main_v23 c := by simp only [V11, Function.update_self]
theorem V19_self (o : Outs (F := F)) (c : Dev nD) : V19 m o c main_v41 = o 19 main_v41 c := by simp only [V19, Function.update_self]
theorem V20_self (o : Outs (F := F)) (c : Dev nD) : V20 m o c main_v42 = o 20 main_v42 c := by simp only [V20, Function.update_self]
theorem V21_self (o : Outs (F := F)) (c : Dev nD) : V21 m o c main_v43 = o 21 main_v43 c := by simp only [V21, Function.update_self]

/-- The prefetched tables' admissible contents: no region has a table. -/
abbrev adm : (p : Fin 6) → (pcfgs (F := F) p).Adm := fun p => (cfgs p).toPCfg_adm

/-- Every region's proof data, each at the contents its region is entered with. -/
def pdats : (p : Fin 6) → (c : Dev nD) → Dat τ (Elt F) Unit ℕ (UR sig nD τ) ℕ (cfgs p) c
  | ⟨0, _⟩ => fun c => dat0 (Ein0 m) c
  | ⟨1, _⟩ => fun c => dat1 (Ein1 m) c
  | ⟨2, _⟩ => fun c => dat2 (Ein2 m) c
  | ⟨3, _⟩ => fun c => dat3 (Ein3 m) c
  | ⟨4, _⟩ => fun c => dat4 (Ein4 m) c
  | ⟨5, _⟩ => fun c => dat5 (Ein5 m) c

local notation "𝕄" => MT nD τ sig Unit (Elt F) ℕ (UR sig nD τ) ℕ

/-- What rides beside the buffers through every item: the generator register at some state, and nothing owed. -/
abbrev Rst (c : Dev nD) : sProp 𝕄 := iprop((∃ r, prngReg c r) ∗ ∃ W, owes (c : Thread nD τ) (0 : CellTallies nD τ sig Unit) W)

abbrev 𝒱₀ : Variants := Variants.none
/-- No core owes another anything: no level is assigned. -/
abbrev L : GSem nD τ sig → Finset Unit := fun _ => ∅
abbrev lv : GSem nD τ sig → Unit → ℕ := fun _ _ => 0

end Cert.Kernel.H

end
-- ==== Proof.K.RegOf.lean ====
import proofs.«414250_j49357764165687_1_alg».proof.Proof.K.Fold

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation RegionSeg)
open Cert.Kernel Cert.Kernel.Gen

variable {F : FTy → Type} [FloatOps F]

local notation "𝕄" => MT nD τ sig Unit (Elt F) ℕ (UR sig nD τ) ℕ

/-- What the six regions' data have in common. -/
structure Plain {cfg : Cfg sig Λ₀} {c : Dev nD} (d : Dat τ (Elt F) Unit ℕ (UR sig nD τ) ℕ cfg c) : Prop where
  q : ∀ w, d.q w = fullShare
  owed : ∀ t, d.owed t = 0
  recd : d.recorded 0 = Set.univ
  Φ0 : d.Φ 0 = Pipeline.ΦA cfg.spec c
  ΦN : d.Φ (Fin.last _) = Pipeline.ΦA cfg.spec c

variable (m : (ℓ : Loc nD τ sig) → Buf (Elt F) ℓ)

theorem plain (p : Fin 6) (c : Dev nD) : Plain (cfg := Pipeline.pin (pcfgs (F := F)) adm p) (pdats m p c) := by
  fin_cases p <;> exact ⟨fun _ => rfl, fun _ => rfl, rfl, rfl, rfl⟩

variable (p : Fin 6) (lf : Pipeline.LaunchFacts (nD := nD) (τ := τ) cfgs p)
  (Vin Vout : Dev nD → Valuation τ sig (Elt F)) (o : Fin (cfgs p).W)
  (hin : ∀ w, w ≠ o → ((cfgs p).win w).isOut = false)
  (hA : ∀ c w, (pdats m p c).A w = atTc Vin c (Pipeline.arrRef (cfgs p).spec w))
  (hoff : ∀ c b, b ∉ [Pipeline.arrRef (cfgs p).spec o] → atTc Vout c b = atTc Vin c b)
  (hself : ∀ c, atTc Vout c (Pipeline.arrRef (cfgs p).spec o) = (pdats m p c).arrAt o (cfgs p).N)

include lf hin hA hoff hself in
/-- An input's array ends as it began; the result's array ends at the data's last. -/
theorem arrAt_exit (c : Dev nD) (w : Fin (cfgs p).W) :
    (pdats m p c).arrAt w (cfgs p).N = atTc Vout c (Pipeline.arrRef (cfgs p).spec w) := by
  by_cases h : w = o
  · subst h; exact (hself c).symm
  · exact ((pdats m p c).arrAt_in w (hin w h) _).trans
      ((hA c w).trans (hoff c _ fun hm => h (lf.win.arr_inj (List.mem_singleton.mp hm))).symm)

set_option backward.isDefEq.respectTransparency.types false in
/-- Region `p` as one step from the contents `Vin` before it to the contents `Vout` after it. -/
def regOf (hbody : ∀ c, BodyObligation (pdats m p c) (defs₀ (F := F)) Variants.none () Set.univ) :
    RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p fun c => (plain m p c).owed
  pre c := iprop(StableHlo.held (c : Thread nD τ) (Pipeline.ucRefs τ sig) (Vin c) ∗ Rst c)
  post c := iprop(StableHlo.held (c : Thread nD τ) (Pipeline.ucRefs τ sig) (Vout c) ∗ Rst c)
  X c := iprop(∃ r, prngReg c r)
  Y c := iprop(∃ r, prngReg c r)
  Z c := Pipeline.unscopedRest (Ix := Unit) (Name := ℕ) (U := UR sig nD τ) (Lvl := ℕ) (cfgs p).spec c (atTc Vin c)
  hentry c := by
    have hsplit := Pipeline.arrays_of_unscopedBufs (p := p) (pcfgs (F := F)) adm (pdats m) lf.win lf.arr_whole c
      ((pdats m p c).share_full (plain m p c).q) (atTc Vin c) (hA c)
    rw [Pipeline.unscopedBufs_held] at hsplit
    rw [Pipeline.ownSems0_none]
    unfold Pipeline.Dat.owesAt Pipeline.owesWithin Pipeline.Dat.bound Pipeline.prefHeld
    rw [(plain m p c).owed, (plain m p c).recd, show (Finset.univ : Finset (Fin 0)) = ∅ from rfl, BI.bigSep_empty]
    iintro ⟨⟨Hub, Hp, %W, HO⟩, -, -⟩
    ihave H := hsplit $$ Hub
    icases H with ⟨Ha, Hrest⟩
    imodintro
    isplitl [Ha]; · iexact Ha
    isplitr; · iempintro
    isplitl [HO]
    · iexists W; isplitr; · ipureintro; exact fun _ _ => Or.inl trivial
      iexact HO
    isplitl [Hp]; · iexact Hp
    iexact Hrest
  hin c := by
    rw [(plain m p c).Φ0]; unfold Pipeline.ΦA
    iintro ⟨Hp, -, Hr⟩
    isplitl [Hr]; · iexact Hr
    iexact Hp
  hout c := by
    rw [Pipeline.ownSems0_none, (plain m p c).ΦN]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (plain m p c).q)
      (atTc Vin c) (atTc Vout c) ((pdats m p c).arrAt · (cfgs p).N) (arrAt_exit m p lf Vin Vout o hin hA hoff hself c)
      fun b hb => hoff c b fun hm => hb (Finset.mem_image.mpr ⟨o, Finset.mem_univ _, (List.mem_singleton.mp hm).symm⟩)
    rw [Pipeline.unscopedBufs_held] at hjoin
    unfold Pipeline.Dat.owesAt Pipeline.owesWithin
    rw [(plain m p c).owed]
    iintro ⟨Ha, ⟨%W, -, HO⟩, HY, Hrest⟩
    imodintro
    isplitl [Ha Hrest]
    · iapply hjoin; isplitl [Ha] <;> iassumption
    isplitl [HY]; · iexact HY
    iexists W; iexact HO

end Cert.Kernel.H

end
-- ==== Proof.K.Lin0.lean ====
/-
  A dense layer's kernel region, frame half: at every grid point each input window's staging buffer holds
  that window's block (whether or not the block was moved in at that very point: a block that is not moved in has
  the index it had one point earlier, and the body leaves input buffers as it finds them); the body, run on whole
  staging buffers, keeps the three inputs and leaves the product plus bias in the output buffer, whatever that
  buffer held before; and these two facts together are the region's body obligation.
-/
import proofs.«414250_j49357764165687_1_alg».proof.Proof.Gen.Kernel.Launch
import proofs.«414250_j49357764165687_1_alg».proof.Proof.Gen.Kernel.Skeleton
import proofs.«414250_j49357764165687_1_alg».proof.Proof.Gen.Kernel.Points
import proofs.«414250_j49357764165687_1_alg».proof.Proof.Gen.Kernel.Loops
import proofs.«414250_j49357764165687_1_alg».proof.Proof.K.Lin0Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's buffer -/

/-- An input window's buffer holds the window's block at every point: where the block is moved in, this is what was
    moved; where it is not (the weight and the bias row are moved in once, at the first point), the block index has
    not changed since the previous point, the body left the buffer as it found it, and that point's block is this
    point's. The windows are whole blocks, never cut and never idle. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-! ## The body's one store covers the output buffer -/

theorem cover0_3 (p : Vec F S5000x64 .f32) (y : S5000x64.Idx) :
    ∃ pc ∈ ([⟨rX0, p⟩] : List (View.Piece (Elt F) S5000x64 .f32)), y ∈ pc.1.set :=
  View.cover_of_tiled [⟨rX0, p⟩] S5000x64.size (by rfl) y

/-! ## The body's triple -/

set_option maxHeartbeats 1000000 in
/-- The body on whole staging buffers, the three inputs' reading xX, xW, xB and the output's holding anything, runs
    to the continuation with the inputs as they were and the output reading the product plus bias of the inputs:
    three whole loads, one load of the output buffer whose value is not used, one whole store. -/
theorem sound_kernel0 (c : Dev nD) (E : Set ℕ) (i : grid0.Coords)
    (aX : Memref sig .tc .vmem S5000x64 .f32) (haX : aX.IsWhole) (aW : Memref sig .tc .vmem S64x64 .f32) (haW : aW.IsWhole)
    (aB : Memref sig .tc .vmem S64 .f32) (haB : aB.IsWhole) (aO : Memref sig .tc .vmem S5000x64 .f32) (haO : aO.IsWhole)
    (xX : Vec F S5000x64 .f32) (xW : Vec F S64x64 .f32) (xB : Vec F S64 .f32) (K : PUnit → sProp 𝕄) :
    iprop(owns (c : Thread nD τ) aX fullShare xX ∗ owns (c : Thread nD τ) aW fullShare xW
        ∗ owns (c : Thread nD τ) aB fullShare xB ∗ (∃ d, owns (c : Thread nD τ) aO fullShare d)
        ∗ (iprop(owns (c : Thread nD τ) aX fullShare xX ∗ owns (c : Thread nD τ) aW fullShare xW
            ∗ owns (c : Thread nD τ) aB fullShare xB ∗ owns (c : Thread nD τ) aO fullShare (out0_3 xX xW xB)) -∗ K ⟨⟩))
      ⊢ wp frame (wpE (defs₀ (F := F)) Variants.none c none) E (cc0_kernel i aX haX aW haW aB haB aO haO) K := by
  simp only [cc0_kernel_eq_skeleton]; unfold cc0_kernel_skel
  unfold owns
  iintro ⟨⟨%fX, %hfX, HX⟩, ⟨%fW, %hfW, HW⟩, ⟨%fB, %hfB, HB⟩, ⟨%dO, %fO, -, HO⟩, Hk⟩
  subst hfX; subst hfW; subst hfB
  sl_exec
  sl_step
  iapply Hk
  isplitl [HX]
  · iexists fX; isplitr; · ipureintro; rfl
    iexact HX
  isplitl [HW]
  · iexists fW; isplitr; · ipureintro; rfl
    iexact HW
  isplitl [HB]
  · iexists fB; isplitr; · ipureintro; rfl
    iexact HB
  iexists _; isplitr
  swap; · iexact HO
  ipureintro
  exact View.read_writes_eq_canon _ _ _ (cover0_3 _)

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the input buffers hold their blocks, so the body's triple applies; the invariant and what
    is owed pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%dX, HX⟩, ⟨%dW, HW⟩, ⟨%dB, HB⟩, ⟨%dO, HO⟩⟩
  iapply (sound_kernel0 c Set.univ _ _ _ _ _ _ _ _ _ (iblk0 V c 0 t) (iblk0 V c 1 t) (iblk0 V c 2 t) _)
  isplitl [HX]; · iexact HX
  isplitl [HW]; · iexact HW
  isplitl [HB]; · iexact HB
  isplitl [HO]; · iexists _; iexact HO
  iintro ⟨HX, HW, HB, HO⟩
  isplitl [HΦ]; · iexact HΦ
  isplitl [Ho]; · iexact Ho
  isplitl [HX]; · iexact HX
  isplitl [HW]; · iexact HW
  isplitl [HB]; · iexact HB
  iexact HO

/-- The region's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.H

end
-- ==== Proof.K.Reg0.lean ====
import proofs.«414250_j49357764165687_1_alg».proof.Proof.K.RegOf
import proofs.«414250_j49357764165687_1_alg».proof.Proof.K.Lin0

set_option maxRecDepth 16384

noncomputable section

namespace Cert.Kernel.H

open Idealize.ShloMosaic Cert.Kernel Cert.Kernel.Gen
open Idealize.ShloMosaic.Pipeline (RegionSeg)

variable {F : FTy → Type} [FloatOps F] (m : (ℓ : Loc nD τ sig) → Buf (Elt F) ℓ)

set_option backward.isDefEq.respectTransparency.types false in
def reg0 : RegionSeg (pcfgs (F := F)) adm (pdats m) () defs₀ 𝒱₀ L lv 0 :=
  regOf m 0 launch0 (V1 m) (V2 m (myOuts m)) 3 (by decide)
    (fun c w => (A_eq0 (Ein0 m) c w).trans (congrFun (in0_eq m c) _).symm)
    (V2_of m (myOuts m)) (fun c => (V2_self m (myOuts m) c).trans (out0_eq m c)) (body_obligation0 (Ein0 m))

end Cert.Kernel.H

end
-- ==== Proof.K.Agg1Before.lean ====
/-
  The first aggregation region, what the body finds in each window's staging buffer. The three tiles of edge data
  (source indices, target indices, weights) and the whole feature array are inputs the body only reads: at every
  grid point each of their buffers holds that window's block, whether or not the block was moved in at that very
  point (a block that is not moved in has the index it had one point earlier, and the body leaves the buffer as it
  found it). The output is the whole result array at a block index that never changes; it is written back only after
  the last point, so at every point but the first its buffer holds exactly what the body left one point earlier: the
  running sum over the tiles of edges seen so far.
-/
import proofs.«414250_j49357764165687_1_alg».proof.Proof.Gen.Kernel.Launch
import proofs.«414250_j49357764165687_1_alg».proof.Proof.Gen.Kernel.Skeleton
import proofs.«414250_j49357764165687_1_alg».proof.Proof.Gen.Kernel.Points
import proofs.«414250_j49357764165687_1_alg».proof.Proof.Gen.Kernel.Loops
import proofs.«414250_j49357764165687_1_alg».proof.Proof.K.Agg1Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The inputs: each buffer holds its block -/

/-- An input window's buffer holds the window's block at every point: where the block is moved in, this is what was
    moved; where it is not (the whole feature array is moved in once, at the first point), the block index has not
    changed since the previous point, the body left the buffer as it found it, and that point's block is this
    point's. The windows are whole blocks, never cut and never idle. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-! ## The output: the buffer is carried from point to point -/

/-- At every point but the first the output's buffer holds what the body left at the point before: the buffer is
    written back only after the last of the 196 points, so never between two points; the window is whole and never
    idle. -/
theorem before1_4 (c : Dev nD) (t : Fin cfg1.N) (h0 : t.val ≠ 0) (d) :
    (dat1 V c).before 4 t d = acc1 V c (t.val - 1) (Nat.lt_of_le_of_lt (Nat.sub_le _ _) t.isLt) := by
  have hN : t.val < 196 := lt_of_lt_of_eq t.isLt (show cfg1.N = 196 from N_1)
  rw [Dat.before_out_kept _ 4 rfl t h0
    (Bool.eq_false_iff.mpr fun h => by have := (flush1_4 _).mp h; dsimp only at this; omega)
    (fun _ => rfl) (fun _ _ => rfl), after1_4]

end Cert.Kernel.H

end
-- ==== Proof.K.Agg1.lean ====
/-
  The first layer's aggregation kernel region: the body obligation of its proof data. At every grid point the four
  input buffers hold their windows' blocks; after the first point the output buffer holds what the body left at the
  point before; the point's case of the body's run (first, middle, last) then gives what the proof data say the body
  leaves, the scratch buffer lent out of the region's invariant for the run and given back afterwards.
-/
import proofs.«414250_j49357764165687_1_alg».proof.Proof.K.Agg1Defs
import proofs.«414250_j49357764165687_1_alg».proof.Proof.K.Agg1Before

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The scratch buffer in the invariant -/

/-- The scratch buffer whole at some contents, as the region's invariant holds it and as the body's runs take it. -/
theorem scr1_eq (c : Dev nD) :
    (iprop(∃ f : Buf (Elt F) ((c : Thread nD τ).loc cc1_scratch0), ((c : Thread nD τ).loc cc1_scratch0) ↦{fullShare} f) : sProp 𝕄)
      = iprop(∃ X, owns (c : Thread nD τ) mX1 fullShare X) :=
  ((hX1).exists_owns_eq (c := (c : Thread nD τ)) fullShare).symm

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (mS1 t) fullShare ((dat1 V c).before 0 t d))
    ∗ (∃ d, owns (c : Thread nD τ) (mD1 t) fullShare ((dat1 V c).before 1 t d))
    ∗ (∃ d, owns (c : Thread nD τ) (mW1 t) fullShare ((dat1 V c).before 2 t d))
    ∗ (∃ d, owns (c : Thread nD τ) (mH1 t) fullShare ((dat1 V c).before 3 t d))
    ∗ (∃ d, owns (c : Thread nD τ) (mO1 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (mS1 t) fullShare ((dat1 V c).after 0 t)
    ∗ owns (c : Thread nD τ) (mD1 t) fullShare ((dat1 V c).after 1 t)
    ∗ owns (c : Thread nD τ) (mW1 t) fullShare ((dat1 V c).after 2 t)
    ∗ owns (c : Thread nD τ) (mH1 t) fullShare ((dat1 V c).after 3 t)
    ∗ owns (c : Thread nD τ) (mO1 t) fullShare ((dat1 V c).after 4 t))

set_option maxHeartbeats 1600000 in
/-- The body at any point: the input buffers hold their blocks; the point is the first, a middle one or the last, and
    after the first the output buffer holds what the point before left; so that case's run applies, the scratch buffer
    lent out of the invariant's scoped rest and given back at whatever the run leaves in it; the rest of the invariant
    and what is owed pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4,
    show (dat1 V c).Φ t.castSucc = Pipeline.ΦA spec1 c from rfl]
  unfold Pipeline.ΦA
  rw [scopedRest1_split, scr1_eq]
  by_cases h0 : t.val = 0
  · rw [acc1_A V c t h0]
    unfold out1_A
    iintro ⟨⟨⟨HX, HR⟩, Hp⟩, Hdue, ⟨%dS, HS⟩, ⟨%dD, HD⟩, ⟨%dW, HW⟩, ⟨%dH, HH⟩, ⟨%dO, HO⟩⟩
    iapply ((kernelRun1_A c (grid1.coords t) (mS1 t) (hS1 t) (mD1 t) (hD1 t) (mW1 t) (hW1 t) (mH1 t) (hH1 t) (mO1 t) (hO1 t) mX1 hX1 (cond1_a_of t h0) (not_cond1_z t (by omega)) (iblk1 V c 0 t) (iblk1 V c 1 t) (iblk1 V c 2 t) (iblk1 V c 3 t)).2 Set.univ _)
    isplitl [HS]; · iexact HS
    isplitl [HD]; · iexact HD
    isplitl [HW]; · iexact HW
    isplitl [HH]; · iexact HH
    isplitl [HO]; · iexists _; iexact HO
    isplitl [HX]; · iexact HX
    iintro ⟨HS, HD, HW, HH, ⟨%eO, HO⟩, HX⟩
    isplitl [HX HR Hp]
    · isplitl [HX HR]
      · isplitl [HX]; · iexact HX
        iexact HR
      iexact Hp
    isplitl [Hdue]; · iexact Hdue
    isplitl [HS]; · iexact HS
    isplitl [HD]; · iexact HD
    isplitl [HW]; · iexact HW
    isplitl [HH]; · iexact HH
    unfold owns; iexists _; isplitr
    swap; · iexact HO
    ipureintro; exact View.read_writes_of_cover _ _ _ _ _ (cover1_A c _ _ _ _ _ _ _ _ _ _ _ _ _ _ _ _ _ _ _)
  · simp only [before1_4 V c t h0]
    by_cases hz : t.val = 195
    · rw [acc1_C V c t hz]
      unfold out1_C
      iintro ⟨⟨⟨HX, HR⟩, Hp⟩, Hdue, ⟨%dS, HS⟩, ⟨%dD, HD⟩, ⟨%dW, HW⟩, ⟨%dH, HH⟩, ⟨%dO, HO⟩⟩
      iapply ((kernelRun1_C c (grid1.coords t) (mS1 t) (hS1 t) (mD1 t) (hD1 t) (mW1 t) (hW1 t) (mH1 t) (hH1 t) (mO1 t) (hO1 t) mX1 hX1 (not_cond1_a t h0) (cond1_z_of t hz) (iblk1 V c 0 t) (iblk1 V c 1 t) (iblk1 V c 2 t) (iblk1 V c 3 t)
        (acc1 V c (t.val - 1) (Nat.lt_of_le_of_lt (Nat.sub_le _ _) t.isLt))).2 Set.univ _)
      isplitl [HS]; · iexact HS
      isplitl [HD]; · iexact HD
      isplitl [HW]; · iexact HW
      isplitl [HH]; · iexact HH
      isplitl [HO]; · iexact HO
      isplitl [HX]; · iexact HX
      iintro ⟨HS, HD, HW, HH, ⟨%eO, HO⟩, HX⟩
      isplitl [HX HR Hp]
      · isplitl [HX HR]
        · isplitl [HX]; · iexact HX
          iexact HR
        iexact Hp
      isplitl [Hdue]; · iexact Hdue
      isplitl [HS]; · iexact HS
      isplitl [HD]; · iexact HD
      isplitl [HW]; · iexact HW
      isplitl [HH]; · iexact HH
      unfold owns; iexists _; isplitr
      swap; · iexact HO
      ipureintro; exact View.read_writes_of_cover _ _ _ _ _ (cover1_C c _ _ _ _ _ _ _ _ _ _ _ _ _ _ _ _ _ _ _ _)
    · rw [acc1_B V c t h0 hz]
      unfold out1_B
      iintro ⟨⟨⟨HX, HR⟩, Hp⟩, Hdue, ⟨%dS, HS⟩, ⟨%dD, HD⟩, ⟨%dW, HW⟩, ⟨%dH, HH⟩, ⟨%dO, HO⟩⟩
      iapply ((kernelRun1_B c (grid1.coords t) (mS1 t) (hS1 t) (mD1 t) (hD1 t) (mW1 t) (hW1 t) (mH1 t) (hH1 t) (mO1 t) (hO1 t) mX1 hX1 (not_cond1_a t h0) (not_cond1_z t hz) (iblk1 V c 0 t) (iblk1 V c 1 t) (iblk1 V c 2 t) (iblk1 V c 3 t)
        (acc1 V c (t.val - 1) (Nat.lt_of_le_of_lt (Nat.sub_le _ _) t.isLt))).2 Set.univ _)
      isplitl [HS]; · iexact HS
      isplitl [HD]; · iexact HD
      isplitl [HW]; · iexact HW
      isplitl [HH]; · iexact HH
      isplitl [HO]; · iexact HO
      isplitl [HX]; · iexact HX
      iintro ⟨HS, HD, HW, HH, ⟨%eO, HO⟩, HX⟩
      isplitl [HX HR Hp]
      · isplitl [HX HR]
        · isplitl [HX]; · iexact HX
          iexact HR
        iexact Hp
      isplitl [Hdue]; · iexact Hdue
      isplitl [HS]; · iexact HS
      isplitl [HD]; · iexact HD
      isplitl [HW]; · iexact HW
      isplitl [HH]; · iexact HH
      unfold owns; iexists _; isplitr
      swap; · iexact HO
      ipureintro; exact View.read_writes_of_cover _ _ _ _ _ (cover1_B c _ _ _ _ _ _ _ _ _ _ _ _ _ _ _ _ _ _ _ _)

/-- The region's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.H

end
-- ==== Proof.K.Reg1.lean ====
import proofs.«414250_j49357764165687_1_alg».proof.Proof.K.RegOf
import proofs.«414250_j49357764165687_1_alg».proof.Proof.K.Agg1

set_option maxRecDepth 16384

noncomputable section

namespace Cert.Kernel.H

open Idealize.ShloMosaic Cert.Kernel Cert.Kernel.Gen
open Idealize.ShloMosaic.Pipeline (RegionSeg)

variable {F : FTy → Type} [FloatOps F] (m : (ℓ : Loc nD τ sig) → Buf (Elt F) ℓ)

set_option backward.isDefEq.respectTransparency.types false in
def reg1 : RegionSeg (pcfgs (F := F)) adm (pdats m) () defs₀ 𝒱₀ L lv 1 :=
  regOf m 1 launch1 (V9 m (myOuts m)) (V10 m (myOuts m)) 4 (by decide)
    (fun c w => (A_eq1 (Ein1 m) c w).trans (congrFun (in1_eq m c) _).symm)
    (V10_of m (myOuts m)) (fun c => (V10_self m (myOuts m) c).trans (out1_eq m c)) (body_obligation1 (Ein1 m))

end Cert.Kernel.H

end
-- ==== Proof.K.Lin2.lean ====
/-
  A dense layer's kernel region, frame half: at every grid point each input window's staging buffer holds
  that window's block (whether or not the block was moved in at that very point: a block that is not moved in has
  the index it had one point earlier, and the body leaves input buffers as it finds them); the body, run on whole
  staging buffers, keeps the three inputs and leaves the product plus bias in the output buffer, whatever that
  buffer held before; and these two facts together are the region's body obligation.
-/
import proofs.«414250_j49357764165687_1_alg».proof.Proof.Gen.Kernel.Launch
import proofs.«414250_j49357764165687_1_alg».proof.Proof.Gen.Kernel.Skeleton
import proofs.«414250_j49357764165687_1_alg».proof.Proof.Gen.Kernel.Points
import proofs.«414250_j49357764165687_1_alg».proof.Proof.Gen.Kernel.Loops
import proofs.«414250_j49357764165687_1_alg».proof.Proof.K.Lin2Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's buffer -/

/-- An input window's buffer holds the window's block at every point: where the block is moved in, this is what was
    moved; where it is not (the weight and the bias row are moved in once, at the first point), the block index has
    not changed since the previous point, the body left the buffer as it found it, and that point's block is this
    point's. The windows are whole blocks, never cut and never idle. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)

theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)

theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)

/-! ## The body's one store covers the output buffer -/

theorem cover2_3 (p : Vec F S5000x64 .f32) (y : S5000x64.Idx) :
    ∃ pc ∈ ([⟨rX2, p⟩] : List (View.Piece (Elt F) S5000x64 .f32)), y ∈ pc.1.set :=
  View.cover_of_tiled [⟨rX2, p⟩] S5000x64.size (by rfl) y

/-! ## The body's triple -/

set_option maxHeartbeats 1000000 in
/-- The body on whole staging buffers, the three inputs' reading xX, xW, xB and the output's holding anything, runs
    to the continuation with the inputs as they were and the output reading the product plus bias of the inputs:
    three whole loads, one load of the output buffer whose value is not used, one whole store. -/
theorem sound_kernel2 (c : Dev nD) (E : Set ℕ) (i : grid2.Coords)
    (aX : Memref sig .tc .vmem S5000x64 .f32) (haX : aX.IsWhole) (aW : Memref sig .tc .vmem S64x64 .f32) (haW : aW.IsWhole)
    (aB : Memref sig .tc .vmem S64 .f32) (haB : aB.IsWhole) (aO : Memref sig .tc .vmem S5000x64 .f32) (haO : aO.IsWhole)
    (xX : Vec F S5000x64 .f32) (xW : Vec F S64x64 .f32) (xB : Vec F S64 .f32) (K : PUnit → sProp 𝕄) :
    iprop(owns (c : Thread nD τ) aX fullShare xX ∗ owns (c : Thread nD τ) aW fullShare xW
        ∗ owns (c : Thread nD τ) aB fullShare xB ∗ (∃ d, owns (c : Thread nD τ) aO fullShare d)
        ∗ (iprop(owns (c : Thread nD τ) aX fullShare xX ∗ owns (c : Thread nD τ) aW fullShare xW
            ∗ owns (c : Thread nD τ) aB fullShare xB ∗ owns (c : Thread nD τ) aO fullShare (out2_3 xX xW xB)) -∗ K ⟨⟩))
      ⊢ wp frame (wpE (defs₀ (F := F)) Variants.none c none) E (cc2_kernel i aX haX aW haW aB haB aO haO) K := by
  simp only [cc2_kernel_eq_skeleton]; unfold cc2_kernel_skel
  unfold owns
  iintro ⟨⟨%fX, %hfX, HX⟩, ⟨%fW, %hfW, HW⟩, ⟨%fB, %hfB, HB⟩, ⟨%dO, %fO, -, HO⟩, Hk⟩
  subst hfX; subst hfW; subst hfB
  sl_exec
  sl_step
  iapply Hk
  isplitl [HX]
  · iexists fX; isplitr; · ipureintro; rfl
    iexact HX
  isplitl [HW]
  · iexists fW; isplitr; · ipureintro; rfl
    iexact HW
  isplitl [HB]
  · iexists fB; isplitr; · ipureintro; rfl
    iexact HB
  iexists _; isplitr
  swap; · iexact HO
  ipureintro
  exact View.read_writes_eq_canon _ _ _ (cover2_3 _)

/-! ## The body obligation, at a generic point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the input buffers hold their blocks, so the body's triple applies; the invariant and what
    is owed pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%dX, HX⟩, ⟨%dW, HW⟩, ⟨%dB, HB⟩, ⟨%dO, HO⟩⟩
  iapply (sound_kernel2 c Set.univ _ _ _ _ _ _ _ _ _ (iblk2 V c 0 t) (iblk2 V c 1 t) (iblk2 V c 2 t) _)
  isplitl [HX]; · iexact HX
  isplitl [HW]; · iexact HW
  isplitl [HB]; · iexact HB
  isplitl [HO]; · iexists _; iexact HO
  iintro ⟨HX, HW, HB, HO⟩
  isplitl [HΦ]; · iexact HΦ
  isplitl [Ho]; · iexact Ho
  isplitl [HX]; · iexact HX
  isplitl [HW]; · iexact HW
  isplitl [HB]; · iexact HB
  iexact HO

/-- The region's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.H

end
-- ==== Proof.K.Reg2.lean ====
import proofs.«414250_j49357764165687_1_alg».proof.Proof.K.RegOf
import proofs.«414250_j49357764165687_1_alg».proof.Proof.K.Lin2

set_option maxRecDepth 16384

noncomputable section

namespace Cert.Kernel.H

open Idealize.ShloMosaic Cert.Kernel Cert.Kernel.Gen
open Idealize.ShloMosaic.Pipeline (RegionSeg)

variable {F : FTy → Type} [FloatOps F] (m : (ℓ : Loc nD τ sig) → Buf (Elt F) ℓ)

set_option backward.isDefEq.respectTransparency.types false in
def reg2 : RegionSeg (pcfgs (F := F)) adm (pdats m) () defs₀ 𝒱₀ L lv 2 :=
  regOf m 2 launch2 (V10 m (myOuts m)) (V11 m (myOuts m)) 3 (by decide)
    (fun c w => (A_eq2 (Ein2 m) c w).trans (congrFun (in2_eq m c) _).symm)
    (V11_of m (myOuts m)) (fun c => (V11_self m (myOuts m) c).trans (out2_eq m c)) (body_obligation2 (Ein2 m))

end Cert.Kernel.H

end
-- ==== Proof.K.Agg3Before.lean ====
/-
  The first aggregation region, what the body finds in each window's staging buffer. The three tiles of edge data
  (source indices, target indices, weights) and the whole feature array are inputs the body only reads: at every
  grid point each of their buffers holds that window's block, whether or not the block was moved in at that very
  point (a block that is not moved in has the index it had one point earlier, and the body leaves the buffer as it
  found it). The output is the whole result array at a block index that never changes; it is written back only after
  the last point, so at every point but the first its buffer holds exactly what the body left one point earlier: the
  running sum over the tiles of edges seen so far.
-/
import proofs.«414250_j49357764165687_1_alg».proof.Proof.Gen.Kernel.Launch
import proofs.«414250_j49357764165687_1_alg».proof.Proof.Gen.Kernel.Skeleton
import proofs.«414250_j49357764165687_1_alg».proof.Proof.Gen.Kernel.Points
import proofs.«414250_j49357764165687_1_alg».proof.Proof.Gen.Kernel.Loops
import proofs.«414250_j49357764165687_1_alg».proof.Proof.K.Agg3Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The inputs: each buffer holds its block -/

/-- An input window's buffer holds the window's block at every point: where the block is moved in, this is what was
    moved; where it is not (the whole feature array is moved in once, at the first point), the block index has not
    changed since the previous point, the body left the buffer as it found it, and that point's block is this
    point's. The windows are whole blocks, never cut and never idle. -/
theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)

theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)

theorem before3_2 (c : Dev nD) (t : Fin cfg3.N) (d) : (dat3 V c).before 2 t d = iblk3 V c 2 t :=
  ((dat3 V c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)

theorem before3_3 (c : Dev nD) (t : Fin cfg3.N) (d) : (dat3 V c).before 3 t d = iblk3 V c 3 t :=
  ((dat3 V c).before_in_eq_fetched 3 rfl (fun _ => rfl) (fun _ _ _ => rfl)
    (fun t => by rw [after3_3]; unfold Dat.blockOf iblk3; rw [A_eq3]; try rfl) t d).trans
    (by unfold Dat.fetched Dat.blockOf iblk3; rw [A_eq3]; try rfl)

/-! ## The output: the buffer is carried from point to point -/

/-- At every point but the first the output's buffer holds what the body left at the point before: the buffer is
    written back only after the last of the 196 points, so never between two points; the window is whole and never
    idle. -/
theorem before3_4 (c : Dev nD) (t : Fin cfg3.N) (h0 : t.val ≠ 0) (d) :
    (dat3 V c).before 4 t d = acc3 V c (t.val - 1) (Nat.lt_of_le_of_lt (Nat.sub_le _ _) t.isLt) := by
  have hN : t.val < 196 := lt_of_lt_of_eq t.isLt (show cfg3.N = 196 from N_3)
  rw [Dat.before_out_kept _ 4 rfl t h0
    (Bool.eq_false_iff.mpr fun h => by have := (flush3_4 _).mp h; dsimp only at this; omega)
    (fun _ => rfl) (fun _ _ => rfl), after3_4]

end Cert.Kernel.H

end
-- ==== Proof.K.Agg3.lean ====
/-
  The second aggregation region's body obligation: at each point the case of the shared body's run that the point calls for.
-/
import proofs.«414250_j49357764165687_1_alg».proof.Proof.K.Agg3Defs
import proofs.«414250_j49357764165687_1_alg».proof.Proof.K.Agg3Before

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem scr3_eq (c : Dev nD) :
    (iprop(∃ f : Buf (Elt F) ((c : Thread nD τ).loc cc3_scratch0), ((c : Thread nD τ).loc cc3_scratch0) ↦{fullShare} f) : sProp 𝕄)
      = iprop(∃ X, owns (c : Thread nD τ) mX3 fullShare X) :=
  ((hX3).exists_owns_eq (c := (c : Thread nD τ)) fullShare).symm

def bodyPre3 (c : Dev nD) (t : Fin cfg3.N) : sProp 𝕄 :=
  iprop((dat3 V c).Φ t.castSucc ∗ (dat3 V c).owesAt () t.castSucc
    ∗ (∃ d, owns (c : Thread nD τ) (mS3 t) fullShare ((dat3 V c).before 0 t d))
    ∗ (∃ d, owns (c : Thread nD τ) (mD3 t) fullShare ((dat3 V c).before 1 t d))
    ∗ (∃ d, owns (c : Thread nD τ) (mW3 t) fullShare ((dat3 V c).before 2 t d))
    ∗ (∃ d, owns (c : Thread nD τ) (mH3 t) fullShare ((dat3 V c).before 3 t d))
    ∗ (∃ d, owns (c : Thread nD τ) (mO3 t) fullShare ((dat3 V c).before 4 t d)))

def bodyPost3 (c : Dev nD) (t : Fin cfg3.N) : sProp 𝕄 :=
  iprop((dat3 V c).Φ t.succ ∗ (dat3 V c).owesAt () t.succ
    ∗ owns (c : Thread nD τ) (mS3 t) fullShare ((dat3 V c).after 0 t)
    ∗ owns (c : Thread nD τ) (mD3 t) fullShare ((dat3 V c).after 1 t)
    ∗ owns (c : Thread nD τ) (mW3 t) fullShare ((dat3 V c).after 2 t)
    ∗ owns (c : Thread nD τ) (mH3 t) fullShare ((dat3 V c).after 3 t)
    ∗ owns (c : Thread nD τ) (mO3 t) fullShare ((dat3 V c).after 4 t))

set_option maxHeartbeats 1600000 in

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  rw [cc3_kernel_eq]
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4,
    show (dat3 V c).Φ t.castSucc = Pipeline.ΦA spec3 c from rfl]
  unfold Pipeline.ΦA
  rw [scopedRest3_split, scr3_eq]
  by_cases h0 : t.val = 0
  · rw [acc3_A V c t h0]
    unfold out1_A
    iintro ⟨⟨⟨HX, HR⟩, Hp⟩, Hdue, ⟨%dS, HS⟩, ⟨%dD, HD⟩, ⟨%dW, HW⟩, ⟨%dH, HH⟩, ⟨%dO, HO⟩⟩
    iapply ((kernelRun1_A c (grid3.coords t) (mS3 t) (hS3 t) (mD3 t) (hD3 t) (mW3 t) (hW3 t) (mH3 t) (hH3 t) (mO3 t) (hO3 t) mX3 hX3 (cond1_a_of t h0) (not_cond1_z t (by omega)) (iblk3 V c 0 t) (iblk3 V c 1 t) (iblk3 V c 2 t) (iblk3 V c 3 t)).2 Set.univ _)
    isplitl [HS]; · iexact HS
    isplitl [HD]; · iexact HD
    isplitl [HW]; · iexact HW
    isplitl [HH]; · iexact HH
    isplitl [HO]; · iexists _; iexact HO
    isplitl [HX]; · iexact HX
    iintro ⟨HS, HD, HW, HH, ⟨%eO, HO⟩, HX⟩
    isplitl [HX HR Hp]
    · isplitl [HX HR]
      · isplitl [HX]; · iexact HX
        iexact HR
      iexact Hp
    isplitl [Hdue]; · iexact Hdue
    isplitl [HS]; · iexact HS
    isplitl [HD]; · iexact HD
    isplitl [HW]; · iexact HW
    isplitl [HH]; · iexact HH
    unfold owns; iexists _; isplitr
    swap; · iexact HO
    ipureintro; exact View.read_writes_of_cover _ _ _ _ _ (cover1_A c _ _ _ _ _ _ _ _ _ _ _ _ _ _ _ _ _ _ _)
  · simp only [before3_4 V c t h0]
    by_cases hz : t.val = 195
    · rw [acc3_C V c t hz]
      unfold out1_C
      iintro ⟨⟨⟨HX, HR⟩, Hp⟩, Hdue, ⟨%dS, HS⟩, ⟨%dD, HD⟩, ⟨%dW, HW⟩, ⟨%dH, HH⟩, ⟨%dO, HO⟩⟩
      iapply ((kernelRun1_C c (grid3.coords t) (mS3 t) (hS3 t) (mD3 t) (hD3 t) (mW3 t) (hW3 t) (mH3 t) (hH3 t) (mO3 t) (hO3 t) mX3 hX3 (not_cond1_a t h0) (cond1_z_of t hz) (iblk3 V c 0 t) (iblk3 V c 1 t) (iblk3 V c 2 t) (iblk3 V c 3 t)
        (acc3 V c (t.val - 1) (Nat.lt_of_le_of_lt (Nat.sub_le _ _) t.isLt))).2 Set.univ _)
      isplitl [HS]; · iexact HS
      isplitl [HD]; · iexact HD
      isplitl [HW]; · iexact HW
      isplitl [HH]; · iexact HH
      isplitl [HO]; · iexact HO
      isplitl [HX]; · iexact HX
      iintro ⟨HS, HD, HW, HH, ⟨%eO, HO⟩, HX⟩
      isplitl [HX HR Hp]
      · isplitl [HX HR]
        · isplitl [HX]; · iexact HX
          iexact HR
        iexact Hp
      isplitl [Hdue]; · iexact Hdue
      isplitl [HS]; · iexact HS
      isplitl [HD]; · iexact HD
      isplitl [HW]; · iexact HW
      isplitl [HH]; · iexact HH
      unfold owns; iexists _; isplitr
      swap; · iexact HO
      ipureintro; exact View.read_writes_of_cover _ _ _ _ _ (cover1_C c _ _ _ _ _ _ _ _ _ _ _ _ _ _ _ _ _ _ _ _)
    · rw [acc3_B V c t h0 hz]
      unfold out1_B
      iintro ⟨⟨⟨HX, HR⟩, Hp⟩, Hdue, ⟨%dS, HS⟩, ⟨%dD, HD⟩, ⟨%dW, HW⟩, ⟨%dH, HH⟩, ⟨%dO, HO⟩⟩
      iapply ((kernelRun1_B c (grid3.coords t) (mS3 t) (hS3 t) (mD3 t) (hD3 t) (mW3 t) (hW3 t) (mH3 t) (hH3 t) (mO3 t) (hO3 t) mX3 hX3 (not_cond1_a t h0) (not_cond1_z t hz) (iblk3 V c 0 t) (iblk3 V c 1 t) (iblk3 V c 2 t) (iblk3 V c 3 t)
        (acc3 V c (t.val - 1) (Nat.lt_of_le_of_lt (Nat.sub_le _ _) t.isLt))).2 Set.univ _)
      isplitl [HS]; · iexact HS
      isplitl [HD]; · iexact HD
      isplitl [HW]; · iexact HW
      isplitl [HH]; · iexact HH
      isplitl [HO]; · iexact HO
      isplitl [HX]; · iexact HX
      iintro ⟨HS, HD, HW, HH, ⟨%eO, HO⟩, HX⟩
      isplitl [HX HR Hp]
      · isplitl [HX HR]
        · isplitl [HX]; · iexact HX
          iexact HR
        iexact Hp
      isplitl [Hdue]; · iexact Hdue
      isplitl [HS]; · iexact HS
      isplitl [HD]; · iexact HD
      isplitl [HW]; · iexact HW
      isplitl [HH]; · iexact HH
      unfold owns; iexists _; isplitr
      swap; · iexact HO
      ipureintro; exact View.read_writes_of_cover _ _ _ _ _ (cover1_B c _ _ _ _ _ _ _ _ _ _ _ _ _ _ _ _ _ _ _ _)

theorem body_obligation3 (c : Dev nD) : BodyObligation (dat3 (F := F) V c) (defs₀ (F := F)) Variants.none () Set.univ := fun t => by
  rw [bigSep_W3, bigSep_W3]
  exact sound_body3 V c t

end Cert.Kernel.H

end
-- ==== Proof.K.Reg3.lean ====
import proofs.«414250_j49357764165687_1_alg».proof.Proof.K.RegOf
import proofs.«414250_j49357764165687_1_alg».proof.Proof.K.Agg3

set_option maxRecDepth 16384

noncomputable section

namespace Cert.Kernel.H

open Idealize.ShloMosaic Cert.Kernel Cert.Kernel.Gen
open Idealize.ShloMosaic.Pipeline (RegionSeg)

variable {F : FTy → Type} [FloatOps F] (m : (ℓ : Loc nD τ sig) → Buf (Elt F) ℓ)

set_option backward.isDefEq.respectTransparency.types false in
def reg3 : RegionSeg (pcfgs (F := F)) adm (pdats m) () defs₀ 𝒱₀ L lv 3 :=
  regOf m 3 launch3 (V18 m (myOuts m)) (V19 m (myOuts m)) 4 (by decide)
    (fun c w => (A_eq3 (Ein3 m) c w).trans (congrFun (in3_eq m c) _).symm)
    (V19_of m (myOuts m)) (fun c => (V19_self m (myOuts m) c).trans (out3_eq m c)) (body_obligation3 (Ein3 m))

end Cert.Kernel.H

end
-- ==== Proof.K.Lin4.lean ====
/-
  The third dense layer's region: its body obligation from the second region's triple of the shared body.
-/
import proofs.«414250_j49357764165687_1_alg».proof.Proof.K.Lin4Defs
import proofs.«414250_j49357764165687_1_alg».proof.Proof.K.Lin2

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before4_0 (c : Dev nD) (t : Fin cfg4.N) (d) : (dat4 V c).before 0 t d = iblk4 V c 0 t :=
  ((dat4 V c).before_in_eq_fetched 0 rfl (fun _ => rfl) (fun _ _ _ => rfl)
    (fun t => by rw [after4_0]; unfold Dat.blockOf iblk4; rw [A_eq4]; try rfl) t d).trans
    (by unfold Dat.fetched Dat.blockOf iblk4; rw [A_eq4]; try rfl)

theorem before4_1 (c : Dev nD) (t : Fin cfg4.N) (d) : (dat4 V c).before 1 t d = iblk4 V c 1 t :=
  ((dat4 V c).before_in_eq_fetched 1 rfl (fun _ => rfl) (fun _ _ _ => rfl)
    (fun t => by rw [after4_1]; unfold Dat.blockOf iblk4; rw [A_eq4]; try rfl) t d).trans
    (by unfold Dat.fetched Dat.blockOf iblk4; rw [A_eq4]; try rfl)

theorem before4_2 (c : Dev nD) (t : Fin cfg4.N) (d) : (dat4 V c).before 2 t d = iblk4 V c 2 t :=
  ((dat4 V c).before_in_eq_fetched 2 rfl (fun _ => rfl) (fun _ _ _ => rfl)
    (fun t => by rw [after4_2]; unfold Dat.blockOf iblk4; rw [A_eq4]; try rfl) t d).trans
    (by unfold Dat.fetched Dat.blockOf iblk4; rw [A_eq4]; try rfl)

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  rw [cc4_kernel_eq]
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%dX, HX⟩, ⟨%dW, HW⟩, ⟨%dB, HB⟩, ⟨%dO, HO⟩⟩
  iapply (sound_kernel2 c Set.univ _ _ _ _ _ _ _ _ _ (iblk4 V c 0 t) (iblk4 V c 1 t) (iblk4 V c 2 t) _)
  isplitl [HX]; · iexact HX
  isplitl [HW]; · iexact HW
  isplitl [HB]; · iexact HB
  isplitl [HO]; · iexists _; iexact HO
  iintro ⟨HX, HW, HB, HO⟩
  isplitl [HΦ]; · iexact HΦ
  isplitl [Ho]; · iexact Ho
  isplitl [HX]; · iexact HX
  isplitl [HW]; · iexact HW
  isplitl [HB]; · iexact HB
  iexact HO

theorem body_obligation4 (c : Dev nD) : BodyObligation (dat4 (F := F) V c) (defs₀ (F := F)) Variants.none () Set.univ := fun t => by
  rw [bigSep_W4, bigSep_W4]
  exact sound_body4 V c t

end Cert.Kernel.H

end
-- ==== Proof.K.Reg4.lean ====
import proofs.«414250_j49357764165687_1_alg».proof.Proof.K.RegOf
import proofs.«414250_j49357764165687_1_alg».proof.Proof.K.Lin4

set_option maxRecDepth 16384

noncomputable section

namespace Cert.Kernel.H

open Idealize.ShloMosaic Cert.Kernel Cert.Kernel.Gen
open Idealize.ShloMosaic.Pipeline (RegionSeg)

variable {F : FTy → Type} [FloatOps F] (m : (ℓ : Loc nD τ sig) → Buf (Elt F) ℓ)

set_option backward.isDefEq.respectTransparency.types false in
def reg4 : RegionSeg (pcfgs (F := F)) adm (pdats m) () defs₀ 𝒱₀ L lv 4 :=
  regOf m 4 launch4 (V19 m (myOuts m)) (V20 m (myOuts m)) 3 (by decide)
    (fun c w => (A_eq4 (Ein4 m) c w).trans (congrFun (in4_eq m c) _).symm)
    (V20_of m (myOuts m)) (fun c => (V20_self m (myOuts m) c).trans (out4_eq m c)) (body_obligation4 (Ein4 m))

end Cert.Kernel.H

end
-- ==== Proof.K.Lin5.lean ====
/-
  The last kernel region, frame half: at every grid point each input window's staging buffer holds that window's
  block (whether or not the block was moved in at that very point: a block that is not moved in has the index it had
  one point earlier, and the body leaves input buffers as it finds them); the body, run on whole staging buffers,
  keeps the three inputs and leaves each row's log-softmax of the product plus bias in the output buffer, whatever
  that buffer held before; and these two facts together are the region's body obligation.
-/
import proofs.«414250_j49357764165687_1_alg».proof.Proof.Gen.Kernel.Launch
import proofs.«414250_j49357764165687_1_alg».proof.Proof.Gen.Kernel.Skeleton
import proofs.«414250_j49357764165687_1_alg».proof.Proof.Gen.Kernel.Points
import proofs.«414250_j49357764165687_1_alg».proof.Proof.Gen.Kernel.Loops
import proofs.«414250_j49357764165687_1_alg».proof.Proof.K.Lin5Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's buffer -/

/-- An input window's buffer holds the window's block at every point: where the block is moved in, this is what was
    moved; where it is not (the weight and the bias row are moved in once, at the first point), the block index has
    not changed since the previous point, the body left the buffer as it found it, and that point's block is this
    point's. The windows are whole blocks, never cut and never idle. -/
theorem before5_0 (c : Dev nD) (t : Fin cfg5.N) (d) : (dat5 V c).before 0 t d = iblk5 V c 0 t :=
  ((dat5 V c).before_in_eq_fetched 0 rfl (fun _ => rfl) (fun _ _ _ => rfl)
    (fun t => by rw [after5_0]; unfold Dat.blockOf iblk5; rw [A_eq5]; try rfl) t d).trans
    (by unfold Dat.fetched Dat.blockOf iblk5; rw [A_eq5]; try rfl)

theorem before5_1 (c : Dev nD) (t : Fin cfg5.N) (d) : (dat5 V c).before 1 t d = iblk5 V c 1 t :=
  ((dat5 V c).before_in_eq_fetched 1 rfl (fun _ => rfl) (fun _ _ _ => rfl)
    (fun t => by rw [after5_1]; unfold Dat.blockOf iblk5; rw [A_eq5]; try rfl) t d).trans
    (by unfold Dat.fetched Dat.blockOf iblk5; rw [A_eq5]; try rfl)

theorem before5_2 (c : Dev nD) (t : Fin cfg5.N) (d) : (dat5 V c).before 2 t d = iblk5 V c 2 t :=
  ((dat5 V c).before_in_eq_fetched 2 rfl (fun _ => rfl) (fun _ _ _ => rfl)
    (fun t => by rw [after5_2]; unfold Dat.blockOf iblk5; rw [A_eq5]; try rfl) t d).trans
    (by unfold Dat.fetched Dat.blockOf iblk5; rw [A_eq5]; try rfl)

/-! ## The body's one store covers the output buffer -/

theorem cover5_3 (p : Vec F S5000x40 .f32) (y : S5000x40.Idx) :
    ∃ pc ∈ ([⟨rO5, p⟩] : List (View.Piece (Elt F) S5000x40 .f32)), y ∈ pc.1.set :=
  View.cover_of_tiled [⟨rO5, p⟩] S5000x40.size (by rfl) y

/-! ## The body's triple -/

set_option maxHeartbeats 1000000 in
/-- The body on whole staging buffers, the three inputs' reading xX, xW, xB and the output's holding anything, runs
    to the continuation with the inputs as they were and the output reading each row's log-softmax of the product plus bias:
    three whole loads, one load of the output buffer whose value is not used, one whole store. -/
theorem sound_kernel5 (c : Dev nD) (E : Set ℕ) (i : grid5.Coords)
    (aX : Memref sig .tc .vmem S5000x64 .f32) (haX : aX.IsWhole) (aW : Memref sig .tc .vmem S64x40 .f32) (haW : aW.IsWhole)
    (aB : Memref sig .tc .vmem S40 .f32) (haB : aB.IsWhole) (aO : Memref sig .tc .vmem S5000x40 .f32) (haO : aO.IsWhole)
    (xX : Vec F S5000x64 .f32) (xW : Vec F S64x40 .f32) (xB : Vec F S40 .f32) (K : PUnit → sProp 𝕄) :
    iprop(owns (c : Thread nD τ) aX fullShare xX ∗ owns (c : Thread nD τ) aW fullShare xW
        ∗ owns (c : Thread nD τ) aB fullShare xB ∗ (∃ d, owns (c : Thread nD τ) aO fullShare d)
        ∗ (iprop(owns (c : Thread nD τ) aX fullShare xX ∗ owns (c : Thread nD τ) aW fullShare xW
            ∗ owns (c : Thread nD τ) aB fullShare xB ∗ owns (c : Thread nD τ) aO fullShare (out5_3 xX xW xB)) -∗ K ⟨⟩))
      ⊢ wp frame (wpE (defs₀ (F := F)) Variants.none c none) E (cc5_kernel i aX haX aW haW aB haB aO haO) K := by
  simp only [cc5_kernel_eq_skeleton]; unfold cc5_kernel_skel
  unfold owns
  iintro ⟨⟨%fX, %hfX, HX⟩, ⟨%fW, %hfW, HW⟩, ⟨%fB, %hfB, HB⟩, ⟨%dO, %fO, -, HO⟩, Hk⟩
  subst hfX; subst hfW; subst hfB
  sl_exec
  sl_step
  iapply Hk
  isplitl [HX]
  · iexists fX; isplitr; · ipureintro; rfl
    iexact HX
  isplitl [HW]
  · iexists fW; isplitr; · ipureintro; rfl
    iexact HW
  isplitl [HB]
  · iexists fB; isplitr; · ipureintro; rfl
    iexact HB
  iexists _; isplitr
  swap; · iexact HO
  ipureintro
  exact View.read_writes_eq_canon _ _ _ (cover5_3 _)

/-! ## The body obligation, at a generic point -/

/-- What the body is called with at point t, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the input buffers hold their blocks, so the body's triple applies; the invariant and what
    is owed pass through untouched. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%dX, HX⟩, ⟨%dW, HW⟩, ⟨%dB, HB⟩, ⟨%dO, HO⟩⟩
  iapply (sound_kernel5 c Set.univ _ _ _ _ _ _ _ _ _ (iblk5 V c 0 t) (iblk5 V c 1 t) (iblk5 V c 2 t) _)
  isplitl [HX]; · iexact HX
  isplitl [HW]; · iexact HW
  isplitl [HB]; · iexact HB
  isplitl [HO]; · iexists _; iexact HO
  iintro ⟨HX, HW, HB, HO⟩
  isplitl [HΦ]; · iexact HΦ
  isplitl [Ho]; · iexact Ho
  isplitl [HX]; · iexact HX
  isplitl [HW]; · iexact HW
  isplitl [HB]; · iexact HB
  iexact HO

/-- The region's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.H

end
-- ==== Proof.K.Reg5.lean ====
import proofs.«414250_j49357764165687_1_alg».proof.Proof.K.RegOf
import proofs.«414250_j49357764165687_1_alg».proof.Proof.K.Lin5

set_option maxRecDepth 16384

noncomputable section

namespace Cert.Kernel.H

open Idealize.ShloMosaic Cert.Kernel Cert.Kernel.Gen
open Idealize.ShloMosaic.Pipeline (RegionSeg)

variable {F : FTy → Type} [FloatOps F] (m : (ℓ : Loc nD τ sig) → Buf (Elt F) ℓ)

set_option backward.isDefEq.respectTransparency.types false in
def reg5 : RegionSeg (pcfgs (F := F)) adm (pdats m) () defs₀ 𝒱₀ L lv 5 :=
  regOf m 5 launch5 (V20 m (myOuts m)) (V21 m (myOuts m)) 3 (by decide)
    (fun c w => (A_eq5 (Ein5 m) c w).trans (congrFun (in5_eq m c) _).symm)
    (V21_of m (myOuts m)) (fun c => (V21_self m (myOuts m) c).trans (out5_eq m c)) (body_obligation5 (Ein5 m))

end Cert.Kernel.H

end
-- ==== Proof.K.RunAll.lean ====
/-
  The run of the kernel program's main function: from any memory with zero counters every weakly fair execution
  terminates, nothing faulting, and in the final memory EVERY unscoped buffer holds the contents the fold of the items
  gives it — the arguments as launched, each region's result array the final array of that region's proof data.
  The frame claim and the value claim are both read off this one statement.
-/
import proofs.«414250_j49357764165687_1_alg».proof.Proof.Gen.Kernel.Launch
import proofs.«414250_j49357764165687_1_alg».proof.Proof.Gen.Kernel.Skeleton
import proofs.«414250_j49357764165687_1_alg».proof.Proof.Gen.Kernel.Points
import proofs.«414250_j49357764165687_1_alg».proof.Proof.Gen.Kernel.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«414250_j49357764165687_1_alg».proof.Proof.K.Fold
import proofs.«414250_j49357764165687_1_alg».proof.Proof.K.Reg0
import proofs.«414250_j49357764165687_1_alg».proof.Proof.K.Reg1
import proofs.«414250_j49357764165687_1_alg».proof.Proof.K.Reg2
import proofs.«414250_j49357764165687_1_alg».proof.Proof.K.Reg3
import proofs.«414250_j49357764165687_1_alg».proof.Proof.K.Reg4
import proofs.«414250_j49357764165687_1_alg».proof.Proof.K.Reg5

set_option maxRecDepth 16384

noncomputable section

namespace Cert.Kernel.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

open Idealize.ShloMosaic.Pipeline (Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The rest that rides beside the buffers, the same between every two items. -/
abbrev restE : Fin 7 → Dev nD → sProp 𝕄 := fun _ c => Rst c

set_option backward.isDefEq.respectTransparency.types false in
theorem run_all :
    θ_run defs (onTc (τ := τ) (main (F := F))) ⟨m, fun _ => 0, ρ⟩ (fun r => ∀ c : Dev nD,
      ∀ b ∈ Pipeline.ucRefs τ sig, r.2.mem (((c : Thread nD τ)).1, b) = V21 m (myOuts m) c b) := by
  refine Pipeline.θ_run_regions_kit_dev (pcfgs (F := F)) adm (pdats m) () cellOf_inj emb₁ defs₀ 𝒱₀ L lv m ρ main
    (segs m (myOuts m) 𝒱₀ L lv (restE (F := F)) () (pdats m) (reg0 m) (reg1 m) (reg2 m) (reg3 m) (reg4 m) (reg5 m))
    (fun c Q => by
      rewrite [main_chain c, Seg.run_eq_chain,
        show (segs m (myOuts m) 𝒱₀ L lv (restE (F := F)) () (pdats m) (reg0 m) (reg1 m) (reg2 m) (reg3 m) (reg4 m) (reg5 m) c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          Prog.lift (.customCall (Pipeline.entry 1) ()),
          Prog.lift (.customCall (Pipeline.entry 2) ()),
          StableHlo.seq hostOps3,
          StableHlo.seq hostOps3_1,
          StableHlo.seq hostOps3_2,
          StableHlo.seq hostOps3_3,
          StableHlo.seq hostOps3_4,
          StableHlo.seq hostOps3_5,
          StableHlo.seq hostOps3_6,
          Prog.lift (.customCall (Pipeline.entry 3) ()),
          Prog.lift (.customCall (Pipeline.entry 4) ()),
          Prog.lift (.customCall (Pipeline.entry 5) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rst c))
    (Tₙ := fun c => StableHlo.held (c : Thread nD τ) (Pipeline.ucRefs τ sig) (V21 m (myOuts m) c))
    (hch := fun c => ⟨.rfl, .rfl, .rfl, .rfl, .rfl, .rfl, .rfl, .rfl, .rfl, .rfl, .rfl, .rfl, .rfl, .rfl, .rfl, .rfl, .rfl, .rfl, .rfl, .rfl, .rfl,
      sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V21 m (myOuts m) c b)
    (hfin := fun c s' => by
      iintro ⟨Hh, HSI⟩
      unfold StableHlo.held
      imodintro
      iapply (pointsTo_read_all (Pipeline.ucRefs τ sig) (fun b => (((c : Thread nD τ)).1, b)) (V21 m (myOuts m) c) s')
      isplitl [Hh] <;> iassumption)
    (hQ := fun _ h => h)

end Cert.Kernel.H

end
-- ==== Proof.KI.Lin0Defs.lean ====
import proofs.«414250_j49357764165687_1_alg».proof.Proof.Gen.KernelIdeal.Launch
import proofs.«414250_j49357764165687_1_alg».proof.Proof.Gen.KernelIdeal.Skeleton
import proofs.«414250_j49357764165687_1_alg».proof.Proof.Gen.KernelIdeal.Points
import proofs.«414250_j49357764165687_1_alg».proof.Proof.Gen.KernelIdeal.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rX0 : Rect S5000x64 := Rect.unit (s := S5000x64) ![0, 0] S5000x64.size inb_S5000x64_S5000x64_0_0
abbrev rW0 : Rect S64x64 := Rect.unit (s := S64x64) ![0, 0] S64x64.size inb_S64x64_S64x64_0_0
abbrev rB0 : Rect S64 := Rect.unit (s := S64) ![0] S64.size inb_S64_S64_0

def out0_3 (x0 : Vec F S5000x64 .f32) (x1 : Vec F S64x64 .f32) (x2 : Vec F S64 .f32) : Vec F S5000x64 .f32 :=
  View.canon [⟨rX0, k0_pay1 (View.ld x0 rX0) (View.ld x1 rW0) (View.ld x2 rB0)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

end Cert.KernelIdeal.H

end
-- ==== Proof.KI.Agg1Defs.lean ====
import proofs.«414250_j49357764165687_1_alg».proof.Proof.Gen.KernelIdeal.Launch
import proofs.«414250_j49357764165687_1_alg».proof.Proof.Gen.KernelIdeal.Skeleton
import proofs.«414250_j49357764165687_1_alg».proof.Proof.Gen.KernelIdeal.Points
import proofs.«414250_j49357764165687_1_alg».proof.Proof.Gen.KernelIdeal.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_a (i : grid1.Coords) : Prop := (Scalar.cmpi .ne (Scalar.extui (Scalar.cmpi .eq (BitVec.ofNat 32 (i 0).val) 0#32)) 0#32) = 1#1

abbrev cond1_z (i : grid1.Coords) : Prop := (Scalar.cmpi .ne (Scalar.extui (Scalar.cmpi .eq (BitVec.ofNat 32 (i 0).val) 195#32)) 0#32) = 1#1

theorem hcond1_a : ∀ t : Fin cfg1.N, cond1_a (grid1.coords t) ↔ t.val % 196 = 0 :=
  (by decide +kernel : ∀ t : Fin grid1.N, cond1_a (grid1.coords t) ↔ t.val % 196 = 0)
theorem hcond1_z : ∀ t : Fin cfg1.N, cond1_z (grid1.coords t) ↔ t.val % 196 = 195 :=
  (by decide +kernel : ∀ t : Fin grid1.N, cond1_z (grid1.coords t) ↔ t.val % 196 = 195)

theorem cond1_a_of (t : Fin cfg1.N) (h : t.val = 0) : cond1_a (grid1.coords t) := (hcond1_a t).mpr (by omega)
theorem not_cond1_a (t : Fin cfg1.N) (h : t.val ≠ 0) : ¬cond1_a (grid1.coords t) := fun hc => by
  have hm := (hcond1_a t).mp hc
  have hN : t.val < 196 := lt_of_lt_of_eq t.isLt (show cfg1.N = 196 from N_1)
  omega
theorem cond1_z_of (t : Fin cfg1.N) (h : t.val = 195) : cond1_z (grid1.coords t) := (hcond1_z t).mpr (by omega)
theorem not_cond1_z (t : Fin cfg1.N) (h : t.val ≠ 195) : ¬cond1_z (grid1.coords t) := fun hc => by
  have hm := (hcond1_z t).mp hc
  have hN : t.val < 196 := lt_of_lt_of_eq t.isLt (show cfg1.N = 196 from N_1)
  omega

abbrev mS1 (t : Fin cfg1.N) : Memref sig .tc .vmem S4096 .i32 := win1_0.stage (cfg1.slots t 0)
abbrev hS1 (t : Fin cfg1.N) : (mS1 t).IsWhole := hstage1_0 ((cfg1.slots t 0).cast nbuf1_0)
abbrev mD1 (t : Fin cfg1.N) : Memref sig .tc .vmem S4096 .i32 := win1_1.stage (cfg1.slots t 1)
abbrev hD1 (t : Fin cfg1.N) : (mD1 t).IsWhole := hstage1_1 ((cfg1.slots t 1).cast nbuf1_1)
abbrev mW1 (t : Fin cfg1.N) : Memref sig .tc .vmem S4096 .f32 := win1_2.stage (cfg1.slots t 2)
abbrev hW1 (t : Fin cfg1.N) : (mW1 t).IsWhole := hstage1_2 ((cfg1.slots t 2).cast nbuf1_2)
abbrev mH1 (t : Fin cfg1.N) : Memref sig .tc .vmem S50000x64 .bf16 := win1_3.stage (cfg1.slots t 3)
abbrev hH1 (t : Fin cfg1.N) : (mH1 t).IsWhole := hstage1_3 ((cfg1.slots t 3).cast nbuf1_3)
abbrev mO1 (t : Fin cfg1.N) : Memref sig .tc .vmem S50000x64 .f32 := win1_4.stage (cfg1.slots t 4)
abbrev hO1 (t : Fin cfg1.N) : (mO1 t).IsWhole := hstage1_4 ((cfg1.slots t 4).cast nbuf1_4)
abbrev mX1 : Memref sig .tc .vmem S4096x64 .f32 := Memref.whole cc1_scratch0
abbrev hX1 : (mX1).IsWhole := Memref.isWhole_whole _

set_option maxHeartbeats 4000000 in

noncomputable def kernelRun1_A (c : Dev nD) (i : grid1.Coords)
    (mS : Memref sig .tc .vmem S4096 .i32) (hS : mS.IsWhole) (mD : Memref sig .tc .vmem S4096 .i32) (hD : mD.IsWhole)
    (mW : Memref sig .tc .vmem S4096 .f32) (hW : mW.IsWhole) (mH : Memref sig .tc .vmem S50000x64 .bf16) (hH : mH.IsWhole)
    (mO : Memref sig .tc .vmem S50000x64 .f32) (hO : mO.IsWhole) (mX : Memref sig .tc .vmem S4096x64 .f32) (hX : mX.IsWhole)
    (hca : cond1_a i) (hcz : ¬cond1_z i)
    (xs : Vec F S4096 .i32) (xd : Vec F S4096 .i32) (xw : Vec F S4096 .f32) (xh : Vec F S50000x64 .bf16) :
    { L : List (View.Piece (Elt F) S50000x64 .f32) //
      ∀ (E : Set ℕ) (K : PUnit → sProp 𝕄),
        iprop(owns (c : Thread nD τ) mS fullShare xs ∗ owns (c : Thread nD τ) mD fullShare xd ∗ owns (c : Thread nD τ) mW fullShare xw
            ∗ owns (c : Thread nD τ) mH fullShare xh ∗ (∃ d, owns (c : Thread nD τ) mO fullShare d)
            ∗ (∃ X, owns (c : Thread nD τ) mX fullShare X)
            ∗ (iprop(owns (c : Thread nD τ) mS fullShare xs ∗ owns (c : Thread nD τ) mD fullShare xd ∗ owns (c : Thread nD τ) mW fullShare xw
                ∗ owns (c : Thread nD τ) mH fullShare xh
                ∗ (∃ f, mO.view.loc (c : Thread nD τ) ↦[mO.view.set]{fullShare} mO.view.writes (Elt F) f L)
                ∗ (∃ X, owns (c : Thread nD τ) mX fullShare X)) -∗ K ⟨⟩))
          ⊢ wp frame (wpE (defs₀ (F := F)) Variants.none c none) E (cc1_kernel i mS hS mD hD mW hW mH hH mO hO mX hX) K } := by
  refine ⟨?_, fun E K => ?run⟩
  case run =>
    simp only [cc1_kernel_eq_skeleton]; unfold cc1_kernel_skel
    unfold owns
    iintro ⟨⟨%fs, %hfs, HS⟩, ⟨%fd, %hfd, HD⟩, ⟨%fw, %hfw, HW⟩, ⟨%fh, %hfh, HH⟩, ⟨%d, %fo, -, HO⟩, ⟨%xg, %g, -, HX⟩, Hk⟩
    obtain rfl := hS.eq_unread hfs; obtain rfl := hD.eq_unread hfd; obtain rfl := hW.eq_unread hfw
    obtain rfl := hH.eq_unread hfh
    sl_exec (disch := first | exact hca | exact hcz)
    sl_step
    iapply Hk
    isplitl [HS]
    · iexists _; isplitr; · ipureintro; exact hS.read_unread _
      iexact HS
    isplitl [HD]
    · iexists _; isplitr; · ipureintro; exact hD.read_unread _
      iexact HD
    isplitl [HW]
    · iexists _; isplitr; · ipureintro; exact hW.read_unread _
      iexact HW
    isplitl [HH]
    · iexists _; isplitr; · ipureintro; exact hH.read_unread _
      iexact HH
    isplitl [HO]
    · iexists _; iexact HO
    iexists _; iexists _; isplitr
    swap; · iexact HX
    ipureintro; rfl

set_option maxHeartbeats 4000000 in

noncomputable def kernelRun1_B (c : Dev nD) (i : grid1.Coords)
    (mS : Memref sig .tc .vmem S4096 .i32) (hS : mS.IsWhole) (mD : Memref sig .tc .vmem S4096 .i32) (hD : mD.IsWhole)
    (mW : Memref sig .tc .vmem S4096 .f32) (hW : mW.IsWhole) (mH : Memref sig .tc .vmem S50000x64 .bf16) (hH : mH.IsWhole)
    (mO : Memref sig .tc .vmem S50000x64 .f32) (hO : mO.IsWhole) (mX : Memref sig .tc .vmem S4096x64 .f32) (hX : mX.IsWhole)
    (hca : ¬cond1_a i) (hcz : ¬cond1_z i)
    (xs : Vec F S4096 .i32) (xd : Vec F S4096 .i32) (xw : Vec F S4096 .f32) (xh : Vec F S50000x64 .bf16) (xo : Vec F S50000x64 .f32) :
    { L : List (View.Piece (Elt F) S50000x64 .f32) //
      ∀ (E : Set ℕ) (K : PUnit → sProp 𝕄),
        iprop(owns (c : Thread nD τ) mS fullShare xs ∗ owns (c : Thread nD τ) mD fullShare xd ∗ owns (c : Thread nD τ) mW fullShare xw
            ∗ owns (c : Thread nD τ) mH fullShare xh ∗ owns (c : Thread nD τ) mO fullShare xo
            ∗ (∃ X, owns (c : Thread nD τ) mX fullShare X)
            ∗ (iprop(owns (c : Thread nD τ) mS fullShare xs ∗ owns (c : Thread nD τ) mD fullShare xd ∗ owns (c : Thread nD τ) mW fullShare xw
                ∗ owns (c : Thread nD τ) mH fullShare xh
                ∗ (∃ f, mO.view.loc (c : Thread nD τ) ↦[mO.view.set]{fullShare} mO.view.writes (Elt F) f L)
                ∗ (∃ X, owns (c : Thread nD τ) mX fullShare X)) -∗ K ⟨⟩))
          ⊢ wp frame (wpE (defs₀ (F := F)) Variants.none c none) E (cc1_kernel i mS hS mD hD mW hW mH hH mO hO mX hX) K } := by
  refine ⟨?_, fun E K => ?run⟩
  case run =>
    simp only [cc1_kernel_eq_skeleton]; unfold cc1_kernel_skel
    unfold owns
    iintro ⟨⟨%fs, %hfs, HS⟩, ⟨%fd, %hfd, HD⟩, ⟨%fw, %hfw, HW⟩, ⟨%fh, %hfh, HH⟩, ⟨%fo, %hfo, HO⟩, ⟨%xg, %g, -, HX⟩, Hk⟩
    obtain rfl := hS.eq_unread hfs; obtain rfl := hD.eq_unread hfd; obtain rfl := hW.eq_unread hfw
    obtain rfl := hH.eq_unread hfh; obtain rfl := hO.eq_unread hfo
    sl_exec (disch := first | exact hca | exact hcz)
    sl_step
    iapply Hk
    isplitl [HS]
    · iexists _; isplitr; · ipureintro; exact hS.read_unread _
      iexact HS
    isplitl [HD]
    · iexists _; isplitr; · ipureintro; exact hD.read_unread _
      iexact HD
    isplitl [HW]
    · iexists _; isplitr; · ipureintro; exact hW.read_unread _
      iexact HW
    isplitl [HH]
    · iexists _; isplitr; · ipureintro; exact hH.read_unread _
      iexact HH
    isplitl [HO]
    · iexists _; iexact HO
    iexists _; iexists _; isplitr
    swap; · iexact HX
    ipureintro; rfl

set_option maxHeartbeats 4000000 in
set_option maxRecDepth 65536 in

noncomputable def kernelRun1_C (c : Dev nD) (i : grid1.Coords)
    (mS : Memref sig .tc .vmem S4096 .i32) (hS : mS.IsWhole) (mD : Memref sig .tc .vmem S4096 .i32) (hD : mD.IsWhole)
    (mW : Memref sig .tc .vmem S4096 .f32) (hW : mW.IsWhole) (mH : Memref sig .tc .vmem S50000x64 .bf16) (hH : mH.IsWhole)
    (mO : Memref sig .tc .vmem S50000x64 .f32) (hO : mO.IsWhole) (mX : Memref sig .tc .vmem S4096x64 .f32) (hX : mX.IsWhole)
    (hca : ¬cond1_a i) (hcz : cond1_z i)
    (xs : Vec F S4096 .i32) (xd : Vec F S4096 .i32) (xw : Vec F S4096 .f32) (xh : Vec F S50000x64 .bf16) (xo : Vec F S50000x64 .f32) :
    { L : List (View.Piece (Elt F) S50000x64 .f32) //
      ∀ (E : Set ℕ) (K : PUnit → sProp 𝕄),
        iprop(owns (c : Thread nD τ) mS fullShare xs ∗ owns (c : Thread nD τ) mD fullShare xd ∗ owns (c : Thread nD τ) mW fullShare xw
            ∗ owns (c : Thread nD τ) mH fullShare xh ∗ owns (c : Thread nD τ) mO fullShare xo
            ∗ (∃ X, owns (c : Thread nD τ) mX fullShare X)
            ∗ (iprop(owns (c : Thread nD τ) mS fullShare xs ∗ owns (c : Thread nD τ) mD fullShare xd ∗ owns (c : Thread nD τ) mW fullShare xw
                ∗ owns (c : Thread nD τ) mH fullShare xh
                ∗ (∃ f, mO.view.loc (c : Thread nD τ) ↦[mO.view.set]{fullShare} mO.view.writes (Elt F) f L)
                ∗ (∃ X, owns (c : Thread nD τ) mX fullShare X)) -∗ K ⟨⟩))
          ⊢ wp frame (wpE (defs₀ (F := F)) Variants.none c none) E (cc1_kernel i mS hS mD hD mW hW mH hH mO hO mX hX) K } := by
  refine ⟨?_, fun E K => ?run⟩
  case run =>
    simp only [cc1_kernel_eq_skeleton]; unfold cc1_kernel_skel
    unfold owns
    iintro ⟨⟨%fs, %hfs, HS⟩, ⟨%fd, %hfd, HD⟩, ⟨%fw, %hfw, HW⟩, ⟨%fh, %hfh, HH⟩, ⟨%fo, %hfo, HO⟩, ⟨%xg, %g, -, HX⟩, Hk⟩
    obtain rfl := hS.eq_unread hfs; obtain rfl := hD.eq_unread hfd; obtain rfl := hW.eq_unread hfw
    obtain rfl := hH.eq_unread hfh; obtain rfl := hO.eq_unread hfo
    sl_exec (disch := first | exact hca | exact hcz)
    sl_step
    iapply Hk
    isplitl [HS]
    · iexists _; isplitr; · ipureintro; exact hS.read_unread _
      iexact HS
    isplitl [HD]
    · iexists _; isplitr; · ipureintro; exact hD.read_unread _
      iexact HD
    isplitl [HW]
    · iexists _; isplitr; · ipureintro; exact hW.read_unread _
      iexact HW
    isplitl [HH]
    · iexists _; isplitr; · ipureintro; exact hH.read_unread _
      iexact HH
    isplitl [HO]
    · iexists (hO.unread xo)
      have e : (kernelRun1_C.sl.HO_w1 c i mS hS mD hD mW hW mH hH mO hO mX hX xs xd xw xh xo : BufTy.Contents (Elt F) mO.view.ty)
          = mO.view.writes (Elt F) (hO.unread xo)
              (⟨Rect.unit (s := S50000x64) ![0, 0] S50000x64.size inb_S50000x64_S50000x64_0_0,
                  k1_pay5 (kernelRun1_C.sl.v25 c i mS hS mD hD mW hW mH hH mO hO mX hX xs xd xw xh xo)⟩ ::
                pb_k1_t2 Variants.none c none i mS hS mD hD mW hW mH hH mO hO mX hX
                  (View.readAt (Elt F) mS.view (Rect.unit ![0] S4096.size inb_S4096_S4096_0).toLoadRect (hS.unread xs))
                  (View.readAt (Elt F) mW.view (Rect.unit ![0] S4096.size inb_S4096_S4096_0).toLoadRect (hW.unread xw))
                  (kernelRun1_C.sl.v17 c i mS hS mD hD mW hW mH hH mO hO mX hX xd xh) (hO.unread xo)
                  (Scf.trips k1_t2_loop.lb k1_t2_loop.ub k1_t2_loop.st)) := by
        unfold kernelRun1_C.sl.HO_w1
        exact rfl
      rw [e]
      iexact HO
    iexists _; iexists _; isplitr
    swap; · iexact HX
    ipureintro; rfl

theorem cover1_A (c : Dev nD) (i : grid1.Coords)
    (mS : Memref sig .tc .vmem S4096 .i32) (hS : mS.IsWhole) (mD : Memref sig .tc .vmem S4096 .i32) (hD : mD.IsWhole)
    (mW : Memref sig .tc .vmem S4096 .f32) (hW : mW.IsWhole) (mH : Memref sig .tc .vmem S50000x64 .bf16) (hH : mH.IsWhole)
    (mO : Memref sig .tc .vmem S50000x64 .f32) (hO : mO.IsWhole) (mX : Memref sig .tc .vmem S4096x64 .f32) (hX : mX.IsWhole)
    (hca : cond1_a i) (hcz : ¬cond1_z i)
    (xs : Vec F S4096 .i32) (xd : Vec F S4096 .i32) (xw : Vec F S4096 .f32) (xh : Vec F S50000x64 .bf16) (y : S50000x64.Idx) :
    ∃ pc ∈ (kernelRun1_A c i mS hS mD hD mW hW mH hH mO hO mX hX hca hcz xs xd xw xh).1, y ∈ pc.1.set :=
  View.cover_of_wholeMem _ (by sl_whole_mem) y

def out1_A (c : Dev nD) (i : grid1.Coords)
    (mS : Memref sig .tc .vmem S4096 .i32) (hS : mS.IsWhole) (mD : Memref sig .tc .vmem S4096 .i32) (hD : mD.IsWhole)
    (mW : Memref sig .tc .vmem S4096 .f32) (hW : mW.IsWhole) (mH : Memref sig .tc .vmem S50000x64 .bf16) (hH : mH.IsWhole)
    (mO : Memref sig .tc .vmem S50000x64 .f32) (hO : mO.IsWhole) (mX : Memref sig .tc .vmem S4096x64 .f32) (hX : mX.IsWhole)
    (hca : cond1_a i) (hcz : ¬cond1_z i)
    (xs : Vec F S4096 .i32) (xd : Vec F S4096 .i32) (xw : Vec F S4096 .f32) (xh : Vec F S50000x64 .bf16) : Vec F S50000x64 .f32 :=
  mO.view.read (Elt F) (mO.view.writes (Elt F) mO.view.junk (kernelRun1_A c i mS hS mD hD mW hW mH hH mO hO mX hX hca hcz xs xd xw xh).1)

theorem cover1_B (c : Dev nD) (i : grid1.Coords)
    (mS : Memref sig .tc .vmem S4096 .i32) (hS : mS.IsWhole) (mD : Memref sig .tc .vmem S4096 .i32) (hD : mD.IsWhole)
    (mW : Memref sig .tc .vmem S4096 .f32) (hW : mW.IsWhole) (mH : Memref sig .tc .vmem S50000x64 .bf16) (hH : mH.IsWhole)
    (mO : Memref sig .tc .vmem S50000x64 .f32) (hO : mO.IsWhole) (mX : Memref sig .tc .vmem S4096x64 .f32) (hX : mX.IsWhole)
    (hca : ¬cond1_a i) (hcz : ¬cond1_z i)
    (xs : Vec F S4096 .i32) (xd : Vec F S4096 .i32) (xw : Vec F S4096 .f32) (xh : Vec F S50000x64 .bf16) (xo : Vec F S50000x64 .f32) (y : S50000x64.Idx) :
    ∃ pc ∈ (kernelRun1_B c i mS hS mD hD mW hW mH hH mO hO mX hX hca hcz xs xd xw xh xo).1, y ∈ pc.1.set :=
  View.cover_of_tiledL (kernelRun1_B c i mS hS mD hD mW hW mH hH mO hO mX hX hca hcz xs xd xw xh xo).1 S1000x64.size (by sl_kernel_rfl) y

def out1_B (c : Dev nD) (i : grid1.Coords)
    (mS : Memref sig .tc .vmem S4096 .i32) (hS : mS.IsWhole) (mD : Memref sig .tc .vmem S4096 .i32) (hD : mD.IsWhole)
    (mW : Memref sig .tc .vmem S4096 .f32) (hW : mW.IsWhole) (mH : Memref sig .tc .vmem S50000x64 .bf16) (hH : mH.IsWhole)
    (mO : Memref sig .tc .vmem S50000x64 .f32) (hO : mO.IsWhole) (mX : Memref sig .tc .vmem S4096x64 .f32) (hX : mX.IsWhole)
    (hca : ¬cond1_a i) (hcz : ¬cond1_z i)
    (xs : Vec F S4096 .i32) (xd : Vec F S4096 .i32) (xw : Vec F S4096 .f32) (xh : Vec F S50000x64 .bf16) (xo : Vec F S50000x64 .f32) : Vec F S50000x64 .f32 :=
  mO.view.read (Elt F) (mO.view.writes (Elt F) mO.view.junk (kernelRun1_B c i mS hS mD hD mW hW mH hH mO hO mX hX hca hcz xs xd xw xh xo).1)

theorem cover1_C (c : Dev nD) (i : grid1.Coords)
    (mS : Memref sig .tc .vmem S4096 .i32) (hS : mS.IsWhole) (mD : Memref sig .tc .vmem S4096 .i32) (hD : mD.IsWhole)
    (mW : Memref sig .tc .vmem S4096 .f32) (hW : mW.IsWhole) (mH : Memref sig .tc .vmem S50000x64 .bf16) (hH : mH.IsWhole)
    (mO : Memref sig .tc .vmem S50000x64 .f32) (hO : mO.IsWhole) (mX : Memref sig .tc .vmem S4096x64 .f32) (hX : mX.IsWhole)
    (hca : ¬cond1_a i) (hcz : cond1_z i)
    (xs : Vec F S4096 .i32) (xd : Vec F S4096 .i32) (xw : Vec F S4096 .f32) (xh : Vec F S50000x64 .bf16) (xo : Vec F S50000x64 .f32) (y : S50000x64.Idx) :
    ∃ pc ∈ (kernelRun1_C c i mS hS mD hD mW hW mH hH mO hO mX hX hca hcz xs xd xw xh xo).1, y ∈ pc.1.set :=
  View.cover_of_wholeMem _ (by sl_whole_mem) y

def out1_C (c : Dev nD) (i : grid1.Coords)
    (mS : Memref sig .tc .vmem S4096 .i32) (hS : mS.IsWhole) (mD : Memref sig .tc .vmem S4096 .i32) (hD : mD.IsWhole)
    (mW : Memref sig .tc .vmem S4096 .f32) (hW : mW.IsWhole) (mH : Memref sig .tc .vmem S50000x64 .bf16) (hH : mH.IsWhole)
    (mO : Memref sig .tc .vmem S50000x64 .f32) (hO : mO.IsWhole) (mX : Memref sig .tc .vmem S4096x64 .f32) (hX : mX.IsWhole)
    (hca : ¬cond1_a i) (hcz : cond1_z i)
    (xs : Vec F S4096 .i32) (xd : Vec F S4096 .i32) (xw : Vec F S4096 .f32) (xh : Vec F S50000x64 .bf16) (xo : Vec F S50000x64 .f32) : Vec F S50000x64 .f32 :=
  mO.view.read (Elt F) (mO.view.writes (Elt F) mO.view.junk (kernelRun1_C c i mS hS mD hD mW hW mH hH mO hO mX hX hca hcz xs xd xw xh xo).1)

def acc1 (c : Dev nD) : (n : ℕ) → n < cfg1.N → Vec F S50000x64 .f32
  | 0, hn => out1_A c (grid1.coords ⟨0, hn⟩) (mS1 ⟨0, hn⟩) (hS1 ⟨0, hn⟩) (mD1 ⟨0, hn⟩) (hD1 ⟨0, hn⟩) (mW1 ⟨0, hn⟩) (hW1 ⟨0, hn⟩) (mH1 ⟨0, hn⟩) (hH1 ⟨0, hn⟩) (mO1 ⟨0, hn⟩) (hO1 ⟨0, hn⟩) mX1 hX1 (cond1_a_of ⟨0, hn⟩ rfl) (not_cond1_z ⟨0, hn⟩ (show (0 : ℕ) ≠ 195 by decide)) (iblk1 V c 0 ⟨0, hn⟩) (iblk1 V c 1 ⟨0, hn⟩) (iblk1 V c 2 ⟨0, hn⟩) (iblk1 V c 3 ⟨0, hn⟩)
  | n + 1, hn =>
    if hz : n + 1 = 195 then
      out1_C c (grid1.coords ⟨n + 1, hn⟩) (mS1 ⟨n + 1, hn⟩) (hS1 ⟨n + 1, hn⟩) (mD1 ⟨n + 1, hn⟩) (hD1 ⟨n + 1, hn⟩) (mW1 ⟨n + 1, hn⟩) (hW1 ⟨n + 1, hn⟩) (mH1 ⟨n + 1, hn⟩) (hH1 ⟨n + 1, hn⟩) (mO1 ⟨n + 1, hn⟩) (hO1 ⟨n + 1, hn⟩) mX1 hX1 (not_cond1_a ⟨n + 1, hn⟩ (Nat.succ_ne_zero n)) (cond1_z_of ⟨n + 1, hn⟩ hz) (iblk1 V c 0 ⟨n + 1, hn⟩) (iblk1 V c 1 ⟨n + 1, hn⟩) (iblk1 V c 2 ⟨n + 1, hn⟩) (iblk1 V c 3 ⟨n + 1, hn⟩) (acc1 c n (Nat.lt_of_succ_lt hn))
    else
      out1_B c (grid1.coords ⟨n + 1, hn⟩) (mS1 ⟨n + 1, hn⟩) (hS1 ⟨n + 1, hn⟩) (mD1 ⟨n + 1, hn⟩) (hD1 ⟨n + 1, hn⟩) (mW1 ⟨n + 1, hn⟩) (hW1 ⟨n + 1, hn⟩) (mH1 ⟨n + 1, hn⟩) (hH1 ⟨n + 1, hn⟩) (mO1 ⟨n + 1, hn⟩) (hO1 ⟨n + 1, hn⟩) mX1 hX1 (not_cond1_a ⟨n + 1, hn⟩ (Nat.succ_ne_zero n)) (not_cond1_z ⟨n + 1, hn⟩ hz) (iblk1 V c 0 ⟨n + 1, hn⟩) (iblk1 V c 1 ⟨n + 1, hn⟩) (iblk1 V c 2 ⟨n + 1, hn⟩) (iblk1 V c 3 ⟨n + 1, hn⟩) (acc1 c n (Nat.lt_of_succ_lt hn))

theorem acc1_A (c : Dev nD) (t : Fin cfg1.N) (h0 : t.val = 0) :
    acc1 V c t.val t.isLt = out1_A c (grid1.coords t) (mS1 t) (hS1 t) (mD1 t) (hD1 t) (mW1 t) (hW1 t) (mH1 t) (hH1 t) (mO1 t) (hO1 t) mX1 hX1 (cond1_a_of t h0) (not_cond1_z t (by omega)) (iblk1 V c 0 t) (iblk1 V c 1 t) (iblk1 V c 2 t) (iblk1 V c 3 t) := by
  obtain ⟨n, hn⟩ := t
  cases n with
  | zero => exact rfl
  | succ n => exact absurd h0 (Nat.succ_ne_zero n)

theorem acc1_B (c : Dev nD) (t : Fin cfg1.N) (h0 : t.val ≠ 0) (hz : t.val ≠ 195) :
    acc1 V c t.val t.isLt = out1_B c (grid1.coords t) (mS1 t) (hS1 t) (mD1 t) (hD1 t) (mW1 t) (hW1 t) (mH1 t) (hH1 t) (mO1 t) (hO1 t) mX1 hX1 (not_cond1_a t h0) (not_cond1_z t hz) (iblk1 V c 0 t) (iblk1 V c 1 t) (iblk1 V c 2 t) (iblk1 V c 3 t)
      (acc1 V c (t.val - 1) (Nat.lt_of_le_of_lt (Nat.sub_le _ _) t.isLt)) := by
  obtain ⟨n, hn⟩ := t
  cases n with
  | zero => exact absurd rfl h0
  | succ n => exact (dif_neg hz).trans rfl

theorem acc1_C (c : Dev nD) (t : Fin cfg1.N) (hz : t.val = 195) :
    acc1 V c t.val t.isLt = out1_C c (grid1.coords t) (mS1 t) (hS1 t) (mD1 t) (hD1 t) (mW1 t) (hW1 t) (mH1 t) (hH1 t) (mO1 t) (hO1 t) mX1 hX1 (not_cond1_a t (by omega)) (cond1_z_of t hz) (iblk1 V c 0 t) (iblk1 V c 1 t) (iblk1 V c 2 t) (iblk1 V c 3 t)
      (acc1 V c (t.val - 1) (Nat.lt_of_le_of_lt (Nat.sub_le _ _) t.isLt)) := by
  obtain ⟨n, hn⟩ := t
  cases n with
  | zero => exact absurd hz (show (0 : ℕ) ≠ 195 by decide)
  | succ n => exact (dif_pos hz).trans rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => acc1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = acc1 V c t.val t.isLt := by dsimp only [dat1]

end Cert.KernelIdeal.H

end
-- ==== Proof.KI.Lin2Defs.lean ====
/-
  A dense layer's kernel region (a block of 5000 rows of the input times the 64x64 weight, plus the bias row), read at
  the contents V the region is entered with: each window's block at a grid point, what the body leaves in the output
  window's buffer as a function of the three input blocks, and the region's proof data.
-/
import proofs.«414250_j49357764165687_1_alg».proof.Proof.Gen.KernelIdeal.Launch
import proofs.«414250_j49357764165687_1_alg».proof.Proof.Gen.KernelIdeal.Skeleton
import proofs.«414250_j49357764165687_1_alg».proof.Proof.Gen.KernelIdeal.Points
import proofs.«414250_j49357764165687_1_alg».proof.Proof.Gen.KernelIdeal.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole 5000x64 block, the whole weight and the whole bias row: the body's three loads and its one store. -/
abbrev rX2 : Rect S5000x64 := Rect.unit (s := S5000x64) ![0, 0] S5000x64.size inb_S5000x64_S5000x64_0_0
abbrev rW2 : Rect S64x64 := Rect.unit (s := S64x64) ![0, 0] S64x64.size inb_S64x64_S64x64_0_0
abbrev rB2 : Rect S64 := Rect.unit (s := S64) ![0] S64.size inb_S64_S64_0

/-- The output window's buffer after the body: one whole-block store of the product plus bias. -/
def out2_3 (x0 : Vec F S5000x64 .f32) (x1 : Vec F S64x64 .f32) (x2 : Vec F S64 .f32) : Vec F S5000x64 .f32 :=
  View.canon [⟨rX2, k2_pay1 (View.ld x0 rX2) (View.ld x1 rW2) (View.ld x2 rB2)⟩]

/-- The region's proof data on core c: the arrays as entered; each input's buffer at its block, the output's at the
    product plus bias of the input blocks; the scoped rest and the generator register untouched; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

end Cert.KernelIdeal.H

end
-- ==== Proof.KI.Agg3Defs.lean ====
/-
  The second aggregation region runs the very kernel body the first one runs, on its own windows: its proof data are
  the first region's three runs of the body read at this region's windows.
-/
import proofs.«414250_j49357764165687_1_alg».proof.Proof.KI.Agg1Defs

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Both aggregation regions call one kernel body. -/
theorem cc3_kernel_eq : @cc3_kernel F _ = @cc1_kernel F _ := rfl

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))
abbrev mS3 (t : Fin cfg3.N) : Memref sig .tc .vmem S4096 .i32 := win3_0.stage (cfg3.slots t 0)
abbrev hS3 (t : Fin cfg3.N) : (mS3 t).IsWhole := hstage3_0 ((cfg3.slots t 0).cast nbuf3_0)
abbrev mD3 (t : Fin cfg3.N) : Memref sig .tc .vmem S4096 .i32 := win3_1.stage (cfg3.slots t 1)
abbrev hD3 (t : Fin cfg3.N) : (mD3 t).IsWhole := hstage3_1 ((cfg3.slots t 1).cast nbuf3_1)
abbrev mW3 (t : Fin cfg3.N) : Memref sig .tc .vmem S4096 .f32 := win3_2.stage (cfg3.slots t 2)
abbrev hW3 (t : Fin cfg3.N) : (mW3 t).IsWhole := hstage3_2 ((cfg3.slots t 2).cast nbuf3_2)
abbrev mH3 (t : Fin cfg3.N) : Memref sig .tc .vmem S50000x64 .bf16 := win3_3.stage (cfg3.slots t 3)
abbrev hH3 (t : Fin cfg3.N) : (mH3 t).IsWhole := hstage3_3 ((cfg3.slots t 3).cast nbuf3_3)
abbrev mO3 (t : Fin cfg3.N) : Memref sig .tc .vmem S50000x64 .f32 := win3_4.stage (cfg3.slots t 4)
abbrev hO3 (t : Fin cfg3.N) : (mO3 t).IsWhole := hstage3_4 ((cfg3.slots t 4).cast nbuf3_4)
abbrev mX3 : Memref sig .tc .vmem S4096x64 .f32 := Memref.whole cc3_scratch0
abbrev hX3 : (mX3).IsWhole := Memref.isWhole_whole _

def acc3 (c : Dev nD) : (n : ℕ) → n < cfg3.N → Vec F S50000x64 .f32
  | 0, hn => out1_A c (grid3.coords ⟨0, hn⟩) (mS3 ⟨0, hn⟩) (hS3 ⟨0, hn⟩) (mD3 ⟨0, hn⟩) (hD3 ⟨0, hn⟩) (mW3 ⟨0, hn⟩) (hW3 ⟨0, hn⟩) (mH3 ⟨0, hn⟩) (hH3 ⟨0, hn⟩) (mO3 ⟨0, hn⟩) (hO3 ⟨0, hn⟩) mX3 hX3 (cond1_a_of ⟨0, hn⟩ rfl) (not_cond1_z ⟨0, hn⟩ (show (0 : ℕ) ≠ 195 by decide)) (iblk3 V c 0 ⟨0, hn⟩) (iblk3 V c 1 ⟨0, hn⟩) (iblk3 V c 2 ⟨0, hn⟩) (iblk3 V c 3 ⟨0, hn⟩)
  | n + 1, hn =>
    if hz : n + 1 = 195 then
      out1_C c (grid3.coords ⟨n + 1, hn⟩) (mS3 ⟨n + 1, hn⟩) (hS3 ⟨n + 1, hn⟩) (mD3 ⟨n + 1, hn⟩) (hD3 ⟨n + 1, hn⟩) (mW3 ⟨n + 1, hn⟩) (hW3 ⟨n + 1, hn⟩) (mH3 ⟨n + 1, hn⟩) (hH3 ⟨n + 1, hn⟩) (mO3 ⟨n + 1, hn⟩) (hO3 ⟨n + 1, hn⟩) mX3 hX3 (not_cond1_a ⟨n + 1, hn⟩ (Nat.succ_ne_zero n)) (cond1_z_of ⟨n + 1, hn⟩ hz) (iblk3 V c 0 ⟨n + 1, hn⟩) (iblk3 V c 1 ⟨n + 1, hn⟩) (iblk3 V c 2 ⟨n + 1, hn⟩) (iblk3 V c 3 ⟨n + 1, hn⟩) (acc3 c n (Nat.lt_of_succ_lt hn))
    else
      out1_B c (grid3.coords ⟨n + 1, hn⟩) (mS3 ⟨n + 1, hn⟩) (hS3 ⟨n + 1, hn⟩) (mD3 ⟨n + 1, hn⟩) (hD3 ⟨n + 1, hn⟩) (mW3 ⟨n + 1, hn⟩) (hW3 ⟨n + 1, hn⟩) (mH3 ⟨n + 1, hn⟩) (hH3 ⟨n + 1, hn⟩) (mO3 ⟨n + 1, hn⟩) (hO3 ⟨n + 1, hn⟩) mX3 hX3 (not_cond1_a ⟨n + 1, hn⟩ (Nat.succ_ne_zero n)) (not_cond1_z ⟨n + 1, hn⟩ hz) (iblk3 V c 0 ⟨n + 1, hn⟩) (iblk3 V c 1 ⟨n + 1, hn⟩) (iblk3 V c 2 ⟨n + 1, hn⟩) (iblk3 V c 3 ⟨n + 1, hn⟩) (acc3 c n (Nat.lt_of_succ_lt hn))

theorem acc3_A (c : Dev nD) (t : Fin cfg3.N) (h0 : t.val = 0) :
    acc3 V c t.val t.isLt = out1_A c (grid3.coords t) (mS3 t) (hS3 t) (mD3 t) (hD3 t) (mW3 t) (hW3 t) (mH3 t) (hH3 t) (mO3 t) (hO3 t) mX3 hX3 (cond1_a_of t h0) (not_cond1_z t (by omega)) (iblk3 V c 0 t) (iblk3 V c 1 t) (iblk3 V c 2 t) (iblk3 V c 3 t) := by
  obtain ⟨n, hn⟩ := t
  cases n with
  | zero => exact rfl
  | succ n => exact absurd h0 (Nat.succ_ne_zero n)

theorem acc3_B (c : Dev nD) (t : Fin cfg3.N) (h0 : t.val ≠ 0) (hz : t.val ≠ 195) :
    acc3 V c t.val t.isLt = out1_B c (grid3.coords t) (mS3 t) (hS3 t) (mD3 t) (hD3 t) (mW3 t) (hW3 t) (mH3 t) (hH3 t) (mO3 t) (hO3 t) mX3 hX3 (not_cond1_a t h0) (not_cond1_z t hz) (iblk3 V c 0 t) (iblk3 V c 1 t) (iblk3 V c 2 t) (iblk3 V c 3 t)
      (acc3 V c (t.val - 1) (Nat.lt_of_le_of_lt (Nat.sub_le _ _) t.isLt)) := by
  obtain ⟨n, hn⟩ := t
  cases n with
  | zero => exact absurd rfl h0
  | succ n => exact (dif_neg hz).trans rfl

theorem acc3_C (c : Dev nD) (t : Fin cfg3.N) (hz : t.val = 195) :
    acc3 V c t.val t.isLt = out1_C c (grid3.coords t) (mS3 t) (hS3 t) (mD3 t) (hD3 t) (mW3 t) (hW3 t) (mH3 t) (hH3 t) (mO3 t) (hO3 t) mX3 hX3 (not_cond1_a t (by omega)) (cond1_z_of t hz) (iblk3 V c 0 t) (iblk3 V c 1 t) (iblk3 V c 2 t) (iblk3 V c 3 t)
      (acc3 V c (t.val - 1) (Nat.lt_of_le_of_lt (Nat.sub_le _ _) t.isLt)) := by
  obtain ⟨n, hn⟩ := t
  cases n with
  | zero => exact absurd hz (show (0 : ℕ) ≠ 195 by decide)
  | succ n => exact (dif_pos hz).trans rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => acc3 V c t.val t.isLt
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = acc3 V c t.val t.isLt := by dsimp only [dat3]

end Cert.KernelIdeal.H

end
-- ==== Proof.KI.Lin4Defs.lean ====
/-
  The third dense layer's region runs the second one's kernel body on its own windows: its proof data are the second
  region's stored block read at this region's blocks.
-/
import proofs.«414250_j49357764165687_1_alg».proof.Proof.KI.Lin2Defs

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (V : (c : Dev nD) → (b : Ref sig .tc) → Buf (Elt F) ((c : Thread nD τ).loc b))

/-- The two later dense layers of 64 columns call one kernel body. -/
theorem cc4_kernel_eq : @cc4_kernel F _ = @cc2_kernel F _ := rfl

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out2_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out2_3 (iblk4 V c 0 t) (iblk4 V c 1 t) (iblk4 V c 2 t) := by dsimp only [dat4]

end Cert.KernelIdeal.H

end
-- ==== Proof.KI.Lin5Defs.lean ====
import proofs.«414250_j49357764165687_1_alg».proof.Proof.Gen.KernelIdeal.Launch
import proofs.«414250_j49357764165687_1_alg».proof.Proof.Gen.KernelIdeal.Skeleton
import proofs.«414250_j49357764165687_1_alg».proof.Proof.Gen.KernelIdeal.Points
import proofs.«414250_j49357764165687_1_alg».proof.Proof.Gen.KernelIdeal.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev rX5 : Rect S5000x64 := Rect.unit (s := S5000x64) ![0, 0] S5000x64.size inb_S5000x64_S5000x64_0_0
abbrev rW5 : Rect S64x40 := Rect.unit (s := S64x40) ![0, 0] S64x40.size inb_S64x40_S64x40_0_0
abbrev rB5 : Rect S40 := Rect.unit (s := S40) ![0] S40.size inb_S40_S40_0
abbrev rO5 : Rect S5000x40 := Rect.unit (s := S5000x40) ![0, 0] S5000x40.size inb_S5000x40_S5000x40_0_0

def out5_3 (x0 : Vec F S5000x64 .f32) (x1 : Vec F S64x40 .f32) (x2 : Vec F S40 .f32) : Vec F S5000x40 .f32 :=
  View.canon [⟨rO5, k5_pay1 (View.ld x0 rX5) (View.ld x1 rW5) (View.ld x2 rB5)⟩]

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = out5_3 (iblk5 V c 0 t) (iblk5 V c 1 t) (iblk5 V c 2 t) := by dsimp only [dat5]

end Cert.KernelIdeal.H

end
-- ==== Proof.KI.Fold.lean ====
import proofs.«414250_j49357764165687_1_alg».proof.Proof.Gen.KernelIdeal.Launch
import proofs.«414250_j49357764165687_1_alg».proof.Proof.Gen.KernelIdeal.Skeleton
import proofs.«414250_j49357764165687_1_alg».proof.Proof.Gen.KernelIdeal.Points
import proofs.«414250_j49357764165687_1_alg».proof.Proof.Gen.KernelIdeal.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«414250_j49357764165687_1_alg».proof.Proof.KI.Lin0Defs
import proofs.«414250_j49357764165687_1_alg».proof.Proof.KI.Agg1Defs
import proofs.«414250_j49357764165687_1_alg».proof.Proof.KI.Lin2Defs
import proofs.«414250_j49357764165687_1_alg».proof.Proof.KI.Agg3Defs
import proofs.«414250_j49357764165687_1_alg».proof.Proof.KI.Lin4Defs
import proofs.«414250_j49357764165687_1_alg».proof.Proof.KI.Lin5Defs
import proofs.«414250_j49357764165687_1_alg».proof.Proof.Gen.KernelIdeal.Regions

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ)

abbrev atTc (W : Dev nD → Valuation τ sig (Elt F)) : (c : Dev nD) → (b : Ref sig .tc) → Buf (Elt F) ((c : Thread nD τ).loc b) :=
  fun c b => W c b

abbrev Ein0 : (c : Dev nD) → (b : Ref sig .tc) → Buf (Elt F) ((c : Thread nD τ).loc b) := atTc (fun c => V1 m c)

def U2 (c : Dev nD) : Valuation τ sig (Elt F) :=
  Pipeline.withArrays spec0 c (V1 m c) fun w => (dat0 (Ein0 m) c).arrAt w cfg0.N

def outs2 : Outs (F := F) := fun _ r c => U2 m c r

abbrev Ein1 : (c : Dev nD) → (b : Ref sig .tc) → Buf (Elt F) ((c : Thread nD τ).loc b) := atTc (fun c => V9 m (outs2 m) c)

def U10 (c : Dev nD) : Valuation τ sig (Elt F) :=
  Pipeline.withArrays spec1 c (V9 m (outs2 m) c) fun w => (dat1 (Ein1 m) c).arrAt w cfg1.N

def outs10 : Outs (F := F) := fun n r c => if n = 10 then U10 m c r else outs2 m n r c

abbrev Ein2 : (c : Dev nD) → (b : Ref sig .tc) → Buf (Elt F) ((c : Thread nD τ).loc b) := atTc (fun c => V10 m (outs10 m) c)

def U11 (c : Dev nD) : Valuation τ sig (Elt F) :=
  Pipeline.withArrays spec2 c (V10 m (outs10 m) c) fun w => (dat2 (Ein2 m) c).arrAt w cfg2.N

def outs11 : Outs (F := F) := fun n r c => if n = 11 then U11 m c r else outs10 m n r c

abbrev Ein3 : (c : Dev nD) → (b : Ref sig .tc) → Buf (Elt F) ((c : Thread nD τ).loc b) := atTc (fun c => V18 m (outs11 m) c)

def U19 (c : Dev nD) : Valuation τ sig (Elt F) :=
  Pipeline.withArrays spec3 c (V18 m (outs11 m) c) fun w => (dat3 (Ein3 m) c).arrAt w cfg3.N

def outs19 : Outs (F := F) := fun n r c => if n = 19 then U19 m c r else outs11 m n r c

abbrev Ein4 : (c : Dev nD) → (b : Ref sig .tc) → Buf (Elt F) ((c : Thread nD τ).loc b) := atTc (fun c => V19 m (outs19 m) c)

def U20 (c : Dev nD) : Valuation τ sig (Elt F) :=
  Pipeline.withArrays spec4 c (V19 m (outs19 m) c) fun w => (dat4 (Ein4 m) c).arrAt w cfg4.N

def outs20 : Outs (F := F) := fun n r c => if n = 20 then U20 m c r else outs19 m n r c

abbrev Ein5 : (c : Dev nD) → (b : Ref sig .tc) → Buf (Elt F) ((c : Thread nD τ).loc b) := atTc (fun c => V20 m (outs20 m) c)

def U21 (c : Dev nD) : Valuation τ sig (Elt F) :=
  Pipeline.withArrays spec5 c (V20 m (outs20 m) c) fun w => (dat5 (Ein5 m) c).arrAt w cfg5.N

def outs21 : Outs (F := F) := fun n r c => if n = 21 then U21 m c r else outs20 m n r c

abbrev myOuts : Outs (F := F) := outs21 m

theorem outs10_2 (r : Ref sig .tc) (c : Dev nD) : outs10 m 2 r c = U2 m c r := by simp [outs10, outs2]
theorem outs11_2 (r : Ref sig .tc) (c : Dev nD) : outs11 m 2 r c = U2 m c r := by simp [outs11, outs10, outs2]
theorem outs11_10 (r : Ref sig .tc) (c : Dev nD) : outs11 m 10 r c = U10 m c r := by simp [outs11, outs10]
theorem outs19_2 (r : Ref sig .tc) (c : Dev nD) : outs19 m 2 r c = U2 m c r := by simp [outs19, outs11, outs10, outs2]
theorem outs19_10 (r : Ref sig .tc) (c : Dev nD) : outs19 m 10 r c = U10 m c r := by simp [outs19, outs11, outs10]
theorem outs19_11 (r : Ref sig .tc) (c : Dev nD) : outs19 m 11 r c = U11 m c r := by simp [outs19, outs11]
theorem outs20_2 (r : Ref sig .tc) (c : Dev nD) : outs20 m 2 r c = U2 m c r := by simp [outs20, outs19, outs11, outs10, outs2]
theorem outs20_10 (r : Ref sig .tc) (c : Dev nD) : outs20 m 10 r c = U10 m c r := by simp [outs20, outs19, outs11, outs10]
theorem outs20_11 (r : Ref sig .tc) (c : Dev nD) : outs20 m 11 r c = U11 m c r := by simp [outs20, outs19, outs11]
theorem outs20_19 (r : Ref sig .tc) (c : Dev nD) : outs20 m 19 r c = U19 m c r := by simp [outs20, outs19]
theorem myOuts_2 (r : Ref sig .tc) (c : Dev nD) : myOuts m 2 r c = U2 m c r := by simp [outs21, outs20, outs19, outs11, outs10, outs2]
theorem myOuts_10 (r : Ref sig .tc) (c : Dev nD) : myOuts m 10 r c = U10 m c r := by simp [outs21, outs20, outs19, outs11, outs10]
theorem myOuts_11 (r : Ref sig .tc) (c : Dev nD) : myOuts m 11 r c = U11 m c r := by simp [outs21, outs20, outs19, outs11]
theorem myOuts_19 (r : Ref sig .tc) (c : Dev nD) : myOuts m 19 r c = U19 m c r := by simp [outs21, outs20, outs19]
theorem myOuts_20 (r : Ref sig .tc) (c : Dev nD) : myOuts m 20 r c = U20 m c r := by simp [outs21, outs20]
theorem myOuts_21 (r : Ref sig .tc) (c : Dev nD) : myOuts m 21 r c = U21 m c r := by simp [outs21]

theorem V9_congr (o o' : Outs (F := F)) (c : Dev nD) (h2 : o 2 main_v4 c = o' 2 main_v4 c) : V9 m o c = V9 m o' c := by
  dsimp only [V9, V8, V7, V6, V5, V4, V3, V2]; rw [h2]
theorem V10_congr (o o' : Outs (F := F)) (c : Dev nD) (h2 : o 2 main_v4 c = o' 2 main_v4 c) (h10 : o 10 main_v22 c = o' 10 main_v22 c) :
    V10 m o c = V10 m o' c := by
  dsimp only [V10, V9, V8, V7, V6, V5, V4, V3, V2]; rw [h2, h10]
theorem V18_congr (o o' : Outs (F := F)) (c : Dev nD) (h2 : o 2 main_v4 c = o' 2 main_v4 c) (h10 : o 10 main_v22 c = o' 10 main_v22 c)
    (h11 : o 11 main_v23 c = o' 11 main_v23 c) : V18 m o c = V18 m o' c := by
  dsimp only [V18, V17, V16, V15, V14, V13, V12, V11, V10, V9, V8, V7, V6, V5, V4, V3, V2]; rw [h2, h10, h11]
theorem V19_congr (o o' : Outs (F := F)) (c : Dev nD) (h2 : o 2 main_v4 c = o' 2 main_v4 c) (h10 : o 10 main_v22 c = o' 10 main_v22 c)
    (h11 : o 11 main_v23 c = o' 11 main_v23 c) (h19 : o 19 main_v41 c = o' 19 main_v41 c) : V19 m o c = V19 m o' c := by
  dsimp only [V19, V18, V17, V16, V15, V14, V13, V12, V11, V10, V9, V8, V7, V6, V5, V4, V3, V2]; rw [h2, h10, h11, h19]
theorem V20_congr (o o' : Outs (F := F)) (c : Dev nD) (h2 : o 2 main_v4 c = o' 2 main_v4 c) (h10 : o 10 main_v22 c = o' 10 main_v22 c)
    (h11 : o 11 main_v23 c = o' 11 main_v23 c) (h19 : o 19 main_v41 c = o' 19 main_v41 c) (h20 : o 20 main_v42 c = o' 20 main_v42 c) :
    V20 m o c = V20 m o' c := by
  dsimp only [V20, V19, V18, V17, V16, V15, V14, V13, V12, V11, V10, V9, V8, V7, V6, V5, V4, V3, V2]; rw [h2, h10, h11, h19, h20]

theorem in0_eq (c : Dev nD) : V1 m c = V1 m c := rfl
theorem in1_eq (c : Dev nD) : V9 m (myOuts m) c = V9 m (outs2 m) c :=
  V9_congr m _ _ c (myOuts_2 m _ c)
theorem in2_eq (c : Dev nD) : V10 m (myOuts m) c = V10 m (outs10 m) c :=
  V10_congr m _ _ c ((myOuts_2 m _ c).trans (outs10_2 m _ c).symm) ((myOuts_10 m _ c).trans (by simp [outs10]))
theorem in3_eq (c : Dev nD) : V18 m (myOuts m) c = V18 m (outs11 m) c :=
  V18_congr m _ _ c ((myOuts_2 m _ c).trans (outs11_2 m _ c).symm) ((myOuts_10 m _ c).trans (outs11_10 m _ c).symm)
    ((myOuts_11 m _ c).trans (by simp [outs11]))
theorem in4_eq (c : Dev nD) : V19 m (myOuts m) c = V19 m (outs19 m) c :=
  V19_congr m _ _ c ((myOuts_2 m _ c).trans (outs19_2 m _ c).symm) ((myOuts_10 m _ c).trans (outs19_10 m _ c).symm)
    ((myOuts_11 m _ c).trans (outs19_11 m _ c).symm) ((myOuts_19 m _ c).trans (by simp [outs19]))
theorem in5_eq (c : Dev nD) : V20 m (myOuts m) c = V20 m (outs20 m) c :=
  V20_congr m _ _ c ((myOuts_2 m _ c).trans (outs20_2 m _ c).symm) ((myOuts_10 m _ c).trans (outs20_10 m _ c).symm)
    ((myOuts_11 m _ c).trans (outs20_11 m _ c).symm) ((myOuts_19 m _ c).trans (outs20_19 m _ c).symm) ((myOuts_20 m _ c).trans (by simp [outs20]))

theorem out0_eq (c : Dev nD) : myOuts m 2 main_v4 c = (dat0 (Ein0 m) c).arrAt 3 cfg0.N :=
  (myOuts_2 m main_v4 c).trans (Pipeline.withArrays_arr spec0 launch0.win.arr_inj c _ _ 3)
theorem out1_eq (c : Dev nD) : myOuts m 10 main_v22 c = (dat1 (Ein1 m) c).arrAt 4 cfg1.N :=
  (myOuts_10 m main_v22 c).trans (Pipeline.withArrays_arr spec1 launch1.win.arr_inj c _ _ 4)
theorem out2_eq (c : Dev nD) : myOuts m 11 main_v23 c = (dat2 (Ein2 m) c).arrAt 3 cfg2.N :=
  (myOuts_11 m main_v23 c).trans (Pipeline.withArrays_arr spec2 launch2.win.arr_inj c _ _ 3)
theorem out3_eq (c : Dev nD) : myOuts m 19 main_v41 c = (dat3 (Ein3 m) c).arrAt 4 cfg3.N :=
  (myOuts_19 m main_v41 c).trans (Pipeline.withArrays_arr spec3 launch3.win.arr_inj c _ _ 4)
theorem out4_eq (c : Dev nD) : myOuts m 20 main_v42 c = (dat4 (Ein4 m) c).arrAt 3 cfg4.N :=
  (myOuts_20 m main_v42 c).trans (Pipeline.withArrays_arr spec4 launch4.win.arr_inj c _ _ 3)
theorem out5_eq (c : Dev nD) : myOuts m 21 main_v43 c = (dat5 (Ein5 m) c).arrAt 3 cfg5.N :=
  (myOuts_21 m main_v43 c).trans (Pipeline.withArrays_arr spec5 launch5.win.arr_inj c _ _ 3)

theorem V2_self (o : Outs (F := F)) (c : Dev nD) : V2 m o c main_v4 = o 2 main_v4 c := by simp only [V2, Function.update_self]
theorem V10_self (o : Outs (F := F)) (c : Dev nD) : V10 m o c main_v22 = o 10 main_v22 c := by simp only [V10, Function.update_self]
theorem V11_self (o : Outs (F := F)) (c : Dev nD) : V11 m o c main_v23 = o 11 main_v23 c := by simp only [V11, Function.update_self]
theorem V19_self (o : Outs (F := F)) (c : Dev nD) : V19 m o c main_v41 = o 19 main_v41 c := by simp only [V19, Function.update_self]
theorem V20_self (o : Outs (F := F)) (c : Dev nD) : V20 m o c main_v42 = o 20 main_v42 c := by simp only [V20, Function.update_self]
theorem V21_self (o : Outs (F := F)) (c : Dev nD) : V21 m o c main_v43 = o 21 main_v43 c := by simp only [V21, Function.update_self]

abbrev adm : (p : Fin 6) → (pcfgs (F := F) p).Adm := fun p => (cfgs p).toPCfg_adm

def pdats : (p : Fin 6) → (c : Dev nD) → Dat τ (Elt F) Unit ℕ (UR sig nD τ) ℕ (cfgs p) c
  | ⟨0, _⟩ => fun c => dat0 (Ein0 m) c
  | ⟨1, _⟩ => fun c => dat1 (Ein1 m) c
  | ⟨2, _⟩ => fun c => dat2 (Ein2 m) c
  | ⟨3, _⟩ => fun c => dat3 (Ein3 m) c
  | ⟨4, _⟩ => fun c => dat4 (Ein4 m) c
  | ⟨5, _⟩ => fun c => dat5 (Ein5 m) c

local notation "𝕄" => MT nD τ sig Unit (Elt F) ℕ (UR sig nD τ) ℕ

abbrev Rst (c : Dev nD) : sProp 𝕄 := iprop((∃ r, prngReg c r) ∗ ∃ W, owes (c : Thread nD τ) (0 : CellTallies nD τ sig Unit) W)

abbrev 𝒱₀ : Variants := Variants.none

abbrev L : GSem nD τ sig → Finset Unit := fun _ => ∅
abbrev lv : GSem nD τ sig → Unit → ℕ := fun _ _ => 0

end Cert.KernelIdeal.H

end
-- ==== Proof.KI.RegOf.lean ====
import proofs.«414250_j49357764165687_1_alg».proof.Proof.KI.Fold

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation RegionSeg)
open Cert.KernelIdeal Cert.KernelIdeal.Gen

variable {F : FTy → Type} [FloatOps F]

local notation "𝕄" => MT nD τ sig Unit (Elt F) ℕ (UR sig nD τ) ℕ

/-- What the six regions' data have in common. -/
structure Plain {cfg : Cfg sig Λ₀} {c : Dev nD} (d : Dat τ (Elt F) Unit ℕ (UR sig nD τ) ℕ cfg c) : Prop where
  q : ∀ w, d.q w = fullShare
  owed : ∀ t, d.owed t = 0
  recd : d.recorded 0 = Set.univ
  Φ0 : d.Φ 0 = Pipeline.ΦA cfg.spec c
  ΦN : d.Φ (Fin.last _) = Pipeline.ΦA cfg.spec c

variable (m : (ℓ : Loc nD τ sig) → Buf (Elt F) ℓ)

theorem plain (p : Fin 6) (c : Dev nD) : Plain (cfg := Pipeline.pin (pcfgs (F := F)) adm p) (pdats m p c) := by
  fin_cases p <;> exact ⟨fun _ => rfl, fun _ => rfl, rfl, rfl, rfl⟩

variable (p : Fin 6) (lf : Pipeline.LaunchFacts (nD := nD) (τ := τ) cfgs p)
  (Vin Vout : Dev nD → Valuation τ sig (Elt F)) (o : Fin (cfgs p).W)
  (hin : ∀ w, w ≠ o → ((cfgs p).win w).isOut = false)
  (hA : ∀ c w, (pdats m p c).A w = atTc Vin c (Pipeline.arrRef (cfgs p).spec w))
  (hoff : ∀ c b, b ∉ [Pipeline.arrRef (cfgs p).spec o] → atTc Vout c b = atTc Vin c b)
  (hself : ∀ c, atTc Vout c (Pipeline.arrRef (cfgs p).spec o) = (pdats m p c).arrAt o (cfgs p).N)

include lf hin hA hoff hself in
/-- An input's array ends as it began; the result's array ends at the data's last. -/
theorem arrAt_exit (c : Dev nD) (w : Fin (cfgs p).W) :
    (pdats m p c).arrAt w (cfgs p).N = atTc Vout c (Pipeline.arrRef (cfgs p).spec w) := by
  by_cases h : w = o
  · subst h; exact (hself c).symm
  · exact ((pdats m p c).arrAt_in w (hin w h) _).trans
      ((hA c w).trans (hoff c _ fun hm => h (lf.win.arr_inj (List.mem_singleton.mp hm))).symm)

set_option backward.isDefEq.respectTransparency.types false in
/-- Region `p` as one step from the contents `Vin` before it to the contents `Vout` after it. -/
def regOf (hbody : ∀ c, BodyObligation (pdats m p c) (defs₀ (F := F)) Variants.none () Set.univ) :
    RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p fun c => (plain m p c).owed
  pre c := iprop(StableHlo.held (c : Thread nD τ) (Pipeline.ucRefs τ sig) (Vin c) ∗ Rst c)
  post c := iprop(StableHlo.held (c : Thread nD τ) (Pipeline.ucRefs τ sig) (Vout c) ∗ Rst c)
  X c := iprop(∃ r, prngReg c r)
  Y c := iprop(∃ r, prngReg c r)
  Z c := Pipeline.unscopedRest (Ix := Unit) (Name := ℕ) (U := UR sig nD τ) (Lvl := ℕ) (cfgs p).spec c (atTc Vin c)
  hentry c := by
    have hsplit := Pipeline.arrays_of_unscopedBufs (p := p) (pcfgs (F := F)) adm (pdats m) lf.win lf.arr_whole c
      ((pdats m p c).share_full (plain m p c).q) (atTc Vin c) (hA c)
    rw [Pipeline.unscopedBufs_held] at hsplit
    rw [Pipeline.ownSems0_none]
    unfold Pipeline.Dat.owesAt Pipeline.owesWithin Pipeline.Dat.bound Pipeline.prefHeld
    rw [(plain m p c).owed, (plain m p c).recd, show (Finset.univ : Finset (Fin 0)) = ∅ from rfl, BI.bigSep_empty]
    iintro ⟨⟨Hub, Hp, %W, HO⟩, -, -⟩
    ihave H := hsplit $$ Hub
    icases H with ⟨Ha, Hrest⟩
    imodintro
    isplitl [Ha]; · iexact Ha
    isplitr; · iempintro
    isplitl [HO]
    · iexists W; isplitr; · ipureintro; exact fun _ _ => Or.inl trivial
      iexact HO
    isplitl [Hp]; · iexact Hp
    iexact Hrest
  hin c := by
    rw [(plain m p c).Φ0]; unfold Pipeline.ΦA
    iintro ⟨Hp, -, Hr⟩
    isplitl [Hr]; · iexact Hr
    iexact Hp
  hout c := by
    rw [Pipeline.ownSems0_none, (plain m p c).ΦN]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (plain m p c).q)
      (atTc Vin c) (atTc Vout c) ((pdats m p c).arrAt · (cfgs p).N) (arrAt_exit m p lf Vin Vout o hin hA hoff hself c)
      fun b hb => hoff c b fun hm => hb (Finset.mem_image.mpr ⟨o, Finset.mem_univ _, (List.mem_singleton.mp hm).symm⟩)
    rw [Pipeline.unscopedBufs_held] at hjoin
    unfold Pipeline.Dat.owesAt Pipeline.owesWithin
    rw [(plain m p c).owed]
    iintro ⟨Ha, ⟨%W, -, HO⟩, HY, Hrest⟩
    imodintro
    isplitl [Ha Hrest]
    · iapply hjoin; isplitl [Ha] <;> iassumption
    isplitl [HY]; · iexact HY
    iexists W; iexact HO

end Cert.KernelIdeal.H

end
-- ==== Proof.KI.Lin0.lean ====
import proofs.«414250_j49357764165687_1_alg».proof.Proof.Gen.KernelIdeal.Launch
import proofs.«414250_j49357764165687_1_alg».proof.Proof.Gen.KernelIdeal.Skeleton
import proofs.«414250_j49357764165687_1_alg».proof.Proof.Gen.KernelIdeal.Points
import proofs.«414250_j49357764165687_1_alg».proof.Proof.Gen.KernelIdeal.Loops
import proofs.«414250_j49357764165687_1_alg».proof.Proof.KI.Lin0Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

theorem cover0_3 (p : Vec F S5000x64 .f32) (y : S5000x64.Idx) :
    ∃ pc ∈ ([⟨rX0, p⟩] : List (View.Piece (Elt F) S5000x64 .f32)), y ∈ pc.1.set :=
  View.cover_of_tiled [⟨rX0, p⟩] S5000x64.size (by rfl) y

set_option maxHeartbeats 1000000 in

theorem sound_kernel0 (c : Dev nD) (E : Set ℕ) (i : grid0.Coords)
    (aX : Memref sig .tc .vmem S5000x64 .f32) (haX : aX.IsWhole) (aW : Memref sig .tc .vmem S64x64 .f32) (haW : aW.IsWhole)
    (aB : Memref sig .tc .vmem S64 .f32) (haB : aB.IsWhole) (aO : Memref sig .tc .vmem S5000x64 .f32) (haO : aO.IsWhole)
    (xX : Vec F S5000x64 .f32) (xW : Vec F S64x64 .f32) (xB : Vec F S64 .f32) (K : PUnit → sProp 𝕄) :
    iprop(owns (c : Thread nD τ) aX fullShare xX ∗ owns (c : Thread nD τ) aW fullShare xW
        ∗ owns (c : Thread nD τ) aB fullShare xB ∗ (∃ d, owns (c : Thread nD τ) aO fullShare d)
        ∗ (iprop(owns (c : Thread nD τ) aX fullShare xX ∗ owns (c : Thread nD τ) aW fullShare xW
            ∗ owns (c : Thread nD τ) aB fullShare xB ∗ owns (c : Thread nD τ) aO fullShare (out0_3 xX xW xB)) -∗ K ⟨⟩))
      ⊢ wp frame (wpE (defs₀ (F := F)) Variants.none c none) E (cc0_kernel i aX haX aW haW aB haB aO haO) K := by
  simp only [cc0_kernel_eq_skeleton]; unfold cc0_kernel_skel
  unfold owns
  iintro ⟨⟨%fX, %hfX, HX⟩, ⟨%fW, %hfW, HW⟩, ⟨%fB, %hfB, HB⟩, ⟨%dO, %fO, -, HO⟩, Hk⟩
  subst hfX; subst hfW; subst hfB
  sl_exec
  sl_step
  iapply Hk
  isplitl [HX]
  · iexists fX; isplitr; · ipureintro; rfl
    iexact HX
  isplitl [HW]
  · iexists fW; isplitr; · ipureintro; rfl
    iexact HW
  isplitl [HB]
  · iexists fB; isplitr; · ipureintro; rfl
    iexact HB
  iexists _; isplitr
  swap; · iexact HO
  ipureintro
  exact View.read_writes_eq_canon _ _ _ (cover0_3 _)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%dX, HX⟩, ⟨%dW, HW⟩, ⟨%dB, HB⟩, ⟨%dO, HO⟩⟩
  iapply (sound_kernel0 c Set.univ _ _ _ _ _ _ _ _ _ (iblk0 V c 0 t) (iblk0 V c 1 t) (iblk0 V c 2 t) _)
  isplitl [HX]; · iexact HX
  isplitl [HW]; · iexact HW
  isplitl [HB]; · iexact HB
  isplitl [HO]; · iexists _; iexact HO
  iintro ⟨HX, HW, HB, HO⟩
  isplitl [HΦ]; · iexact HΦ
  isplitl [Ho]; · iexact Ho
  isplitl [HX]; · iexact HX
  isplitl [HW]; · iexact HW
  isplitl [HB]; · iexact HB
  iexact HO

theorem body_obligation0 (c : Dev nD) : BodyObligation (dat0 (F := F) V c) (defs₀ (F := F)) Variants.none () Set.univ := fun t => by
  rw [bigSep_W0, bigSep_W0]
  exact sound_body0 V c t

end Cert.KernelIdeal.H

end
-- ==== Proof.KI.Reg0.lean ====
import proofs.«414250_j49357764165687_1_alg».proof.Proof.KI.RegOf
import proofs.«414250_j49357764165687_1_alg».proof.Proof.KI.Lin0

set_option maxRecDepth 16384

noncomputable section

namespace Cert.KernelIdeal.H

open Idealize.ShloMosaic Cert.KernelIdeal Cert.KernelIdeal.Gen
open Idealize.ShloMosaic.Pipeline (RegionSeg)

variable {F : FTy → Type} [FloatOps F] (m : (ℓ : Loc nD τ sig) → Buf (Elt F) ℓ)

set_option backward.isDefEq.respectTransparency.types false in
def reg0 : RegionSeg (pcfgs (F := F)) adm (pdats m) () defs₀ 𝒱₀ L lv 0 :=
  regOf m 0 launch0 (V1 m) (V2 m (myOuts m)) 3 (by decide)
    (fun c w => (A_eq0 (Ein0 m) c w).trans (congrFun (in0_eq m c) _).symm)
    (V2_of m (myOuts m)) (fun c => (V2_self m (myOuts m) c).trans (out0_eq m c)) (body_obligation0 (Ein0 m))

end Cert.KernelIdeal.H

end
-- ==== Proof.KI.Agg1Before.lean ====
import proofs.«414250_j49357764165687_1_alg».proof.Proof.Gen.KernelIdeal.Launch
import proofs.«414250_j49357764165687_1_alg».proof.Proof.Gen.KernelIdeal.Skeleton
import proofs.«414250_j49357764165687_1_alg».proof.Proof.Gen.KernelIdeal.Points
import proofs.«414250_j49357764165687_1_alg».proof.Proof.Gen.KernelIdeal.Loops
import proofs.«414250_j49357764165687_1_alg».proof.Proof.KI.Agg1Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

theorem before1_4 (c : Dev nD) (t : Fin cfg1.N) (h0 : t.val ≠ 0) (d) :
    (dat1 V c).before 4 t d = acc1 V c (t.val - 1) (Nat.lt_of_le_of_lt (Nat.sub_le _ _) t.isLt) := by
  have hN : t.val < 196 := lt_of_lt_of_eq t.isLt (show cfg1.N = 196 from N_1)
  rw [Dat.before_out_kept _ 4 rfl t h0
    (Bool.eq_false_iff.mpr fun h => by have := (flush1_4 _).mp h; dsimp only at this; omega)
    (fun _ => rfl) (fun _ _ => rfl), after1_4]

end Cert.KernelIdeal.H

end
-- ==== Proof.KI.Agg1.lean ====
import proofs.«414250_j49357764165687_1_alg».proof.Proof.KI.Agg1Defs
import proofs.«414250_j49357764165687_1_alg».proof.Proof.KI.Agg1Before

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem scr1_eq (c : Dev nD) :
    (iprop(∃ f : Buf (Elt F) ((c : Thread nD τ).loc cc1_scratch0), ((c : Thread nD τ).loc cc1_scratch0) ↦{fullShare} f) : sProp 𝕄)
      = iprop(∃ X, owns (c : Thread nD τ) mX1 fullShare X) :=
  ((hX1).exists_owns_eq (c := (c : Thread nD τ)) fullShare).symm

def bodyPre1 (c : Dev nD) (t : Fin cfg1.N) : sProp 𝕄 :=
  iprop((dat1 V c).Φ t.castSucc ∗ (dat1 V c).owesAt () t.castSucc
    ∗ (∃ d, owns (c : Thread nD τ) (mS1 t) fullShare ((dat1 V c).before 0 t d))
    ∗ (∃ d, owns (c : Thread nD τ) (mD1 t) fullShare ((dat1 V c).before 1 t d))
    ∗ (∃ d, owns (c : Thread nD τ) (mW1 t) fullShare ((dat1 V c).before 2 t d))
    ∗ (∃ d, owns (c : Thread nD τ) (mH1 t) fullShare ((dat1 V c).before 3 t d))
    ∗ (∃ d, owns (c : Thread nD τ) (mO1 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (mS1 t) fullShare ((dat1 V c).after 0 t)
    ∗ owns (c : Thread nD τ) (mD1 t) fullShare ((dat1 V c).after 1 t)
    ∗ owns (c : Thread nD τ) (mW1 t) fullShare ((dat1 V c).after 2 t)
    ∗ owns (c : Thread nD τ) (mH1 t) fullShare ((dat1 V c).after 3 t)
    ∗ owns (c : Thread nD τ) (mO1 t) fullShare ((dat1 V c).after 4 t))

set_option maxHeartbeats 1600000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4,
    show (dat1 V c).Φ t.castSucc = Pipeline.ΦA spec1 c from rfl]
  unfold Pipeline.ΦA
  rw [scopedRest1_split, scr1_eq]
  by_cases h0 : t.val = 0
  · rw [acc1_A V c t h0]
    unfold out1_A
    iintro ⟨⟨⟨HX, HR⟩, Hp⟩, Hdue, ⟨%dS, HS⟩, ⟨%dD, HD⟩, ⟨%dW, HW⟩, ⟨%dH, HH⟩, ⟨%dO, HO⟩⟩
    iapply ((kernelRun1_A c (grid1.coords t) (mS1 t) (hS1 t) (mD1 t) (hD1 t) (mW1 t) (hW1 t) (mH1 t) (hH1 t) (mO1 t) (hO1 t) mX1 hX1 (cond1_a_of t h0) (not_cond1_z t (by omega)) (iblk1 V c 0 t) (iblk1 V c 1 t) (iblk1 V c 2 t) (iblk1 V c 3 t)).2 Set.univ _)
    isplitl [HS]; · iexact HS
    isplitl [HD]; · iexact HD
    isplitl [HW]; · iexact HW
    isplitl [HH]; · iexact HH
    isplitl [HO]; · iexists _; iexact HO
    isplitl [HX]; · iexact HX
    iintro ⟨HS, HD, HW, HH, ⟨%eO, HO⟩, HX⟩
    isplitl [HX HR Hp]
    · isplitl [HX HR]
      · isplitl [HX]; · iexact HX
        iexact HR
      iexact Hp
    isplitl [Hdue]; · iexact Hdue
    isplitl [HS]; · iexact HS
    isplitl [HD]; · iexact HD
    isplitl [HW]; · iexact HW
    isplitl [HH]; · iexact HH
    unfold owns; iexists _; isplitr
    swap; · iexact HO
    ipureintro; exact View.read_writes_of_cover _ _ _ _ _ (cover1_A c _ _ _ _ _ _ _ _ _ _ _ _ _ _ _ _ _ _ _)
  · simp only [before1_4 V c t h0]
    by_cases hz : t.val = 195
    · rw [acc1_C V c t hz]
      unfold out1_C
      iintro ⟨⟨⟨HX, HR⟩, Hp⟩, Hdue, ⟨%dS, HS⟩, ⟨%dD, HD⟩, ⟨%dW, HW⟩, ⟨%dH, HH⟩, ⟨%dO, HO⟩⟩
      iapply ((kernelRun1_C c (grid1.coords t) (mS1 t) (hS1 t) (mD1 t) (hD1 t) (mW1 t) (hW1 t) (mH1 t) (hH1 t) (mO1 t) (hO1 t) mX1 hX1 (not_cond1_a t h0) (cond1_z_of t hz) (iblk1 V c 0 t) (iblk1 V c 1 t) (iblk1 V c 2 t) (iblk1 V c 3 t)
        (acc1 V c (t.val - 1) (Nat.lt_of_le_of_lt (Nat.sub_le _ _) t.isLt))).2 Set.univ _)
      isplitl [HS]; · iexact HS
      isplitl [HD]; · iexact HD
      isplitl [HW]; · iexact HW
      isplitl [HH]; · iexact HH
      isplitl [HO]; · iexact HO
      isplitl [HX]; · iexact HX
      iintro ⟨HS, HD, HW, HH, ⟨%eO, HO⟩, HX⟩
      isplitl [HX HR Hp]
      · isplitl [HX HR]
        · isplitl [HX]; · iexact HX
          iexact HR
        iexact Hp
      isplitl [Hdue]; · iexact Hdue
      isplitl [HS]; · iexact HS
      isplitl [HD]; · iexact HD
      isplitl [HW]; · iexact HW
      isplitl [HH]; · iexact HH
      unfold owns; iexists _; isplitr
      swap; · iexact HO
      ipureintro; exact View.read_writes_of_cover _ _ _ _ _ (cover1_C c _ _ _ _ _ _ _ _ _ _ _ _ _ _ _ _ _ _ _ _)
    · rw [acc1_B V c t h0 hz]
      unfold out1_B
      iintro ⟨⟨⟨HX, HR⟩, Hp⟩, Hdue, ⟨%dS, HS⟩, ⟨%dD, HD⟩, ⟨%dW, HW⟩, ⟨%dH, HH⟩, ⟨%dO, HO⟩⟩
      iapply ((kernelRun1_B c (grid1.coords t) (mS1 t) (hS1 t) (mD1 t) (hD1 t) (mW1 t) (hW1 t) (mH1 t) (hH1 t) (mO1 t) (hO1 t) mX1 hX1 (not_cond1_a t h0) (not_cond1_z t hz) (iblk1 V c 0 t) (iblk1 V c 1 t) (iblk1 V c 2 t) (iblk1 V c 3 t)
        (acc1 V c (t.val - 1) (Nat.lt_of_le_of_lt (Nat.sub_le _ _) t.isLt))).2 Set.univ _)
      isplitl [HS]; · iexact HS
      isplitl [HD]; · iexact HD
      isplitl [HW]; · iexact HW
      isplitl [HH]; · iexact HH
      isplitl [HO]; · iexact HO
      isplitl [HX]; · iexact HX
      iintro ⟨HS, HD, HW, HH, ⟨%eO, HO⟩, HX⟩
      isplitl [HX HR Hp]
      · isplitl [HX HR]
        · isplitl [HX]; · iexact HX
          iexact HR
        iexact Hp
      isplitl [Hdue]; · iexact Hdue
      isplitl [HS]; · iexact HS
      isplitl [HD]; · iexact HD
      isplitl [HW]; · iexact HW
      isplitl [HH]; · iexact HH
      unfold owns; iexists _; isplitr
      swap; · iexact HO
      ipureintro; exact View.read_writes_of_cover _ _ _ _ _ (cover1_B c _ _ _ _ _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end Cert.KernelIdeal.H

end
-- ==== Proof.KI.Reg1.lean ====
import proofs.«414250_j49357764165687_1_alg».proof.Proof.KI.RegOf
import proofs.«414250_j49357764165687_1_alg».proof.Proof.KI.Agg1

set_option maxRecDepth 16384

noncomputable section

namespace Cert.KernelIdeal.H

open Idealize.ShloMosaic Cert.KernelIdeal Cert.KernelIdeal.Gen
open Idealize.ShloMosaic.Pipeline (RegionSeg)

variable {F : FTy → Type} [FloatOps F] (m : (ℓ : Loc nD τ sig) → Buf (Elt F) ℓ)

set_option backward.isDefEq.respectTransparency.types false in
def reg1 : RegionSeg (pcfgs (F := F)) adm (pdats m) () defs₀ 𝒱₀ L lv 1 :=
  regOf m 1 launch1 (V9 m (myOuts m)) (V10 m (myOuts m)) 4 (by decide)
    (fun c w => (A_eq1 (Ein1 m) c w).trans (congrFun (in1_eq m c) _).symm)
    (V10_of m (myOuts m)) (fun c => (V10_self m (myOuts m) c).trans (out1_eq m c)) (body_obligation1 (Ein1 m))

end Cert.KernelIdeal.H

end
-- ==== Proof.KI.Lin2.lean ====
/-
  A dense layer's kernel region, frame half: at every grid point each input window's staging buffer holds
  that window's block (whether or not the block was moved in at that very point: a block that is not moved in has
  the index it had one point earlier, and the body leaves input buffers as it finds them); the body, run on whole
  staging buffers, keeps the three inputs and leaves the product plus bias in the output buffer, whatever that
  buffer held before; and these two facts together are the region's body obligation.
-/
import proofs.«414250_j49357764165687_1_alg».proof.Proof.Gen.KernelIdeal.Launch
import proofs.«414250_j49357764165687_1_alg».proof.Proof.Gen.KernelIdeal.Skeleton
import proofs.«414250_j49357764165687_1_alg».proof.Proof.Gen.KernelIdeal.Points
import proofs.«414250_j49357764165687_1_alg».proof.Proof.Gen.KernelIdeal.Loops
import proofs.«414250_j49357764165687_1_alg».proof.Proof.KI.Lin2Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's buffer -/

/-- An input window's buffer holds the window's block at every point: where the block is moved in, this is what was
    moved; where it is not (the weight and the bias row are moved in once, at the first point), the block index has
    not changed since the previous point, the body left the buffer as it found it, and that point's block is this
    point's. The windows are whole blocks, never cut and never idle. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)

theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)

theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)

/-! ## The body's one store covers the output buffer -/

theorem cover2_3 (p : Vec F S5000x64 .f32) (y : S5000x64.Idx) :
    ∃ pc ∈ ([⟨rX2, p⟩] : List (View.Piece (Elt F) S5000x64 .f32)), y ∈ pc.1.set :=
  View.cover_of_tiled [⟨rX2, p⟩] S5000x64.size (by rfl) y

/-! ## The body's triple -/

set_option maxHeartbeats 1000000 in
/-- The body on whole staging buffers, the three inputs' reading xX, xW, xB and the output's holding anything, runs
    to the continuation with the inputs as they were and the output reading the product plus bias of the inputs:
    three whole loads, one load of the output buffer whose value is not used, one whole store. -/
theorem sound_kernel2 (c : Dev nD) (E : Set ℕ) (i : grid2.Coords)
    (aX : Memref sig .tc .vmem S5000x64 .f32) (haX : aX.IsWhole) (aW : Memref sig .tc .vmem S64x64 .f32) (haW : aW.IsWhole)
    (aB : Memref sig .tc .vmem S64 .f32) (haB : aB.IsWhole) (aO : Memref sig .tc .vmem S5000x64 .f32) (haO : aO.IsWhole)
    (xX : Vec F S5000x64 .f32) (xW : Vec F S64x64 .f32) (xB : Vec F S64 .f32) (K : PUnit → sProp 𝕄) :
    iprop(owns (c : Thread nD τ) aX fullShare xX ∗ owns (c : Thread nD τ) aW fullShare xW
        ∗ owns (c : Thread nD τ) aB fullShare xB ∗ (∃ d, owns (c : Thread nD τ) aO fullShare d)
        ∗ (iprop(owns (c : Thread nD τ) aX fullShare xX ∗ owns (c : Thread nD τ) aW fullShare xW
            ∗ owns (c : Thread nD τ) aB fullShare xB ∗ owns (c : Thread nD τ) aO fullShare (out2_3 xX xW xB)) -∗ K ⟨⟩))
      ⊢ wp frame (wpE (defs₀ (F := F)) Variants.none c none) E (cc2_kernel i aX haX aW haW aB haB aO haO) K := by
  simp only [cc2_kernel_eq_skeleton]; unfold cc2_kernel_skel
  unfold owns
  iintro ⟨⟨%fX, %hfX, HX⟩, ⟨%fW, %hfW, HW⟩, ⟨%fB, %hfB, HB⟩, ⟨%dO, %fO, -, HO⟩, Hk⟩
  subst hfX; subst hfW; subst hfB
  sl_exec
  sl_step
  iapply Hk
  isplitl [HX]
  · iexists fX; isplitr; · ipureintro; rfl
    iexact HX
  isplitl [HW]
  · iexists fW; isplitr; · ipureintro; rfl
    iexact HW
  isplitl [HB]
  · iexists fB; isplitr; · ipureintro; rfl
    iexact HB
  iexists _; isplitr
  swap; · iexact HO
  ipureintro
  exact View.read_writes_eq_canon _ _ _ (cover2_3 _)

/-! ## The body obligation, at a generic point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the input buffers hold their blocks, so the body's triple applies; the invariant and what
    is owed pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%dX, HX⟩, ⟨%dW, HW⟩, ⟨%dB, HB⟩, ⟨%dO, HO⟩⟩
  iapply (sound_kernel2 c Set.univ _ _ _ _ _ _ _ _ _ (iblk2 V c 0 t) (iblk2 V c 1 t) (iblk2 V c 2 t) _)
  isplitl [HX]; · iexact HX
  isplitl [HW]; · iexact HW
  isplitl [HB]; · iexact HB
  isplitl [HO]; · iexists _; iexact HO
  iintro ⟨HX, HW, HB, HO⟩
  isplitl [HΦ]; · iexact HΦ
  isplitl [Ho]; · iexact Ho
  isplitl [HX]; · iexact HX
  isplitl [HW]; · iexact HW
  isplitl [HB]; · iexact HB
  iexact HO

/-- The region's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.H

end
-- ==== Proof.KI.Reg2.lean ====
import proofs.«414250_j49357764165687_1_alg».proof.Proof.KI.RegOf
import proofs.«414250_j49357764165687_1_alg».proof.Proof.KI.Lin2

set_option maxRecDepth 16384

noncomputable section

namespace Cert.KernelIdeal.H

open Idealize.ShloMosaic Cert.KernelIdeal Cert.KernelIdeal.Gen
open Idealize.ShloMosaic.Pipeline (RegionSeg)

variable {F : FTy → Type} [FloatOps F] (m : (ℓ : Loc nD τ sig) → Buf (Elt F) ℓ)

set_option backward.isDefEq.respectTransparency.types false in
def reg2 : RegionSeg (pcfgs (F := F)) adm (pdats m) () defs₀ 𝒱₀ L lv 2 :=
  regOf m 2 launch2 (V10 m (myOuts m)) (V11 m (myOuts m)) 3 (by decide)
    (fun c w => (A_eq2 (Ein2 m) c w).trans (congrFun (in2_eq m c) _).symm)
    (V11_of m (myOuts m)) (fun c => (V11_self m (myOuts m) c).trans (out2_eq m c)) (body_obligation2 (Ein2 m))

end Cert.KernelIdeal.H

end
-- ==== Proof.KI.Agg3Before.lean ====
/-
  The first aggregation region, what the body finds in each window's staging buffer. The three tiles of edge data
  (source indices, target indices, weights) and the whole feature array are inputs the body only reads: at every
  grid point each of their buffers holds that window's block, whether or not the block was moved in at that very
  point (a block that is not moved in has the index it had one point earlier, and the body leaves the buffer as it
  found it). The output is the whole result array at a block index that never changes; it is written back only after
  the last point, so at every point but the first its buffer holds exactly what the body left one point earlier: the
  running sum over the tiles of edges seen so far.
-/
import proofs.«414250_j49357764165687_1_alg».proof.Proof.Gen.KernelIdeal.Launch
import proofs.«414250_j49357764165687_1_alg».proof.Proof.Gen.KernelIdeal.Skeleton
import proofs.«414250_j49357764165687_1_alg».proof.Proof.Gen.KernelIdeal.Points
import proofs.«414250_j49357764165687_1_alg».proof.Proof.Gen.KernelIdeal.Loops
import proofs.«414250_j49357764165687_1_alg».proof.Proof.KI.Agg3Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The inputs: each buffer holds its block -/

/-- An input window's buffer holds the window's block at every point: where the block is moved in, this is what was
    moved; where it is not (the whole feature array is moved in once, at the first point), the block index has not
    changed since the previous point, the body left the buffer as it found it, and that point's block is this
    point's. The windows are whole blocks, never cut and never idle. -/
theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)

theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)

theorem before3_2 (c : Dev nD) (t : Fin cfg3.N) (d) : (dat3 V c).before 2 t d = iblk3 V c 2 t :=
  ((dat3 V c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)

theorem before3_3 (c : Dev nD) (t : Fin cfg3.N) (d) : (dat3 V c).before 3 t d = iblk3 V c 3 t :=
  ((dat3 V c).before_in_eq_fetched 3 rfl (fun _ => rfl) (fun _ _ _ => rfl)
    (fun t => by rw [after3_3]; unfold Dat.blockOf iblk3; rw [A_eq3]; try rfl) t d).trans
    (by unfold Dat.fetched Dat.blockOf iblk3; rw [A_eq3]; try rfl)

/-! ## The output: the buffer is carried from point to point -/

/-- At every point but the first the output's buffer holds what the body left at the point before: the buffer is
    written back only after the last of the 196 points, so never between two points; the window is whole and never
    idle. -/
theorem before3_4 (c : Dev nD) (t : Fin cfg3.N) (h0 : t.val ≠ 0) (d) :
    (dat3 V c).before 4 t d = acc3 V c (t.val - 1) (Nat.lt_of_le_of_lt (Nat.sub_le _ _) t.isLt) := by
  have hN : t.val < 196 := lt_of_lt_of_eq t.isLt (show cfg3.N = 196 from N_3)
  rw [Dat.before_out_kept _ 4 rfl t h0
    (Bool.eq_false_iff.mpr fun h => by have := (flush3_4 _).mp h; dsimp only at this; omega)
    (fun _ => rfl) (fun _ _ => rfl), after3_4]

end Cert.KernelIdeal.H

end
-- ==== Proof.KI.Agg3.lean ====
/-
  The second aggregation region's body obligation: at each point the case of the shared body's run that the point calls for.
-/
import proofs.«414250_j49357764165687_1_alg».proof.Proof.KI.Agg3Defs
import proofs.«414250_j49357764165687_1_alg».proof.Proof.KI.Agg3Before

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem scr3_eq (c : Dev nD) :
    (iprop(∃ f : Buf (Elt F) ((c : Thread nD τ).loc cc3_scratch0), ((c : Thread nD τ).loc cc3_scratch0) ↦{fullShare} f) : sProp 𝕄)
      = iprop(∃ X, owns (c : Thread nD τ) mX3 fullShare X) :=
  ((hX3).exists_owns_eq (c := (c : Thread nD τ)) fullShare).symm

def bodyPre3 (c : Dev nD) (t : Fin cfg3.N) : sProp 𝕄 :=
  iprop((dat3 V c).Φ t.castSucc ∗ (dat3 V c).owesAt () t.castSucc
    ∗ (∃ d, owns (c : Thread nD τ) (mS3 t) fullShare ((dat3 V c).before 0 t d))
    ∗ (∃ d, owns (c : Thread nD τ) (mD3 t) fullShare ((dat3 V c).before 1 t d))
    ∗ (∃ d, owns (c : Thread nD τ) (mW3 t) fullShare ((dat3 V c).before 2 t d))
    ∗ (∃ d, owns (c : Thread nD τ) (mH3 t) fullShare ((dat3 V c).before 3 t d))
    ∗ (∃ d, owns (c : Thread nD τ) (mO3 t) fullShare ((dat3 V c).before 4 t d)))

def bodyPost3 (c : Dev nD) (t : Fin cfg3.N) : sProp 𝕄 :=
  iprop((dat3 V c).Φ t.succ ∗ (dat3 V c).owesAt () t.succ
    ∗ owns (c : Thread nD τ) (mS3 t) fullShare ((dat3 V c).after 0 t)
    ∗ owns (c : Thread nD τ) (mD3 t) fullShare ((dat3 V c).after 1 t)
    ∗ owns (c : Thread nD τ) (mW3 t) fullShare ((dat3 V c).after 2 t)
    ∗ owns (c : Thread nD τ) (mH3 t) fullShare ((dat3 V c).after 3 t)
    ∗ owns (c : Thread nD τ) (mO3 t) fullShare ((dat3 V c).after 4 t))

set_option maxHeartbeats 1600000 in

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  rw [cc3_kernel_eq]
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4,
    show (dat3 V c).Φ t.castSucc = Pipeline.ΦA spec3 c from rfl]
  unfold Pipeline.ΦA
  rw [scopedRest3_split, scr3_eq]
  by_cases h0 : t.val = 0
  · rw [acc3_A V c t h0]
    unfold out1_A
    iintro ⟨⟨⟨HX, HR⟩, Hp⟩, Hdue, ⟨%dS, HS⟩, ⟨%dD, HD⟩, ⟨%dW, HW⟩, ⟨%dH, HH⟩, ⟨%dO, HO⟩⟩
    iapply ((kernelRun1_A c (grid3.coords t) (mS3 t) (hS3 t) (mD3 t) (hD3 t) (mW3 t) (hW3 t) (mH3 t) (hH3 t) (mO3 t) (hO3 t) mX3 hX3 (cond1_a_of t h0) (not_cond1_z t (by omega)) (iblk3 V c 0 t) (iblk3 V c 1 t) (iblk3 V c 2 t) (iblk3 V c 3 t)).2 Set.univ _)
    isplitl [HS]; · iexact HS
    isplitl [HD]; · iexact HD
    isplitl [HW]; · iexact HW
    isplitl [HH]; · iexact HH
    isplitl [HO]; · iexists _; iexact HO
    isplitl [HX]; · iexact HX
    iintro ⟨HS, HD, HW, HH, ⟨%eO, HO⟩, HX⟩
    isplitl [HX HR Hp]
    · isplitl [HX HR]
      · isplitl [HX]; · iexact HX
        iexact HR
      iexact Hp
    isplitl [Hdue]; · iexact Hdue
    isplitl [HS]; · iexact HS
    isplitl [HD]; · iexact HD
    isplitl [HW]; · iexact HW
    isplitl [HH]; · iexact HH
    unfold owns; iexists _; isplitr
    swap; · iexact HO
    ipureintro; exact View.read_writes_of_cover _ _ _ _ _ (cover1_A c _ _ _ _ _ _ _ _ _ _ _ _ _ _ _ _ _ _ _)
  · simp only [before3_4 V c t h0]
    by_cases hz : t.val = 195
    · rw [acc3_C V c t hz]
      unfold out1_C
      iintro ⟨⟨⟨HX, HR⟩, Hp⟩, Hdue, ⟨%dS, HS⟩, ⟨%dD, HD⟩, ⟨%dW, HW⟩, ⟨%dH, HH⟩, ⟨%dO, HO⟩⟩
      iapply ((kernelRun1_C c (grid3.coords t) (mS3 t) (hS3 t) (mD3 t) (hD3 t) (mW3 t) (hW3 t) (mH3 t) (hH3 t) (mO3 t) (hO3 t) mX3 hX3 (not_cond1_a t h0) (cond1_z_of t hz) (iblk3 V c 0 t) (iblk3 V c 1 t) (iblk3 V c 2 t) (iblk3 V c 3 t)
        (acc3 V c (t.val - 1) (Nat.lt_of_le_of_lt (Nat.sub_le _ _) t.isLt))).2 Set.univ _)
      isplitl [HS]; · iexact HS
      isplitl [HD]; · iexact HD
      isplitl [HW]; · iexact HW
      isplitl [HH]; · iexact HH
      isplitl [HO]; · iexact HO
      isplitl [HX]; · iexact HX
      iintro ⟨HS, HD, HW, HH, ⟨%eO, HO⟩, HX⟩
      isplitl [HX HR Hp]
      · isplitl [HX HR]
        · isplitl [HX]; · iexact HX
          iexact HR
        iexact Hp
      isplitl [Hdue]; · iexact Hdue
      isplitl [HS]; · iexact HS
      isplitl [HD]; · iexact HD
      isplitl [HW]; · iexact HW
      isplitl [HH]; · iexact HH
      unfold owns; iexists _; isplitr
      swap; · iexact HO
      ipureintro; exact View.read_writes_of_cover _ _ _ _ _ (cover1_C c _ _ _ _ _ _ _ _ _ _ _ _ _ _ _ _ _ _ _ _)
    · rw [acc3_B V c t h0 hz]
      unfold out1_B
      iintro ⟨⟨⟨HX, HR⟩, Hp⟩, Hdue, ⟨%dS, HS⟩, ⟨%dD, HD⟩, ⟨%dW, HW⟩, ⟨%dH, HH⟩, ⟨%dO, HO⟩⟩
      iapply ((kernelRun1_B c (grid3.coords t) (mS3 t) (hS3 t) (mD3 t) (hD3 t) (mW3 t) (hW3 t) (mH3 t) (hH3 t) (mO3 t) (hO3 t) mX3 hX3 (not_cond1_a t h0) (not_cond1_z t hz) (iblk3 V c 0 t) (iblk3 V c 1 t) (iblk3 V c 2 t) (iblk3 V c 3 t)
        (acc3 V c (t.val - 1) (Nat.lt_of_le_of_lt (Nat.sub_le _ _) t.isLt))).2 Set.univ _)
      isplitl [HS]; · iexact HS
      isplitl [HD]; · iexact HD
      isplitl [HW]; · iexact HW
      isplitl [HH]; · iexact HH
      isplitl [HO]; · iexact HO
      isplitl [HX]; · iexact HX
      iintro ⟨HS, HD, HW, HH, ⟨%eO, HO⟩, HX⟩
      isplitl [HX HR Hp]
      · isplitl [HX HR]
        · isplitl [HX]; · iexact HX
          iexact HR
        iexact Hp
      isplitl [Hdue]; · iexact Hdue
      isplitl [HS]; · iexact HS
      isplitl [HD]; · iexact HD
      isplitl [HW]; · iexact HW
      isplitl [HH]; · iexact HH
      unfold owns; iexists _; isplitr
      swap; · iexact HO
      ipureintro; exact View.read_writes_of_cover _ _ _ _ _ (cover1_B c _ _ _ _ _ _ _ _ _ _ _ _ _ _ _ _ _ _ _ _)

theorem body_obligation3 (c : Dev nD) : BodyObligation (dat3 (F := F) V c) (defs₀ (F := F)) Variants.none () Set.univ := fun t => by
  rw [bigSep_W3, bigSep_W3]
  exact sound_body3 V c t

end Cert.KernelIdeal.H

end
-- ==== Proof.KI.Reg3.lean ====
import proofs.«414250_j49357764165687_1_alg».proof.Proof.KI.RegOf
import proofs.«414250_j49357764165687_1_alg».proof.Proof.KI.Agg3

set_option maxRecDepth 16384

noncomputable section

namespace Cert.KernelIdeal.H

open Idealize.ShloMosaic Cert.KernelIdeal Cert.KernelIdeal.Gen
open Idealize.ShloMosaic.Pipeline (RegionSeg)

variable {F : FTy → Type} [FloatOps F] (m : (ℓ : Loc nD τ sig) → Buf (Elt F) ℓ)

set_option backward.isDefEq.respectTransparency.types false in
def reg3 : RegionSeg (pcfgs (F := F)) adm (pdats m) () defs₀ 𝒱₀ L lv 3 :=
  regOf m 3 launch3 (V18 m (myOuts m)) (V19 m (myOuts m)) 4 (by decide)
    (fun c w => (A_eq3 (Ein3 m) c w).trans (congrFun (in3_eq m c) _).symm)
    (V19_of m (myOuts m)) (fun c => (V19_self m (myOuts m) c).trans (out3_eq m c)) (body_obligation3 (Ein3 m))

end Cert.KernelIdeal.H

end
-- ==== Proof.KI.Lin4.lean ====
/-
  The third dense layer's region: its body obligation from the second region's triple of the shared body.
-/
import proofs.«414250_j49357764165687_1_alg».proof.Proof.KI.Lin4Defs
import proofs.«414250_j49357764165687_1_alg».proof.Proof.KI.Lin2

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before4_0 (c : Dev nD) (t : Fin cfg4.N) (d) : (dat4 V c).before 0 t d = iblk4 V c 0 t :=
  ((dat4 V c).before_in_eq_fetched 0 rfl (fun _ => rfl) (fun _ _ _ => rfl)
    (fun t => by rw [after4_0]; unfold Dat.blockOf iblk4; rw [A_eq4]; try rfl) t d).trans
    (by unfold Dat.fetched Dat.blockOf iblk4; rw [A_eq4]; try rfl)

theorem before4_1 (c : Dev nD) (t : Fin cfg4.N) (d) : (dat4 V c).before 1 t d = iblk4 V c 1 t :=
  ((dat4 V c).before_in_eq_fetched 1 rfl (fun _ => rfl) (fun _ _ _ => rfl)
    (fun t => by rw [after4_1]; unfold Dat.blockOf iblk4; rw [A_eq4]; try rfl) t d).trans
    (by unfold Dat.fetched Dat.blockOf iblk4; rw [A_eq4]; try rfl)

theorem before4_2 (c : Dev nD) (t : Fin cfg4.N) (d) : (dat4 V c).before 2 t d = iblk4 V c 2 t :=
  ((dat4 V c).before_in_eq_fetched 2 rfl (fun _ => rfl) (fun _ _ _ => rfl)
    (fun t => by rw [after4_2]; unfold Dat.blockOf iblk4; rw [A_eq4]; try rfl) t d).trans
    (by unfold Dat.fetched Dat.blockOf iblk4; rw [A_eq4]; try rfl)

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  rw [cc4_kernel_eq]
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%dX, HX⟩, ⟨%dW, HW⟩, ⟨%dB, HB⟩, ⟨%dO, HO⟩⟩
  iapply (sound_kernel2 c Set.univ _ _ _ _ _ _ _ _ _ (iblk4 V c 0 t) (iblk4 V c 1 t) (iblk4 V c 2 t) _)
  isplitl [HX]; · iexact HX
  isplitl [HW]; · iexact HW
  isplitl [HB]; · iexact HB
  isplitl [HO]; · iexists _; iexact HO
  iintro ⟨HX, HW, HB, HO⟩
  isplitl [HΦ]; · iexact HΦ
  isplitl [Ho]; · iexact Ho
  isplitl [HX]; · iexact HX
  isplitl [HW]; · iexact HW
  isplitl [HB]; · iexact HB
  iexact HO

theorem body_obligation4 (c : Dev nD) : BodyObligation (dat4 (F := F) V c) (defs₀ (F := F)) Variants.none () Set.univ := fun t => by
  rw [bigSep_W4, bigSep_W4]
  exact sound_body4 V c t

end Cert.KernelIdeal.H

end
-- ==== Proof.KI.Reg4.lean ====
import proofs.«414250_j49357764165687_1_alg».proof.Proof.KI.RegOf
import proofs.«414250_j49357764165687_1_alg».proof.Proof.KI.Lin4

set_option maxRecDepth 16384

noncomputable section

namespace Cert.KernelIdeal.H

open Idealize.ShloMosaic Cert.KernelIdeal Cert.KernelIdeal.Gen
open Idealize.ShloMosaic.Pipeline (RegionSeg)

variable {F : FTy → Type} [FloatOps F] (m : (ℓ : Loc nD τ sig) → Buf (Elt F) ℓ)

set_option backward.isDefEq.respectTransparency.types false in
def reg4 : RegionSeg (pcfgs (F := F)) adm (pdats m) () defs₀ 𝒱₀ L lv 4 :=
  regOf m 4 launch4 (V19 m (myOuts m)) (V20 m (myOuts m)) 3 (by decide)
    (fun c w => (A_eq4 (Ein4 m) c w).trans (congrFun (in4_eq m c) _).symm)
    (V20_of m (myOuts m)) (fun c => (V20_self m (myOuts m) c).trans (out4_eq m c)) (body_obligation4 (Ein4 m))

end Cert.KernelIdeal.H

end
-- ==== Proof.KI.Lin5.lean ====
import proofs.«414250_j49357764165687_1_alg».proof.Proof.Gen.KernelIdeal.Launch
import proofs.«414250_j49357764165687_1_alg».proof.Proof.Gen.KernelIdeal.Skeleton
import proofs.«414250_j49357764165687_1_alg».proof.Proof.Gen.KernelIdeal.Points
import proofs.«414250_j49357764165687_1_alg».proof.Proof.Gen.KernelIdeal.Loops
import proofs.«414250_j49357764165687_1_alg».proof.Proof.KI.Lin5Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem before5_0 (c : Dev nD) (t : Fin cfg5.N) (d) : (dat5 V c).before 0 t d = iblk5 V c 0 t :=
  ((dat5 V c).before_in_eq_fetched 0 rfl (fun _ => rfl) (fun _ _ _ => rfl)
    (fun t => by rw [after5_0]; unfold Dat.blockOf iblk5; rw [A_eq5]; try rfl) t d).trans
    (by unfold Dat.fetched Dat.blockOf iblk5; rw [A_eq5]; try rfl)

theorem before5_1 (c : Dev nD) (t : Fin cfg5.N) (d) : (dat5 V c).before 1 t d = iblk5 V c 1 t :=
  ((dat5 V c).before_in_eq_fetched 1 rfl (fun _ => rfl) (fun _ _ _ => rfl)
    (fun t => by rw [after5_1]; unfold Dat.blockOf iblk5; rw [A_eq5]; try rfl) t d).trans
    (by unfold Dat.fetched Dat.blockOf iblk5; rw [A_eq5]; try rfl)

theorem before5_2 (c : Dev nD) (t : Fin cfg5.N) (d) : (dat5 V c).before 2 t d = iblk5 V c 2 t :=
  ((dat5 V c).before_in_eq_fetched 2 rfl (fun _ => rfl) (fun _ _ _ => rfl)
    (fun t => by rw [after5_2]; unfold Dat.blockOf iblk5; rw [A_eq5]; try rfl) t d).trans
    (by unfold Dat.fetched Dat.blockOf iblk5; rw [A_eq5]; try rfl)

theorem cover5_3 (p : Vec F S5000x40 .f32) (y : S5000x40.Idx) :
    ∃ pc ∈ ([⟨rO5, p⟩] : List (View.Piece (Elt F) S5000x40 .f32)), y ∈ pc.1.set :=
  View.cover_of_tiled [⟨rO5, p⟩] S5000x40.size (by rfl) y

set_option maxHeartbeats 1000000 in

theorem sound_kernel5 (c : Dev nD) (E : Set ℕ) (i : grid5.Coords)
    (aX : Memref sig .tc .vmem S5000x64 .f32) (haX : aX.IsWhole) (aW : Memref sig .tc .vmem S64x40 .f32) (haW : aW.IsWhole)
    (aB : Memref sig .tc .vmem S40 .f32) (haB : aB.IsWhole) (aO : Memref sig .tc .vmem S5000x40 .f32) (haO : aO.IsWhole)
    (xX : Vec F S5000x64 .f32) (xW : Vec F S64x40 .f32) (xB : Vec F S40 .f32) (K : PUnit → sProp 𝕄) :
    iprop(owns (c : Thread nD τ) aX fullShare xX ∗ owns (c : Thread nD τ) aW fullShare xW
        ∗ owns (c : Thread nD τ) aB fullShare xB ∗ (∃ d, owns (c : Thread nD τ) aO fullShare d)
        ∗ (iprop(owns (c : Thread nD τ) aX fullShare xX ∗ owns (c : Thread nD τ) aW fullShare xW
            ∗ owns (c : Thread nD τ) aB fullShare xB ∗ owns (c : Thread nD τ) aO fullShare (out5_3 xX xW xB)) -∗ K ⟨⟩))
      ⊢ wp frame (wpE (defs₀ (F := F)) Variants.none c none) E (cc5_kernel i aX haX aW haW aB haB aO haO) K := by
  simp only [cc5_kernel_eq_skeleton]; unfold cc5_kernel_skel
  unfold owns
  iintro ⟨⟨%fX, %hfX, HX⟩, ⟨%fW, %hfW, HW⟩, ⟨%fB, %hfB, HB⟩, ⟨%dO, %fO, -, HO⟩, Hk⟩
  subst hfX; subst hfW; subst hfB
  sl_exec
  sl_step
  iapply Hk
  isplitl [HX]
  · iexists fX; isplitr; · ipureintro; rfl
    iexact HX
  isplitl [HW]
  · iexists fW; isplitr; · ipureintro; rfl
    iexact HW
  isplitl [HB]
  · iexists fB; isplitr; · ipureintro; rfl
    iexact HB
  iexists _; isplitr
  swap; · iexact HO
  ipureintro
  exact View.read_writes_eq_canon _ _ _ (cover5_3 _)

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%dX, HX⟩, ⟨%dW, HW⟩, ⟨%dB, HB⟩, ⟨%dO, HO⟩⟩
  iapply (sound_kernel5 c Set.univ _ _ _ _ _ _ _ _ _ (iblk5 V c 0 t) (iblk5 V c 1 t) (iblk5 V c 2 t) _)
  isplitl [HX]; · iexact HX
  isplitl [HW]; · iexact HW
  isplitl [HB]; · iexact HB
  isplitl [HO]; · iexists _; iexact HO
  iintro ⟨HX, HW, HB, HO⟩
  isplitl [HΦ]; · iexact HΦ
  isplitl [Ho]; · iexact Ho
  isplitl [HX]; · iexact HX
  isplitl [HW]; · iexact HW
  isplitl [HB]; · iexact HB
  iexact HO

theorem body_obligation5 (c : Dev nD) : BodyObligation (dat5 (F := F) V c) (defs₀ (F := F)) Variants.none () Set.univ := fun t => by
  rw [bigSep_W5, bigSep_W5]
  exact sound_body5 V c t

end Cert.KernelIdeal.H

end
-- ==== Proof.KI.Reg5.lean ====
import proofs.«414250_j49357764165687_1_alg».proof.Proof.KI.RegOf
import proofs.«414250_j49357764165687_1_alg».proof.Proof.KI.Lin5

set_option maxRecDepth 16384

noncomputable section

namespace Cert.KernelIdeal.H

open Idealize.ShloMosaic Cert.KernelIdeal Cert.KernelIdeal.Gen
open Idealize.ShloMosaic.Pipeline (RegionSeg)

variable {F : FTy → Type} [FloatOps F] (m : (ℓ : Loc nD τ sig) → Buf (Elt F) ℓ)

set_option backward.isDefEq.respectTransparency.types false in
def reg5 : RegionSeg (pcfgs (F := F)) adm (pdats m) () defs₀ 𝒱₀ L lv 5 :=
  regOf m 5 launch5 (V20 m (myOuts m)) (V21 m (myOuts m)) 3 (by decide)
    (fun c w => (A_eq5 (Ein5 m) c w).trans (congrFun (in5_eq m c) _).symm)
    (V21_of m (myOuts m)) (fun c => (V21_self m (myOuts m) c).trans (out5_eq m c)) (body_obligation5 (Ein5 m))

end Cert.KernelIdeal.H

end
-- ==== Proof.KI.RunAll.lean ====
import proofs.«414250_j49357764165687_1_alg».proof.Proof.Gen.KernelIdeal.Launch
import proofs.«414250_j49357764165687_1_alg».proof.Proof.Gen.KernelIdeal.Skeleton
import proofs.«414250_j49357764165687_1_alg».proof.Proof.Gen.KernelIdeal.Points
import proofs.«414250_j49357764165687_1_alg».proof.Proof.Gen.KernelIdeal.Loops
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«414250_j49357764165687_1_alg».proof.Proof.KI.Fold
import proofs.«414250_j49357764165687_1_alg».proof.Proof.KI.Reg0
import proofs.«414250_j49357764165687_1_alg».proof.Proof.KI.Reg1
import proofs.«414250_j49357764165687_1_alg».proof.Proof.KI.Reg2
import proofs.«414250_j49357764165687_1_alg».proof.Proof.KI.Reg3
import proofs.«414250_j49357764165687_1_alg».proof.Proof.KI.Reg4
import proofs.«414250_j49357764165687_1_alg».proof.Proof.KI.Reg5

set_option maxRecDepth 16384

noncomputable section

namespace Cert.KernelIdeal.H

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.Pipeline (Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev restE : Fin 7 → Dev nD → sProp 𝕄 := fun _ c => Rst c

set_option backward.isDefEq.respectTransparency.types false in
theorem run_all :
    θ_run defs (onTc (τ := τ) (main (F := F))) ⟨m, fun _ => 0, ρ⟩ (fun r => ∀ c : Dev nD,
      ∀ b ∈ Pipeline.ucRefs τ sig, r.2.mem (((c : Thread nD τ)).1, b) = V21 m (myOuts m) c b) := by
  refine Pipeline.θ_run_regions_kit_dev (pcfgs (F := F)) adm (pdats m) () cellOf_inj emb₁ defs₀ 𝒱₀ L lv m ρ main
    (segs m (myOuts m) 𝒱₀ L lv (restE (F := F)) () (pdats m) (reg0 m) (reg1 m) (reg2 m) (reg3 m) (reg4 m) (reg5 m))
    (fun c Q => by
      rewrite [main_chain c, Seg.run_eq_chain,
        show (segs m (myOuts m) 𝒱₀ L lv (restE (F := F)) () (pdats m) (reg0 m) (reg1 m) (reg2 m) (reg3 m) (reg4 m) (reg5 m) c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          Prog.lift (.customCall (Pipeline.entry 1) ()),
          Prog.lift (.customCall (Pipeline.entry 2) ()),
          StableHlo.seq hostOps3,
          StableHlo.seq hostOps3_1,
          StableHlo.seq hostOps3_2,
          StableHlo.seq hostOps3_3,
          StableHlo.seq hostOps3_4,
          StableHlo.seq hostOps3_5,
          StableHlo.seq hostOps3_6,
          Prog.lift (.customCall (Pipeline.entry 3) ()),
          Prog.lift (.customCall (Pipeline.entry 4) ()),
          Prog.lift (.customCall (Pipeline.entry 5) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rst c))
    (Tₙ := fun c => StableHlo.held (c : Thread nD τ) (Pipeline.ucRefs τ sig) (V21 m (myOuts m) c))
    (hch := fun c => ⟨.rfl, .rfl, .rfl, .rfl, .rfl, .rfl, .rfl, .rfl, .rfl, .rfl, .rfl, .rfl, .rfl, .rfl, .rfl, .rfl, .rfl, .rfl, .rfl, .rfl, .rfl,
      sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V21 m (myOuts m) c b)
    (hfin := fun c s' => by
      iintro ⟨Hh, HSI⟩
      unfold StableHlo.held
      imodintro
      iapply (pointsTo_read_all (Pipeline.ucRefs τ sig) (fun b => (((c : Thread nD τ)).1, b)) (V21 m (myOuts m) c) s')
      isplitl [Hh] <;> iassumption)
    (hQ := fun _ h => h)

end Cert.KernelIdeal.H

end
-- ==== Proof.SpecBridge.lean ====
import proofs.«414250_j49357764165687_1_alg».proof.Proof.Spec
import Mathlib.Algebra.BigOperators.Fin

noncomputable section

open scoped BigOperators

namespace Cert.Spec

open Idealize.ShloMosaic

theorem eq_ofNat_iff_toInt (x : BitVec 32) (n : Nat) (hn : n < 2147483648) :
    x = BitVec.ofNat 32 n ↔ x.toInt = (n : ℤ) := by
  rw [← BitVec.toNat_inj, BitVec.toNat_ofNat, BitVec.toInt_eq_toNat_cond]
  have hx := x.isLt
  constructor
  · intro h
    have h2 : n % 2 ^ 32 = n := Nat.mod_eq_of_lt (by omega)
    rw [h2] at h
    rw [if_pos (by omega)]
    omega
  · intro h
    have h2 : n % 2 ^ 32 = n := Nat.mod_eq_of_lt (by omega)
    rw [h2]
    split at h <;> omega

theorem hot_eq_ite_toInt (x : BitVec 32) (n : Nat) (hn : n < 2147483648) :
    hot x n = if x.toInt = (n : ℤ) then 1 else 0 := by
  unfold hot
  by_cases h : x = BitVec.ofNat 32 n
  · rw [if_pos h, if_pos ((eq_ofNat_iff_toInt x n hn).mp h)]
  · rw [if_neg h, if_neg (fun h' => h ((eq_ofNat_iff_toInt x n hn).mpr h'))]

theorem nodeOf_val_of_range (x : BitVec 32) (h0 : 0 ≤ x.toInt) (h1 : x.toInt < 50000) :
    (nodeOf x).val = x.toInt.toNat := by
  unfold nodeOf
  show min (if x.toInt < 0 then x + BitVec.ofNat 32 NN else x).toInt.toNat (NN - 1) = x.toInt.toNat
  rw [if_neg (by omega)]
  unfold NN
  omega

theorem sum_hot_mul (x : BitVec 32) (h0 : 0 ≤ x.toInt) (h1 : x.toInt < 50000)
    (H : Fin NN → Fin DD → EReal) (q : Fin DD) :
    ∑ n : Fin NN, hot x n.val * H n q = H (nodeOf x) q := by
  have hv := nodeOf_val_of_range x h0 h1
  rw [Finset.sum_eq_single (nodeOf x)]
  · rw [hot_eq_ite_toInt x _ (by have := (nodeOf x).isLt; unfold NN at this; omega), if_pos (by omega), one_mul]
  · intro n _ hne
    have hn := n.isLt
    rw [hot_eq_ite_toInt x _ (by unfold NN at hn; omega), if_neg, zero_mul]
    intro hx
    apply hne
    apply Fin.ext
    omega
  · intro hno
    exact absurd (Finset.mem_univ _) hno

theorem sum_dite_lt {M : Type} [AddCommMonoid M] {m n : Nat} (h : m ≤ n) (g : Fin m → M) :
    ∑ e : Fin n, (if h : e.val < m then g ⟨e.val, h⟩ else 0) = ∑ e : Fin m, g e := by
  obtain ⟨k, rfl⟩ := Nat.exists_eq_add_of_le h
  rw [Fin.sum_univ_add]
  have h2 : ∑ i : Fin k, (if h : (Fin.natAdd m i).val < m then g ⟨(Fin.natAdd m i).val, h⟩ else 0) = 0 := by
    apply Finset.sum_eq_zero
    intro i _
    rw [dif_neg]
    simp
  rw [h2, add_zero]
  apply Finset.sum_congr rfl
  intro i _
  have hi : (Fin.castAdd k i).val < m := by simp
  rw [dif_pos hi]
  exact congrArg g (Fin.ext rfl)

theorem aggHot_pad_eq_aggIdx (src dst : Fin EE → BitVec 32) (w : Fin EE → EReal) (H : Fin NN → Fin DD → EReal)
    (hd : ∀ e, 0 ≤ (dst e).toInt ∧ (dst e).toInt < 50000) :
    aggHot (padTo src 0) (padTo dst 0) (padTo w 0) H = aggIdx src dst w H := by
  funext p q
  unfold aggHot aggIdx
  rw [zero_add, Finset.sum_filter]
  have hp := p.isLt
  rw [← sum_dite_lt (show EE ≤ EP by unfold EE EP; omega)
    (fun e : Fin EE => if (src e).toInt = (p.val : ℤ) then H (nodeOf (dst e)) q * w e else 0)]
  apply Finset.sum_congr rfl
  intro e _
  by_cases he : e.val < EE
  · rw [dif_pos he]
    unfold pick padTo
    rw [dif_pos he, dif_pos he, dif_pos he]
    rw [sum_hot_mul _ (hd _).1 (hd _).2]
    rw [hot_eq_ite_toInt _ _ (by unfold NN at hp; omega)]
    split
    · rw [one_mul]
    · rw [zero_mul]
  · rw [dif_neg he]
    unfold padTo
    rw [dif_neg he, dif_neg he]
    rw [mul_zero, mul_zero]

end Cert.Spec

end
-- ==== Proof.PreDecode.lean ====
import proofs.«414250_j49357764165687_1_alg».proof.Defs
import Idealize.ShloMosaic.Lib.ReduceAll
import Idealize.ShloMosaic.Lib.ValueIdx
import Idealize.ShloMosaic.Lib.Pipeline.Value

set_option maxRecDepth 16384

noncomputable section

namespace Cert.PreDecode

open Idealize.ShloMosaic Idealize.ShloMosaic.ValueIdx Idealize.SL.Sem
open Cert.Pre_finite_inputs

instance subsingleton_S_ : Subsingleton S_.Idx := ⟨fun a b => funext fun d => d.elim0⟩

variable [Cert.Pre_finite_inputs.Facts]

theorem row1_apply (a1 : IVec S2x800000 32) (e : Fin 800000) :
    shapeCast S800000 (extractStridedSlice S1x800000 ![1, 0] a1 Facts.slices_S2x800000_S1x800000_1_0)
        Facts.shapeCasts_S1x800000_S800000 (ix1 e)
      = a1 (ix2 (1 : Fin 2) e) := by
  refine (shapeCast_apply _ _ (ix1 e) (ix2 (0 : Fin 1) e) ?_).trans ?_
  · rw [Shape.rowMajor_val_two, Shape.rowMajor_val_one]
    show (0 : Nat) * 800000 + e.val = e.val
    omega
  · refine extractStridedSlice_apply _ a1 _ (ix2 (0 : Fin 1) e) (ix2 (1 : Fin 2) e) (fun a => ?_)
    match a with
    | ⟨0, _⟩ => rfl
    | ⟨1, _⟩ => exact (Nat.zero_add _).symm

theorem bcast_const {t : Shape} (hb : S_.BroadcastsInDim t (![] : Fin 0 → Fin t.rank)) (w : Nat) (b : BitVec w) (j : t.Idx) :
    broadcastInDim t ![] hb (constantI S_ w b) j = b := rfl

theorem part3_ones {F : FTy → Type} [FloatOps F] (v43 : IVec S_ 1) (v47 v51 : IVec S800000 1)
    (h : fn_part3 (F := F) v43 v47 v51 ix0 = 1#1) (j : S800000.Idx) : v47 j = 1#1 ∧ v51 j = 1#1 := by
  unfold fn_part3 at h
  dsimp only at h
  have h2 := (IntOp.andi_eq_one.mp h).2
  exact IntOp.andi_eq_one.mp (Host.reduce_andi_all _ _ _ _ ix0 h2 j)

theorem fn_dst {F : FTy → Type} [FloatOps F]
    (a0 : FVec F S50000x64 .f32) (a1 : IVec S2x800000 32) (a2 : FVec F S64x64 .f32) (a3 : FVec F S64 .f32)
    (a4 : FVec F S64x64 .f32) (a5 : FVec F S64 .f32) (a6 : FVec F S64x64 .f32) (a7 : FVec F S64 .f32)
    (a8 : FVec F S64x40 .f32) (a9 : FVec F S40 .f32)
    (h : fn (F := F) a0 a1 a2 a3 a4 a5 a6 a7 a8 a9 = fun _ => 1#1) (e : Fin 800000) :
    0 ≤ (a1 (ix2 (1 : Fin 2) e)).toInt ∧ (a1 (ix2 (1 : Fin 2) e)).toInt < 50000 := by
  have h0 := congrFun h ix0
  unfold fn at h0
  dsimp only at h0
  unfold fn_part1 at h0
  dsimp only at h0
  unfold fn_part2 at h0
  dsimp only at h0
  obtain ⟨h47, h51⟩ := part3_ones _ _ _ h0 (ix1 e)
  have g47 := IntOp.cmpi_sge.mp h47
  have g51 := IntOp.cmpi_slt.mp h51
  rw [row1_apply a1 e, bcast_const] at g47 g51
  have z0 : (0#32 : BitVec 32).toInt = 0 := by decide
  have z5 : (50000#32 : BitVec 32).toInt = 50000 := by decide
  rw [z0] at g47
  rw [z5] at g51
  exact ⟨g47, g51⟩

theorem dst_range (m : (ℓ : Loc Cert.KernelIdeal.nD Cert.KernelIdeal.τ Cert.KernelIdeal.sig) → Buf (Elt Ideal) ℓ)
    (h : Cert.Pre_KernelIdeal m) (c : Dev Cert.KernelIdeal.nD) (e : Fin 800000) :
    0 ≤ ((m ((c.tc : Thread Cert.KernelIdeal.nD Cert.KernelIdeal.τ).loc Cert.KernelIdeal.main_arg1) :
          Cert.KernelIdeal.S2x800000.Idx → BitVec 32) (ValueIdx.ix2 1 e)).toInt
      ∧ ((m ((c.tc : Thread Cert.KernelIdeal.nD Cert.KernelIdeal.τ).loc Cert.KernelIdeal.main_arg1) :
          Cert.KernelIdeal.S2x800000.Idx → BitVec 32) (ValueIdx.ix2 1 e)).toInt < 50000 :=
  fn_dst (F := Ideal) _ _ _ _ _ _ _ _ _ _ (h c) e

end Cert.PreDecode

end
-- ==== Proof.KI.ValHost.lean ====
import proofs.«414250_j49357764165687_1_alg».proof.Proof.Gen.KernelIdeal.Launch
import proofs.«414250_j49357764165687_1_alg».proof.Proof.Gen.KernelIdeal.Regions
import proofs.«414250_j49357764165687_1_alg».proof.Proof.Spec
import proofs.«414250_j49357764165687_1_alg».proof.Proof.SpecW
import Idealize.ShloMosaic.Lib.StableHlo.Run
import Idealize.ShloMosaic.Lib.ValueIdx
import Idealize.ShloMosaic.Lib.Pipeline.Value
import Idealize.ShloMosaic.Lib.ValueLayout
import Idealize.ShloMosaic.Lib.KernelVsHost

set_option maxRecDepth 16384

noncomputable section

namespace Cert.KernelIdeal.Val

open Idealize.ShloMosaic Idealize.ShloMosaic.TcCoe Idealize.ShloMosaic.ValueIdx
open Idealize.SL.Sem Idealize.ShloMosaic.StableHlo
open Cert.KernelIdeal Cert.KernelIdeal.Gen

theorem scat_eq : scatter_S50000_S800000x1_S800000_n_0_0_1 = Cert.SpecW.scatDims := rfl
theorem gath_eq : gather_S50000_S800000x1_S800000_n_0_n_n_0_1_1 = Cert.SpecW.gathDims := rfl

theorem row_read (r : Fin 2) (x : S2x800000.Idx → BitVec 32) (hs : S2x800000.Slices ![r.val, 0] S1x800000) (e : Fin 800000) :
    shapeCast S800000 (extractStridedSlice S1x800000 ![r.val, 0] x hs) shapeCasts_S1x800000_S800000 (ix1 e) = x (ix2 r e) := by
  refine (shapeCast_apply _ shapeCasts_S1x800000_S800000 (ix1 e) (ix2 (0 : Fin 1) e) ?_).trans ?_
  · rw [Shape.rowMajor_val_two, Shape.rowMajor_val_one]
    show 0 * 800000 + e.val = e.val
    omega
  · exact extractStridedSlice_apply ![r.val, 0] x hs (ix2 (0 : Fin 1) e) (ix2 r e)
      (fun a => match a with
        | ⟨0, _⟩ => by show r.val = r.val + 0; omega
        | ⟨1, _⟩ => by show e.val = 0 + e.val; omega)

theorem pad_read {α : Type} (x : S800000.Idx → α) (v : S_.Idx → α) (z : α) (hv : ∀ i, v i = z) (e : Fin 802816) :
    pad S802816 ![0] ![2816] ![0] x v pads_S800000_S802816_028160 h_S_ (ix1 e) = Cert.Spec.padTo (fun a => x (ix1 a)) z e := by
  unfold Cert.Spec.padTo
  by_cases h : e.val < Cert.Spec.EE
  · rw [dif_pos h]
    exact pad_apply_of_inside ![0] ![2816] ![0] x v pads_S800000_S802816_028160 h_S_ (ix1 e) (ix1 (⟨e.val, h⟩ : Fin 800000))
      (fun a => match a with
        | ⟨0, _⟩ => by show e.val = 0 + e.val * (0 + 1); omega)
  · rw [dif_neg h]
    refine (pad_apply_of_not_inside ![0] ![2816] ![0] x v pads_S800000_S802816_028160 h_S_ (ix1 e) (0 : Fin 1) ?_).trans (hv _)
    show ¬(0 ≤ e.val ∧ (e.val - 0) % (0 + 1) = 0 ∧ (e.val - 0) / (0 + 1) < 800000)
    have h' : ¬ e.val < 800000 := h
    omega

theorem sitofp_const_zero (i : S_.Idx) : (sitofp (F := Ideal) .f32 (constantI S_ 32 0#32) : S_.Idx → EReal) i = 0 := by
  show ((((0#32 : BitVec 32).toInt : ℤ) : ℝ) : EReal) = 0
  simp

theorem truncf_id (x : S50000x64.Idx → EReal) :
    (truncf (F := Ideal) (φ := .f32) .bf16 x bitsLt_bf16_f32 : S50000x64.Idx → EReal) = x := rfl

theorem host0_v1 (W : Valuation τ sig (Elt Ideal)) (e : Fin 800000) :
    (StableHlo.after hostOps0 W (Proc.devRef .tc main_v1) : S800000.Idx → BitVec 32) (ix1 e)
      = (W (Proc.devRef .tc main_arg1) : S2x800000.Idx → BitVec 32) (ix2 0 e) := by
  after_results
  exact row_read 0 (W (Proc.devRef .tc main_arg1)) slices_S2x800000_S1x800000_0_0 e

theorem host0_v3 (W : Valuation τ sig (Elt Ideal)) (e : Fin 800000) :
    (StableHlo.after hostOps0 W (Proc.devRef .tc main_v3) : S800000.Idx → BitVec 32) (ix1 e)
      = (W (Proc.devRef .tc main_arg1) : S2x800000.Idx → BitVec 32) (ix2 1 e) := by
  after_results
  exact row_read 1 (W (Proc.devRef .tc main_arg1)) slices_S2x800000_S1x800000_1_0 e

theorem host1_v17 (W : Valuation τ sig (Elt Ideal)) :
    (StableHlo.after hostOps1 W (Proc.devRef .tc main_v17) : S800000.Idx → EReal)
      = Cert.SpecW.wChain (W (Proc.devRef .tc main_v1)) := by
  after_results_simp
  rw [scat_eq, gath_eq]
  generalize (W (Proc.devRef .tc main_v1) : S800000.Idx → BitVec 32) = srcv
  unfold Cert.SpecW.wChain
  rfl

theorem host1_c3 (W : Valuation τ sig (Elt Ideal)) :
    (StableHlo.after hostOps1 W (Proc.devRef .tc main_c_3) : S_.Idx → BitVec 32) = constantI S_ 32 0#32 := by
  after_results_simp

theorem host1_1_v18 (W : Valuation τ sig (Elt Ideal))
    (hc : (W (Proc.devRef .tc main_c_3) : S_.Idx → BitVec 32) = constantI S_ 32 0#32) (e : Fin 802816) :
    (StableHlo.after hostOps1_1 W (Proc.devRef .tc main_v18) : S802816.Idx → BitVec 32) (ix1 e)
      = Cert.Spec.padTo (fun a => (W (Proc.devRef .tc main_v1) : S800000.Idx → BitVec 32) (ix1 a)) (0 : BitVec 32) e := by
  after_results
  simp only [TRef.ofBuf, TRef.toBuf, cast_eq]
  exact pad_read (W (Proc.devRef .tc main_v1)) _ (0 : BitVec 32) (fun i => by rw [id, hc]; rfl) e

theorem host1_2_c4 (W : Valuation τ sig (Elt Ideal)) :
    (StableHlo.after hostOps1_2 W (Proc.devRef .tc main_c_4) : S_.Idx → BitVec 32) = constantI S_ 32 0#32 := by
  after_results

theorem host1_3_v19 (W : Valuation τ sig (Elt Ideal))
    (hc : (W (Proc.devRef .tc main_c_4) : S_.Idx → BitVec 32) = constantI S_ 32 0#32) (e : Fin 802816) :
    (StableHlo.after hostOps1_3 W (Proc.devRef .tc main_v19) : S802816.Idx → BitVec 32) (ix1 e)
      = Cert.Spec.padTo (fun a => (W (Proc.devRef .tc main_v3) : S800000.Idx → BitVec 32) (ix1 a)) (0 : BitVec 32) e := by
  after_results
  simp only [TRef.ofBuf, TRef.toBuf, cast_eq]
  exact pad_read (W (Proc.devRef .tc main_v3)) _ (0 : BitVec 32) (fun i => by rw [id, hc]; rfl) e

theorem host1_4_c5 (W : Valuation τ sig (Elt Ideal)) :
    (StableHlo.after hostOps1_4 W (Proc.devRef .tc main_c_5) : S_.Idx → BitVec 32) = constantI S_ 32 0#32 := by
  after_results

theorem host1_5_v20 (W : Valuation τ sig (Elt Ideal))
    (hc : (W (Proc.devRef .tc main_c_5) : S_.Idx → BitVec 32) = constantI S_ 32 0#32) (e : Fin 802816) :
    (StableHlo.after hostOps1_5 W (Proc.devRef .tc main_v20) : S802816.Idx → EReal) (ix1 e)
      = Cert.Spec.padTo (fun a => (W (Proc.devRef .tc main_v17) : S800000.Idx → EReal) (ix1 a)) (0 : EReal) e := by
  after_results
  simp only [TRef.ofBuf, TRef.toBuf, cast_eq]
  exact pad_read (W (Proc.devRef .tc main_v17)) _ (0 : EReal) (fun i => by rw [hc]; exact sitofp_const_zero i) e

theorem host1_6_v21 (W : Valuation τ sig (Elt Ideal)) :
    (StableHlo.after hostOps1_6 W (Proc.devRef .tc main_v21) : S50000x64.Idx → EReal) = W (Proc.devRef .tc main_v4) := by
  after_results
  exact truncf_id _

theorem host3_v36 (W : Valuation τ sig (Elt Ideal)) :
    (StableHlo.after hostOps3 W (Proc.devRef .tc main_v36) : S800000.Idx → EReal)
      = Cert.SpecW.wChain (W (Proc.devRef .tc main_v1)) := by
  after_results_simp
  rw [scat_eq, gath_eq]
  generalize (W (Proc.devRef .tc main_v1) : S800000.Idx → BitVec 32) = srcv
  unfold Cert.SpecW.wChain
  rfl

theorem host3_c11 (W : Valuation τ sig (Elt Ideal)) :
    (StableHlo.after hostOps3 W (Proc.devRef .tc main_c_11) : S_.Idx → BitVec 32) = constantI S_ 32 0#32 := by
  after_results_simp

theorem host3_1_v37 (W : Valuation τ sig (Elt Ideal))
    (hc : (W (Proc.devRef .tc main_c_11) : S_.Idx → BitVec 32) = constantI S_ 32 0#32) (e : Fin 802816) :
    (StableHlo.after hostOps3_1 W (Proc.devRef .tc main_v37) : S802816.Idx → BitVec 32) (ix1 e)
      = Cert.Spec.padTo (fun a => (W (Proc.devRef .tc main_v1) : S800000.Idx → BitVec 32) (ix1 a)) (0 : BitVec 32) e := by
  after_results
  simp only [TRef.ofBuf, TRef.toBuf, cast_eq]
  exact pad_read (W (Proc.devRef .tc main_v1)) _ (0 : BitVec 32) (fun i => by rw [id, hc]; rfl) e

theorem host3_2_c12 (W : Valuation τ sig (Elt Ideal)) :
    (StableHlo.after hostOps3_2 W (Proc.devRef .tc main_c_12) : S_.Idx → BitVec 32) = constantI S_ 32 0#32 := by
  after_results

theorem host3_3_v38 (W : Valuation τ sig (Elt Ideal))
    (hc : (W (Proc.devRef .tc main_c_12) : S_.Idx → BitVec 32) = constantI S_ 32 0#32) (e : Fin 802816) :
    (StableHlo.after hostOps3_3 W (Proc.devRef .tc main_v38) : S802816.Idx → BitVec 32) (ix1 e)
      = Cert.Spec.padTo (fun a => (W (Proc.devRef .tc main_v3) : S800000.Idx → BitVec 32) (ix1 a)) (0 : BitVec 32) e := by
  after_results
  simp only [TRef.ofBuf, TRef.toBuf, cast_eq]
  exact pad_read (W (Proc.devRef .tc main_v3)) _ (0 : BitVec 32) (fun i => by rw [id, hc]; rfl) e

theorem host3_4_c13 (W : Valuation τ sig (Elt Ideal)) :
    (StableHlo.after hostOps3_4 W (Proc.devRef .tc main_c_13) : S_.Idx → BitVec 32) = constantI S_ 32 0#32 := by
  after_results

theorem host3_5_v39 (W : Valuation τ sig (Elt Ideal))
    (hc : (W (Proc.devRef .tc main_c_13) : S_.Idx → BitVec 32) = constantI S_ 32 0#32) (e : Fin 802816) :
    (StableHlo.after hostOps3_5 W (Proc.devRef .tc main_v39) : S802816.Idx → EReal) (ix1 e)
      = Cert.Spec.padTo (fun a => (W (Proc.devRef .tc main_v36) : S800000.Idx → EReal) (ix1 a)) (0 : EReal) e := by
  after_results
  simp only [TRef.ofBuf, TRef.toBuf, cast_eq]
  exact pad_read (W (Proc.devRef .tc main_v36)) _ (0 : EReal) (fun i => by rw [hc]; exact sitofp_const_zero i) e

theorem host3_6_v40 (W : Valuation τ sig (Elt Ideal)) :
    (StableHlo.after hostOps3_6 W (Proc.devRef .tc main_v40) : S50000x64.Idx → EReal) = W (Proc.devRef .tc main_v23) := by
  after_results
  exact truncf_id _

end Cert.KernelIdeal.Val

end
-- ==== Proof.KI.ValLin0.lean ====
import proofs.«414250_j49357764165687_1_alg».proof.Proof.KI.Lin0Defs
import proofs.«414250_j49357764165687_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.SL.Sem
open Idealize.ShloMosaic.Pipeline (Dat Cfg Window)
open Idealize.ShloMosaic.ValueIdx
open Cert.KernelIdeal Cert.KernelIdeal.Gen
open scoped BigOperators

theorem lhsRow0 (i : S5000x64.Idx) (k : dot_S5000x64_S64x64_S5000x64_1_0_0_1_n_n.contr.Idx) :
    (dot_S5000x64_S64x64_S5000x64_1_0_0_1_n_n.lhsIdx i k 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhsCol0 (i : S5000x64.Idx) (k : dot_S5000x64_S64x64_S5000x64_1_0_0_1_n_n.contr.Idx) :
    (dot_S5000x64_S64x64_S5000x64_1_0_0_1_n_n.lhsIdx i k 1).val = (k ⟨0, by decide⟩).val :=
  dot_S5000x64_S64x64_S5000x64_1_0_0_1_n_n.lhsIdx_val_of_single rfl i k
theorem rhsRow0 (i : S5000x64.Idx) (k : dot_S5000x64_S64x64_S5000x64_1_0_0_1_n_n.contr.Idx) :
    (dot_S5000x64_S64x64_S5000x64_1_0_0_1_n_n.rhsIdx i k 0).val = (k ⟨0, by decide⟩).val :=
  dot_S5000x64_S64x64_S5000x64_1_0_0_1_n_n.rhsIdx_val_of_single rfl i k
theorem rhsCol0 (i : S5000x64.Idx) (k : dot_S5000x64_S64x64_S5000x64_1_0_0_1_n_n.contr.Idx) :
    (dot_S5000x64_S64x64_S5000x64_1_0_0_1_n_n.rhsIdx i k 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

theorem pay0_apply (x0 : Vec Ideal S5000x64 .f32) (x1 : Vec Ideal S64x64 .f32) (x2 : Vec Ideal S64 .f32) (p : Fin 5000) (q : Fin 64) :
    (k0_pay1 (F := Ideal) x0 x1 x2 : S5000x64.Idx → EReal) (ix2 p q)
      = (∑ l : Fin 64, (x0 : S5000x64.Idx → EReal) (ix2 p l) * (x1 : S64x64.Idx → EReal) (ix2 l q)) + (x2 : S64.Idx → EReal) (ix1 q) := by
  unfold k0_pay1
  simp only [matmul]
  rw [addf_apply, Ideal.matmul_constant_zero_apply, broadcastTo_1b_ab_apply, shapeCast_a_1a_apply,
    ← Equiv.sum_comp (contrEquiv1 dot_S5000x64_S64x64_S5000x64_1_0_0_1_n_n 64 rfl rfl).symm]
  refine congrArg (· + _) (Finset.sum_congr rfl fun l _ => ?_)
  have hl := contrEquiv1_symm_val dot_S5000x64_S64x64_S5000x64_1_0_0_1_n_n 64 rfl rfl l
  have el : dot_S5000x64_S64x64_S5000x64_1_0_0_1_n_n.lhsIdx (ix2 p q) ((contrEquiv1 dot_S5000x64_S64x64_S5000x64_1_0_0_1_n_n 64 rfl rfl).symm l) = ix2 p l := funext fun a => Fin.ext (by
    match a with
    | ⟨0, _⟩ => exact lhsRow0 _ _
    | ⟨1, _⟩ => exact (lhsCol0 _ _).trans hl)
  have er : dot_S5000x64_S64x64_S5000x64_1_0_0_1_n_n.rhsIdx (ix2 p q) ((contrEquiv1 dot_S5000x64_S64x64_S5000x64_1_0_0_1_n_n 64 rfl rfl).symm l) = ix2 l q := funext fun a => Fin.ext (by
    match a with
    | ⟨0, _⟩ => exact (rhsRow0 _ _).trans hl
    | ⟨1, _⟩ => exact rhsCol0 _ _)
  rw [truncf_apply, truncf_apply, el, er]

theorem pay0_at (x0 : Vec Ideal S5000x64 .f32) (x1 : Vec Ideal S64x64 .f32) (x2 : Vec Ideal S64 .f32) (j : S5000x64.Idx) :
    (k0_pay1 (F := Ideal) x0 x1 x2 : S5000x64.Idx → EReal) j
      = (∑ l : Fin 64, (x0 : S5000x64.Idx → EReal) (ix2 (j 0) l) * (x1 : S64x64.Idx → EReal) (ix2 l (j 1))) + (x2 : S64.Idx → EReal) (ix1 (j 1)) := by
  obtain ⟨p, q, rfl⟩ : ∃ (p : Fin 5000) (q : Fin 64), j = ix2 p q := ⟨j 0, j 1, eq_ix2 j⟩
  exact pay0_apply x0 x1 x2 p q

variable (V : (c : Dev nD) → (b : Ref sig .tc) → Buf (Elt Ideal) ((c : Thread nD τ).loc b))

private theorem hz2 : (![0, 0] : Fin 2 → Nat) = fun _ => 0 := funext fun a => by fin_cases a <;> rfl
private theorem hz1 : (![0] : Fin 1 → Nat) = fun _ => 0 := funext fun a => by fin_cases a; rfl

def G0 (X : S50000x64.Idx → EReal) (W : S64x64.Idx → EReal) (b : S64.Idx → EReal) : S50000x64.Idx → EReal :=
  fun i => Cert.Spec.lin (fun a d => X (ix2 a d)) (fun a d => W (ix2 a d)) (fun a => b (ix1 a)) (i 0) (i 1)

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

theorem iblk0_0_apply (c : Dev nD) (t : Fin cfg0.N) (x : S5000x64.Idx) (k : S50000x64.Idx)
    (hk0 : (k 0).val = 5000 * t.val + (x 0).val) (hk1 : (k 1).val = (x 1).val) :
    (H.iblk0 (F := Ideal) V c 0 t : Vec Ideal S5000x64 .f32) x = (V c main_arg0 : S50000x64.Idx → EReal) k := by
  obtain ⟨e00, e01, e10, e11, e20, e30, e31⟩ := idx_facts0 t
  unfold H.iblk0
  rw [View.read_apply]
  show V c main_arg0 _ = V c main_arg0 _
  congr 1
  funext a
  apply Fin.ext
  match a with
  | ⟨0, _⟩ => show win0_0.index t 0 * 5000 + 1 * (x 0).val = (k 0).val; rw [e00, hk0]; omega
  | ⟨1, _⟩ => show win0_0.index t 1 * 64 + 1 * (x 1).val = (k 1).val; rw [e01, hk1]; omega

theorem iblk0_1_apply (c : Dev nD) (t : Fin cfg0.N) (x k : S64x64.Idx) (hk0 : (k 0).val = (x 0).val) (hk1 : (k 1).val = (x 1).val) :
    (H.iblk0 (F := Ideal) V c 1 t : Vec Ideal S64x64 .f32) x = (V c main_arg2 : S64x64.Idx → EReal) k := by
  obtain ⟨e00, e01, e10, e11, e20, e30, e31⟩ := idx_facts0 t
  unfold H.iblk0
  rw [View.read_apply]
  show V c main_arg2 _ = V c main_arg2 _
  congr 1
  funext a
  apply Fin.ext
  match a with
  | ⟨0, _⟩ => show win0_1.index t 0 * 64 + 1 * (x 0).val = (k 0).val; rw [e10, hk0]; omega
  | ⟨1, _⟩ => show win0_1.index t 1 * 64 + 1 * (x 1).val = (k 1).val; rw [e11, hk1]; omega

theorem iblk0_2_apply (c : Dev nD) (t : Fin cfg0.N) (x k : S64.Idx) (hk0 : (k 0).val = (x 0).val) :
    (H.iblk0 (F := Ideal) V c 2 t : Vec Ideal S64 .f32) x = (V c main_arg3 : S64.Idx → EReal) k := by
  obtain ⟨e00, e01, e10, e11, e20, e30, e31⟩ := idx_facts0 t
  unfold H.iblk0
  rw [View.read_apply]
  show V c main_arg3 _ = V c main_arg3 _
  congr 1
  funext a
  apply Fin.ext
  match a with
  | ⟨0, _⟩ => show win0_2.index t 0 * 64 + 1 * (x 0).val = (k 0).val; rw [e20, hk0]; omega

theorem flushed0_eq (c : Dev nD) (t : Fin cfg0.N) :
    (H.dat0 (F := Ideal) V c).flushed 3 t
      = ((cfg0.win 3).blk t).view.read (Elt Ideal) (G0 (V c main_arg0) (V c main_arg2) (V c main_arg3)) := by
  show (cfg0.win 3).cut (grid0.coords t) ((H.dat0 (F := Ideal) V c).after 3 t) = _
  rw [H.after0_3]
  unfold H.out0_3
  rw [View.canon_unit_zero hz2]
  simp only [View.ld_unit_zero (S := S5000x64) hz2, View.ld_unit_zero (S := S64x64) hz2, View.ld_unit_zero (S := S64) hz1]
  obtain ⟨e00, e01, e10, e11, e20, e30, e31⟩ := idx_facts0 t
  funext j
  refine (pay0_at _ _ _ _).trans ?_
  show _ = G0 (V c main_arg0) (V c main_arg2) (V c main_arg3) (((cfg0.win 3).blk t).view.emb j)
  unfold G0 Cert.Spec.lin
  refine congrArg₂ (· + ·) (Finset.sum_congr rfl fun l _ => congrArg₂ (· * ·) ?_ ?_) ?_
  · refine iblk0_0_apply V c t _ _ ?_ rfl
    show win0_3.index t 0 * 5000 + 1 * (j 0).val = 5000 * t.val + (j 0).val
    rw [e30]; omega
  · refine iblk0_1_apply V c t _ _ rfl ?_
    show win0_3.index t 1 * 64 + 1 * (j 1).val = (j 1).val
    rw [e31]; omega
  · refine iblk0_2_apply V c t _ _ ?_
    show win0_3.index t 1 * 64 + 1 * (j 1).val = (j 1).val
    rw [e31]; omega

theorem mem_blk0 (t : Fin cfg0.N) (i : S50000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v4).slice (win0_3.rect t)).set ↔ _
  rw [View.set_slice_whole, Rect.mem_set_unit]
  exact Iff.rfl

theorem cover0 (i : S50000x64.Idx) : ∃ t : Fin cfg0.N, (cfg0.win 3).flush t = true ∧ i ∈ ((cfg0.win 3).blk t).view.set := by
  have hi0 : (i 0).val < 50000 := (i 0).isLt
  have hi1 : (i 1).val < 64 := (i 1).isLt
  have hN : cfg0.N = 10 := N_0
  have ht : (i 0).val / 5000 < cfg0.N := by rw [hN]; omega
  obtain ⟨e00, e01, e10, e11, e20, e30, e31⟩ := idx_facts0 ⟨(i 0).val / 5000, ht⟩
  refine ⟨⟨(i 0).val / 5000, ht⟩, flush0_3 _, ?_⟩
  rw [mem_blk0]
  intro a
  match a with
  | ⟨0, _⟩ =>
    show win0_3.index ⟨(i 0).val / 5000, ht⟩ (0 : Fin 2) * 5000 ≤ (i 0).val ∧ (i 0).val < win0_3.index ⟨(i 0).val / 5000, ht⟩ (0 : Fin 2) * 5000 + 5000
    rw [e30]
    show (i 0).val / 5000 * 5000 ≤ (i 0).val ∧ (i 0).val < (i 0).val / 5000 * 5000 + 5000
    omega
  | ⟨1, _⟩ =>
    show win0_3.index ⟨(i 0).val / 5000, ht⟩ (1 : Fin 2) * 64 ≤ (i 1).val ∧ (i 1).val < win0_3.index ⟨(i 0).val / 5000, ht⟩ (1 : Fin 2) * 64 + 64
    rw [e31]
    omega

theorem final0 (c : Dev nD) :
    (H.dat0 (F := Ideal) V c).arrAt 3 cfg0.N = G0 (V c main_arg0) (V c main_arg2) (V c main_arg3) :=
  (H.dat0 (F := Ideal) V c).arrAt_eq_of_cover 3 (G0 (V c main_arg0) (V c main_arg2) (V c main_arg3))
    (fun t _ => flushed0_eq V c t) cover0

theorem lin0_arr (c : Dev nD) (p : Fin 50000) (q : Fin 64) :
    ((H.dat0 (F := Ideal) V c).arrAt 3 cfg0.N : S50000x64.Idx → EReal) (ix2 p q)
      = Cert.Spec.lin (fun a b => (V c main_arg0 : S50000x64.Idx → EReal) (ix2 a b))
          (fun a b => (V c main_arg2 : S64x64.Idx → EReal) (ix2 a b))
          (fun a => (V c main_arg3 : S64.Idx → EReal) (ix1 a)) p q := by
  rw [final0 V c]
  rfl

end Cert.KernelIdeal.Val

end
-- ==== Proof.KI.ValLin2.lean ====
/-
  The second dense layer's value. Its stored block differs from the first layer's by one cast that changes nothing, so
  the product's operand indices and the whole-array function are the first layer's.
-/
import proofs.«414250_j49357764165687_1_alg».proof.Proof.KI.Lin2Defs
import proofs.«414250_j49357764165687_1_alg».proof.Proof.KI.ValLin0
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.SL.Sem
open Idealize.ShloMosaic.Pipeline (Dat Cfg Window)
open Idealize.ShloMosaic.ValueIdx
open Cert.KernelIdeal Cert.KernelIdeal.Gen
open scoped BigOperators

theorem pay2_apply (x0 : Vec Ideal S5000x64 .f32) (x1 : Vec Ideal S64x64 .f32) (x2 : Vec Ideal S64 .f32) (p : Fin 5000) (q : Fin 64) :
    (k2_pay1 (F := Ideal) x0 x1 x2 : S5000x64.Idx → EReal) (ix2 p q)
      = (∑ l : Fin 64, (x0 : S5000x64.Idx → EReal) (ix2 p l) * (x1 : S64x64.Idx → EReal) (ix2 l q)) + (x2 : S64.Idx → EReal) (ix1 q) := by
  unfold k2_pay1
  simp only [matmul]
  rw [addf_apply, Ideal.matmul_constant_zero_apply, broadcastTo_1b_ab_apply, shapeCast_a_1a_apply,
    ← Equiv.sum_comp (contrEquiv1 dot_S5000x64_S64x64_S5000x64_1_0_0_1_n_n 64 rfl rfl).symm]
  refine congrArg (· + _) (Finset.sum_congr rfl fun l _ => ?_)
  have hl := contrEquiv1_symm_val dot_S5000x64_S64x64_S5000x64_1_0_0_1_n_n 64 rfl rfl l
  have el : dot_S5000x64_S64x64_S5000x64_1_0_0_1_n_n.lhsIdx (ix2 p q) ((contrEquiv1 dot_S5000x64_S64x64_S5000x64_1_0_0_1_n_n 64 rfl rfl).symm l) = ix2 p l := funext fun a => Fin.ext (by
    match a with
    | ⟨0, _⟩ => exact lhsRow0 _ _
    | ⟨1, _⟩ => exact (lhsCol0 _ _).trans hl)
  have er : dot_S5000x64_S64x64_S5000x64_1_0_0_1_n_n.rhsIdx (ix2 p q) ((contrEquiv1 dot_S5000x64_S64x64_S5000x64_1_0_0_1_n_n 64 rfl rfl).symm l) = ix2 l q := funext fun a => Fin.ext (by
    match a with
    | ⟨0, _⟩ => exact (rhsRow0 _ _).trans hl
    | ⟨1, _⟩ => exact rhsCol0 _ _)
  rw [truncf_apply, truncf_apply, el, er, shapeCast_self]

theorem pay2_at (x0 : Vec Ideal S5000x64 .f32) (x1 : Vec Ideal S64x64 .f32) (x2 : Vec Ideal S64 .f32) (j : S5000x64.Idx) :
    (k2_pay1 (F := Ideal) x0 x1 x2 : S5000x64.Idx → EReal) j
      = (∑ l : Fin 64, (x0 : S5000x64.Idx → EReal) (ix2 (j 0) l) * (x1 : S64x64.Idx → EReal) (ix2 l (j 1))) + (x2 : S64.Idx → EReal) (ix1 (j 1)) := by
  obtain ⟨p, q, rfl⟩ : ∃ (p : Fin 5000) (q : Fin 64), j = ix2 p q := ⟨j 0, j 1, eq_ix2 j⟩
  exact pay2_apply x0 x1 x2 p q

variable (V : (c : Dev nD) → (b : Ref sig .tc) → Buf (Elt Ideal) ((c : Thread nD τ).loc b))

private theorem hz2 : (![0, 0] : Fin 2 → Nat) = fun _ => 0 := funext fun a => by fin_cases a <;> rfl
private theorem hz1 : (![0] : Fin 1 → Nat) = fun _ => 0 := funext fun a => by fin_cases a; rfl

theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

theorem iblk2_0_apply (c : Dev nD) (t : Fin cfg2.N) (x : S5000x64.Idx) (k : S50000x64.Idx)
    (hk0 : (k 0).val = 5000 * t.val + (x 0).val) (hk1 : (k 1).val = (x 1).val) :
    (H.iblk2 (F := Ideal) V c 0 t : Vec Ideal S5000x64 .f32) x = (V c main_v22 : S50000x64.Idx → EReal) k := by
  obtain ⟨e00, e01, e10, e11, e20, e30, e31⟩ := idx_facts2 t
  unfold H.iblk2
  rw [View.read_apply]
  show V c main_v22 _ = V c main_v22 _
  congr 1
  funext a
  apply Fin.ext
  match a with
  | ⟨0, _⟩ => show win2_0.index t 0 * 5000 + 1 * (x 0).val = (k 0).val; rw [e00, hk0]; omega
  | ⟨1, _⟩ => show win2_0.index t 1 * 64 + 1 * (x 1).val = (k 1).val; rw [e01, hk1]; omega

theorem iblk2_1_apply (c : Dev nD) (t : Fin cfg2.N) (x k : S64x64.Idx) (hk0 : (k 0).val = (x 0).val) (hk1 : (k 1).val = (x 1).val) :
    (H.iblk2 (F := Ideal) V c 1 t : Vec Ideal S64x64 .f32) x = (V c main_arg4 : S64x64.Idx → EReal) k := by
  obtain ⟨e00, e01, e10, e11, e20, e30, e31⟩ := idx_facts2 t
  unfold H.iblk2
  rw [View.read_apply]
  show V c main_arg4 _ = V c main_arg4 _
  congr 1
  funext a
  apply Fin.ext
  match a with
  | ⟨0, _⟩ => show win2_1.index t 0 * 64 + 1 * (x 0).val = (k 0).val; rw [e10, hk0]; omega
  | ⟨1, _⟩ => show win2_1.index t 1 * 64 + 1 * (x 1).val = (k 1).val; rw [e11, hk1]; omega

theorem iblk2_2_apply (c : Dev nD) (t : Fin cfg2.N) (x k : S64.Idx) (hk0 : (k 0).val = (x 0).val) :
    (H.iblk2 (F := Ideal) V c 2 t : Vec Ideal S64 .f32) x = (V c main_arg5 : S64.Idx → EReal) k := by
  obtain ⟨e00, e01, e10, e11, e20, e30, e31⟩ := idx_facts2 t
  unfold H.iblk2
  rw [View.read_apply]
  show V c main_arg5 _ = V c main_arg5 _
  congr 1
  funext a
  apply Fin.ext
  match a with
  | ⟨0, _⟩ => show win2_2.index t 0 * 64 + 1 * (x 0).val = (k 0).val; rw [e20, hk0]; omega

theorem flushed2_eq (c : Dev nD) (t : Fin cfg2.N) :
    (H.dat2 (F := Ideal) V c).flushed 3 t
      = ((cfg2.win 3).blk t).view.read (Elt Ideal) (G0 (V c main_v22) (V c main_arg4) (V c main_arg5)) := by
  show (cfg2.win 3).cut (grid2.coords t) ((H.dat2 (F := Ideal) V c).after 3 t) = _
  rw [H.after2_3]
  unfold H.out2_3
  rw [View.canon_unit_zero hz2]
  simp only [View.ld_unit_zero (S := S5000x64) hz2, View.ld_unit_zero (S := S64x64) hz2, View.ld_unit_zero (S := S64) hz1]
  obtain ⟨e00, e01, e10, e11, e20, e30, e31⟩ := idx_facts2 t
  funext j
  refine (pay2_at _ _ _ _).trans ?_
  show _ = G0 (V c main_v22) (V c main_arg4) (V c main_arg5) (((cfg2.win 3).blk t).view.emb j)
  unfold G0 Cert.Spec.lin
  refine congrArg₂ (· + ·) (Finset.sum_congr rfl fun l _ => congrArg₂ (· * ·) ?_ ?_) ?_
  · refine iblk2_0_apply V c t _ _ ?_ rfl
    show win2_3.index t 0 * 5000 + 1 * (j 0).val = 5000 * t.val + (j 0).val
    rw [e30]; omega
  · refine iblk2_1_apply V c t _ _ rfl ?_
    show win2_3.index t 1 * 64 + 1 * (j 1).val = (j 1).val
    rw [e31]; omega
  · refine iblk2_2_apply V c t _ _ ?_
    show win2_3.index t 1 * 64 + 1 * (j 1).val = (j 1).val
    rw [e31]; omega

theorem mem_blk2 (t : Fin cfg2.N) (i : S50000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v23).slice (win2_3.rect t)).set ↔ _
  rw [View.set_slice_whole, Rect.mem_set_unit]
  exact Iff.rfl

theorem cover2 (i : S50000x64.Idx) : ∃ t : Fin cfg2.N, (cfg2.win 3).flush t = true ∧ i ∈ ((cfg2.win 3).blk t).view.set := by
  have hi0 : (i 0).val < 50000 := (i 0).isLt
  have hi1 : (i 1).val < 64 := (i 1).isLt
  have hN : cfg2.N = 10 := N_2
  have ht : (i 0).val / 5000 < cfg2.N := by rw [hN]; omega
  obtain ⟨e00, e01, e10, e11, e20, e30, e31⟩ := idx_facts2 ⟨(i 0).val / 5000, ht⟩
  refine ⟨⟨(i 0).val / 5000, ht⟩, flush2_3 _, ?_⟩
  rw [mem_blk2]
  intro a
  match a with
  | ⟨0, _⟩ =>
    show win2_3.index ⟨(i 0).val / 5000, ht⟩ (0 : Fin 2) * 5000 ≤ (i 0).val ∧ (i 0).val < win2_3.index ⟨(i 0).val / 5000, ht⟩ (0 : Fin 2) * 5000 + 5000
    rw [e30]
    show (i 0).val / 5000 * 5000 ≤ (i 0).val ∧ (i 0).val < (i 0).val / 5000 * 5000 + 5000
    omega
  | ⟨1, _⟩ =>
    show win2_3.index ⟨(i 0).val / 5000, ht⟩ (1 : Fin 2) * 64 ≤ (i 1).val ∧ (i 1).val < win2_3.index ⟨(i 0).val / 5000, ht⟩ (1 : Fin 2) * 64 + 64
    rw [e31]
    omega

theorem final2 (c : Dev nD) :
    (H.dat2 (F := Ideal) V c).arrAt 3 cfg2.N = G0 (V c main_v22) (V c main_arg4) (V c main_arg5) :=
  (H.dat2 (F := Ideal) V c).arrAt_eq_of_cover 3 (G0 (V c main_v22) (V c main_arg4) (V c main_arg5))
    (fun t _ => flushed2_eq V c t) cover2

theorem lin2_arr (c : Dev nD) (p : Fin 50000) (q : Fin 64) :
    ((H.dat2 (F := Ideal) V c).arrAt 3 cfg2.N : S50000x64.Idx → EReal) (ix2 p q)
      = Cert.Spec.lin (fun a b => (V c main_v22 : S50000x64.Idx → EReal) (ix2 a b))
          (fun a b => (V c main_arg4 : S64x64.Idx → EReal) (ix2 a b))
          (fun a => (V c main_arg5 : S64.Idx → EReal) (ix1 a)) p q := by
  rw [final2 V c]
  rfl

end Cert.KernelIdeal.Val

end
-- ==== Proof.KI.ValLin4.lean ====
/-
  The third dense layer's value: the stored block is the second layer's, so its entry is already known; what is
  left is this region's blocks, their cover of the array, and the array's entries.
-/
import proofs.«414250_j49357764165687_1_alg».proof.Proof.KI.Lin4Defs
import proofs.«414250_j49357764165687_1_alg».proof.Proof.KI.ValLin2
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.SL.Sem
open Idealize.ShloMosaic.Pipeline (Dat Cfg Window)
open Idealize.ShloMosaic.ValueIdx
open Cert.KernelIdeal Cert.KernelIdeal.Gen
open scoped BigOperators

variable (V : (c : Dev nD) → (b : Ref sig .tc) → Buf (Elt Ideal) ((c : Thread nD τ).loc b))

private theorem hz2 : (![0, 0] : Fin 2 → Nat) = fun _ => 0 := funext fun a => by fin_cases a <;> rfl
private theorem hz1 : (![0] : Fin 1 → Nat) = fun _ => 0 := funext fun a => by fin_cases a; rfl

theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 1) = 0
    ∧ win4_3.index t (0 : Fin 2) = t.val ∧ win4_3.index t (1 : Fin 2) = 0 :=
  (by decide +kernel : ∀ t : Fin grid4.N, _)

theorem iblk4_0_apply (c : Dev nD) (t : Fin cfg4.N) (x : S5000x64.Idx) (k : S50000x64.Idx)
    (hk0 : (k 0).val = 5000 * t.val + (x 0).val) (hk1 : (k 1).val = (x 1).val) :
    (H.iblk4 (F := Ideal) V c 0 t : Vec Ideal S5000x64 .f32) x = (V c main_v41 : S50000x64.Idx → EReal) k := by
  obtain ⟨e00, e01, e10, e11, e20, e30, e31⟩ := idx_facts4 t
  unfold H.iblk4
  rw [View.read_apply]
  show V c main_v41 _ = V c main_v41 _
  congr 1
  funext a
  apply Fin.ext
  match a with
  | ⟨0, _⟩ => show win4_0.index t 0 * 5000 + 1 * (x 0).val = (k 0).val; rw [e00, hk0]; omega
  | ⟨1, _⟩ => show win4_0.index t 1 * 64 + 1 * (x 1).val = (k 1).val; rw [e01, hk1]; omega

theorem iblk4_1_apply (c : Dev nD) (t : Fin cfg4.N) (x k : S64x64.Idx) (hk0 : (k 0).val = (x 0).val) (hk1 : (k 1).val = (x 1).val) :
    (H.iblk4 (F := Ideal) V c 1 t : Vec Ideal S64x64 .f32) x = (V c main_arg6 : S64x64.Idx → EReal) k := by
  obtain ⟨e00, e01, e10, e11, e20, e30, e31⟩ := idx_facts4 t
  unfold H.iblk4
  rw [View.read_apply]
  show V c main_arg6 _ = V c main_arg6 _
  congr 1
  funext a
  apply Fin.ext
  match a with
  | ⟨0, _⟩ => show win4_1.index t 0 * 64 + 1 * (x 0).val = (k 0).val; rw [e10, hk0]; omega
  | ⟨1, _⟩ => show win4_1.index t 1 * 64 + 1 * (x 1).val = (k 1).val; rw [e11, hk1]; omega

theorem iblk4_2_apply (c : Dev nD) (t : Fin cfg4.N) (x k : S64.Idx) (hk0 : (k 0).val = (x 0).val) :
    (H.iblk4 (F := Ideal) V c 2 t : Vec Ideal S64 .f32) x = (V c main_arg7 : S64.Idx → EReal) k := by
  obtain ⟨e00, e01, e10, e11, e20, e30, e31⟩ := idx_facts4 t
  unfold H.iblk4
  rw [View.read_apply]
  show V c main_arg7 _ = V c main_arg7 _
  congr 1
  funext a
  apply Fin.ext
  match a with
  | ⟨0, _⟩ => show win4_2.index t 0 * 64 + 1 * (x 0).val = (k 0).val; rw [e20, hk0]; omega

theorem flushed4_eq (c : Dev nD) (t : Fin cfg4.N) :
    (H.dat4 (F := Ideal) V c).flushed 3 t
      = ((cfg4.win 3).blk t).view.read (Elt Ideal) (G0 (V c main_v41) (V c main_arg6) (V c main_arg7)) := by
  show (cfg4.win 3).cut (grid4.coords t) ((H.dat4 (F := Ideal) V c).after 3 t) = _
  rw [H.after4_3]
  unfold H.out2_3
  rw [View.canon_unit_zero hz2]
  simp only [View.ld_unit_zero (S := S5000x64) hz2, View.ld_unit_zero (S := S64x64) hz2, View.ld_unit_zero (S := S64) hz1]
  obtain ⟨e00, e01, e10, e11, e20, e30, e31⟩ := idx_facts4 t
  funext j
  refine (pay2_at _ _ _ _).trans ?_
  show _ = G0 (V c main_v41) (V c main_arg6) (V c main_arg7) (((cfg4.win 3).blk t).view.emb j)
  unfold G0 Cert.Spec.lin
  refine congrArg₂ (· + ·) (Finset.sum_congr rfl fun l _ => congrArg₂ (· * ·) ?_ ?_) ?_
  · refine iblk4_0_apply V c t _ _ ?_ rfl
    show win4_3.index t 0 * 5000 + 1 * (j 0).val = 5000 * t.val + (j 0).val
    rw [e30]; omega
  · refine iblk4_1_apply V c t _ _ rfl ?_
    show win4_3.index t 1 * 64 + 1 * (j 1).val = (j 1).val
    rw [e31]; omega
  · refine iblk4_2_apply V c t _ _ ?_
    show win4_3.index t 1 * 64 + 1 * (j 1).val = (j 1).val
    rw [e31]; omega

theorem mem_blk4 (t : Fin cfg4.N) (i : S50000x64.Idx) :
    i ∈ ((cfg4.win 3).blk t).view.set ↔ ∀ a : Fin 2, win4_3.index t a * S5000x64.size a ≤ (i a).val ∧ (i a).val < win4_3.index t a * S5000x64.size a + S5000x64.size a := by
  show i ∈ ((View.whole main_v42).slice (win4_3.rect t)).set ↔ _
  rw [View.set_slice_whole, Rect.mem_set_unit]
  exact Iff.rfl

theorem cover4 (i : S50000x64.Idx) : ∃ t : Fin cfg4.N, (cfg4.win 3).flush t = true ∧ i ∈ ((cfg4.win 3).blk t).view.set := by
  have hi0 : (i 0).val < 50000 := (i 0).isLt
  have hi1 : (i 1).val < 64 := (i 1).isLt
  have hN : cfg4.N = 10 := N_4
  have ht : (i 0).val / 5000 < cfg4.N := by rw [hN]; omega
  obtain ⟨e00, e01, e10, e11, e20, e30, e31⟩ := idx_facts4 ⟨(i 0).val / 5000, ht⟩
  refine ⟨⟨(i 0).val / 5000, ht⟩, flush4_3 _, ?_⟩
  rw [mem_blk4]
  intro a
  match a with
  | ⟨0, _⟩ =>
    show win4_3.index ⟨(i 0).val / 5000, ht⟩ (0 : Fin 2) * 5000 ≤ (i 0).val ∧ (i 0).val < win4_3.index ⟨(i 0).val / 5000, ht⟩ (0 : Fin 2) * 5000 + 5000
    rw [e30]
    show (i 0).val / 5000 * 5000 ≤ (i 0).val ∧ (i 0).val < (i 0).val / 5000 * 5000 + 5000
    omega
  | ⟨1, _⟩ =>
    show win4_3.index ⟨(i 0).val / 5000, ht⟩ (1 : Fin 2) * 64 ≤ (i 1).val ∧ (i 1).val < win4_3.index ⟨(i 0).val / 5000, ht⟩ (1 : Fin 2) * 64 + 64
    rw [e31]
    omega

theorem final4 (c : Dev nD) :
    (H.dat4 (F := Ideal) V c).arrAt 3 cfg4.N = G0 (V c main_v41) (V c main_arg6) (V c main_arg7) :=
  (H.dat4 (F := Ideal) V c).arrAt_eq_of_cover 3 (G0 (V c main_v41) (V c main_arg6) (V c main_arg7))
    (fun t _ => flushed4_eq V c t) cover4

theorem lin4_arr (c : Dev nD) (p : Fin 50000) (q : Fin 64) :
    ((H.dat4 (F := Ideal) V c).arrAt 3 cfg4.N : S50000x64.Idx → EReal) (ix2 p q)
      = Cert.Spec.lin (fun a b => (V c main_v41 : S50000x64.Idx → EReal) (ix2 a b))
          (fun a b => (V c main_arg6 : S64x64.Idx → EReal) (ix2 a b))
          (fun a => (V c main_arg7 : S64.Idx → EReal) (ix1 a)) p q := by
  rw [final4 V c]
  rfl

end Cert.KernelIdeal.Val

end
-- ==== Proof.KI.ValLin5.lean ====
import proofs.«414250_j49357764165687_1_alg».proof.Proof.KI.Lin5Defs
import proofs.«414250_j49357764165687_1_alg».proof.Proof.SpecLsm
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.SL.Sem
open Idealize.ShloMosaic.Pipeline (Dat Cfg Window)
open Idealize.ShloMosaic.ValueIdx
open Cert.KernelIdeal Cert.KernelIdeal.Gen
open scoped BigOperators

private theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu]; omega)

private theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem lhsRow5 (i : S5000x40.Idx) (k : dot_S5000x64_S64x40_S5000x40_1_0_0_1_n_n.contr.Idx) :
    (dot_S5000x64_S64x40_S5000x40_1_0_0_1_n_n.lhsIdx i k 0).val = (i 0).val := by
  unfold DotDims.lhsIdx
  rw [dif_neg (show ¬(0 : Fin S5000x64.rank) ∈ dot_S5000x64_S64x40_S5000x40_1_0_0_1_n_n.lhsBatch by decide), dif_pos (show (0 : Fin S5000x64.rank) ∈ dot_S5000x64_S64x40_S5000x40_1_0_0_1_n_n.lhsNonContracting by decide)]
  rfl
theorem lhsCol5 (i : S5000x40.Idx) (k : dot_S5000x64_S64x40_S5000x40_1_0_0_1_n_n.contr.Idx) :
    (dot_S5000x64_S64x40_S5000x40_1_0_0_1_n_n.lhsIdx i k 1).val = (k ⟨0, by decide⟩).val :=
  dot_S5000x64_S64x40_S5000x40_1_0_0_1_n_n.lhsIdx_val_of_single rfl i k
theorem rhsRow5 (i : S5000x40.Idx) (k : dot_S5000x64_S64x40_S5000x40_1_0_0_1_n_n.contr.Idx) :
    (dot_S5000x64_S64x40_S5000x40_1_0_0_1_n_n.rhsIdx i k 0).val = (k ⟨0, by decide⟩).val :=
  dot_S5000x64_S64x40_S5000x40_1_0_0_1_n_n.rhsIdx_val_of_single rfl i k
theorem rhsCol5 (i : S5000x40.Idx) (k : dot_S5000x64_S64x40_S5000x40_1_0_0_1_n_n.contr.Idx) :
    (dot_S5000x64_S64x40_S5000x40_1_0_0_1_n_n.rhsIdx i k 1).val = (i 1).val := by
  unfold DotDims.rhsIdx
  rw [dif_neg (show ¬(1 : Fin S64x40.rank) ∈ dot_S5000x64_S64x40_S5000x40_1_0_0_1_n_n.rhsBatch by decide), dif_pos (show (1 : Fin S64x40.rank) ∈ dot_S5000x64_S64x40_S5000x40_1_0_0_1_n_n.rhsNonContracting by decide)]
  rfl

def lin5 (x0 : Vec Ideal S5000x64 .f32) (x1 : Vec Ideal S64x40 .f32) (x2 : Vec Ideal S40 .f32) : FVec Ideal S5000x40 .f32 :=
  addf (matmul dot_S5000x64_S64x40_S5000x40_1_0_0_1_n_n none (truncf .bf16 (shapeCast S5000x64 x0 shapeCasts_S5000x64_S5000x64) bitsLt_bf16_f32)
      (truncf .bf16 x1 bitsLt_bf16_f32) (constant (F := Ideal) S5000x40 .f32 0x00000000#32))
    (broadcastTo S5000x40 (shapeCast S1x40 x2 shapeCasts_S40_S1x40) broadcasts_S1x40_S5000x40)

theorem lin5_apply (x0 : Vec Ideal S5000x64 .f32) (x1 : Vec Ideal S64x40 .f32) (x2 : Vec Ideal S40 .f32) (p : Fin 5000) (q : Fin 40) :
    (lin5 x0 x1 x2 : S5000x40.Idx → EReal) (ix2 p q)
      = (∑ l : Fin 64, (x0 : S5000x64.Idx → EReal) (ix2 p l) * (x1 : S64x40.Idx → EReal) (ix2 l q)) + (x2 : S40.Idx → EReal) (ix1 q) := by
  unfold lin5
  simp only [matmul]
  rw [addf_apply, Ideal.matmul_constant_zero_apply, broadcastTo_1b_ab_apply, shapeCast_a_1a_apply,
    ← Equiv.sum_comp (contrEquiv1 dot_S5000x64_S64x40_S5000x40_1_0_0_1_n_n 64 rfl rfl).symm]
  refine congrArg (· + _) (Finset.sum_congr rfl fun l _ => ?_)
  have hl := contrEquiv1_symm_val dot_S5000x64_S64x40_S5000x40_1_0_0_1_n_n 64 rfl rfl l
  have el : dot_S5000x64_S64x40_S5000x40_1_0_0_1_n_n.lhsIdx (ix2 p q) ((contrEquiv1 dot_S5000x64_S64x40_S5000x40_1_0_0_1_n_n 64 rfl rfl).symm l) = ix2 p l := funext fun a => Fin.ext (by
    match a with
    | ⟨0, _⟩ => exact lhsRow5 _ _
    | ⟨1, _⟩ => exact (lhsCol5 _ _).trans hl)
  have er : dot_S5000x64_S64x40_S5000x40_1_0_0_1_n_n.rhsIdx (ix2 p q) ((contrEquiv1 dot_S5000x64_S64x40_S5000x40_1_0_0_1_n_n 64 rfl rfl).symm l) = ix2 l q := funext fun a => Fin.ext (by
    match a with
    | ⟨0, _⟩ => exact (rhsRow5 _ _).trans hl
    | ⟨1, _⟩ => exact rhsCol5 _ _)
  rw [truncf_apply, truncf_apply, shapeCast_self, el, er]

def rowMaxB5 (Y : FVec Ideal S5000x40 .f32) : FVec Ideal S5000x40 .f32 :=
  broadcastTo S5000x40 (shapeCast S5000x1 (multiReduction (F := Ideal) .maximumf [1] S5000 Y 0xFF800000#32 reduces_S5000x40_S5000 (.inl rfl) rfl)
    shapeCasts_S5000_S5000x1) broadcasts_S5000x1_S5000x40

private theorem lift5 (p : Fin 5000) (k : Fin 40) : reduces_S5000x40_S5000.lift (ix1 p) k = ix2 p k :=
  funext fun a => Fin.ext (by
    match a with
    | ⟨0, _⟩ => rfl
    | ⟨1, _⟩ => rfl)

theorem rowMaxB5_apply (Y : FVec Ideal S5000x40 .f32) (p : Fin 5000) (q : Fin 40) :
    (rowMaxB5 Y : S5000x40.Idx → EReal) (ix2 p q) = Finset.univ.sup (fun k : Fin 40 => (Y : S5000x40.Idx → EReal) (ix2 p k)) := by
  unfold rowMaxB5
  rw [broadcastTo_a1_ab_apply, shapeCast_a_a1_apply]
  refine (Ideal.multiReduction_maximumf_single Y 0xFF800000#32 reduces_S5000x40_S5000 (.inl rfl) rfl (ix1 p)).trans ?_
  have hb : FloatOps.ofBits (F := Ideal) .f32 0xFF800000#32 = (⊥ : EReal) := by
    show Ideal.ofBits .f32 0xFF800000#32 = ⊥
    simp [Ideal.ofBits, Ideal.ieee]
  rw [hb]
  have hf : (Y ∘ reduces_S5000x40_S5000.lift (ix1 p)) = fun k : Fin 40 => (Y : S5000x40.Idx → EReal) (ix2 p k) :=
    funext fun k => congrArg Y (lift5 p k)
  rw [hf]
  rfl

def rowLogSumB5 (Z : FVec Ideal S5000x40 .f32) : FVec Ideal S5000x40 .f32 :=
  broadcastTo S5000x40 (log (shapeCast S5000x1 (multiReduction (F := Ideal) .add [1] S5000 Z 0x00000000#32 reduces_S5000x40_S5000 (.inl rfl) rfl)
    shapeCasts_S5000_S5000x1)) broadcasts_S5000x1_S5000x40

theorem rowLogSumB5_apply (Z : FVec Ideal S5000x40 .f32) (p : Fin 5000) (q : Fin 40) :
    (rowLogSumB5 Z : S5000x40.Idx → EReal) (ix2 p q) = Idealize.ShloMosaic.Ideal.log (∑ k : Fin 40, (Z : S5000x40.Idx → EReal) (ix2 p k)) := by
  unfold rowLogSumB5
  rw [broadcastTo_a1_ab_apply]
  show Idealize.ShloMosaic.Ideal.log (shapeCast S5000x1 (multiReduction (F := Ideal) .add [1] S5000 Z 0x00000000#32 reduces_S5000x40_S5000 (.inl rfl) rfl) shapeCasts_S5000_S5000x1 (ix2 p (0 : Fin 1))) = _
  rw [shapeCast_a_a1_apply]
  refine congrArg Idealize.ShloMosaic.Ideal.log ?_
  refine (Ideal.multiReduction_add_single Z 0x00000000#32 reduces_S5000x40_S5000 (.inl rfl) rfl (ix1 p)).trans ?_
  exact Finset.sum_congr rfl fun k _ => congrArg Z (lift5 p k)

theorem pay5_eq (x0 : Vec Ideal S5000x64 .f32) (x1 : Vec Ideal S64x40 .f32) (x2 : Vec Ideal S40 .f32) :
    k5_pay1 (F := Ideal) x0 x1 x2
      = subf (subf (lin5 x0 x1 x2) (rowMaxB5 (lin5 x0 x1 x2)))
          (rowLogSumB5 (exp (subf (lin5 x0 x1 x2) (rowMaxB5 (lin5 x0 x1 x2))))) := rfl

theorem pay5_apply (x0 : Vec Ideal S5000x64 .f32) (x1 : Vec Ideal S64x40 .f32) (x2 : Vec Ideal S40 .f32) (p : Fin 5000) (q : Fin 40) :
    (k5_pay1 (F := Ideal) x0 x1 x2 : S5000x40.Idx → EReal) (ix2 p q)
      = Cert.Spec.lsm (fun (a : Fin 5000) (d : Fin 40) => (∑ l : Fin 64, (x0 : S5000x64.Idx → EReal) (ix2 a l) * (x1 : S64x40.Idx → EReal) (ix2 l d)) + (x2 : S40.Idx → EReal) (ix1 d)) p q := by
  rw [pay5_eq, subf_apply, subf_apply, rowLogSumB5_apply, rowMaxB5_apply, lin5_apply]
  unfold Cert.Spec.lsm Cert.Spec.rowmax
  refine congrArg₂ (· - ·) (congrArg₂ (· - ·) rfl (Finset.sup_congr rfl fun k _ => lin5_apply x0 x1 x2 p k)) ?_
  refine congrArg Idealize.ShloMosaic.Ideal.log (Finset.sum_congr rfl fun k _ => ?_)
  show Idealize.ShloMosaic.Ideal.exp ((lin5 x0 x1 x2 : S5000x40.Idx → EReal) (ix2 p k) - (rowMaxB5 (lin5 x0 x1 x2) : S5000x40.Idx → EReal) (ix2 p k)) = _
  rw [rowMaxB5_apply, lin5_apply]
  refine congrArg Idealize.ShloMosaic.Ideal.exp (congrArg₂ (· - ·) rfl (Finset.sup_congr rfl fun k' _ => lin5_apply x0 x1 x2 p k'))

theorem pay5_at (x0 : Vec Ideal S5000x64 .f32) (x1 : Vec Ideal S64x40 .f32) (x2 : Vec Ideal S40 .f32) (j : S5000x40.Idx) :
    (k5_pay1 (F := Ideal) x0 x1 x2 : S5000x40.Idx → EReal) j
      = Cert.Spec.lsm (fun (a : Fin 5000) (d : Fin 40) => (∑ l : Fin 64, (x0 : S5000x64.Idx → EReal) (ix2 a l) * (x1 : S64x40.Idx → EReal) (ix2 l d)) + (x2 : S40.Idx → EReal) (ix1 d)) (j 0) (j 1) := by
  obtain ⟨p, q, rfl⟩ : ∃ (p : Fin 5000) (q : Fin 40), j = ix2 p q := ⟨j 0, j 1, eq_ix2 j⟩
  exact pay5_apply x0 x1 x2 p q

theorem lsm_congr_row5 {n n' d : Nat} (Y : Fin n → Fin d → EReal) (Y' : Fin n' → Fin d → EReal) (p : Fin n) (p' : Fin n')
    (q q' : Fin d) (hq : q.val = q'.val) (h : ∀ k, Y p k = Y' p' k) : Cert.Spec.lsm Y p q = Cert.Spec.lsm Y' p' q' := by
  obtain rfl : q = q' := Fin.ext hq
  have hm : Cert.Spec.rowmax Y p = Cert.Spec.rowmax Y' p' := by
    unfold Cert.Spec.rowmax
    exact Finset.sup_congr rfl fun k _ => h k
  unfold Cert.Spec.lsm
  rw [hm, h q]
  refine congrArg _ (congrArg _ (Finset.sum_congr rfl fun k _ => ?_))
  rw [h k]

variable (V : (c : Dev nD) → (b : Ref sig .tc) → Buf (Elt Ideal) ((c : Thread nD τ).loc b))

private theorem hz2 : (![0, 0] : Fin 2 → Nat) = fun _ => 0 := funext fun a => by fin_cases a <;> rfl
private theorem hz1 : (![0] : Fin 1 → Nat) = fun _ => 0 := funext fun a => by fin_cases a; rfl

def G5 (X : S50000x64.Idx → EReal) (W : S64x40.Idx → EReal) (b : S40.Idx → EReal) : S50000x40.Idx → EReal :=
  fun i => Cert.Spec.lsm (Cert.Spec.lin (fun a d => X (ix2 a d)) (fun a d => W (ix2 a d)) (fun a => b (ix1 a))) (i 0) (i 1)

theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 1) = 0
    ∧ win5_3.index t (0 : Fin 2) = t.val ∧ win5_3.index t (1 : Fin 2) = 0 :=
  (by decide +kernel : ∀ t : Fin grid5.N, _)

theorem iblk5_0_apply (c : Dev nD) (t : Fin cfg5.N) (x : S5000x64.Idx) (k : S50000x64.Idx)
    (hk0 : (k 0).val = 5000 * t.val + (x 0).val) (hk1 : (k 1).val = (x 1).val) :
    (H.iblk5 (F := Ideal) V c 0 t : Vec Ideal S5000x64 .f32) x = (V c main_v42 : S50000x64.Idx → EReal) k := by
  obtain ⟨e00, e01, e10, e11, e20, e30, e31⟩ := idx_facts5 t
  unfold H.iblk5
  rw [View.read_apply]
  show V c main_v42 _ = V c main_v42 _
  congr 1
  funext a
  apply Fin.ext
  match a with
  | ⟨0, _⟩ => show win5_0.index t 0 * 5000 + 1 * (x 0).val = (k 0).val; rw [e00, hk0]; omega
  | ⟨1, _⟩ => show win5_0.index t 1 * 64 + 1 * (x 1).val = (k 1).val; rw [e01, hk1]; omega

theorem iblk5_1_apply (c : Dev nD) (t : Fin cfg5.N) (x k : S64x40.Idx) (hk0 : (k 0).val = (x 0).val) (hk1 : (k 1).val = (x 1).val) :
    (H.iblk5 (F := Ideal) V c 1 t : Vec Ideal S64x40 .f32) x = (V c main_arg8 : S64x40.Idx → EReal) k := by
  obtain ⟨e00, e01, e10, e11, e20, e30, e31⟩ := idx_facts5 t
  unfold H.iblk5
  rw [View.read_apply]
  show V c main_arg8 _ = V c main_arg8 _
  congr 1
  funext a
  apply Fin.ext
  match a with
  | ⟨0, _⟩ => show win5_1.index t 0 * 64 + 1 * (x 0).val = (k 0).val; rw [e10, hk0]; omega
  | ⟨1, _⟩ => show win5_1.index t 1 * 40 + 1 * (x 1).val = (k 1).val; rw [e11, hk1]; omega

theorem iblk5_2_apply (c : Dev nD) (t : Fin cfg5.N) (x k : S40.Idx) (hk0 : (k 0).val = (x 0).val) :
    (H.iblk5 (F := Ideal) V c 2 t : Vec Ideal S40 .f32) x = (V c main_arg9 : S40.Idx → EReal) k := by
  obtain ⟨e00, e01, e10, e11, e20, e30, e31⟩ := idx_facts5 t
  unfold H.iblk5
  rw [View.read_apply]
  show V c main_arg9 _ = V c main_arg9 _
  congr 1
  funext a
  apply Fin.ext
  match a with
  | ⟨0, _⟩ => show win5_2.index t 0 * 40 + 1 * (x 0).val = (k 0).val; rw [e20, hk0]; omega

theorem flushed5_eq (c : Dev nD) (t : Fin cfg5.N) :
    (H.dat5 (F := Ideal) V c).flushed 3 t
      = ((cfg5.win 3).blk t).view.read (Elt Ideal) (G5 (V c main_v42) (V c main_arg8) (V c main_arg9)) := by
  show (cfg5.win 3).cut (grid5.coords t) ((H.dat5 (F := Ideal) V c).after 3 t) = _
  rw [H.after5_3]
  unfold H.out5_3
  rw [View.canon_unit_zero hz2]
  simp only [View.ld_unit_zero (S := S5000x64) hz2, View.ld_unit_zero (S := S64x40) hz2, View.ld_unit_zero (S := S40) hz1]
  obtain ⟨e00, e01, e10, e11, e20, e30, e31⟩ := idx_facts5 t
  funext j
  refine (pay5_at _ _ _ _).trans ?_
  show _ = G5 (V c main_v42) (V c main_arg8) (V c main_arg9) (((cfg5.win 3).blk t).view.emb j)
  unfold G5
  refine lsm_congr_row5 _ _ _ _ _ _ ?_ fun k => ?_
  · show (j 1).val = win5_3.index t 1 * 40 + 1 * (j 1).val
    rw [e31]; omega
  · unfold Cert.Spec.lin
    refine congrArg₂ (· + ·) (Finset.sum_congr rfl fun l _ => congrArg₂ (· * ·) ?_ ?_) ?_
    · refine iblk5_0_apply V c t _ _ ?_ rfl
      show win5_3.index t 0 * 5000 + 1 * (j 0).val = 5000 * t.val + (j 0).val
      rw [e30]; omega
    · exact iblk5_1_apply V c t _ _ rfl rfl
    · exact iblk5_2_apply V c t _ _ rfl

theorem mem_blk5 (t : Fin cfg5.N) (i : S50000x40.Idx) :
    i ∈ ((cfg5.win 3).blk t).view.set ↔ ∀ a : Fin 2, win5_3.index t a * S5000x40.size a ≤ (i a).val ∧ (i a).val < win5_3.index t a * S5000x40.size a + S5000x40.size a := by
  show i ∈ ((View.whole main_v43).slice (win5_3.rect t)).set ↔ _
  rw [View.set_slice_whole, Rect.mem_set_unit]
  exact Iff.rfl

theorem cover5 (i : S50000x40.Idx) : ∃ t : Fin cfg5.N, (cfg5.win 3).flush t = true ∧ i ∈ ((cfg5.win 3).blk t).view.set := by
  have hi0 : (i 0).val < 50000 := (i 0).isLt
  have hi1 : (i 1).val < 40 := (i 1).isLt
  have hN : cfg5.N = 10 := N_5
  have ht : (i 0).val / 5000 < cfg5.N := by rw [hN]; omega
  obtain ⟨e00, e01, e10, e11, e20, e30, e31⟩ := idx_facts5 ⟨(i 0).val / 5000, ht⟩
  refine ⟨⟨(i 0).val / 5000, ht⟩, flush5_3 _, ?_⟩
  rw [mem_blk5]
  intro a
  match a with
  | ⟨0, _⟩ =>
    show win5_3.index ⟨(i 0).val / 5000, ht⟩ (0 : Fin 2) * 5000 ≤ (i 0).val ∧ (i 0).val < win5_3.index ⟨(i 0).val / 5000, ht⟩ (0 : Fin 2) * 5000 + 5000
    rw [e30]
    show (i 0).val / 5000 * 5000 ≤ (i 0).val ∧ (i 0).val < (i 0).val / 5000 * 5000 + 5000
    omega
  | ⟨1, _⟩ =>
    show win5_3.index ⟨(i 0).val / 5000, ht⟩ (1 : Fin 2) * 40 ≤ (i 1).val ∧ (i 1).val < win5_3.index ⟨(i 0).val / 5000, ht⟩ (1 : Fin 2) * 40 + 40
    rw [e31]
    omega

theorem final5 (c : Dev nD) :
    (H.dat5 (F := Ideal) V c).arrAt 3 cfg5.N = G5 (V c main_v42) (V c main_arg8) (V c main_arg9) :=
  (H.dat5 (F := Ideal) V c).arrAt_eq_of_cover 3 (G5 (V c main_v42) (V c main_arg8) (V c main_arg9))
    (fun t _ => flushed5_eq V c t) cover5

theorem lin5_arr (c : Dev nD) (p : Fin 50000) (q : Fin 40) :
    ((H.dat5 (F := Ideal) V c).arrAt 3 cfg5.N : S50000x40.Idx → EReal) (ix2 p q)
      = Cert.Spec.lsm (Cert.Spec.lin (fun a b => (V c main_v42 : S50000x64.Idx → EReal) (ix2 a b))
          (fun a b => (V c main_arg8 : S64x40.Idx → EReal) (ix2 a b))
          (fun a => (V c main_arg9 : S40.Idx → EReal) (ix1 a))) p q := by
  rw [final5 V c]
  rfl

end Cert.KernelIdeal.Val

end
-- ==== Proof.KI.ValAgg1Trip.lean ====
import proofs.«414250_j49357764165687_1_alg».proof.Proof.Gen.KernelIdeal.Launch
import proofs.«414250_j49357764165687_1_alg».proof.Proof.Gen.KernelIdeal.Skeleton
import proofs.«414250_j49357764165687_1_alg».proof.Proof.Gen.KernelIdeal.Points
import proofs.«414250_j49357764165687_1_alg».proof.Proof.Gen.KernelIdeal.Loops
import Idealize.ShloMosaic.Lib.Pipeline.FrameBody
import Idealize.ShloMosaic.Lib.Pipeline.Value
import Idealize.ShloMosaic.Lib.Ring
import Idealize.ShloMosaic.Lib.Tactic

set_option maxRecDepth 16384

noncomputable section
namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

theorem agg1_hz : (![0, 0] : Fin 2 → Nat) = fun _ => 0 := funext fun a => by fin_cases a <;> rfl

variable (𝒱 : Variants) (c : Dev nD) (bd : Option 𝒱.V) (i : grid1.Coords) (arg1 : Memref sig .tc .vmem S4096 .i32) (harg1 : arg1.IsWhole) (arg2 : Memref sig .tc .vmem S4096 .i32) (harg2 : arg2.IsWhole) (arg3 : Memref sig .tc .vmem S4096 .f32) (harg3 : arg3.IsWhole) (arg4 : Memref sig .tc .vmem S50000x64 .bf16) (harg4 : arg4.IsWhole) (arg5 : Memref sig .tc .vmem S50000x64 .f32) (harg5 : arg5.IsWhole) (arg6 : Memref sig .tc .vmem S4096x64 .f32) (harg6 : arg6.IsWhole)

theorem tripL_k1_t1_eq (v7 : Vec F S4096 .i32) (X_arg4 : BufTy.Contents (Elt F) arg4.view.ty) (k : Fin k1_t1_loop.trips)
    (f_arg6 : BufTy.Contents (Elt F) arg6.view.ty) :
    tripL_k1_t1 (F := F) 𝒱 c bd i arg1 harg1 arg2 harg2 arg3 harg3 arg4 harg4 arg5 harg5 arg6 harg6 v7 X_arg4 k f_arg6
      = [⟨Rect.unit (s := S4096x64) ![0, 0] S4096x64.size inb_S4096x64_S4096x64_0_0,
          k1_pay3 v7 k
            (View.readAt (Elt F) arg4.view (Rect.unit (s := S50000x64) (k1_off1 k) S1000x64.size (k1_off1_inb k)).toLoadRect X_arg4)
            (View.readAt (Elt F) arg6.view (Rect.unit (s := S4096x64) ![0, 0] S4096x64.size inb_S4096x64_S4096x64_0_0).toLoadRect f_arg6)⟩] := by
  unfold tripL_k1_t1 trip_k1_t1
  rfl

def agg1_gath (v7 : Vec F S4096 .i32) (X_arg4 : BufTy.Contents (Elt F) arg4.view.ty) (G_arg6 : BufTy.Contents (Elt F) arg6.view.ty)
    (k : ℕ) : Vec F S4096x64 .f32 :=
  arg6.view.read (Elt F) (arg6.view.writes (Elt F) G_arg6
    (pb_k1_t1 (F := F) 𝒱 c bd i arg1 harg1 arg2 harg2 arg3 harg3 arg4 harg4 arg5 harg5 arg6 harg6 v7 X_arg4 G_arg6 k))

theorem agg1_gath_zero (v7 : Vec F S4096 .i32) (X_arg4 : BufTy.Contents (Elt F) arg4.view.ty) (G_arg6 : BufTy.Contents (Elt F) arg6.view.ty) :
    agg1_gath 𝒱 c bd i arg1 harg1 arg2 harg2 arg3 harg3 arg4 harg4 arg5 harg5 arg6 harg6 v7 X_arg4 G_arg6 0
      = arg6.view.read (Elt F) G_arg6 := rfl

theorem agg1_gath_succ (v7 : Vec F S4096 .i32) (X_arg4 : BufTy.Contents (Elt F) arg4.view.ty) (G_arg6 : BufTy.Contents (Elt F) arg6.view.ty)
    (k : Fin k1_t1_loop.trips) :
    agg1_gath 𝒱 c bd i arg1 harg1 arg2 harg2 arg3 harg3 arg4 harg4 arg5 harg5 arg6 harg6 v7 X_arg4 G_arg6 (k.val + 1)
      = k1_pay3 v7 k
          (View.ld (arg4.view.read (Elt F) X_arg4) (Rect.unit (s := S50000x64) (k1_off1 k) S1000x64.size (k1_off1_inb k)))
          (agg1_gath 𝒱 c bd i arg1 harg1 arg2 harg2 arg3 harg3 arg4 harg4 arg5 harg5 arg6 harg6 v7 X_arg4 G_arg6 k.val) := by
  unfold agg1_gath
  rw [pb_k1_t1_succ, tripL_k1_t1_eq, List.singleton_append]
  rw [View.read_writes_eq_canon _ _ _ (fun y => ⟨_, List.mem_cons_self, View.mem_set_unit_zero agg1_hz inb_S4096x64_S4096x64_0_0 y⟩),
    View.canon_cons_unit_zero (S := S4096x64) agg1_hz]
  rw [View.readAt_eq_ld, View.readAt_eq_ld, View.ld_unit_zero (S := S4096x64) agg1_hz]

theorem tripL_k1_t2_eq (v10 : Vec F S4096 .i32) (v13 : Vec F S4096 .f32) (v17 : Vec F S4096x64 .f32) (k : Fin k1_t2_loop.trips)
    (f_arg5 : BufTy.Contents (Elt F) arg5.view.ty) :
    tripL_k1_t2 (F := F) 𝒱 c bd i arg1 harg1 arg2 harg2 arg3 harg3 arg4 harg4 arg5 harg5 arg6 harg6 v10 v13 v17 k f_arg5
      = [⟨Rect.unit (s := S50000x64) (k1_off2 k) S1000x64.size (k1_off2_inb k),
          k1_pay4 v10 v13 v17 k
            (View.readAt (Elt F) arg5.view (Rect.unit (s := S50000x64) (k1_off2 k) S1000x64.size (k1_off2_inb k)).toLoadRect f_arg5)⟩] := by
  unfold tripL_k1_t2 trip_k1_t2
  rfl

def agg1_scat (v10 : Vec F S4096 .i32) (v13 : Vec F S4096 .f32) (v17 : Vec F S4096x64 .f32) (G_arg5 : BufTy.Contents (Elt F) arg5.view.ty)
    (k : ℕ) : Vec F S50000x64 .f32 :=
  arg5.view.read (Elt F) (arg5.view.writes (Elt F) G_arg5
    (pb_k1_t2 (F := F) 𝒱 c bd i arg1 harg1 arg2 harg2 arg3 harg3 arg4 harg4 arg5 harg5 arg6 harg6 v10 v13 v17 G_arg5 k))

theorem agg1_scat_zero (v10 : Vec F S4096 .i32) (v13 : Vec F S4096 .f32) (v17 : Vec F S4096x64 .f32) (G_arg5 : BufTy.Contents (Elt F) arg5.view.ty) :
    agg1_scat 𝒱 c bd i arg1 harg1 arg2 harg2 arg3 harg3 arg4 harg4 arg5 harg5 arg6 harg6 v10 v13 v17 G_arg5 0
      = arg5.view.read (Elt F) G_arg5 := rfl

theorem agg1_scat_succ_emb (v10 : Vec F S4096 .i32) (v13 : Vec F S4096 .f32) (v17 : Vec F S4096x64 .f32) (G_arg5 : BufTy.Contents (Elt F) arg5.view.ty)
    (k : Fin k1_t2_loop.trips) (x : S1000x64.Idx) :
    agg1_scat 𝒱 c bd i arg1 harg1 arg2 harg2 arg3 harg3 arg4 harg4 arg5 harg5 arg6 harg6 v10 v13 v17 G_arg5 (k.val + 1)
        ((Rect.unit (s := S50000x64) (k1_off2 k) S1000x64.size (k1_off2_inb k)).emb x)
      = k1_pay4 v10 v13 v17 k
          (View.ld (agg1_scat 𝒱 c bd i arg1 harg1 arg2 harg2 arg3 harg3 arg4 harg4 arg5 harg5 arg6 harg6 v10 v13 v17 G_arg5 k.val)
            (Rect.unit (s := S50000x64) (k1_off2 k) S1000x64.size (k1_off2_inb k))) x := by
  unfold agg1_scat
  rw [pb_k1_t2_succ, tripL_k1_t2_eq, List.singleton_append, View.read_writes_cons_emb, View.readAt_eq_ld]

theorem agg1_scat_succ_of_not_mem (v10 : Vec F S4096 .i32) (v13 : Vec F S4096 .f32) (v17 : Vec F S4096x64 .f32) (G_arg5 : BufTy.Contents (Elt F) arg5.view.ty)
    (k : Fin k1_t2_loop.trips) (y : S50000x64.Idx)
    (hy : y ∉ (Rect.unit (s := S50000x64) (k1_off2 k) S1000x64.size (k1_off2_inb k)).set) :
    agg1_scat 𝒱 c bd i arg1 harg1 arg2 harg2 arg3 harg3 arg4 harg4 arg5 harg5 arg6 harg6 v10 v13 v17 G_arg5 (k.val + 1) y
      = agg1_scat 𝒱 c bd i arg1 harg1 arg2 harg2 arg3 harg3 arg4 harg4 arg5 harg5 arg6 harg6 v10 v13 v17 G_arg5 k.val y := by
  unfold agg1_scat
  rw [pb_k1_t2_succ, tripL_k1_t2_eq, List.singleton_append, View.writes_cons,
    View.read_slice_write_of_not_mem _ _ _ _ (by rw [Rect.map_emb_univ]; exact hy)]

end Cert.KernelIdeal.Val
end
-- ==== Proof.KI.ValAgg1Ops.lean ====
import proofs.«414250_j49357764165687_1_alg».proof.Proof.Gen.KernelIdeal.Skeleton
import proofs.«414250_j49357764165687_1_alg».proof.Proof.Spec
import Idealize.ShloMosaic.PureOps.Ideal.Laws
import Idealize.ShloMosaic.Lib.ValueIdx
import Idealize.ShloMosaic.Lib.Pipeline.Value

set_option maxRecDepth 16384

noncomputable section
open scoped BigOperators
namespace Cert.KernelIdeal.Val

open Idealize.ShloMosaic Idealize.ShloMosaic.ValueIdx
open Cert.KernelIdeal Cert.KernelIdeal.Gen

theorem agg1_mask_apply {s : Shape} (a b : IVec s 32) (h1 : 1 < 32) (h2 : FTy.bits .bf16 < FTy.bits .f32) (i : s.Idx) :
    (truncf .bf16 (sitofp (F := Ideal) .f32 (extui 32 (cmpi .eq a b) h1)) h2 : FVec Ideal s .bf16) i
      = if a i = b i then (1 : EReal) else 0 := by
  show (((((IntOp.cmpi .eq (a i) (b i)).setWidth 32).toInt : ℝ)) : EReal) = _
  by_cases h : a i = b i
  · rw [if_pos h, h]; simp [IntOp.cmpi]
  · rw [if_neg h]
    have hb : (a i == b i) = false := beq_eq_false_iff_ne.mpr h
    simp [IntOp.cmpi, hb]

theorem agg1_chunk_word (k : Nat) :
    Scalar.muli (Scalar.addi 0#32 (Scalar.muli (Scf.iv 0#32 1#32 k) 1#32)) 1000#32 = BitVec.ofNat 32 (1000 * k) := by
  simp [Scf.iv, Scalar.muli, Scalar.addi, IntOp.muli, IntOp.addi, BitVec.ofNat_mul, Nat.mul_comm]

theorem agg1_col_apply {α : Type} {m : Nat} (v : S4096.Idx → α) (hc : S4096.ShapeCasts S4096x1)
    (hb : S4096x1.Broadcasts ⟨2, ![4096, m]⟩) (e : Fin 4096) (n : Fin m) :
    broadcastTo ⟨2, ![4096, m]⟩ (shapeCast S4096x1 v hc) hb (ix2 e n) = v (ix1 e) := by
  rw [broadcastTo_apply _ hb (ix2 e n) (ix2 e (0 : Fin 1)) (by
    intro a
    match a with
    | ⟨0, _⟩ => rfl
    | ⟨1, _⟩ => rfl)]
  exact shapeCast_apply v hc (ix2 e (0 : Fin 1)) (ix1 e) (by
    rw [Shape.rowMajor_val_one, Shape.rowMajor_val_two]
    show e.val = e.val * 1 + 0
    omega)

theorem agg1_row_apply (w : BitVec 32) (hi : S1x1000.Iotas .tc 32 [1]) (hb : S1x1000.Broadcasts S4096x1000) (e : Fin 4096) (n : Fin 1000) :
    broadcastTo S4096x1000 (addi (broadcast S1x1000 w) (iota .tc S1x1000 32 [1] hi)) hb (ix2 e n) = w + BitVec.ofNat 32 n.val := by
  rw [broadcastTo_apply _ hb (ix2 e n) (ix2 (0 : Fin 1) n) (by
    intro a
    match a with
    | ⟨0, _⟩ => rfl
    | ⟨1, _⟩ => rfl)]
  show IntOp.addi w (iota .tc S1x1000 32 [1] hi (ix2 (0 : Fin 1) n)) = _
  rw [iota_single_apply]
  rfl

theorem agg1_onehot_apply (v : S4096.Idx → BitVec 32) (k : Nat) (e : Fin 4096) (n : Fin 1000) :
    (truncf .bf16 (sitofp (F := Ideal) .f32 (extui 32 (cmpi .eq
        (broadcastTo S4096x1000 (shapeCast S4096x1 v shapeCasts_S4096_S4096x1) broadcasts_S4096x1_S4096x1000)
        (broadcastTo S4096x1000 (addi (broadcast S1x1000
            (Scalar.muli (Scalar.addi 0#32 (Scalar.muli (Scf.iv 0#32 1#32 k) 1#32)) 1000#32))
          (iota .tc S1x1000 32 [1] iota_S1x1000_d1_w32)) broadcasts_S1x1000_S4096x1000)) natLt_1_32)) bitsLt_bf16_f32
      : FVec Ideal S4096x1000 .bf16) (ix2 e n)
      = Cert.Spec.hot (v (ix1 e)) (1000 * k + n.val) := by
  rw [agg1_mask_apply, agg1_col_apply (m := 1000), agg1_row_apply, agg1_chunk_word, ← BitVec.ofNat_add]
  rfl

theorem agg1_gather_lhs (e : Fin 4096) (j : Fin 64) (n : Fin 1000) :
    dot_S4096x1000_S1000x64_S4096x64_1_0_0_1_n_n.lhsIdx (ix2 e j)
      ((contrEquiv1 dot_S4096x1000_S1000x64_S4096x64_1_0_0_1_n_n 1000 rfl rfl).symm n) = ix2 e n := by
  have c := contrEquiv1_symm_val dot_S4096x1000_S1000x64_S4096x64_1_0_0_1_n_n 1000 rfl rfl n
  funext ax; apply Fin.ext
  match ax with
  | ⟨0, _⟩ => simp [DotDims.lhsIdx, dot_S4096x1000_S1000x64_S4096x64_1_0_0_1_n_n]; rfl
  | ⟨1, _⟩ => simp [DotDims.lhsIdx, dot_S4096x1000_S1000x64_S4096x64_1_0_0_1_n_n]; exact c

theorem agg1_gather_rhs (e : Fin 4096) (j : Fin 64) (n : Fin 1000) :
    dot_S4096x1000_S1000x64_S4096x64_1_0_0_1_n_n.rhsIdx (ix2 e j)
      ((contrEquiv1 dot_S4096x1000_S1000x64_S4096x64_1_0_0_1_n_n 1000 rfl rfl).symm n) = ix2 n j := by
  have c := contrEquiv1_symm_val dot_S4096x1000_S1000x64_S4096x64_1_0_0_1_n_n 1000 rfl rfl n
  funext ax; apply Fin.ext
  match ax with
  | ⟨0, _⟩ => simp [DotDims.rhsIdx, dot_S4096x1000_S1000x64_S4096x64_1_0_0_1_n_n]; exact c
  | ⟨1, _⟩ => simp [DotDims.rhsIdx, dot_S4096x1000_S1000x64_S4096x64_1_0_0_1_n_n]; rfl

theorem agg1_scatter_lhs (n : Fin 1000) (j : Fin 64) (e : Fin 4096) :
    dot_S4096x1000_S4096x64_S1000x64_0_0_1_1_n_n.lhsIdx (ix2 n j)
      ((contrEquiv1 dot_S4096x1000_S4096x64_S1000x64_0_0_1_1_n_n 4096 rfl rfl).symm e) = ix2 e n := by
  have c := contrEquiv1_symm_val dot_S4096x1000_S4096x64_S1000x64_0_0_1_1_n_n 4096 rfl rfl e
  funext ax; apply Fin.ext
  match ax with
  | ⟨0, _⟩ => simp [DotDims.lhsIdx, dot_S4096x1000_S4096x64_S1000x64_0_0_1_1_n_n]; exact c
  | ⟨1, _⟩ => simp [DotDims.lhsIdx, dot_S4096x1000_S4096x64_S1000x64_0_0_1_1_n_n]; rfl

theorem agg1_scatter_rhs (n : Fin 1000) (j : Fin 64) (e : Fin 4096) :
    dot_S4096x1000_S4096x64_S1000x64_0_0_1_1_n_n.rhsIdx (ix2 n j)
      ((contrEquiv1 dot_S4096x1000_S4096x64_S1000x64_0_0_1_1_n_n 4096 rfl rfl).symm e) = ix2 e j := by
  have c := contrEquiv1_symm_val dot_S4096x1000_S4096x64_S1000x64_0_0_1_1_n_n 4096 rfl rfl e
  funext ax; apply Fin.ext
  match ax with
  | ⟨0, _⟩ => simp [DotDims.rhsIdx, dot_S4096x1000_S4096x64_S1000x64_0_0_1_1_n_n]; exact c
  | ⟨1, _⟩ => simp [DotDims.rhsIdx, dot_S4096x1000_S4096x64_S1000x64_0_0_1_1_n_n]; rfl

end Cert.KernelIdeal.Val
end
-- ==== Proof.KI.ValAgg1Pay.lean ====
import proofs.«414250_j49357764165687_1_alg».proof.Proof.KI.ValAgg1Ops

set_option maxRecDepth 16384

noncomputable section
open scoped BigOperators
namespace Cert.KernelIdeal.Val

open Idealize.ShloMosaic Idealize.ShloMosaic.ValueIdx
open Cert.KernelIdeal Cert.KernelIdeal.Gen

theorem trips_k1_t1 : k1_t1_loop.trips = 50 := by decide
theorem trips_k1_t2 : k1_t2_loop.trips = 50 := by decide

theorem k1_pay3_apply (v7 : Vec Ideal S4096 .i32) (k : Fin k1_t1_loop.trips) (v33 : FVec Ideal S1000x64 .bf16)
    (v41 : FVec Ideal S4096x64 .f32) (e : Fin 4096) (j : Fin 64) :
    k1_pay3 (F := Ideal) v7 k v33 v41 (ix2 e j)
      = v41 (ix2 e j) + ∑ n' : Fin 1000, Cert.Spec.hot (v7 (ix1 e)) (1000 * k.val + n'.val) * v33 (ix2 n' j) := by
  simp only [k1_pay3, matmul, shapeCast_self, addf_apply, Ideal.matmul_constant_zero_apply]
  refine congrArg (v41 (ix2 e j) + ·) ?_
  rw [← Equiv.sum_comp (contrEquiv1 dot_S4096x1000_S1000x64_S4096x64_1_0_0_1_n_n 1000 rfl rfl).symm]
  refine Finset.sum_congr rfl fun n' _ => ?_
  rw [agg1_gather_lhs, agg1_gather_rhs, agg1_onehot_apply]

theorem k1_pay4_apply (v10 : Vec Ideal S4096 .i32) (v13 : FVec Ideal S4096 .f32) (v17 : FVec Ideal S4096x64 .f32)
    (k : Fin k1_t2_loop.trips) (v40 : FVec Ideal S1000x64 .f32) (n : Fin 1000) (j : Fin 64) :
    k1_pay4 (F := Ideal) v10 v13 v17 k v40 (ix2 n j)
      = v40 (ix2 n j) + ∑ e : Fin 4096, Cert.Spec.hot (v10 (ix1 e)) (1000 * k.val + n.val) * (v17 (ix2 e j) * v13 (ix1 e)) := by
  simp only [k1_pay4, matmul, shapeCast_self, addf_apply, Ideal.matmul_constant_zero_apply]
  refine congrArg (v40 (ix2 n j) + ·) ?_
  rw [← Equiv.sum_comp (contrEquiv1 dot_S4096x1000_S4096x64_S1000x64_0_0_1_1_n_n 4096 rfl rfl).symm]
  refine Finset.sum_congr rfl fun e _ => ?_
  rw [agg1_scatter_lhs, agg1_scatter_rhs, agg1_onehot_apply, truncf_apply, mulf_apply, agg1_col_apply (m := 64)]

theorem k1_pay1_apply (p : Fin 50000) (q : Fin 64) : (k1_pay1 (F := Ideal)) (ix2 p q) = 0 := by
  simp only [k1_pay1, broadcast_apply]
  exact Ideal.ofBits_zero_f32

theorem k1_pay2_apply (e : Fin 4096) (j : Fin 64) : (k1_pay2 (F := Ideal)) (ix2 e j) = 0 := by
  simp only [k1_pay2, shapeCast_self, broadcast_apply]
  exact Ideal.ofBits_zero_f32

theorem k1_pay5_apply (v25 : FVec Ideal S50000x64 .f32) (p : Fin 50000) (q : Fin 64) :
    k1_pay5 (F := Ideal) v25 (ix2 p q) = max (v25 (ix2 p q)) 0 := by
  simp only [k1_pay5, shapeCast_self, maximumf_apply, broadcast_apply]
  exact congrArg (max (v25 (ix2 p q))) Ideal.ofBits_zero_f32

end Cert.KernelIdeal.Val
end
-- ==== Proof.LibSums.lean ====
import Idealize.ShloMosaic.Lib.ValueIdx

noncomputable section

open scoped BigOperators

namespace Cert.LibSums

def hi {N a b : Nat} (hN : N = a * b) (q : Fin N) : Fin a :=
  ⟨q.val / b, by have := q.isLt; subst hN; exact Nat.div_lt_of_lt_mul (by have h := Nat.mul_comm a b; omega)⟩

def lo {N : Nat} (b : Nat) (hb : 0 < b) (q : Fin N) : Fin b := ⟨q.val % b, Nat.mod_lt _ hb⟩

def flat {N a b : Nat} (hN : N = a * b) (k : Fin a) (p : Fin b) : Fin N :=
  ⟨k.val * b + p.val, by
    have hk := k.isLt; have hp := p.isLt; subst hN
    calc k.val * b + p.val < k.val * b + b := by omega
      _ = (k.val + 1) * b := by ring
      _ ≤ a * b := Nat.mul_le_mul_right b hk⟩

def pairEquiv (a b : Nat) (hb : 0 < b) : Fin (a * b) ≃ Fin a × Fin b where
  toFun q := (hi rfl q, lo b hb q)
  invFun x := flat rfl x.1 x.2
  left_inv q := by
    apply Fin.ext
    show q.val / b * b + q.val % b = q.val
    exact Nat.div_add_mod' q.val b
  right_inv x := by
    obtain ⟨k, p⟩ := x
    apply Prod.ext
    · apply Fin.ext
      show (k.val * b + p.val) / b = k.val
      rw [Nat.add_comm, Nat.add_mul_div_right _ _ hb, Nat.div_eq_of_lt p.isLt, Nat.zero_add]
    · apply Fin.ext
      show (k.val * b + p.val) % b = p.val
      rw [Nat.add_comm, Nat.add_mul_mod_self_right, Nat.mod_eq_of_lt p.isLt]

theorem sum_filter_flat {M : Type} [AddCommMonoid M] {N a b : Nat} (hN : N = a * b) (hb : 0 < b)
    (P : Fin a → Fin b → Prop) [∀ k p, Decidable (P k p)] (f : Fin a → Fin b → M) :
    ∑ q ∈ Finset.univ.filter (fun q : Fin N => P (hi hN q) (lo b hb q)), f (hi hN q) (lo b hb q)
      = ∑ k : Fin a, ∑ p ∈ Finset.univ.filter (fun p : Fin b => P k p), f k p := by
  subst hN
  rw [Finset.sum_filter]
  refine (Fintype.sum_equiv (pairEquiv a b hb)
    (fun q : Fin (a * b) => if P (hi rfl q) (lo b hb q) then f (hi rfl q) (lo b hb q) else 0)
    (fun x : Fin a × Fin b => if P x.1 x.2 then f x.1 x.2 else 0) (fun _ => rfl)).trans ?_
  rw [Fintype.sum_prod_type]
  refine Finset.sum_congr rfl (fun k _ => ?_)
  rw [Finset.sum_filter]

theorem sum_tiles {M : Type} [AddCommMonoid M] {N a b : Nat} (hN : N = a * b) (f : Fin N → M) :
    ∑ r : Fin N, f r = ∑ t : Fin a, ∑ i : Fin b, f (flat hN t i) := by
  subst hN
  rcases Nat.eq_zero_or_pos b with hb | hb
  · subst hb
    haveI : IsEmpty (Fin (a * 0)) := ⟨fun q => absurd q.isLt (by simp)⟩
    rw [Fintype.sum_empty]
    exact (Finset.sum_eq_zero (fun t _ => Fintype.sum_empty _)).symm
  · refine ((pairEquiv a b hb).symm.sum_comp f).symm.trans ?_
    rw [Fintype.sum_prod_type]
    rfl

end Cert.LibSums

end
-- ==== Proof.SpecAgg.lean ====
import proofs.«414250_j49357764165687_1_alg».proof.Proof.Spec
import proofs.«414250_j49357764165687_1_alg».proof.Proof.LibSums

noncomputable section

open scoped BigOperators

namespace Cert.SpecAgg

open Cert.Spec Cert.LibSums

theorem nodes_eq : NN = 50 * 1000 := rfl
theorem edges_eq : EP = 196 * 4096 := rfl

abbrev nodeAt (k : Fin 50) (n' : Fin 1000) : Fin NN := flat nodes_eq k n'

abbrev edgeAt (t : Fin 196) (e : Fin 4096) : Fin EP := flat edges_eq t e

theorem nodeAt_val (k : Fin 50) (n' : Fin 1000) : (nodeAt k n').val = 1000 * k.val + n'.val := by
  show k.val * 1000 + n'.val = _
  omega
theorem edgeAt_val (t : Fin 196) (e : Fin 4096) : (edgeAt t e).val = 4096 * t.val + e.val := by
  show t.val * 4096 + e.val = _
  omega

theorem fold_add {M : Type} [AddCommMonoid M] (N : ℕ) (f a : ℕ → M) (z : M) (h0 : f 0 = z)
    (hs : ∀ k, k < N → f (k + 1) = f k + a k) : ∀ n, n ≤ N → f n = z + ∑ i ∈ Finset.range n, a i
  | 0, _ => by rw [h0, Finset.range_zero, Finset.sum_empty, add_zero]
  | n + 1, hn => by
    rw [hs n (by omega), fold_add N f a z h0 hs n (by omega), Finset.sum_range_succ, add_assoc]

theorem fold_add_fin {M : Type} [AddCommMonoid M] (N : ℕ) (f : ℕ → M) (a : Fin N → M) (z : M) (h0 : f 0 = z)
    (hs : ∀ k : Fin N, f (k.val + 1) = f k.val + a k) : f N = z + ∑ k : Fin N, a k := by
  have h := fold_add N f (fun i => if h : i < N then a ⟨i, h⟩ else 0) z h0
    (fun k hk => by rw [hs ⟨k, hk⟩, dif_pos hk]) N (le_refl N)
  rw [h, Finset.sum_range]
  refine congrArg (z + ·) (Finset.sum_congr rfl fun k _ => ?_)
  rw [dif_pos k.isLt]

theorem pick_chunks (x : BitVec 32) (H : Fin NN → Fin DD → EReal) (q : Fin DD) :
    ∑ k : Fin 50, ∑ n' : Fin 1000, hot x (1000 * k.val + n'.val) * H (nodeAt k n') q = ∑ n : Fin NN, hot x n.val * H n q := by
  rw [sum_tiles nodes_eq (fun n => hot x n.val * H n q)]
  refine Finset.sum_congr rfl fun k _ => Finset.sum_congr rfl fun n' _ => ?_
  rw [← nodeAt_val k n']

theorem agg_tiles (srcp dstp : Fin EP → BitVec 32) (wp : Fin EP → EReal) (H : Fin NN → Fin DD → EReal) (p : Fin NN) (q : Fin DD) :
    ∑ t : Fin 196, ∑ e : Fin 4096, hot (srcp (edgeAt t e)) p.val * (pick dstp H (edgeAt t e) q * wp (edgeAt t e))
      = aggHot srcp dstp wp H p q :=
  (sum_tiles edges_eq (fun r => hot (srcp r) p.val * (pick dstp H r q * wp r))).symm

theorem node_split (p : Fin NN) : ∃ (k : Fin 50) (n' : Fin 1000), p = nodeAt k n' :=
  ⟨hi nodes_eq p, lo 1000 (by norm_num) p, ((pairEquiv 50 1000 (by norm_num)).left_inv p).symm⟩

end Cert.SpecAgg

end
-- ==== Proof.KI.ValAgg1Loop.lean ====
import proofs.«414250_j49357764165687_1_alg».proof.Proof.KI.ValAgg1Trip
import proofs.«414250_j49357764165687_1_alg».proof.Proof.KI.ValAgg1Pay
import proofs.«414250_j49357764165687_1_alg».proof.Proof.SpecAgg

set_option maxRecDepth 16384

noncomputable section
namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable (𝒱 : Variants) (c : Dev nD) (bd : Option 𝒱.V) (i : grid1.Coords) (arg1 : Memref sig .tc .vmem S4096 .i32) (harg1 : arg1.IsWhole) (arg2 : Memref sig .tc .vmem S4096 .i32) (harg2 : arg2.IsWhole) (arg3 : Memref sig .tc .vmem S4096 .f32) (harg3 : arg3.IsWhole) (arg4 : Memref sig .tc .vmem S50000x64 .bf16) (harg4 : arg4.IsWhole) (arg5 : Memref sig .tc .vmem S50000x64 .f32) (harg5 : arg5.IsWhole) (arg6 : Memref sig .tc .vmem S4096x64 .f32) (harg6 : arg6.IsWhole)

section Totals
open Idealize.ShloMosaic.ValueIdx
open scoped BigOperators

theorem agg1_rows_emb (off : Fin 2 → Nat) (inb : ∀ a, off a + S1000x64.size a ≤ S50000x64.size a) (k : Fin 50)
    (hoff : off = ![1000 * k.val, 0]) (n' : Fin 1000) (j : Fin 64) :
    (Rect.unit (s := S50000x64) off S1000x64.size inb).emb (ix2 n' j) = ix2 (Cert.SpecAgg.nodeAt k n') j := by
  subst hoff
  funext a; apply Fin.ext
  rw [Rect.emb_apply]
  match a with
  | ⟨0, _⟩ =>
    show 1000 * k.val + 1 * n'.val = (Cert.SpecAgg.nodeAt k n').val
    rw [Cert.SpecAgg.nodeAt_val]; omega
  | ⟨1, _⟩ =>
    show 0 + 1 * j.val = j.val
    omega

theorem agg1_gath_total (v7 : Vec Ideal S4096 .i32) (X_arg4 : BufTy.Contents (Elt Ideal) arg4.view.ty)
    (G_arg6 : BufTy.Contents (Elt Ideal) arg6.view.ty) (e : Fin 4096) (j : Fin 64) :
    agg1_gath (F := Ideal) 𝒱 c bd i arg1 harg1 arg2 harg2 arg3 harg3 arg4 harg4 arg5 harg5 arg6 harg6 v7 X_arg4 G_arg6 50 (ix2 e j)
      = (arg6.view.read (Elt Ideal) G_arg6 (ix2 e j) : EReal)
        + ∑ n : Fin 50000, Cert.Spec.hot (v7 (ix1 e)) n.val * (arg4.view.read (Elt Ideal) X_arg4 (ix2 n j) : EReal) := by
  have h := Cert.SpecAgg.fold_add_fin 50
    (fun k => (agg1_gath (F := Ideal) 𝒱 c bd i arg1 harg1 arg2 harg2 arg3 harg3 arg4 harg4 arg5 harg5 arg6 harg6 v7 X_arg4 G_arg6 k (ix2 e j) : EReal))
    (fun k : Fin 50 => ∑ n' : Fin 1000, Cert.Spec.hot (v7 (ix1 e)) (1000 * k.val + n'.val)
        * (arg4.view.read (Elt Ideal) X_arg4 (ix2 (Cert.SpecAgg.nodeAt k n') j) : EReal))
    (arg6.view.read (Elt Ideal) G_arg6 (ix2 e j)) rfl
    (fun k => by
      have hk : k.val < k1_t1_loop.trips := by rw [trips_k1_t1]; exact k.isLt
      show agg1_gath (F := Ideal) 𝒱 c bd i arg1 harg1 arg2 harg2 arg3 harg3 arg4 harg4 arg5 harg5 arg6 harg6 v7 X_arg4 G_arg6 ((⟨k.val, hk⟩ : Fin k1_t1_loop.trips).val + 1) (ix2 e j) = _
      rw [agg1_gath_succ, k1_pay3_apply]
      refine congrArg (_ + ·) (Finset.sum_congr rfl fun n' _ => ?_)
      show _ * (arg4.view.read (Elt Ideal) X_arg4 ((Rect.unit (s := S50000x64) (k1_off1 ⟨k.val, hk⟩) S1000x64.size (k1_off1_inb ⟨k.val, hk⟩)).emb (ix2 n' j)) : EReal) = _
      rw [agg1_rows_emb (k1_off1 ⟨k.val, hk⟩) (k1_off1_inb ⟨k.val, hk⟩) k (k1_off1_eq ⟨k.val, hk⟩) n' j])
  rw [h, Cert.SpecAgg.pick_chunks (v7 (ix1 e)) (fun n q => (arg4.view.read (Elt Ideal) X_arg4 (ix2 n q) : EReal)) j]

theorem agg1_not_mem_rows (k : Fin k1_t2_loop.trips) (y : S50000x64.Idx)
    (hy : (y 0).val < 1000 * k.val ∨ 1000 * k.val + 1000 ≤ (y 0).val) :
    y ∉ (Rect.unit (s := S50000x64) (k1_off2 k) S1000x64.size (k1_off2_inb k)).set := by
  intro h
  have h0 := (Rect.mem_set_unit.mp h) 0
  have e0 : k1_off2 k 0 = 1000 * k.val := by rw [k1_off2_eq k]; rfl
  have s0 : S1000x64.size 0 = 1000 := rfl
  rw [e0, s0] at h0
  omega

theorem agg1_scat_keep (v10 : Vec Ideal S4096 .i32) (v13 : Vec Ideal S4096 .f32) (v17 : Vec Ideal S4096x64 .f32)
    (G_arg5 : BufTy.Contents (Elt Ideal) arg5.view.ty) (y : S50000x64.Idx) (lo : ℕ) :
    ∀ hi, lo ≤ hi → hi ≤ 50 → (∀ k, lo ≤ k → k < hi → ((y 0).val < 1000 * k ∨ 1000 * k + 1000 ≤ (y 0).val)) →
      agg1_scat (F := Ideal) 𝒱 c bd i arg1 harg1 arg2 harg2 arg3 harg3 arg4 harg4 arg5 harg5 arg6 harg6 v10 v13 v17 G_arg5 hi y
        = agg1_scat (F := Ideal) 𝒱 c bd i arg1 harg1 arg2 harg2 arg3 harg3 arg4 harg4 arg5 harg5 arg6 harg6 v10 v13 v17 G_arg5 lo y := by
  intro hi hle
  induction hi, hle using Nat.le_induction with
  | base => intro _ _; rfl
  | succ hi hle ih =>
    intro h50 hout
    have hk : hi < k1_t2_loop.trips := by rw [trips_k1_t2]; omega
    have step := agg1_scat_succ_of_not_mem (F := Ideal) 𝒱 c bd i arg1 harg1 arg2 harg2 arg3 harg3 arg4 harg4 arg5 harg5 arg6 harg6
      v10 v13 v17 G_arg5 ⟨hi, hk⟩ y (agg1_not_mem_rows ⟨hi, hk⟩ y (hout hi hle (Nat.lt_succ_self hi)))
    exact step.trans (ih (by omega) fun k h1 h2 => hout k h1 (by omega))

theorem agg1_scat_total (v10 : Vec Ideal S4096 .i32) (v13 : FVec Ideal S4096 .f32) (v17 : FVec Ideal S4096x64 .f32)
    (G_arg5 : BufTy.Contents (Elt Ideal) arg5.view.ty) (p : Fin 50000) (q : Fin 64) :
    agg1_scat (F := Ideal) 𝒱 c bd i arg1 harg1 arg2 harg2 arg3 harg3 arg4 harg4 arg5 harg5 arg6 harg6 v10 v13 v17 G_arg5 50 (ix2 p q)
      = (arg5.view.read (Elt Ideal) G_arg5 (ix2 p q) : EReal)
        + ∑ e : Fin 4096, Cert.Spec.hot (v10 (ix1 e)) p.val * (v17 (ix2 e q) * v13 (ix1 e)) := by
  obtain ⟨k0, n0, rfl⟩ := Cert.SpecAgg.node_split p
  have hv := Cert.SpecAgg.nodeAt_val k0 n0
  have hk : k0.val < k1_t2_loop.trips := by rw [trips_k1_t2]; exact k0.isLt
  have hrow : ((ix2 (Cert.SpecAgg.nodeAt k0 n0) q : S50000x64.Idx) 0).val = 1000 * k0.val + n0.val := hv

  have h1 := agg1_scat_keep 𝒱 c bd i arg1 harg1 arg2 harg2 arg3 harg3 arg4 harg4 arg5 harg5 arg6 harg6 v10 v13 v17 G_arg5
    (ix2 (Cert.SpecAgg.nodeAt k0 n0) q) 0 k0.val (Nat.zero_le _) (by have := k0.isLt; omega)
    (fun k _ h2 => Or.inr (by rw [hrow]; have := n0.isLt; omega))
  have h3 := agg1_scat_keep 𝒱 c bd i arg1 harg1 arg2 harg2 arg3 harg3 arg4 harg4 arg5 harg5 arg6 harg6 v10 v13 v17 G_arg5
    (ix2 (Cert.SpecAgg.nodeAt k0 n0) q) (k0.val + 1) 50 (by have := k0.isLt; omega) (le_refl 50)
    (fun k h1 _ => Or.inl (by rw [hrow]; have := n0.isLt; omega))

  have h2 := agg1_scat_succ_emb (F := Ideal) 𝒱 c bd i arg1 harg1 arg2 harg2 arg3 harg3 arg4 harg4 arg5 harg5 arg6 harg6
    v10 v13 v17 G_arg5 ⟨k0.val, hk⟩ (ix2 n0 q)
  rw [agg1_rows_emb (k1_off2 ⟨k0.val, hk⟩) (k1_off2_inb ⟨k0.val, hk⟩) k0 (k1_off2_eq ⟨k0.val, hk⟩) n0 q, k1_pay4_apply] at h2
  rw [h3, h2, hv]
  refine congrArg (· + _) ?_
  show agg1_scat (F := Ideal) 𝒱 c bd i arg1 harg1 arg2 harg2 arg3 harg3 arg4 harg4 arg5 harg5 arg6 harg6 v10 v13 v17 G_arg5 k0.val
      ((Rect.unit (s := S50000x64) (k1_off2 ⟨k0.val, hk⟩) S1000x64.size (k1_off2_inb ⟨k0.val, hk⟩)).emb (ix2 n0 q)) = _
  rw [agg1_rows_emb (k1_off2 ⟨k0.val, hk⟩) (k1_off2_inb ⟨k0.val, hk⟩) k0 (k1_off2_eq ⟨k0.val, hk⟩) n0 q]
  exact h1

end Totals

end Cert.KernelIdeal.Val
end
-- ==== Proof.KI.ValAgg1Body.lean ====
import proofs.«414250_j49357764165687_1_alg».proof.Proof.KI.ValAgg1Loop

set_option maxRecDepth 16384

noncomputable section
namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Cert.KernelIdeal Cert.KernelIdeal.Gen
open scoped BigOperators

variable (𝒱 : Variants) (c : Dev nD) (bd : Option 𝒱.V) (i : grid1.Coords) (arg1 : Memref sig .tc .vmem S4096 .i32) (harg1 : arg1.IsWhole) (arg2 : Memref sig .tc .vmem S4096 .i32) (harg2 : arg2.IsWhole) (arg3 : Memref sig .tc .vmem S4096 .f32) (harg3 : arg3.IsWhole) (arg4 : Memref sig .tc .vmem S50000x64 .bf16) (harg4 : arg4.IsWhole) (arg5 : Memref sig .tc .vmem S50000x64 .f32) (harg5 : arg5.IsWhole) (arg6 : Memref sig .tc .vmem S4096x64 .f32) (harg6 : arg6.IsWhole)

theorem agg1_scratch_fill (G_arg6 : BufTy.Contents (Elt Ideal) arg6.view.ty) (e : Fin 4096) (j : Fin 64) :
    (arg6.view.read (Elt Ideal) (arg6.view.writes (Elt Ideal) G_arg6
      [⟨Rect.unit (s := S4096x64) ![0, 0] S4096x64.size inb_S4096x64_S4096x64_0_0, k1_pay2 (F := Ideal)⟩]) (ix2 e j) : EReal) = 0 := by
  rw [View.read_writes_eq_canon _ _ _ (fun y => ⟨_, List.mem_cons_self, View.mem_set_unit_zero agg1_hz inb_S4096x64_S4096x64_0_0 y⟩),
    View.canon_unit_zero (S := S4096x64) agg1_hz, k1_pay2_apply]

theorem agg1_out_fill (G_arg5 : BufTy.Contents (Elt Ideal) arg5.view.ty) (p : Fin 50000) (q : Fin 64) :
    (arg5.view.read (Elt Ideal) (arg5.view.writes (Elt Ideal) G_arg5
      [⟨Rect.unit (s := S50000x64) ![0, 0] S50000x64.size inb_S50000x64_S50000x64_0_0, k1_pay1 (F := Ideal)⟩]) (ix2 p q) : EReal) = 0 := by
  rw [View.read_writes_eq_canon _ _ _ (fun y => ⟨_, List.mem_cons_self, View.mem_set_unit_zero agg1_hz inb_S50000x64_S50000x64_0_0 y⟩),
    View.canon_unit_zero (S := S50000x64) agg1_hz, k1_pay1_apply]

theorem agg1_body_val (v7 v10 : Vec Ideal S4096 .i32) (v13 : FVec Ideal S4096 .f32)
    (X_arg4 : BufTy.Contents (Elt Ideal) arg4.view.ty) (G_arg6 : BufTy.Contents (Elt Ideal) arg6.view.ty)
    (hG6 : ∀ (e : Fin 4096) (j : Fin 64), (arg6.view.read (Elt Ideal) G_arg6 (ix2 e j) : EReal) = 0)
    (G_arg5 : BufTy.Contents (Elt Ideal) arg5.view.ty) (p : Fin 50000) (q : Fin 64) :
    agg1_scat (F := Ideal) 𝒱 c bd i arg1 harg1 arg2 harg2 arg3 harg3 arg4 harg4 arg5 harg5 arg6 harg6 v10 v13
        (agg1_gath (F := Ideal) 𝒱 c bd i arg1 harg1 arg2 harg2 arg3 harg3 arg4 harg4 arg5 harg5 arg6 harg6 v7 X_arg4 G_arg6 50)
        G_arg5 50 (ix2 p q)
      = (arg5.view.read (Elt Ideal) G_arg5 (ix2 p q) : EReal)
        + ∑ e : Fin 4096, Cert.Spec.hot (v10 (ix1 e)) p.val
            * ((∑ n : Fin 50000, Cert.Spec.hot (v7 (ix1 e)) n.val * (arg4.view.read (Elt Ideal) X_arg4 (ix2 n q) : EReal)) * v13 (ix1 e)) := by
  rw [agg1_scat_total]
  refine congrArg (_ + ·) (Finset.sum_congr rfl fun e _ => ?_)
  rw [agg1_gath_total, hG6, zero_add]

end Cert.KernelIdeal.Val
end
-- ==== Proof.KI.ValAgg1Cover.lean ====
import proofs.«414250_j49357764165687_1_alg».proof.Proof.KI.ValAgg1Trip
import proofs.«414250_j49357764165687_1_alg».proof.Proof.KI.ValAgg1Pay

set_option maxRecDepth 16384

noncomputable section
namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

variable (𝒱 : Variants) (c : Dev nD) (bd : Option 𝒱.V) (i : grid1.Coords) (arg1 : Memref sig .tc .vmem S4096 .i32) (harg1 : arg1.IsWhole) (arg2 : Memref sig .tc .vmem S4096 .i32) (harg2 : arg2.IsWhole) (arg3 : Memref sig .tc .vmem S4096 .f32) (harg3 : arg3.IsWhole) (arg4 : Memref sig .tc .vmem S50000x64 .bf16) (harg4 : arg4.IsWhole) (arg5 : Memref sig .tc .vmem S50000x64 .f32) (harg5 : arg5.IsWhole) (arg6 : Memref sig .tc .vmem S4096x64 .f32) (harg6 : arg6.IsWhole)

theorem agg1_pb2_piece (v10 : Vec F S4096 .i32) (v13 : Vec F S4096 .f32) (v17 : Vec F S4096x64 .f32) (G_arg5 : BufTy.Contents (Elt F) arg5.view.ty) :
    ∀ (k : ℕ), k ≤ 50 → ∀ k0 : Fin k1_t2_loop.trips, k0.val < k →
      ∃ p ∈ pb_k1_t2 (F := F) 𝒱 c bd i arg1 harg1 arg2 harg2 arg3 harg3 arg4 harg4 arg5 harg5 arg6 harg6 v10 v13 v17 G_arg5 k,
        p.1 = Rect.unit (s := S50000x64) (k1_off2 k0) S1000x64.size (k1_off2_inb k0)
  | 0, _, _, h => absurd h (Nat.not_lt_zero _)
  | k + 1, hk, k0, h => by
    have hk' : k < k1_t2_loop.trips := by rw [trips_k1_t2]; omega
    have hs := pb_k1_t2_succ (F := F) 𝒱 c bd i arg1 harg1 arg2 harg2 arg3 harg3 arg4 harg4 arg5 harg5 arg6 harg6 v10 v13 v17 G_arg5 ⟨k, hk'⟩
    rw [tripL_k1_t2_eq] at hs
    rw [show k + 1 = (⟨k, hk'⟩ : Fin k1_t2_loop.trips).val + 1 from rfl, hs]
    by_cases e : k0.val = k
    · obtain rfl : k0 = ⟨k, hk'⟩ := Fin.ext e
      exact ⟨_, List.mem_append_left _ (List.mem_singleton_self _), rfl⟩
    · obtain ⟨p, hp, hr⟩ := agg1_pb2_piece v10 v13 v17 G_arg5 k (by omega) k0 (by omega)
      exact ⟨p, List.mem_append_right _ hp, hr⟩

theorem agg1_pb2_cover (v10 : Vec F S4096 .i32) (v13 : Vec F S4096 .f32) (v17 : Vec F S4096x64 .f32) (G_arg5 : BufTy.Contents (Elt F) arg5.view.ty)
    (y : S50000x64.Idx) :
    ∃ p ∈ pb_k1_t2 (F := F) 𝒱 c bd i arg1 harg1 arg2 harg2 arg3 harg3 arg4 harg4 arg5 harg5 arg6 harg6 v10 v13 v17 G_arg5 50, y ∈ p.1.set := by
  have hy0 : (y 0).val < 50000 := (y 0).isLt
  have hy1 : (y 1).val < 64 := (y 1).isLt
  have hk0 : (y 0).val / 1000 < k1_t2_loop.trips := by rw [trips_k1_t2]; omega
  obtain ⟨p, hp, hr⟩ := agg1_pb2_piece 𝒱 c bd i arg1 harg1 arg2 harg2 arg3 harg3 arg4 harg4 arg5 harg5 arg6 harg6 v10 v13 v17 G_arg5 50 (le_refl _)
    ⟨(y 0).val / 1000, hk0⟩ (by show (y 0).val / 1000 < 50; omega)
  refine ⟨p, hp, ?_⟩
  rw [hr, Rect.mem_set_unit]
  have e0 : k1_off2 ⟨(y 0).val / 1000, hk0⟩ 0 = 1000 * ((y 0).val / 1000) := by rw [k1_off2_eq]; rfl
  have e1 : k1_off2 ⟨(y 0).val / 1000, hk0⟩ 1 = 0 := by rw [k1_off2_eq]; rfl
  intro a
  match a with
  | ⟨0, _⟩ =>
    show k1_off2 ⟨(y 0).val / 1000, hk0⟩ 0 ≤ (y 0).val ∧ (y 0).val < k1_off2 ⟨(y 0).val / 1000, hk0⟩ 0 + 1000
    rw [e0]; omega
  | ⟨1, _⟩ =>
    show k1_off2 ⟨(y 0).val / 1000, hk0⟩ 1 ≤ (y 1).val ∧ (y 1).val < k1_off2 ⟨(y 0).val / 1000, hk0⟩ 1 + 64
    rw [e1]; omega

theorem agg1_scat_base (v10 : Vec F S4096 .i32) (v13 : Vec F S4096 .f32) (v17 : Vec F S4096x64 .f32) (G_arg5 f : BufTy.Contents (Elt F) arg5.view.ty)
    (y : S50000x64.Idx) :
    arg5.view.read (Elt F) (arg5.view.writes (Elt F) f
        (pb_k1_t2 (F := F) 𝒱 c bd i arg1 harg1 arg2 harg2 arg3 harg3 arg4 harg4 arg5 harg5 arg6 harg6 v10 v13 v17 G_arg5 50)) y
      = agg1_scat 𝒱 c bd i arg1 harg1 arg2 harg2 arg3 harg3 arg4 harg4 arg5 harg5 arg6 harg6 v10 v13 v17 G_arg5 50 y := by
  unfold agg1_scat
  exact View.read_writes_apply_eq arg5.view f arg5.view G_arg5 y _
    (agg1_pb2_cover 𝒱 c bd i arg1 harg1 arg2 harg2 arg3 harg3 arg4 harg4 arg5 harg5 arg6 harg6 v10 v13 v17 G_arg5 y)

end Cert.KernelIdeal.Val
end
-- ==== Proof.KI.ValAgg1Case.lean ====
import proofs.«414250_j49357764165687_1_alg».proof.Proof.KI.ValAgg1Body
import proofs.«414250_j49357764165687_1_alg».proof.Proof.KI.ValAgg1Cover

set_option maxRecDepth 16384

noncomputable section
namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Cert.KernelIdeal Cert.KernelIdeal.Gen
open scoped BigOperators

theorem agg1_hz1 : (![0] : Fin 1 → Nat) = fun _ => 0 := funext fun a => by fin_cases a; rfl

theorem agg1_ld_tile {F : FTy → Type} [FloatOps F] {e : EltTy} (m : Memref sig .tc .vmem S4096 e) (h : m.IsWhole) (x : Vec F S4096 e) :
    View.readAt (Elt F) m.view (Rect.unit (s := S4096) ![0] S4096.size inb_S4096_S4096_0).toLoadRect (h.unread x) = x := by
  rw [View.readAt_eq_ld, h.read_unread, View.ld_unit_zero (S := S4096) agg1_hz1]

variable (c : Dev nD) (i : grid1.Coords)
  (mS : Memref sig .tc .vmem S4096 .i32) (hS : mS.IsWhole) (mD : Memref sig .tc .vmem S4096 .i32) (hD : mD.IsWhole)
  (mW : Memref sig .tc .vmem S4096 .f32) (hW : mW.IsWhole) (mH : Memref sig .tc .vmem S50000x64 .bf16) (hH : mH.IsWhole)
  (mO : Memref sig .tc .vmem S50000x64 .f32) (hO : mO.IsWhole) (mX : Memref sig .tc .vmem S4096x64 .f32) (hX : mX.IsWhole)

theorem agg1_case_core (xs xd : Vec Ideal S4096 .i32) (xw : Vec Ideal S4096 .f32) (xh : Vec Ideal S50000x64 .bf16)
    (g : BufTy.Contents (Elt Ideal) mX.view.ty) (G5 f : BufTy.Contents (Elt Ideal) mO.view.ty) (p : Fin 50000) (q : Fin 64) :
    (mO.view.read (Elt Ideal) (mO.view.writes (Elt Ideal) f
      (pb_k1_t2 (F := Ideal) Variants.none c none i mS hS mD hD mW hW mH hH mO hO mX hX
        (View.readAt (Elt Ideal) mS.view (Rect.unit (s := S4096) ![0] S4096.size inb_S4096_S4096_0).toLoadRect (hS.unread xs))
        (View.readAt (Elt Ideal) mW.view (Rect.unit (s := S4096) ![0] S4096.size inb_S4096_S4096_0).toLoadRect (hW.unread xw))
        (View.readAt (Elt Ideal) mX.view (Rect.unit (s := S4096x64) ![0, 0] S4096x64.size inb_S4096x64_S4096x64_0_0).toLoadRect
          (mX.view.writes (Elt Ideal)
            (mX.view.writes (Elt Ideal) g [⟨Rect.unit (s := S4096x64) ![0, 0] S4096x64.size inb_S4096x64_S4096x64_0_0, k1_pay2 (F := Ideal)⟩])
            (pb_k1_t1 (F := Ideal) Variants.none c none i mS hS mD hD mW hW mH hH mO hO mX hX
              (View.readAt (Elt Ideal) mD.view (Rect.unit (s := S4096) ![0] S4096.size inb_S4096_S4096_0).toLoadRect (hD.unread xd))
              (hH.unread xh)
              (mX.view.writes (Elt Ideal) g [⟨Rect.unit (s := S4096x64) ![0, 0] S4096x64.size inb_S4096x64_S4096x64_0_0, k1_pay2 (F := Ideal)⟩])
              k1_t1_loop.trips)))
        G5 k1_t2_loop.trips)) (ix2 p q) : EReal)
      = (mO.view.read (Elt Ideal) G5 (ix2 p q) : EReal)
        + ∑ e : Fin 4096, Cert.Spec.hot (xs (ix1 e)) p.val
            * ((∑ n : Fin 50000, Cert.Spec.hot (xd (ix1 e)) n.val * (xh (ix2 n q) : EReal)) * (xw (ix1 e) : EReal)) := by
  rw [agg1_ld_tile mS hS xs, agg1_ld_tile mW hW xw, agg1_ld_tile mD hD xd,
    View.readAt_eq_ld, View.ld_unit_zero (S := S4096x64) agg1_hz]
  simp only [trips_k1_t1, trips_k1_t2]
  rw [agg1_scat_base]
  have hb := agg1_body_val Variants.none c none i mS hS mD hD mW hW mH hH mO hO mX hX xd xs xw (hH.unread xh)
    (mX.view.writes (Elt Ideal) g [⟨Rect.unit (s := S4096x64) ![0, 0] S4096x64.size inb_S4096x64_S4096x64_0_0, k1_pay2 (F := Ideal)⟩])
    (fun e j => agg1_scratch_fill mX g e j) G5 p q
  rw [hH.read_unread] at hb
  exact hb

end Cert.KernelIdeal.Val
end
-- ==== Proof.KI.ValAgg1Blk.lean ====
import proofs.«414250_j49357764165687_1_alg».proof.Proof.KI.Agg1Defs
import proofs.«414250_j49357764165687_1_alg».proof.Proof.Spec
import proofs.«414250_j49357764165687_1_alg».proof.Proof.SpecAgg
import Idealize.ShloMosaic.Lib.ValueIdx
import Idealize.ShloMosaic.Lib.Pipeline.Value
import Idealize.ShloMosaic.PureOps.Ideal.Laws

set_option maxRecDepth 16384

noncomputable section
namespace Cert.KernelIdeal.Val

open Idealize.ShloMosaic Idealize.ShloMosaic.TcCoe Idealize.SL.Sem
open Idealize.ShloMosaic.Pipeline (Dat Cfg Window)
open Idealize.ShloMosaic.ValueIdx
open Cert.KernelIdeal Cert.KernelIdeal.Gen
open scoped BigOperators

variable (V : (c : Dev nD) → (b : Ref sig .tc) → Buf (Elt Ideal) ((c : Thread nD τ).loc b))

theorem agg1_idx_facts : ∀ t : Fin cfg1.N, win1_0.index t (0 : Fin 1) = t.val ∧ win1_1.index t (0 : Fin 1) = t.val
    ∧ win1_2.index t (0 : Fin 1) = t.val
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

theorem agg1_iblk_0_apply (c : Dev nD) (t : Fin cfg1.N) (e : Fin 4096) (r : Fin 802816) (hr : r.val = 4096 * t.val + e.val) :
    (H.iblk1 (F := Ideal) V c 0 t : Vec Ideal S4096 .i32) (ix1 e) = (V c main_v18 : S802816.Idx → BitVec 32) (ix1 r) := by
  obtain ⟨e0, e1, e2, e30, e31, e40, e41⟩ := agg1_idx_facts t
  unfold H.iblk1
  rw [View.read_apply]
  show V c main_v18 _ = V c main_v18 _
  congr 1
  funext a
  apply Fin.ext
  match a with
  | ⟨0, _⟩ => show win1_0.index t 0 * 4096 + 1 * e.val = r.val; rw [e0, hr]; omega

theorem agg1_iblk_1_apply (c : Dev nD) (t : Fin cfg1.N) (e : Fin 4096) (r : Fin 802816) (hr : r.val = 4096 * t.val + e.val) :
    (H.iblk1 (F := Ideal) V c 1 t : Vec Ideal S4096 .i32) (ix1 e) = (V c main_v19 : S802816.Idx → BitVec 32) (ix1 r) := by
  obtain ⟨e0, e1, e2, e30, e31, e40, e41⟩ := agg1_idx_facts t
  unfold H.iblk1
  rw [View.read_apply]
  show V c main_v19 _ = V c main_v19 _
  congr 1
  funext a
  apply Fin.ext
  match a with
  | ⟨0, _⟩ => show win1_1.index t 0 * 4096 + 1 * e.val = r.val; rw [e1, hr]; omega

theorem agg1_iblk_2_apply (c : Dev nD) (t : Fin cfg1.N) (e : Fin 4096) (r : Fin 802816) (hr : r.val = 4096 * t.val + e.val) :
    (H.iblk1 (F := Ideal) V c 2 t : Vec Ideal S4096 .f32) (ix1 e) = (V c main_v20 : S802816.Idx → EReal) (ix1 r) := by
  obtain ⟨e0, e1, e2, e30, e31, e40, e41⟩ := agg1_idx_facts t
  unfold H.iblk1
  rw [View.read_apply]
  show V c main_v20 _ = V c main_v20 _
  congr 1
  funext a
  apply Fin.ext
  match a with
  | ⟨0, _⟩ => show win1_2.index t 0 * 4096 + 1 * e.val = r.val; rw [e2, hr]; omega

theorem agg1_iblk_3_apply (c : Dev nD) (t : Fin cfg1.N) (n : Fin 50000) (j : Fin 64) :
    (H.iblk1 (F := Ideal) V c 3 t : Vec Ideal S50000x64 .bf16) (ix2 n j) = (V c main_v21 : S50000x64.Idx → EReal) (ix2 n j) := by
  obtain ⟨e0, e1, e2, e30, e31, e40, e41⟩ := agg1_idx_facts t
  unfold H.iblk1
  rw [View.read_apply]
  show V c main_v21 _ = V c main_v21 _
  congr 1
  funext a
  apply Fin.ext
  match a with
  | ⟨0, _⟩ => show win1_3.index t 0 * 50000 + 1 * n.val = n.val; rw [e30]; omega
  | ⟨1, _⟩ => show win1_3.index t 1 * 64 + 1 * j.val = j.val; rw [e31]; omega

def agg1_share (c : Dev nD) (p : Fin 50000) (q : Fin 64) (t : ℕ) : EReal :=
  if h : t < cfg1.N then
    ∑ e : Fin 4096, Cert.Spec.hot ((H.iblk1 (F := Ideal) V c 0 ⟨t, h⟩ : Vec Ideal S4096 .i32) (ix1 e)) p.val
      * ((∑ n : Fin 50000, Cert.Spec.hot ((H.iblk1 (F := Ideal) V c 1 ⟨t, h⟩ : Vec Ideal S4096 .i32) (ix1 e)) n.val
            * ((H.iblk1 (F := Ideal) V c 3 ⟨t, h⟩ : Vec Ideal S50000x64 .bf16) (ix2 n q) : EReal))
          * ((H.iblk1 (F := Ideal) V c 2 ⟨t, h⟩ : Vec Ideal S4096 .f32) (ix1 e) : EReal))
  else 0

theorem agg1_share_eq (c : Dev nD) (p : Fin 50000) (q : Fin 64) (t : Fin 196) :
    agg1_share V c p q t.val
      = ∑ e : Fin 4096, Cert.Spec.hot ((V c main_v18 : S802816.Idx → BitVec 32) (ix1 (Cert.SpecAgg.edgeAt t e))) p.val
          * (Cert.Spec.pick (fun r => (V c main_v19 : S802816.Idx → BitVec 32) (ix1 r))
                (fun n k => (V c main_v21 : S50000x64.Idx → EReal) (ix2 n k)) (Cert.SpecAgg.edgeAt t e) q
              * (V c main_v20 : S802816.Idx → EReal) (ix1 (Cert.SpecAgg.edgeAt t e))) := by
  have hN : cfg1.N = 196 := N_1
  have ht : t.val < cfg1.N := by rw [hN]; exact t.isLt
  unfold agg1_share
  rw [dif_pos ht]
  refine Finset.sum_congr rfl fun e _ => ?_
  rw [agg1_iblk_0_apply V c ⟨t.val, ht⟩ e (Cert.SpecAgg.edgeAt t e) (Cert.SpecAgg.edgeAt_val t e),
    agg1_iblk_1_apply V c ⟨t.val, ht⟩ e (Cert.SpecAgg.edgeAt t e) (Cert.SpecAgg.edgeAt_val t e),
    agg1_iblk_2_apply V c ⟨t.val, ht⟩ e (Cert.SpecAgg.edgeAt t e) (Cert.SpecAgg.edgeAt_val t e)]
  unfold Cert.Spec.pick
  simp only [agg1_iblk_3_apply V c ⟨t.val, ht⟩]

end Cert.KernelIdeal.Val
end
-- ==== Proof.KI.ValAgg1Last.lean ====
import proofs.«414250_j49357764165687_1_alg».proof.Proof.Gen.KernelIdeal.Launch
import proofs.«414250_j49357764165687_1_alg».proof.Proof.Gen.KernelIdeal.Skeleton
import proofs.«414250_j49357764165687_1_alg».proof.Proof.Gen.KernelIdeal.Points
import Idealize.ShloMosaic.Lib.Pipeline.Value

set_option maxRecDepth 16384

noncomputable section

namespace Cert.KernelIdeal.Val

open Idealize.ShloMosaic Idealize.ShloMosaic.TcCoe Idealize.SL.Sem
open Idealize.ShloMosaic.Pipeline (Dat Cfg Window)
open Cert.KernelIdeal Cert.KernelIdeal.Gen

variable {F : FTy → Type} [FloatOps F]

def agg1_last_t : Fin cfg1.N := ⟨195, by rw [show cfg1.N = 196 from N_1]; decide⟩

theorem agg1_last_idx : ∀ t : Fin cfg1.N, win1_4.index t (0 : Fin 2) = 0 ∧ win1_4.index t (1 : Fin 2) = 0 :=
  (by decide +kernel : ∀ t : Fin grid1.N, _)

theorem agg1_last_of_flush (t : Fin cfg1.N) (hf : (cfg1.win 4).flush t = true) : t = agg1_last_t := by
  have hN : cfg1.N = 196 := N_1
  have h1 := (flush1_4 t).mp hf
  have h2 := t.isLt
  exact Fin.ext (show t.val = 195 by omega)

theorem agg1_last_flush : (cfg1.win 4).flush agg1_last_t = true := (flush1_4 agg1_last_t).mpr (by decide)

theorem agg1_last_read (c : Dev nD) (t : Fin cfg1.N) (G : Buf (Elt F) ((c : Thread nD τ).loc main_v22)) :
    ((cfg1.win 4).blk t).view.read (Elt F) G = G := by
  obtain ⟨e0, e1⟩ := agg1_last_idx t
  funext j
  rw [View.read_apply]
  show G _ = G j
  congr 1
  funext a
  apply Fin.ext
  match a with
  | ⟨0, _⟩ => show win1_4.index t 0 * 50000 + 1 * (j 0).val = (j 0).val; rw [e0]; omega
  | ⟨1, _⟩ => show win1_4.index t 1 * 64 + 1 * (j 1).val = (j 1).val; rw [e1]; omega

theorem agg1_last_mem (t : Fin cfg1.N) (i : S50000x64.Idx) : i ∈ ((cfg1.win 4).blk t).view.set := by
  obtain ⟨e0, e1⟩ := agg1_last_idx t
  have hi0 : (i 0).val < 50000 := (i 0).isLt
  have hi1 : (i 1).val < 64 := (i 1).isLt
  show i ∈ ((View.whole main_v22).slice (win1_4.rect t)).set
  rw [View.set_slice_whole, Rect.mem_set_unit]
  intro a
  match a with
  | ⟨0, _⟩ =>
    show win1_4.index t (0 : Fin 2) * 50000 ≤ (i 0).val ∧ (i 0).val < win1_4.index t (0 : Fin 2) * 50000 + 50000
    rw [e0]; omega
  | ⟨1, _⟩ =>
    show win1_4.index t (1 : Fin 2) * 64 ≤ (i 1).val ∧ (i 1).val < win1_4.index t (1 : Fin 2) * 64 + 64
    rw [e1]; omega

theorem agg1_last_arrAt {c : Dev nD} (dat : Dat τ (Elt F) Unit ℕ (UR sig nD τ) ℕ cfg1 c) :
    (dat.arrAt 4 cfg1.N : Buf (Elt F) ((c : Thread nD τ).loc main_v22)) = dat.after 4 agg1_last_t :=
  dat.arrAt_eq_of_cover 4 (dat.after 4 agg1_last_t)
    (fun t hf => by
      rw [agg1_last_of_flush t hf]
      exact (agg1_last_read c agg1_last_t (dat.after 4 agg1_last_t)).symm)
    (fun i => ⟨agg1_last_t, agg1_last_flush, agg1_last_mem agg1_last_t i⟩)

end Cert.KernelIdeal.Val

end
-- ==== Proof.SpecAggFold.lean ====
import proofs.«414250_j49357764165687_1_alg».proof.Proof.SpecAgg

noncomputable section

open scoped BigOperators

namespace Cert.SpecAgg

open Cert.Spec Cert.LibSums

theorem agg_run (acc T : ℕ → EReal) (hA : acc 0 = 0 + T 0)
    (hB : ∀ t, t ≠ 0 → t < 195 → acc t = acc (t - 1) + T t)
    (hC : acc 195 = max (acc 194 + T 195) 0) :
    acc 195 = max (∑ t ∈ Finset.range 196, T t) 0 := by
  have h := fold_add 195 (fun n => match n with | 0 => (0 : EReal) | n + 1 => acc n) T 0 rfl
    (fun k hk => by
      match k with
      | 0 => exact hA
      | k + 1 =>
        show acc (k + 1) = acc k + T (k + 1)
        exact hB (k + 1) (Nat.succ_ne_zero k) hk) 195 (le_refl _)
  have h194 : acc 194 = 0 + ∑ i ∈ Finset.range 195, T i := h
  rw [hC, h194, zero_add, ← Finset.sum_range_succ]

theorem agg_shares (srcp dstp : Fin EP → BitVec 32) (wp : Fin EP → EReal) (H : Fin NN → Fin DD → EReal) (p : Fin NN) (q : Fin DD)
    (T : ℕ → EReal)
    (hT : ∀ t : Fin 196, T t.val
      = ∑ e : Fin 4096, hot (srcp (edgeAt t e)) p.val * (pick dstp H (edgeAt t e) q * wp (edgeAt t e))) :
    ∑ t ∈ Finset.range 196, T t = aggHot srcp dstp wp H p q := by
  rw [Finset.sum_range, ← agg_tiles]
  exact Finset.sum_congr rfl fun t _ => hT t

end Cert.SpecAgg

end
-- ==== Proof.KI.ValAgg1.lean ====
import proofs.«414250_j49357764165687_1_alg».proof.Proof.KI.Agg1Defs
import proofs.«414250_j49357764165687_1_alg».proof.Proof.KI.ValAgg1Case
import proofs.«414250_j49357764165687_1_alg».proof.Proof.KI.ValAgg1Blk
import proofs.«414250_j49357764165687_1_alg».proof.Proof.KI.ValAgg1Last
import proofs.«414250_j49357764165687_1_alg».proof.Proof.SpecAggFold

set_option maxRecDepth 16384

noncomputable section
namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Cert.KernelIdeal Cert.KernelIdeal.Gen
open scoped BigOperators
open Idealize.ShloMosaic.Pipeline (Dat Cfg Window)

section Outs
variable (c : Dev nD) (i : grid1.Coords)
  (mS : Memref sig .tc .vmem S4096 .i32) (hS : mS.IsWhole) (mD : Memref sig .tc .vmem S4096 .i32) (hD : mD.IsWhole)
  (mW : Memref sig .tc .vmem S4096 .f32) (hW : mW.IsWhole) (mH : Memref sig .tc .vmem S50000x64 .bf16) (hH : mH.IsWhole)
  (mO : Memref sig .tc .vmem S50000x64 .f32) (hO : mO.IsWhole) (mX : Memref sig .tc .vmem S4096x64 .f32) (hX : mX.IsWhole)

theorem agg1_out_B_val (hca : ¬H.cond1_a i) (hcz : ¬H.cond1_z i)
    (xs xd : Vec Ideal S4096 .i32) (xw : Vec Ideal S4096 .f32) (xh : Vec Ideal S50000x64 .bf16) (xo : Vec Ideal S50000x64 .f32)
    (p : Fin 50000) (q : Fin 64) :
    (H.out1_B (F := Ideal) c i mS hS mD hD mW hW mH hH mO hO mX hX hca hcz xs xd xw xh xo (ix2 p q) : EReal)
      = (xo (ix2 p q) : EReal)
        + ∑ e : Fin 4096, Cert.Spec.hot (xs (ix1 e)) p.val
            * ((∑ n : Fin 50000, Cert.Spec.hot (xd (ix1 e)) n.val * (xh (ix2 n q) : EReal)) * (xw (ix1 e) : EReal)) := by
  unfold H.out1_B H.kernelRun1_B
  dsimp only
  sl_unfold_words
  rw [View.writes_append]
  have h := agg1_case_core c i mS hS mD hD mW hW mH hH mO hO mX hX xs xd xw xh mX.view.junk (hO.unread xo) mO.view.junk p q
  rw [hO.read_unread] at h
  exact h

theorem agg1_out_A_val (hca : H.cond1_a i) (hcz : ¬H.cond1_z i)
    (xs xd : Vec Ideal S4096 .i32) (xw : Vec Ideal S4096 .f32) (xh : Vec Ideal S50000x64 .bf16)
    (p : Fin 50000) (q : Fin 64) :
    (H.out1_A (F := Ideal) c i mS hS mD hD mW hW mH hH mO hO mX hX hca hcz xs xd xw xh (ix2 p q) : EReal)
      = 0 + ∑ e : Fin 4096, Cert.Spec.hot (xs (ix1 e)) p.val
            * ((∑ n : Fin 50000, Cert.Spec.hot (xd (ix1 e)) n.val * (xh (ix2 n q) : EReal)) * (xw (ix1 e) : EReal)) := by
  unfold H.out1_A H.kernelRun1_A
  dsimp only
  sl_unfold_words
  rw [View.writes_append, View.writes_append]
  have h := agg1_case_core c i mS hS mD hD mW hW mH hH mO hO mX hX xs xd xw xh mX.view.junk
    (mO.view.writes (Elt Ideal) mO.view.junk [⟨Rect.unit (s := S50000x64) ![0, 0] S50000x64.size inb_S50000x64_S50000x64_0_0, k1_pay1 (F := Ideal)⟩])
    (mO.view.writes (Elt Ideal) mO.view.junk [⟨Rect.unit (s := S50000x64) ![0, 0] S50000x64.size inb_S50000x64_S50000x64_0_0, k1_pay1 (F := Ideal)⟩]) p q
  rw [agg1_out_fill] at h
  exact h

theorem agg1_out_C_val (hca : ¬H.cond1_a i) (hcz : H.cond1_z i)
    (xs xd : Vec Ideal S4096 .i32) (xw : Vec Ideal S4096 .f32) (xh : Vec Ideal S50000x64 .bf16) (xo : Vec Ideal S50000x64 .f32)
    (p : Fin 50000) (q : Fin 64) :
    (H.out1_C (F := Ideal) c i mS hS mD hD mW hW mH hH mO hO mX hX hca hcz xs xd xw xh xo (ix2 p q) : EReal)
      = max ((xo (ix2 p q) : EReal)
        + ∑ e : Fin 4096, Cert.Spec.hot (xs (ix1 e)) p.val
            * ((∑ n : Fin 50000, Cert.Spec.hot (xd (ix1 e)) n.val * (xh (ix2 n q) : EReal)) * (xw (ix1 e) : EReal))) 0 := by
  unfold H.out1_C H.kernelRun1_C
  dsimp only
  sl_unfold_words
  rw [View.read_writes_eq_canon _ _ _ (fun y => ⟨_, List.mem_cons_self, View.mem_set_unit_zero agg1_hz inb_S50000x64_S50000x64_0_0 y⟩),
    View.canon_cons_unit_zero (S := S50000x64) agg1_hz, k1_pay5_apply, View.readAt_eq_ld, View.ld_unit_zero (S := S50000x64) agg1_hz,
    View.writes_append]
  have h := agg1_case_core c i mS hS mD hD mW hW mH hH mO hO mX hX xs xd xw xh mX.view.junk (hO.unread xo) (hO.unread xo) p q
  rw [hO.read_unread] at h
  rw [h]

end Outs

section Final
variable (V : (c : Dev nD) → (b : Ref sig .tc) → Buf (Elt Ideal) ((c : Thread nD τ).loc b))

theorem agg1_acc_A (c : Dev nD) (p : Fin 50000) (q : Fin 64) (t : Fin cfg1.N) (h0 : t.val = 0) :
    (H.acc1 (F := Ideal) V c t.val t.isLt (ix2 p q) : EReal) = 0 + agg1_share V c p q t.val := by
  rw [H.acc1_A V c t h0, agg1_out_A_val]
  unfold agg1_share
  rw [dif_pos t.isLt]

theorem agg1_acc_B (c : Dev nD) (p : Fin 50000) (q : Fin 64) (t : Fin cfg1.N) (h0 : t.val ≠ 0) (hz : t.val ≠ 195) :
    (H.acc1 (F := Ideal) V c t.val t.isLt (ix2 p q) : EReal)
      = (H.acc1 (F := Ideal) V c (t.val - 1) (Nat.lt_of_le_of_lt (Nat.sub_le _ _) t.isLt) (ix2 p q) : EReal) + agg1_share V c p q t.val := by
  rw [H.acc1_B V c t h0 hz, agg1_out_B_val]
  unfold agg1_share
  rw [dif_pos t.isLt]

theorem agg1_acc_C (c : Dev nD) (p : Fin 50000) (q : Fin 64) (t : Fin cfg1.N) (hz : t.val = 195) :
    (H.acc1 (F := Ideal) V c t.val t.isLt (ix2 p q) : EReal)
      = max ((H.acc1 (F := Ideal) V c (t.val - 1) (Nat.lt_of_le_of_lt (Nat.sub_le _ _) t.isLt) (ix2 p q) : EReal) + agg1_share V c p q t.val) 0 := by
  rw [H.acc1_C V c t hz, agg1_out_C_val]
  unfold agg1_share
  rw [dif_pos t.isLt]

theorem agg1_arr (c : Dev nD) (p : Fin 50000) (q : Fin 64) :
    ((H.dat1 (F := Ideal) V c).arrAt 4 cfg1.N : S50000x64.Idx → EReal) (ix2 p q)
      = max (Cert.Spec.aggHot (fun e => (V c main_v18 : S802816.Idx → BitVec 32) (ix1 e)) (fun e => (V c main_v19 : S802816.Idx → BitVec 32) (ix1 e))
               (fun e => (V c main_v20 : S802816.Idx → EReal) (ix1 e)) (fun n k => (V c main_v21 : S50000x64.Idx → EReal) (ix2 n k)) p q) 0 := by
  have hN : cfg1.N = 196 := N_1
  have h195 : 195 < cfg1.N := by rw [hN]; decide
  rw [agg1_last_arrAt (H.dat1 (F := Ideal) V c), H.after1_4]

  have hrun := Cert.SpecAgg.agg_run
    (fun n => if h : n < cfg1.N then (H.acc1 (F := Ideal) V c n h (ix2 p q) : EReal) else 0) (agg1_share V c p q)
    (by
      have h0 : 0 < cfg1.N := by rw [hN]; decide
      show (if h : 0 < cfg1.N then (H.acc1 (F := Ideal) V c 0 h (ix2 p q) : EReal) else 0) = _
      rw [dif_pos h0]
      exact agg1_acc_A V c p q ⟨0, h0⟩ rfl)
    (fun t ht0 ht => by
      have h1 : t < cfg1.N := by rw [hN]; omega
      have h2 : t - 1 < cfg1.N := by rw [hN]; omega
      show (if h : t < cfg1.N then (H.acc1 (F := Ideal) V c t h (ix2 p q) : EReal) else 0)
        = (if h : t - 1 < cfg1.N then (H.acc1 (F := Ideal) V c (t - 1) h (ix2 p q) : EReal) else 0) + _
      rw [dif_pos h1, dif_pos h2]
      exact agg1_acc_B V c p q ⟨t, h1⟩ ht0 (by show t ≠ 195; omega))
    (by
      have h194 : 194 < cfg1.N := by rw [hN]; decide
      show (if h : 195 < cfg1.N then (H.acc1 (F := Ideal) V c 195 h (ix2 p q) : EReal) else 0)
        = max ((if h : 194 < cfg1.N then (H.acc1 (F := Ideal) V c 194 h (ix2 p q) : EReal) else 0) + _) 0
      rw [dif_pos h195, dif_pos h194]
      exact agg1_acc_C V c p q ⟨195, h195⟩ rfl)
  have h195' : (if h : 195 < cfg1.N then (H.acc1 (F := Ideal) V c 195 h (ix2 p q) : EReal) else 0)
      = (H.acc1 (F := Ideal) V c agg1_last_t.val agg1_last_t.isLt (ix2 p q) : EReal) := dif_pos h195
  rw [← h195', hrun]
  exact congrArg (fun x : EReal => max x 0) (Cert.SpecAgg.agg_shares _ _ _ _ p q _ (agg1_share_eq V c p q))

end Final

end Cert.KernelIdeal.Val
end
-- ==== Proof.KI.ValAgg3Blk.lean ====
/-
  The blocks the first aggregation region reads at a grid point, and the point's share of the aggregation.

  Tile t of each of the three edge arrays (source words, target words, weights) is positions 4096·t … 4096·t + 4095 of the
  padded array; the node rows' block is the whole array at every point.  So the sum the body adds at point t, written
  over the blocks, is tile t's part of the aggregation's one-hot spelling over the whole arrays.
-/
import proofs.«414250_j49357764165687_1_alg».proof.Proof.KI.Agg3Defs
import proofs.«414250_j49357764165687_1_alg».proof.Proof.Spec
import proofs.«414250_j49357764165687_1_alg».proof.Proof.SpecAgg
import Idealize.ShloMosaic.Lib.ValueIdx
import Idealize.ShloMosaic.Lib.Pipeline.Value
import Idealize.ShloMosaic.PureOps.Ideal.Laws

set_option maxRecDepth 16384

noncomputable section
namespace Cert.KernelIdeal.Val

open Idealize.ShloMosaic Idealize.ShloMosaic.TcCoe Idealize.SL.Sem
open Idealize.ShloMosaic.Pipeline (Dat Cfg Window)
open Idealize.ShloMosaic.ValueIdx
open Cert.KernelIdeal Cert.KernelIdeal.Gen
open scoped BigOperators

variable (V : (c : Dev nD) → (b : Ref sig .tc) → Buf (Elt Ideal) ((c : Thread nD τ).loc b))

/-- The printed index maps, decided over the 196 grid points: the three edge arrays' tile is the point's number; the node
    rows and the output are one block. -/
theorem agg3_idx_facts : ∀ t : Fin cfg3.N, win3_0.index t (0 : Fin 1) = t.val ∧ win3_1.index t (0 : Fin 1) = t.val
    ∧ win3_2.index t (0 : Fin 1) = t.val
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

/-- Tile t of the source words is edges 4096·t … 4096·t + 4095. -/
theorem agg3_iblk_0_apply (c : Dev nD) (t : Fin cfg3.N) (e : Fin 4096) (r : Fin 802816) (hr : r.val = 4096 * t.val + e.val) :
    (H.iblk3 (F := Ideal) V c 0 t : Vec Ideal S4096 .i32) (ix1 e) = (V c main_v37 : S802816.Idx → BitVec 32) (ix1 r) := by
  obtain ⟨e0, e1, e2, e30, e31, e40, e41⟩ := agg3_idx_facts t
  unfold H.iblk3
  rw [View.read_apply]
  show V c main_v37 _ = V c main_v37 _
  congr 1
  funext a
  apply Fin.ext
  match a with
  | ⟨0, _⟩ => show win3_0.index t 0 * 4096 + 1 * e.val = r.val; rw [e0, hr]; omega

/-- Tile t of the target words likewise. -/
theorem agg3_iblk_1_apply (c : Dev nD) (t : Fin cfg3.N) (e : Fin 4096) (r : Fin 802816) (hr : r.val = 4096 * t.val + e.val) :
    (H.iblk3 (F := Ideal) V c 1 t : Vec Ideal S4096 .i32) (ix1 e) = (V c main_v38 : S802816.Idx → BitVec 32) (ix1 r) := by
  obtain ⟨e0, e1, e2, e30, e31, e40, e41⟩ := agg3_idx_facts t
  unfold H.iblk3
  rw [View.read_apply]
  show V c main_v38 _ = V c main_v38 _
  congr 1
  funext a
  apply Fin.ext
  match a with
  | ⟨0, _⟩ => show win3_1.index t 0 * 4096 + 1 * e.val = r.val; rw [e1, hr]; omega

/-- Tile t of the weights likewise. -/
theorem agg3_iblk_2_apply (c : Dev nD) (t : Fin cfg3.N) (e : Fin 4096) (r : Fin 802816) (hr : r.val = 4096 * t.val + e.val) :
    (H.iblk3 (F := Ideal) V c 2 t : Vec Ideal S4096 .f32) (ix1 e) = (V c main_v39 : S802816.Idx → EReal) (ix1 r) := by
  obtain ⟨e0, e1, e2, e30, e31, e40, e41⟩ := agg3_idx_facts t
  unfold H.iblk3
  rw [View.read_apply]
  show V c main_v39 _ = V c main_v39 _
  congr 1
  funext a
  apply Fin.ext
  match a with
  | ⟨0, _⟩ => show win3_2.index t 0 * 4096 + 1 * e.val = r.val; rw [e2, hr]; omega

/-- The node rows' block at every point is the whole array. -/
theorem agg3_iblk_3_apply (c : Dev nD) (t : Fin cfg3.N) (n : Fin 50000) (j : Fin 64) :
    (H.iblk3 (F := Ideal) V c 3 t : Vec Ideal S50000x64 .bf16) (ix2 n j) = (V c main_v40 : S50000x64.Idx → EReal) (ix2 n j) := by
  obtain ⟨e0, e1, e2, e30, e31, e40, e41⟩ := agg3_idx_facts t
  unfold H.iblk3
  rw [View.read_apply]
  show V c main_v40 _ = V c main_v40 _
  congr 1
  funext a
  apply Fin.ext
  match a with
  | ⟨0, _⟩ => show win3_3.index t 0 * 50000 + 1 * n.val = n.val; rw [e30]; omega
  | ⟨1, _⟩ => show win3_3.index t 1 * 64 + 1 * j.val = j.val; rw [e31]; omega

/-! ## A tile's share of the aggregation, read off the region's blocks -/

/-- Tile t's share at node p and column q, over the blocks the region reads at point t: the sum over the tile's edges of
    the indicator "the source word is p" times the selected row entry times the weight (zero past the grid). -/
def agg3_share (c : Dev nD) (p : Fin 50000) (q : Fin 64) (t : ℕ) : EReal :=
  if h : t < cfg3.N then
    ∑ e : Fin 4096, Cert.Spec.hot ((H.iblk3 (F := Ideal) V c 0 ⟨t, h⟩ : Vec Ideal S4096 .i32) (ix1 e)) p.val
      * ((∑ n : Fin 50000, Cert.Spec.hot ((H.iblk3 (F := Ideal) V c 1 ⟨t, h⟩ : Vec Ideal S4096 .i32) (ix1 e)) n.val
            * ((H.iblk3 (F := Ideal) V c 3 ⟨t, h⟩ : Vec Ideal S50000x64 .bf16) (ix2 n q) : EReal))
          * ((H.iblk3 (F := Ideal) V c 2 ⟨t, h⟩ : Vec Ideal S4096 .f32) (ix1 e) : EReal))
  else 0

/-- The share is the tile's part of the one-hot spelling over the whole arrays. -/
theorem agg3_share_eq (c : Dev nD) (p : Fin 50000) (q : Fin 64) (t : Fin 196) :
    agg3_share V c p q t.val
      = ∑ e : Fin 4096, Cert.Spec.hot ((V c main_v37 : S802816.Idx → BitVec 32) (ix1 (Cert.SpecAgg.edgeAt t e))) p.val
          * (Cert.Spec.pick (fun r => (V c main_v38 : S802816.Idx → BitVec 32) (ix1 r))
                (fun n k => (V c main_v40 : S50000x64.Idx → EReal) (ix2 n k)) (Cert.SpecAgg.edgeAt t e) q
              * (V c main_v39 : S802816.Idx → EReal) (ix1 (Cert.SpecAgg.edgeAt t e))) := by
  have hN : cfg3.N = 196 := N_3
  have ht : t.val < cfg3.N := by rw [hN]; exact t.isLt
  unfold agg3_share
  rw [dif_pos ht]
  refine Finset.sum_congr rfl fun e _ => ?_
  rw [agg3_iblk_0_apply V c ⟨t.val, ht⟩ e (Cert.SpecAgg.edgeAt t e) (Cert.SpecAgg.edgeAt_val t e),
    agg3_iblk_1_apply V c ⟨t.val, ht⟩ e (Cert.SpecAgg.edgeAt t e) (Cert.SpecAgg.edgeAt_val t e),
    agg3_iblk_2_apply V c ⟨t.val, ht⟩ e (Cert.SpecAgg.edgeAt t e) (Cert.SpecAgg.edgeAt_val t e)]
  unfold Cert.Spec.pick
  simp only [agg3_iblk_3_apply V c ⟨t.val, ht⟩]

end Cert.KernelIdeal.Val
end
-- ==== Proof.KI.ValAgg3Last.lean ====
/-
  The first aggregation region's result array after the region.  The output window's block is the whole array at a
  block index that never changes, and the block is written back at one grid point only, the last of the 196.  So the
  array ends holding exactly what the body left in the output window's buffer at the last point: reading the whole
  array through that one block gives the array back, the one block covers every index, and no earlier point writes.
  Nothing here depends on what the body computes: the statement is over any proof data of the region.
-/
import proofs.«414250_j49357764165687_1_alg».proof.Proof.Gen.KernelIdeal.Launch
import proofs.«414250_j49357764165687_1_alg».proof.Proof.Gen.KernelIdeal.Skeleton
import proofs.«414250_j49357764165687_1_alg».proof.Proof.Gen.KernelIdeal.Points
import Idealize.ShloMosaic.Lib.Pipeline.Value

set_option maxRecDepth 16384

noncomputable section

namespace Cert.KernelIdeal.Val

open Idealize.ShloMosaic Idealize.ShloMosaic.TcCoe Idealize.SL.Sem
open Idealize.ShloMosaic.Pipeline (Dat Cfg Window)
open Cert.KernelIdeal Cert.KernelIdeal.Gen

variable {F : FTy → Type} [FloatOps F]

/-- The last of the 196 grid points. -/
def agg3_last_t : Fin cfg3.N := ⟨195, by rw [show cfg3.N = 196 from N_3]; decide⟩

/-- The output window's printed index map, decided over the 196 points: block (0, 0) at every point. -/
theorem agg3_last_idx : ∀ t : Fin cfg3.N, win3_4.index t (0 : Fin 2) = 0 ∧ win3_4.index t (1 : Fin 2) = 0 :=
  (by decide +kernel : ∀ t : Fin grid3.N, _)

/-- The only point that writes the output window's block back is the last one. -/
theorem agg3_last_of_flush (t : Fin cfg3.N) (hf : (cfg3.win 4).flush t = true) : t = agg3_last_t := by
  have hN : cfg3.N = 196 := N_3
  have h1 := (flush3_4 t).mp hf
  have h2 := t.isLt
  exact Fin.ext (show t.val = 195 by omega)

/-- The last point does write it back. -/
theorem agg3_last_flush : (cfg3.win 4).flush agg3_last_t = true := (flush3_4 agg3_last_t).mpr (by decide)

/-- The output window's block at any point is the whole array: reading contents of the array through it gives the
    contents back. -/
theorem agg3_last_read (c : Dev nD) (t : Fin cfg3.N) (G : Buf (Elt F) ((c : Thread nD τ).loc main_v41)) :
    ((cfg3.win 4).blk t).view.read (Elt F) G = G := by
  obtain ⟨e0, e1⟩ := agg3_last_idx t
  funext j
  rw [View.read_apply]
  show G _ = G j
  congr 1
  funext a
  apply Fin.ext
  match a with
  | ⟨0, _⟩ => show win3_4.index t 0 * 50000 + 1 * (j 0).val = (j 0).val; rw [e0]; omega
  | ⟨1, _⟩ => show win3_4.index t 1 * 64 + 1 * (j 1).val = (j 1).val; rw [e1]; omega

/-- Every index of the array lies in the output window's block at any point. -/
theorem agg3_last_mem (t : Fin cfg3.N) (i : S50000x64.Idx) : i ∈ ((cfg3.win 4).blk t).view.set := by
  obtain ⟨e0, e1⟩ := agg3_last_idx t
  have hi0 : (i 0).val < 50000 := (i 0).isLt
  have hi1 : (i 1).val < 64 := (i 1).isLt
  show i ∈ ((View.whole main_v41).slice (win3_4.rect t)).set
  rw [View.set_slice_whole, Rect.mem_set_unit]
  intro a
  match a with
  | ⟨0, _⟩ =>
    show win3_4.index t (0 : Fin 2) * 50000 ≤ (i 0).val ∧ (i 0).val < win3_4.index t (0 : Fin 2) * 50000 + 50000
    rw [e0]; omega
  | ⟨1, _⟩ =>
    show win3_4.index t (1 : Fin 2) * 64 ≤ (i 1).val ∧ (i 1).val < win3_4.index t (1 : Fin 2) * 64 + 64
    rw [e1]; omega

/-- THE RESULT ARRAY AFTER THE REGION is what the body left in the output window's buffer at the last grid point,
    for any proof data of the region. -/
theorem agg3_last_arrAt {c : Dev nD} (dat : Dat τ (Elt F) Unit ℕ (UR sig nD τ) ℕ cfg3 c) :
    (dat.arrAt 4 cfg3.N : Buf (Elt F) ((c : Thread nD τ).loc main_v41)) = dat.after 4 agg3_last_t :=
  dat.arrAt_eq_of_cover 4 (dat.after 4 agg3_last_t)
    (fun t hf => by
      rw [agg3_last_of_flush t hf]
      exact (agg3_last_read c agg3_last_t (dat.after 4 agg3_last_t)).symm)
    (fun i => ⟨agg3_last_t, agg3_last_flush, agg3_last_mem agg3_last_t i⟩)

end Cert.KernelIdeal.Val

end
-- ==== Proof.KI.ValAgg3.lean ====
/-
  The second aggregation region's value: its accumulator is the first region's three cases of the body read at this
  region's blocks, so the array ends at the maximum with zero of the sum of the 196 tiles' shares.
-/
import proofs.«414250_j49357764165687_1_alg».proof.Proof.KI.Agg3Defs
import proofs.«414250_j49357764165687_1_alg».proof.Proof.KI.ValAgg1
import proofs.«414250_j49357764165687_1_alg».proof.Proof.KI.ValAgg3Blk
import proofs.«414250_j49357764165687_1_alg».proof.Proof.KI.ValAgg3Last
import proofs.«414250_j49357764165687_1_alg».proof.Proof.SpecAggFold

set_option maxRecDepth 16384

noncomputable section
namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Cert.KernelIdeal Cert.KernelIdeal.Gen
open scoped BigOperators
open Idealize.ShloMosaic.Pipeline (Dat Cfg Window)

section Final
variable (V : (c : Dev nD) → (b : Ref sig .tc) → Buf (Elt Ideal) ((c : Thread nD τ).loc b))

theorem agg3_acc_A (c : Dev nD) (p : Fin 50000) (q : Fin 64) (t : Fin cfg3.N) (h0 : t.val = 0) :
    (H.acc3 (F := Ideal) V c t.val t.isLt (ix2 p q) : EReal) = 0 + agg3_share V c p q t.val := by
  rw [H.acc3_A V c t h0, agg1_out_A_val]
  unfold agg3_share
  rw [dif_pos t.isLt]

theorem agg3_acc_B (c : Dev nD) (p : Fin 50000) (q : Fin 64) (t : Fin cfg3.N) (h0 : t.val ≠ 0) (hz : t.val ≠ 195) :
    (H.acc3 (F := Ideal) V c t.val t.isLt (ix2 p q) : EReal)
      = (H.acc3 (F := Ideal) V c (t.val - 1) (Nat.lt_of_le_of_lt (Nat.sub_le _ _) t.isLt) (ix2 p q) : EReal) + agg3_share V c p q t.val := by
  rw [H.acc3_B V c t h0 hz, agg1_out_B_val]
  unfold agg3_share
  rw [dif_pos t.isLt]

theorem agg3_acc_C (c : Dev nD) (p : Fin 50000) (q : Fin 64) (t : Fin cfg3.N) (hz : t.val = 195) :
    (H.acc3 (F := Ideal) V c t.val t.isLt (ix2 p q) : EReal)
      = max ((H.acc3 (F := Ideal) V c (t.val - 1) (Nat.lt_of_le_of_lt (Nat.sub_le _ _) t.isLt) (ix2 p q) : EReal) + agg3_share V c p q t.val) 0 := by
  rw [H.acc3_C V c t hz, agg1_out_C_val]
  unfold agg3_share
  rw [dif_pos t.isLt]

theorem agg3_arr (c : Dev nD) (p : Fin 50000) (q : Fin 64) :
    ((H.dat3 (F := Ideal) V c).arrAt 4 cfg3.N : S50000x64.Idx → EReal) (ix2 p q)
      = max (Cert.Spec.aggHot (fun e => (V c main_v37 : S802816.Idx → BitVec 32) (ix1 e)) (fun e => (V c main_v38 : S802816.Idx → BitVec 32) (ix1 e))
               (fun e => (V c main_v39 : S802816.Idx → EReal) (ix1 e)) (fun n k => (V c main_v40 : S50000x64.Idx → EReal) (ix2 n k)) p q) 0 := by
  have hN : cfg3.N = 196 := N_3
  have h195 : 195 < cfg3.N := by rw [hN]; decide
  rw [agg3_last_arrAt (H.dat3 (F := Ideal) V c), H.after3_4]

  have hrun := Cert.SpecAgg.agg_run
    (fun n => if h : n < cfg3.N then (H.acc3 (F := Ideal) V c n h (ix2 p q) : EReal) else 0) (agg3_share V c p q)
    (by
      have h0 : 0 < cfg3.N := by rw [hN]; decide
      show (if h : 0 < cfg3.N then (H.acc3 (F := Ideal) V c 0 h (ix2 p q) : EReal) else 0) = _
      rw [dif_pos h0]
      exact agg3_acc_A V c p q ⟨0, h0⟩ rfl)
    (fun t ht0 ht => by
      have h1 : t < cfg3.N := by rw [hN]; omega
      have h2 : t - 1 < cfg3.N := by rw [hN]; omega
      show (if h : t < cfg3.N then (H.acc3 (F := Ideal) V c t h (ix2 p q) : EReal) else 0)
        = (if h : t - 1 < cfg3.N then (H.acc3 (F := Ideal) V c (t - 1) h (ix2 p q) : EReal) else 0) + _
      rw [dif_pos h1, dif_pos h2]
      exact agg3_acc_B V c p q ⟨t, h1⟩ ht0 (by show t ≠ 195; omega))
    (by
      have h194 : 194 < cfg3.N := by rw [hN]; decide
      show (if h : 195 < cfg3.N then (H.acc3 (F := Ideal) V c 195 h (ix2 p q) : EReal) else 0)
        = max ((if h : 194 < cfg3.N then (H.acc3 (F := Ideal) V c 194 h (ix2 p q) : EReal) else 0) + _) 0
      rw [dif_pos h195, dif_pos h194]
      exact agg3_acc_C V c p q ⟨195, h195⟩ rfl)
  have h195' : (if h : 195 < cfg3.N then (H.acc3 (F := Ideal) V c 195 h (ix2 p q) : EReal) else 0)
      = (H.acc3 (F := Ideal) V c agg3_last_t.val agg3_last_t.isLt (ix2 p q) : EReal) := dif_pos h195
  rw [← h195', hrun]
  exact congrArg (fun x : EReal => max x 0) (Cert.SpecAgg.agg_shares _ _ _ _ p q _ (agg3_share_eq V c p q))

end Final

end Cert.KernelIdeal.Val
end
-- ==== Proof.KI.ValChain.lean ====
import proofs.«414250_j49357764165687_1_alg».proof.Proof.Gen.KernelIdeal.Regions
import proofs.«414250_j49357764165687_1_alg».proof.Proof.SpecModel
import proofs.«414250_j49357764165687_1_alg».proof.Proof.SpecBridge
import proofs.«414250_j49357764165687_1_alg».proof.Proof.PreDecode
import proofs.«414250_j49357764165687_1_alg».proof.Proof.KI.ValHost
import proofs.«414250_j49357764165687_1_alg».proof.Proof.KI.Fold
import proofs.«414250_j49357764165687_1_alg».proof.Proof.KI.ValLin0
import proofs.«414250_j49357764165687_1_alg».proof.Proof.KI.ValLin2
import proofs.«414250_j49357764165687_1_alg».proof.Proof.KI.ValLin4
import proofs.«414250_j49357764165687_1_alg».proof.Proof.KI.ValLin5
import Idealize.ShloMosaic.Lib.ValueIdx
import proofs.«414250_j49357764165687_1_alg».proof.Proof.KI.ValAgg1
import proofs.«414250_j49357764165687_1_alg».proof.Proof.KI.ValAgg3

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen

structure Hosts : Prop where
  host0_v1 : ∀ (W : Valuation τ sig (Elt Ideal)) (e : Fin 800000),
    (StableHlo.after hostOps0 W (Proc.devRef .tc main_v1) : S800000.Idx → BitVec 32) (ix1 e) = (W (Proc.devRef .tc main_arg1) : S2x800000.Idx → BitVec 32) (ix2 (0 : Fin 2) e)
  host0_v3 : ∀ (W : Valuation τ sig (Elt Ideal)) (e : Fin 800000),
    (StableHlo.after hostOps0 W (Proc.devRef .tc main_v3) : S800000.Idx → BitVec 32) (ix1 e) = (W (Proc.devRef .tc main_arg1) : S2x800000.Idx → BitVec 32) (ix2 (1 : Fin 2) e)
  host1_v17 : ∀ (W : Valuation τ sig (Elt Ideal)),
    (StableHlo.after hostOps1 W (Proc.devRef .tc main_v17) : S800000.Idx → EReal) = Cert.SpecW.wChain (W (Proc.devRef .tc main_v1))
  host3_v36 : ∀ (W : Valuation τ sig (Elt Ideal)),
    (StableHlo.after hostOps3 W (Proc.devRef .tc main_v36) : S800000.Idx → EReal) = Cert.SpecW.wChain (W (Proc.devRef .tc main_v1))
  host1_c3 : ∀ (W : Valuation τ sig (Elt Ideal)),
    (StableHlo.after hostOps1 W (Proc.devRef .tc main_c_3) : S_.Idx → BitVec 32) = constantI S_ 32 0#32
  host1_2_c4 : ∀ (W : Valuation τ sig (Elt Ideal)),
    (StableHlo.after hostOps1_2 W (Proc.devRef .tc main_c_4) : S_.Idx → BitVec 32) = constantI S_ 32 0#32
  host1_4_c5 : ∀ (W : Valuation τ sig (Elt Ideal)),
    (StableHlo.after hostOps1_4 W (Proc.devRef .tc main_c_5) : S_.Idx → BitVec 32) = constantI S_ 32 0#32
  host3_c11 : ∀ (W : Valuation τ sig (Elt Ideal)),
    (StableHlo.after hostOps3 W (Proc.devRef .tc main_c_11) : S_.Idx → BitVec 32) = constantI S_ 32 0#32
  host3_2_c12 : ∀ (W : Valuation τ sig (Elt Ideal)),
    (StableHlo.after hostOps3_2 W (Proc.devRef .tc main_c_12) : S_.Idx → BitVec 32) = constantI S_ 32 0#32
  host3_4_c13 : ∀ (W : Valuation τ sig (Elt Ideal)),
    (StableHlo.after hostOps3_4 W (Proc.devRef .tc main_c_13) : S_.Idx → BitVec 32) = constantI S_ 32 0#32
  host1_1_v18 : ∀ (W : Valuation τ sig (Elt Ideal)) (hc : (W (Proc.devRef .tc main_c_3) : S_.Idx → BitVec 32) = constantI S_ 32 0#32) (e : Fin 802816),
    (StableHlo.after hostOps1_1 W (Proc.devRef .tc main_v18) : S802816.Idx → BitVec 32) (ix1 e)
      = Cert.Spec.padTo (fun a => (W (Proc.devRef .tc main_v1) : S800000.Idx → BitVec 32) (ix1 a)) (0 : BitVec 32) e
  host1_3_v19 : ∀ (W : Valuation τ sig (Elt Ideal)) (hc : (W (Proc.devRef .tc main_c_4) : S_.Idx → BitVec 32) = constantI S_ 32 0#32) (e : Fin 802816),
    (StableHlo.after hostOps1_3 W (Proc.devRef .tc main_v19) : S802816.Idx → BitVec 32) (ix1 e)
      = Cert.Spec.padTo (fun a => (W (Proc.devRef .tc main_v3) : S800000.Idx → BitVec 32) (ix1 a)) (0 : BitVec 32) e
  host1_5_v20 : ∀ (W : Valuation τ sig (Elt Ideal)) (hc : (W (Proc.devRef .tc main_c_5) : S_.Idx → BitVec 32) = constantI S_ 32 0#32) (e : Fin 802816),
    (StableHlo.after hostOps1_5 W (Proc.devRef .tc main_v20) : S802816.Idx → EReal) (ix1 e)
      = Cert.Spec.padTo (fun a => (W (Proc.devRef .tc main_v17) : S800000.Idx → EReal) (ix1 a)) (0 : EReal) e
  host3_1_v37 : ∀ (W : Valuation τ sig (Elt Ideal)) (hc : (W (Proc.devRef .tc main_c_11) : S_.Idx → BitVec 32) = constantI S_ 32 0#32) (e : Fin 802816),
    (StableHlo.after hostOps3_1 W (Proc.devRef .tc main_v37) : S802816.Idx → BitVec 32) (ix1 e)
      = Cert.Spec.padTo (fun a => (W (Proc.devRef .tc main_v1) : S800000.Idx → BitVec 32) (ix1 a)) (0 : BitVec 32) e
  host3_3_v38 : ∀ (W : Valuation τ sig (Elt Ideal)) (hc : (W (Proc.devRef .tc main_c_12) : S_.Idx → BitVec 32) = constantI S_ 32 0#32) (e : Fin 802816),
    (StableHlo.after hostOps3_3 W (Proc.devRef .tc main_v38) : S802816.Idx → BitVec 32) (ix1 e)
      = Cert.Spec.padTo (fun a => (W (Proc.devRef .tc main_v3) : S800000.Idx → BitVec 32) (ix1 a)) (0 : BitVec 32) e
  host3_5_v39 : ∀ (W : Valuation τ sig (Elt Ideal)) (hc : (W (Proc.devRef .tc main_c_13) : S_.Idx → BitVec 32) = constantI S_ 32 0#32) (e : Fin 802816),
    (StableHlo.after hostOps3_5 W (Proc.devRef .tc main_v39) : S802816.Idx → EReal) (ix1 e)
      = Cert.Spec.padTo (fun a => (W (Proc.devRef .tc main_v36) : S800000.Idx → EReal) (ix1 a)) (0 : EReal) e
  host1_6_v21 : ∀ (W : Valuation τ sig (Elt Ideal)),
    (StableHlo.after hostOps1_6 W (Proc.devRef .tc main_v21) : S50000x64.Idx → EReal) = (W (Proc.devRef .tc main_v4) : S50000x64.Idx → EReal)
  host3_6_v40 : ∀ (W : Valuation τ sig (Elt Ideal)),
    (StableHlo.after hostOps3_6 W (Proc.devRef .tc main_v40) : S50000x64.Idx → EReal) = (W (Proc.devRef .tc main_v23) : S50000x64.Idx → EReal)

section Chain

variable (m : (ℓ : Loc nD τ sig) → Buf (Elt Ideal) ℓ) (O : Outs (F := Ideal)) (c : Dev nD)

abbrev aX : Fin 50000 → Fin 64 → EReal := fun a b => (m ((c.tc : Thread nD τ).loc main_arg0) : S50000x64.Idx → EReal) (ix2 a b)
abbrev aE : S2x800000.Idx → BitVec 32 := m ((c.tc : Thread nD τ).loc main_arg1)
abbrev aW1 : Fin 64 → Fin 64 → EReal := fun a b => (m ((c.tc : Thread nD τ).loc main_arg2) : S64x64.Idx → EReal) (ix2 a b)
abbrev ab1 : Fin 64 → EReal := fun a => (m ((c.tc : Thread nD τ).loc main_arg3) : S64.Idx → EReal) (ix1 a)
abbrev aW2 : Fin 64 → Fin 64 → EReal := fun a b => (m ((c.tc : Thread nD τ).loc main_arg4) : S64x64.Idx → EReal) (ix2 a b)
abbrev ab2 : Fin 64 → EReal := fun a => (m ((c.tc : Thread nD τ).loc main_arg5) : S64.Idx → EReal) (ix1 a)
abbrev aWp1 : Fin 64 → Fin 64 → EReal := fun a b => (m ((c.tc : Thread nD τ).loc main_arg6) : S64x64.Idx → EReal) (ix2 a b)
abbrev abp1 : Fin 64 → EReal := fun a => (m ((c.tc : Thread nD τ).loc main_arg7) : S64.Idx → EReal) (ix1 a)
abbrev aWp2 : Fin 64 → Fin 40 → EReal := fun a b => (m ((c.tc : Thread nD τ).loc main_arg8) : S64x40.Idx → EReal) (ix2 a b)
abbrev abp2 : Fin 40 → EReal := fun a => (m ((c.tc : Thread nD τ).loc main_arg9) : S40.Idx → EReal) (ix1 a)

structure Regs : Prop where
  h0 : ∀ (p : Fin 50000) (q : Fin 64), (O 2 main_v4 c : S50000x64.Idx → EReal) (ix2 p q)
      = Cert.Spec.lin (fun a b => (V1 m c main_arg0 : S50000x64.Idx → EReal) (ix2 a b)) (fun a b => (V1 m c main_arg2 : S64x64.Idx → EReal) (ix2 a b))
          (fun a => (V1 m c main_arg3 : S64.Idx → EReal) (ix1 a)) p q
  h1 : ∀ (p : Fin 50000) (q : Fin 64), (O 10 main_v22 c : S50000x64.Idx → EReal) (ix2 p q)
      = max (Cert.Spec.aggHot (fun e => (V9 m O c main_v18 : S802816.Idx → BitVec 32) (ix1 e)) (fun e => (V9 m O c main_v19 : S802816.Idx → BitVec 32) (ix1 e))
          (fun e => (V9 m O c main_v20 : S802816.Idx → EReal) (ix1 e)) (fun n k => (V9 m O c main_v21 : S50000x64.Idx → EReal) (ix2 n k)) p q) 0
  h2 : ∀ (p : Fin 50000) (q : Fin 64), (O 11 main_v23 c : S50000x64.Idx → EReal) (ix2 p q)
      = Cert.Spec.lin (fun a b => (V10 m O c main_v22 : S50000x64.Idx → EReal) (ix2 a b)) (fun a b => (V10 m O c main_arg4 : S64x64.Idx → EReal) (ix2 a b))
          (fun a => (V10 m O c main_arg5 : S64.Idx → EReal) (ix1 a)) p q
  h3 : ∀ (p : Fin 50000) (q : Fin 64), (O 19 main_v41 c : S50000x64.Idx → EReal) (ix2 p q)
      = max (Cert.Spec.aggHot (fun e => (V18 m O c main_v37 : S802816.Idx → BitVec 32) (ix1 e)) (fun e => (V18 m O c main_v38 : S802816.Idx → BitVec 32) (ix1 e))
          (fun e => (V18 m O c main_v39 : S802816.Idx → EReal) (ix1 e)) (fun n k => (V18 m O c main_v40 : S50000x64.Idx → EReal) (ix2 n k)) p q) 0
  h4 : ∀ (p : Fin 50000) (q : Fin 64), (O 20 main_v42 c : S50000x64.Idx → EReal) (ix2 p q)
      = Cert.Spec.lin (fun a b => (V19 m O c main_v41 : S50000x64.Idx → EReal) (ix2 a b)) (fun a b => (V19 m O c main_arg6 : S64x64.Idx → EReal) (ix2 a b))
          (fun a => (V19 m O c main_arg7 : S64.Idx → EReal) (ix1 a)) p q
  h5 : ∀ (p : Fin 50000) (q : Fin 40), (O 21 main_v43 c : S50000x40.Idx → EReal) (ix2 p q)
      = Cert.Spec.lsm (Cert.Spec.lin (fun a b => (V20 m O c main_v42 : S50000x64.Idx → EReal) (ix2 a b)) (fun a b => (V20 m O c main_arg8 : S64x40.Idx → EReal) (ix2 a b))
          (fun a => (V20 m O c main_arg9 : S40.Idx → EReal) (ix1 a))) p q

theorem src_at (Hs : Hosts) (a : Fin 800000) : (V1 m c main_v1 : S800000.Idx → BitVec 32) (ix1 a) = Cert.Spec.srcOf (aE m c) a :=
  Hs.host0_v1 (V0 m c) a

theorem dst_at (Hs : Hosts) (a : Fin 800000) : (V1 m c main_v3 : S800000.Idx → BitVec 32) (ix1 a) = Cert.Spec.dstOf (aE m c) a :=
  Hs.host0_v3 (V0 m c) a

theorem src_fun (Hs : Hosts) : (V1 m c main_v1 : S800000.Idx → BitVec 32) = Cert.Spec.srcArr (aE m c) :=
  funext fun i => by
    obtain ⟨a, rfl⟩ : ∃ a : Fin 800000, i = ix1 a := ⟨i 0, eq_ix1 i⟩
    exact Hs.host0_v1 (V0 m c) a

variable {m O c}

theorem lay0 (Hs : Hosts) (R : Regs m O c) (p : Fin 50000) (q : Fin 64) :
    (V2 m O c main_v4 : S50000x64.Idx → EReal) (ix2 p q) = Cert.Spec.lin (aX m c) (aW1 m c) (ab1 m c) p q := by
  have kX : (V1 m c main_arg0 : S50000x64.Idx → EReal) = (V0 m c main_arg0 : S50000x64.Idx → EReal) :=
    (V1_of m c main_arg0 (by decide))
  have kW : (V1 m c main_arg2 : S64x64.Idx → EReal) = (V0 m c main_arg2 : S64x64.Idx → EReal) :=
    (V1_of m c main_arg2 (by decide))
  have kb : (V1 m c main_arg3 : S64.Idx → EReal) = (V0 m c main_arg3 : S64.Idx → EReal) :=
    (V1_of m c main_arg3 (by decide))
  refine (congrFun (Function.update_self _ _ _ : (V2 m O c main_v4 : S50000x64.Idx → EReal) = O 2 main_v4 c) (ix2 p q)).trans ?_
  rewrite [R.h0 p q, kX, kW, kb]
  rfl

theorem lay1 (Hs : Hosts) (R : Regs m O c)
    (hd : ∀ e, 0 ≤ (Cert.Spec.dstOf (aE m c) e).toInt ∧ (Cert.Spec.dstOf (aE m c) e).toInt < 50000)
    (p : Fin 50000) (q : Fin 64) :
    (V10 m O c main_v22 : S50000x64.Idx → EReal) (ix2 p q) = Cert.Spec.round (aE m c) (aX m c) (aW1 m c) (ab1 m c) p q := by
  have k18 : (V9 m O c main_v18 : S802816.Idx → BitVec 32) = (V4 m O c main_v18 : S802816.Idx → BitVec 32) :=
    (V9_of m O c main_v18 (by decide)).trans <| (V8_of m O c main_v18 (by decide)).trans <| (V7_of m O c main_v18 (by decide)).trans <| (V6_of m O c main_v18 (by decide)).trans <| (V5_of m O c main_v18 (by decide))
  have k19 : (V9 m O c main_v19 : S802816.Idx → BitVec 32) = (V6 m O c main_v19 : S802816.Idx → BitVec 32) :=
    (V9_of m O c main_v19 (by decide)).trans <| (V8_of m O c main_v19 (by decide)).trans <| (V7_of m O c main_v19 (by decide))
  have k20 : (V9 m O c main_v20 : S802816.Idx → EReal) = (V8 m O c main_v20 : S802816.Idx → EReal) :=
    (V9_of m O c main_v20 (by decide))
  have ks1 : (V3 m O c main_v1 : S800000.Idx → BitVec 32) = (V1 m c main_v1 : S800000.Idx → BitVec 32) :=
    (V3_of m O c main_v1 (by decide)).trans <| (V2_of m O c main_v1 (by decide))
  have ks3 : (V5 m O c main_v3 : S800000.Idx → BitVec 32) = (V1 m c main_v3 : S800000.Idx → BitVec 32) :=
    (V5_of m O c main_v3 (by decide)).trans <| (V4_of m O c main_v3 (by decide)).trans <| (V3_of m O c main_v3 (by decide)).trans <| (V2_of m O c main_v3 (by decide))
  have kw : (V7 m O c main_v17 : S800000.Idx → EReal) = (V3 m O c main_v17 : S800000.Idx → EReal) :=
    (V7_of m O c main_v17 (by decide)).trans <| (V6_of m O c main_v17 (by decide)).trans <| (V5_of m O c main_v17 (by decide)).trans <| (V4_of m O c main_v17 (by decide))
  have kws : (V2 m O c main_v1 : S800000.Idx → BitVec 32) = (V1 m c main_v1 : S800000.Idx → BitVec 32) :=
    (V2_of m O c main_v1 (by decide))
  have kp : (V8 m O c main_v4 : S50000x64.Idx → EReal) = (V2 m O c main_v4 : S50000x64.Idx → EReal) :=
    (V8_of m O c main_v4 (by decide)).trans <| (V7_of m O c main_v4 (by decide)).trans <| (V6_of m O c main_v4 (by decide)).trans <| (V5_of m O c main_v4 (by decide)).trans <| (V4_of m O c main_v4 (by decide)).trans <| (V3_of m O c main_v4 (by decide))
  have e18 : (fun e => (V9 m O c main_v18 : S802816.Idx → BitVec 32) (ix1 e)) = Cert.Spec.padTo (Cert.Spec.srcOf (aE m c)) 0 :=
    funext fun e => (congrFun k18 (ix1 e)).trans <|
      (Hs.host1_1_v18 (V3 m O c) (Hs.host1_c3 (V2 m O c)) e).trans <|
        congrArg (fun f => Cert.Spec.padTo f (0 : BitVec 32) e) (funext fun a => (congrFun ks1 (ix1 a)).trans (src_at m c Hs a))
  have e19 : (fun e => (V9 m O c main_v19 : S802816.Idx → BitVec 32) (ix1 e)) = Cert.Spec.padTo (Cert.Spec.dstOf (aE m c)) 0 :=
    funext fun e => (congrFun k19 (ix1 e)).trans <|
      (Hs.host1_3_v19 (V5 m O c) (Hs.host1_2_c4 (V4 m O c)) e).trans <|
        congrArg (fun f => Cert.Spec.padTo f (0 : BitVec 32) e) (funext fun a => (congrFun ks3 (ix1 a)).trans (dst_at m c Hs a))
  have ew : (V7 m O c main_v17 : S800000.Idx → EReal) = Cert.SpecW.wChain (Cert.Spec.srcArr (aE m c)) :=
    kw.trans <| (Hs.host1_v17 (V2 m O c)).trans <| congrArg Cert.SpecW.wChain (kws.trans (src_fun m c Hs))
  have e20 : (fun e => (V9 m O c main_v20 : S802816.Idx → EReal) (ix1 e)) = Cert.Spec.padTo (Cert.Spec.wOf (aE m c)) 0 :=
    funext fun e => (congrFun k20 (ix1 e)).trans <|
      (Hs.host1_5_v20 (V7 m O c) (Hs.host1_4_c5 (V6 m O c)) e).trans <|
        congrArg (fun f => Cert.Spec.padTo f (0 : EReal) e) (funext fun a => congrFun ew (ix1 a))
  have e21 : (fun n k => (V9 m O c main_v21 : S50000x64.Idx → EReal) (ix2 n k)) = Cert.Spec.lin (aX m c) (aW1 m c) (ab1 m c) :=
    funext fun n => funext fun k => (congrFun (Hs.host1_6_v21 (V8 m O c)) (ix2 n k)).trans <|
      (congrFun kp (ix2 n k)).trans (lay0 Hs R n k)
  refine (congrFun (Function.update_self _ _ _ : (V10 m O c main_v22 : S50000x64.Idx → EReal) = O 10 main_v22 c) (ix2 p q)).trans ?_
  rewrite [R.h1 p q, e18, e19, e20, e21, Cert.Spec.aggHot_pad_eq_aggIdx _ _ _ _ hd]
  rfl

theorem lay2 (Hs : Hosts) (R : Regs m O c)
    (hd : ∀ e, 0 ≤ (Cert.Spec.dstOf (aE m c) e).toInt ∧ (Cert.Spec.dstOf (aE m c) e).toInt < 50000)
    (p : Fin 50000) (q : Fin 64) :
    (V11 m O c main_v23 : S50000x64.Idx → EReal) (ix2 p q) = Cert.Spec.lin (Cert.Spec.round (aE m c) (aX m c) (aW1 m c) (ab1 m c)) (aW2 m c) (ab2 m c) p q := by
  have kW : (V10 m O c main_arg4 : S64x64.Idx → EReal) = (V0 m c main_arg4 : S64x64.Idx → EReal) :=
    (V10_of m O c main_arg4 (by decide)).trans <| (V9_of m O c main_arg4 (by decide)).trans <| (V8_of m O c main_arg4 (by decide)).trans <| (V7_of m O c main_arg4 (by decide)).trans <| (V6_of m O c main_arg4 (by decide)).trans <| (V5_of m O c main_arg4 (by decide)).trans <| (V4_of m O c main_arg4 (by decide)).trans <| (V3_of m O c main_arg4 (by decide)).trans <| (V2_of m O c main_arg4 (by decide)).trans <| (V1_of m c main_arg4 (by decide))
  have kb : (V10 m O c main_arg5 : S64.Idx → EReal) = (V0 m c main_arg5 : S64.Idx → EReal) :=
    (V10_of m O c main_arg5 (by decide)).trans <| (V9_of m O c main_arg5 (by decide)).trans <| (V8_of m O c main_arg5 (by decide)).trans <| (V7_of m O c main_arg5 (by decide)).trans <| (V6_of m O c main_arg5 (by decide)).trans <| (V5_of m O c main_arg5 (by decide)).trans <| (V4_of m O c main_arg5 (by decide)).trans <| (V3_of m O c main_arg5 (by decide)).trans <| (V2_of m O c main_arg5 (by decide)).trans <| (V1_of m c main_arg5 (by decide))
  have ex : (fun a b => (V10 m O c main_v22 : S50000x64.Idx → EReal) (ix2 a b)) = (Cert.Spec.round (aE m c) (aX m c) (aW1 m c) (ab1 m c)) :=
    funext fun a => funext fun b => lay1 Hs R hd a b
  refine (congrFun (Function.update_self _ _ _ : (V11 m O c main_v23 : S50000x64.Idx → EReal) = O 11 main_v23 c) (ix2 p q)).trans ?_
  rewrite [R.h2 p q, ex, kW, kb]
  rfl

theorem lay3 (Hs : Hosts) (R : Regs m O c)
    (hd : ∀ e, 0 ≤ (Cert.Spec.dstOf (aE m c) e).toInt ∧ (Cert.Spec.dstOf (aE m c) e).toInt < 50000)
    (p : Fin 50000) (q : Fin 64) :
    (V19 m O c main_v41 : S50000x64.Idx → EReal) (ix2 p q) = Cert.Spec.round (aE m c) (Cert.Spec.round (aE m c) (aX m c) (aW1 m c) (ab1 m c)) (aW2 m c) (ab2 m c) p q := by
  have k18 : (V18 m O c main_v37 : S802816.Idx → BitVec 32) = (V13 m O c main_v37 : S802816.Idx → BitVec 32) :=
    (V18_of m O c main_v37 (by decide)).trans <| (V17_of m O c main_v37 (by decide)).trans <| (V16_of m O c main_v37 (by decide)).trans <| (V15_of m O c main_v37 (by decide)).trans <| (V14_of m O c main_v37 (by decide))
  have k19 : (V18 m O c main_v38 : S802816.Idx → BitVec 32) = (V15 m O c main_v38 : S802816.Idx → BitVec 32) :=
    (V18_of m O c main_v38 (by decide)).trans <| (V17_of m O c main_v38 (by decide)).trans <| (V16_of m O c main_v38 (by decide))
  have k20 : (V18 m O c main_v39 : S802816.Idx → EReal) = (V17 m O c main_v39 : S802816.Idx → EReal) :=
    (V18_of m O c main_v39 (by decide))
  have ks1 : (V12 m O c main_v1 : S800000.Idx → BitVec 32) = (V1 m c main_v1 : S800000.Idx → BitVec 32) :=
    (V12_of m O c main_v1 (by decide)).trans <| (V11_of m O c main_v1 (by decide)).trans <| (V10_of m O c main_v1 (by decide)).trans <| (V9_of m O c main_v1 (by decide)).trans <| (V8_of m O c main_v1 (by decide)).trans <| (V7_of m O c main_v1 (by decide)).trans <| (V6_of m O c main_v1 (by decide)).trans <| (V5_of m O c main_v1 (by decide)).trans <| (V4_of m O c main_v1 (by decide)).trans <| (V3_of m O c main_v1 (by decide)).trans <| (V2_of m O c main_v1 (by decide))
  have ks3 : (V14 m O c main_v3 : S800000.Idx → BitVec 32) = (V1 m c main_v3 : S800000.Idx → BitVec 32) :=
    (V14_of m O c main_v3 (by decide)).trans <| (V13_of m O c main_v3 (by decide)).trans <| (V12_of m O c main_v3 (by decide)).trans <| (V11_of m O c main_v3 (by decide)).trans <| (V10_of m O c main_v3 (by decide)).trans <| (V9_of m O c main_v3 (by decide)).trans <| (V8_of m O c main_v3 (by decide)).trans <| (V7_of m O c main_v3 (by decide)).trans <| (V6_of m O c main_v3 (by decide)).trans <| (V5_of m O c main_v3 (by decide)).trans <| (V4_of m O c main_v3 (by decide)).trans <| (V3_of m O c main_v3 (by decide)).trans <| (V2_of m O c main_v3 (by decide))
  have kw : (V16 m O c main_v36 : S800000.Idx → EReal) = (V12 m O c main_v36 : S800000.Idx → EReal) :=
    (V16_of m O c main_v36 (by decide)).trans <| (V15_of m O c main_v36 (by decide)).trans <| (V14_of m O c main_v36 (by decide)).trans <| (V13_of m O c main_v36 (by decide))
  have kws : (V11 m O c main_v1 : S800000.Idx → BitVec 32) = (V1 m c main_v1 : S800000.Idx → BitVec 32) :=
    (V11_of m O c main_v1 (by decide)).trans <| (V10_of m O c main_v1 (by decide)).trans <| (V9_of m O c main_v1 (by decide)).trans <| (V8_of m O c main_v1 (by decide)).trans <| (V7_of m O c main_v1 (by decide)).trans <| (V6_of m O c main_v1 (by decide)).trans <| (V5_of m O c main_v1 (by decide)).trans <| (V4_of m O c main_v1 (by decide)).trans <| (V3_of m O c main_v1 (by decide)).trans <| (V2_of m O c main_v1 (by decide))
  have kp : (V17 m O c main_v23 : S50000x64.Idx → EReal) = (V11 m O c main_v23 : S50000x64.Idx → EReal) :=
    (V17_of m O c main_v23 (by decide)).trans <| (V16_of m O c main_v23 (by decide)).trans <| (V15_of m O c main_v23 (by decide)).trans <| (V14_of m O c main_v23 (by decide)).trans <| (V13_of m O c main_v23 (by decide)).trans <| (V12_of m O c main_v23 (by decide))
  have e18 : (fun e => (V18 m O c main_v37 : S802816.Idx → BitVec 32) (ix1 e)) = Cert.Spec.padTo (Cert.Spec.srcOf (aE m c)) 0 :=
    funext fun e => (congrFun k18 (ix1 e)).trans <|
      (Hs.host3_1_v37 (V12 m O c) (Hs.host3_c11 (V11 m O c)) e).trans <|
        congrArg (fun f => Cert.Spec.padTo f (0 : BitVec 32) e) (funext fun a => (congrFun ks1 (ix1 a)).trans (src_at m c Hs a))
  have e19 : (fun e => (V18 m O c main_v38 : S802816.Idx → BitVec 32) (ix1 e)) = Cert.Spec.padTo (Cert.Spec.dstOf (aE m c)) 0 :=
    funext fun e => (congrFun k19 (ix1 e)).trans <|
      (Hs.host3_3_v38 (V14 m O c) (Hs.host3_2_c12 (V13 m O c)) e).trans <|
        congrArg (fun f => Cert.Spec.padTo f (0 : BitVec 32) e) (funext fun a => (congrFun ks3 (ix1 a)).trans (dst_at m c Hs a))
  have ew : (V16 m O c main_v36 : S800000.Idx → EReal) = Cert.SpecW.wChain (Cert.Spec.srcArr (aE m c)) :=
    kw.trans <| (Hs.host3_v36 (V11 m O c)).trans <| congrArg Cert.SpecW.wChain (kws.trans (src_fun m c Hs))
  have e20 : (fun e => (V18 m O c main_v39 : S802816.Idx → EReal) (ix1 e)) = Cert.Spec.padTo (Cert.Spec.wOf (aE m c)) 0 :=
    funext fun e => (congrFun k20 (ix1 e)).trans <|
      (Hs.host3_5_v39 (V16 m O c) (Hs.host3_4_c13 (V15 m O c)) e).trans <|
        congrArg (fun f => Cert.Spec.padTo f (0 : EReal) e) (funext fun a => congrFun ew (ix1 a))
  have e21 : (fun n k => (V18 m O c main_v40 : S50000x64.Idx → EReal) (ix2 n k)) = Cert.Spec.lin (Cert.Spec.round (aE m c) (aX m c) (aW1 m c) (ab1 m c)) (aW2 m c) (ab2 m c) :=
    funext fun n => funext fun k => (congrFun (Hs.host3_6_v40 (V17 m O c)) (ix2 n k)).trans <|
      (congrFun kp (ix2 n k)).trans (lay2 Hs R hd n k)
  refine (congrFun (Function.update_self _ _ _ : (V19 m O c main_v41 : S50000x64.Idx → EReal) = O 19 main_v41 c) (ix2 p q)).trans ?_
  rewrite [R.h3 p q, e18, e19, e20, e21, Cert.Spec.aggHot_pad_eq_aggIdx _ _ _ _ hd]
  rfl

theorem lay4 (Hs : Hosts) (R : Regs m O c)
    (hd : ∀ e, 0 ≤ (Cert.Spec.dstOf (aE m c) e).toInt ∧ (Cert.Spec.dstOf (aE m c) e).toInt < 50000)
    (p : Fin 50000) (q : Fin 64) :
    (V20 m O c main_v42 : S50000x64.Idx → EReal) (ix2 p q) = Cert.Spec.lin (Cert.Spec.round (aE m c) (Cert.Spec.round (aE m c) (aX m c) (aW1 m c) (ab1 m c)) (aW2 m c) (ab2 m c)) (aWp1 m c) (abp1 m c) p q := by
  have kW : (V19 m O c main_arg6 : S64x64.Idx → EReal) = (V0 m c main_arg6 : S64x64.Idx → EReal) :=
    (V19_of m O c main_arg6 (by decide)).trans <| (V18_of m O c main_arg6 (by decide)).trans <| (V17_of m O c main_arg6 (by decide)).trans <| (V16_of m O c main_arg6 (by decide)).trans <| (V15_of m O c main_arg6 (by decide)).trans <| (V14_of m O c main_arg6 (by decide)).trans <| (V13_of m O c main_arg6 (by decide)).trans <| (V12_of m O c main_arg6 (by decide)).trans <| (V11_of m O c main_arg6 (by decide)).trans <| (V10_of m O c main_arg6 (by decide)).trans <| (V9_of m O c main_arg6 (by decide)).trans <| (V8_of m O c main_arg6 (by decide)).trans <| (V7_of m O c main_arg6 (by decide)).trans <| (V6_of m O c main_arg6 (by decide)).trans <| (V5_of m O c main_arg6 (by decide)).trans <| (V4_of m O c main_arg6 (by decide)).trans <| (V3_of m O c main_arg6 (by decide)).trans <| (V2_of m O c main_arg6 (by decide)).trans <| (V1_of m c main_arg6 (by decide))
  have kb : (V19 m O c main_arg7 : S64.Idx → EReal) = (V0 m c main_arg7 : S64.Idx → EReal) :=
    (V19_of m O c main_arg7 (by decide)).trans <| (V18_of m O c main_arg7 (by decide)).trans <| (V17_of m O c main_arg7 (by decide)).trans <| (V16_of m O c main_arg7 (by decide)).trans <| (V15_of m O c main_arg7 (by decide)).trans <| (V14_of m O c main_arg7 (by decide)).trans <| (V13_of m O c main_arg7 (by decide)).trans <| (V12_of m O c main_arg7 (by decide)).trans <| (V11_of m O c main_arg7 (by decide)).trans <| (V10_of m O c main_arg7 (by decide)).trans <| (V9_of m O c main_arg7 (by decide)).trans <| (V8_of m O c main_arg7 (by decide)).trans <| (V7_of m O c main_arg7 (by decide)).trans <| (V6_of m O c main_arg7 (by decide)).trans <| (V5_of m O c main_arg7 (by decide)).trans <| (V4_of m O c main_arg7 (by decide)).trans <| (V3_of m O c main_arg7 (by decide)).trans <| (V2_of m O c main_arg7 (by decide)).trans <| (V1_of m c main_arg7 (by decide))
  have ex : (fun a b => (V19 m O c main_v41 : S50000x64.Idx → EReal) (ix2 a b)) = (Cert.Spec.round (aE m c) (Cert.Spec.round (aE m c) (aX m c) (aW1 m c) (ab1 m c)) (aW2 m c) (ab2 m c)) :=
    funext fun a => funext fun b => lay3 Hs R hd a b
  refine (congrFun (Function.update_self _ _ _ : (V20 m O c main_v42 : S50000x64.Idx → EReal) = O 20 main_v42 c) (ix2 p q)).trans ?_
  rewrite [R.h4 p q, ex, kW, kb]
  rfl

theorem lay5 (Hs : Hosts) (R : Regs m O c)
    (hd : ∀ e, 0 ≤ (Cert.Spec.dstOf (aE m c) e).toInt ∧ (Cert.Spec.dstOf (aE m c) e).toInt < 50000)
    (p : Fin 50000) (q : Fin 40) :
    (V21 m O c main_v43 : S50000x40.Idx → EReal) (ix2 p q) = Cert.Spec.model (aX m c) (aE m c) (aW1 m c) (ab1 m c) (aW2 m c) (ab2 m c) (aWp1 m c) (abp1 m c) (aWp2 m c) (abp2 m c) p q := by
  have kW : (V20 m O c main_arg8 : S64x40.Idx → EReal) = (V0 m c main_arg8 : S64x40.Idx → EReal) :=
    (V20_of m O c main_arg8 (by decide)).trans <| (V19_of m O c main_arg8 (by decide)).trans <| (V18_of m O c main_arg8 (by decide)).trans <| (V17_of m O c main_arg8 (by decide)).trans <| (V16_of m O c main_arg8 (by decide)).trans <| (V15_of m O c main_arg8 (by decide)).trans <| (V14_of m O c main_arg8 (by decide)).trans <| (V13_of m O c main_arg8 (by decide)).trans <| (V12_of m O c main_arg8 (by decide)).trans <| (V11_of m O c main_arg8 (by decide)).trans <| (V10_of m O c main_arg8 (by decide)).trans <| (V9_of m O c main_arg8 (by decide)).trans <| (V8_of m O c main_arg8 (by decide)).trans <| (V7_of m O c main_arg8 (by decide)).trans <| (V6_of m O c main_arg8 (by decide)).trans <| (V5_of m O c main_arg8 (by decide)).trans <| (V4_of m O c main_arg8 (by decide)).trans <| (V3_of m O c main_arg8 (by decide)).trans <| (V2_of m O c main_arg8 (by decide)).trans <| (V1_of m c main_arg8 (by decide))
  have kb : (V20 m O c main_arg9 : S40.Idx → EReal) = (V0 m c main_arg9 : S40.Idx → EReal) :=
    (V20_of m O c main_arg9 (by decide)).trans <| (V19_of m O c main_arg9 (by decide)).trans <| (V18_of m O c main_arg9 (by decide)).trans <| (V17_of m O c main_arg9 (by decide)).trans <| (V16_of m O c main_arg9 (by decide)).trans <| (V15_of m O c main_arg9 (by decide)).trans <| (V14_of m O c main_arg9 (by decide)).trans <| (V13_of m O c main_arg9 (by decide)).trans <| (V12_of m O c main_arg9 (by decide)).trans <| (V11_of m O c main_arg9 (by decide)).trans <| (V10_of m O c main_arg9 (by decide)).trans <| (V9_of m O c main_arg9 (by decide)).trans <| (V8_of m O c main_arg9 (by decide)).trans <| (V7_of m O c main_arg9 (by decide)).trans <| (V6_of m O c main_arg9 (by decide)).trans <| (V5_of m O c main_arg9 (by decide)).trans <| (V4_of m O c main_arg9 (by decide)).trans <| (V3_of m O c main_arg9 (by decide)).trans <| (V2_of m O c main_arg9 (by decide)).trans <| (V1_of m c main_arg9 (by decide))
  have ex : (fun a b => (V20 m O c main_v42 : S50000x64.Idx → EReal) (ix2 a b)) = (Cert.Spec.lin (Cert.Spec.round (aE m c) (Cert.Spec.round (aE m c) (aX m c) (aW1 m c) (ab1 m c)) (aW2 m c) (ab2 m c)) (aWp1 m c) (abp1 m c)) :=
    funext fun a => funext fun b => lay4 Hs R hd a b
  refine (congrFun (Function.update_self _ _ _ : (V21 m O c main_v43 : S50000x40.Idx → EReal) = O 21 main_v43 c) (ix2 p q)).trans ?_
  rewrite [R.h5 p q, ex, kW, kb]
  rfl

end Chain

theorem hosts : Hosts where
  host0_v1 := host0_v1
  host0_v3 := host0_v3
  host1_v17 := host1_v17
  host3_v36 := host3_v36
  host1_c3 := host1_c3
  host1_2_c4 := host1_2_c4
  host1_4_c5 := host1_4_c5
  host3_c11 := host3_c11
  host3_2_c12 := host3_2_c12
  host3_4_c13 := host3_4_c13
  host1_1_v18 := host1_1_v18
  host1_3_v19 := host1_3_v19
  host1_5_v20 := host1_5_v20
  host3_1_v37 := host3_1_v37
  host3_3_v38 := host3_3_v38
  host3_5_v39 := host3_5_v39
  host1_6_v21 := host1_6_v21
  host3_6_v40 := host3_6_v40

theorem kernel_val_of [Cert.Pre_finite_inputs.Facts] (m : (ℓ : Loc nD τ sig) → Buf (Elt Ideal) ℓ) (h : Cert.Pre_KernelIdeal m)
    (O : Outs (F := Ideal)) (c : Dev nD) (R : Regs m O c) (p : Fin 50000) (q : Fin 40) :
    (V21 m O c main_v43 : S50000x40.Idx → EReal) (ix2 p q)
      = Cert.Spec.model (fun a b => (m ((c.tc : Thread nD τ).loc main_arg0) : S50000x64.Idx → EReal) (ix2 a b))
          (m ((c.tc : Thread nD τ).loc main_arg1))
          (fun a b => (m ((c.tc : Thread nD τ).loc main_arg2) : S64x64.Idx → EReal) (ix2 a b))
          (fun a => (m ((c.tc : Thread nD τ).loc main_arg3) : S64.Idx → EReal) (ix1 a))
          (fun a b => (m ((c.tc : Thread nD τ).loc main_arg4) : S64x64.Idx → EReal) (ix2 a b))
          (fun a => (m ((c.tc : Thread nD τ).loc main_arg5) : S64.Idx → EReal) (ix1 a))
          (fun a b => (m ((c.tc : Thread nD τ).loc main_arg6) : S64x64.Idx → EReal) (ix2 a b))
          (fun a => (m ((c.tc : Thread nD τ).loc main_arg7) : S64.Idx → EReal) (ix1 a))
          (fun a b => (m ((c.tc : Thread nD τ).loc main_arg8) : S64x40.Idx → EReal) (ix2 a b))
          (fun a => (m ((c.tc : Thread nD τ).loc main_arg9) : S40.Idx → EReal) (ix1 a)) p q :=
  lay5 hosts R (fun e => Cert.PreDecode.dst_range m h c e) p q

section Final

variable (m : (ℓ : Loc nD τ sig) → Buf (Elt Ideal) ℓ) (c : Dev nD)

theorem ein0 (r : Ref sig .tc) : H.Ein0 m c r = V1 m c r := rfl
theorem ein1 (r : Ref sig .tc) : H.Ein1 m c r = V9 m (H.myOuts m) c r := congrFun (H.in1_eq m c).symm _
theorem ein2 (r : Ref sig .tc) : H.Ein2 m c r = V10 m (H.myOuts m) c r := congrFun (H.in2_eq m c).symm _
theorem ein3 (r : Ref sig .tc) : H.Ein3 m c r = V18 m (H.myOuts m) c r := congrFun (H.in3_eq m c).symm _
theorem ein4 (r : Ref sig .tc) : H.Ein4 m c r = V19 m (H.myOuts m) c r := congrFun (H.in4_eq m c).symm _
theorem ein5 (r : Ref sig .tc) : H.Ein5 m c r = V20 m (H.myOuts m) c r := congrFun (H.in5_eq m c).symm _

theorem regs_of
    (hA1 : ∀ (p : Fin 50000) (q : Fin 64),
      ((H.dat1 (F := Ideal) (H.Ein1 m) c).arrAt 4 cfg1.N : S50000x64.Idx → EReal) (ix2 p q)
        = max (Cert.Spec.aggHot (fun e => (H.Ein1 m c main_v18 : S802816.Idx → BitVec 32) (ix1 e)) (fun e => (H.Ein1 m c main_v19 : S802816.Idx → BitVec 32) (ix1 e))
            (fun e => (H.Ein1 m c main_v20 : S802816.Idx → EReal) (ix1 e)) (fun n k => (H.Ein1 m c main_v21 : S50000x64.Idx → EReal) (ix2 n k)) p q) 0)
    (hA3 : ∀ (p : Fin 50000) (q : Fin 64),
      ((H.dat3 (F := Ideal) (H.Ein3 m) c).arrAt 4 cfg3.N : S50000x64.Idx → EReal) (ix2 p q)
        = max (Cert.Spec.aggHot (fun e => (H.Ein3 m c main_v37 : S802816.Idx → BitVec 32) (ix1 e)) (fun e => (H.Ein3 m c main_v38 : S802816.Idx → BitVec 32) (ix1 e))
            (fun e => (H.Ein3 m c main_v39 : S802816.Idx → EReal) (ix1 e)) (fun n k => (H.Ein3 m c main_v40 : S50000x64.Idx → EReal) (ix2 n k)) p q) 0) :
    Regs m (H.myOuts m) c where
  h0 := fun p q => by
    rw [← ein0 m c main_arg0, ← ein0 m c main_arg2, ← ein0 m c main_arg3]
    exact (congrFun (H.out0_eq m c) (ix2 p q)).trans (lin0_arr (H.Ein0 m) c p q)
  h1 := fun p q => by
    rw [← ein1 m c main_v18, ← ein1 m c main_v19, ← ein1 m c main_v20, ← ein1 m c main_v21]
    exact (congrFun (H.out1_eq m c) (ix2 p q)).trans (hA1 p q)
  h2 := fun p q => by
    rw [← ein2 m c main_v22, ← ein2 m c main_arg4, ← ein2 m c main_arg5]
    exact (congrFun (H.out2_eq m c) (ix2 p q)).trans (lin2_arr (H.Ein2 m) c p q)
  h3 := fun p q => by
    rw [← ein3 m c main_v37, ← ein3 m c main_v38, ← ein3 m c main_v39, ← ein3 m c main_v40]
    exact (congrFun (H.out3_eq m c) (ix2 p q)).trans (hA3 p q)
  h4 := fun p q => by
    rw [← ein4 m c main_v41, ← ein4 m c main_arg6, ← ein4 m c main_arg7]
    exact (congrFun (H.out4_eq m c) (ix2 p q)).trans (lin4_arr (H.Ein4 m) c p q)
  h5 := fun p q => by
    rw [← ein5 m c main_v42, ← ein5 m c main_arg8, ← ein5 m c main_arg9]
    exact (congrFun (H.out5_eq m c) (ix2 p q)).trans (lin5_arr (H.Ein5 m) c p q)

end Final

theorem kernel_val_of_aggs [Cert.Pre_finite_inputs.Facts] (m : (ℓ : Loc nD τ sig) → Buf (Elt Ideal) ℓ) (h : Cert.Pre_KernelIdeal m)
    (c : Dev nD)
    (hA1 : ∀ (p : Fin 50000) (q : Fin 64),
      ((H.dat1 (F := Ideal) (H.Ein1 m) c).arrAt 4 cfg1.N : S50000x64.Idx → EReal) (ix2 p q)
        = max (Cert.Spec.aggHot (fun e => (H.Ein1 m c main_v18 : S802816.Idx → BitVec 32) (ix1 e)) (fun e => (H.Ein1 m c main_v19 : S802816.Idx → BitVec 32) (ix1 e))
            (fun e => (H.Ein1 m c main_v20 : S802816.Idx → EReal) (ix1 e)) (fun n k => (H.Ein1 m c main_v21 : S50000x64.Idx → EReal) (ix2 n k)) p q) 0)
    (hA3 : ∀ (p : Fin 50000) (q : Fin 64),
      ((H.dat3 (F := Ideal) (H.Ein3 m) c).arrAt 4 cfg3.N : S50000x64.Idx → EReal) (ix2 p q)
        = max (Cert.Spec.aggHot (fun e => (H.Ein3 m c main_v37 : S802816.Idx → BitVec 32) (ix1 e)) (fun e => (H.Ein3 m c main_v38 : S802816.Idx → BitVec 32) (ix1 e))
            (fun e => (H.Ein3 m c main_v39 : S802816.Idx → EReal) (ix1 e)) (fun n k => (H.Ein3 m c main_v40 : S50000x64.Idx → EReal) (ix2 n k)) p q) 0)
    (p : Fin 50000) (q : Fin 40) :
    (V21 m (H.myOuts m) c main_v43 : S50000x40.Idx → EReal) (ix2 p q)
      = Cert.Spec.model (fun a b => (m ((c.tc : Thread nD τ).loc main_arg0) : S50000x64.Idx → EReal) (ix2 a b))
          (m ((c.tc : Thread nD τ).loc main_arg1))
          (fun a b => (m ((c.tc : Thread nD τ).loc main_arg2) : S64x64.Idx → EReal) (ix2 a b))
          (fun a => (m ((c.tc : Thread nD τ).loc main_arg3) : S64.Idx → EReal) (ix1 a))
          (fun a b => (m ((c.tc : Thread nD τ).loc main_arg4) : S64x64.Idx → EReal) (ix2 a b))
          (fun a => (m ((c.tc : Thread nD τ).loc main_arg5) : S64.Idx → EReal) (ix1 a))
          (fun a b => (m ((c.tc : Thread nD τ).loc main_arg6) : S64x64.Idx → EReal) (ix2 a b))
          (fun a => (m ((c.tc : Thread nD τ).loc main_arg7) : S64.Idx → EReal) (ix1 a))
          (fun a b => (m ((c.tc : Thread nD τ).loc main_arg8) : S64x40.Idx → EReal) (ix2 a b))
          (fun a => (m ((c.tc : Thread nD τ).loc main_arg9) : S40.Idx → EReal) (ix1 a)) p q :=
  kernel_val_of m h (H.myOuts m) c (regs_of m c hA1 hA3) p q

theorem kernel_val [Cert.Pre_finite_inputs.Facts] (m : (ℓ : Loc nD τ sig) → Buf (Elt Ideal) ℓ) (h : Cert.Pre_KernelIdeal m) (c : Dev nD) (p : Fin 50000) (q : Fin 40) :
    (V21 m (H.myOuts m) c main_v43 : S50000x40.Idx → EReal) (ix2 p q)
      = Cert.Spec.model (fun a b => (m ((c.tc : Thread nD τ).loc main_arg0) : S50000x64.Idx → EReal) (ix2 a b))
          (m ((c.tc : Thread nD τ).loc main_arg1))
          (fun a b => (m ((c.tc : Thread nD τ).loc main_arg2) : S64x64.Idx → EReal) (ix2 a b))
          (fun a => (m ((c.tc : Thread nD τ).loc main_arg3) : S64.Idx → EReal) (ix1 a))
          (fun a b => (m ((c.tc : Thread nD τ).loc main_arg4) : S64x64.Idx → EReal) (ix2 a b))
          (fun a => (m ((c.tc : Thread nD τ).loc main_arg5) : S64.Idx → EReal) (ix1 a))
          (fun a b => (m ((c.tc : Thread nD τ).loc main_arg6) : S64x64.Idx → EReal) (ix2 a b))
          (fun a => (m ((c.tc : Thread nD τ).loc main_arg7) : S64.Idx → EReal) (ix1 a))
          (fun a b => (m ((c.tc : Thread nD τ).loc main_arg8) : S64x40.Idx → EReal) (ix2 a b))
          (fun a => (m ((c.tc : Thread nD τ).loc main_arg9) : S40.Idx → EReal) (ix1 a)) p q :=
  kernel_val_of_aggs m h c (fun p q => agg1_arr (H.Ein1 m) c p q) (fun p q => agg3_arr (H.Ein3 m) c p q) p q

end Cert.KernelIdeal.Val

end
-- ==== Proof.lean ====
import proofs.«414250_j49357764165687_1_alg».proof.Defs
import proofs.«414250_j49357764165687_1_alg».proof.Proof.Gen.Kernel
import proofs.«414250_j49357764165687_1_alg».proof.Proof.Gen.Kernel.Regions
import proofs.«414250_j49357764165687_1_alg».proof.Proof.Gen.KernelIdeal
import proofs.«414250_j49357764165687_1_alg».proof.Proof.Gen.KernelIdeal.Regions
import proofs.«414250_j49357764165687_1_alg».proof.Proof.Gen.ReferenceIdeal
import proofs.«414250_j49357764165687_1_alg».proof.Proof.Gen.Pre_finite_inputs
import proofs.«414250_j49357764165687_1_alg».proof.Proof.SpecModel
import proofs.«414250_j49357764165687_1_alg».proof.Proof.RefReadP
import proofs.«414250_j49357764165687_1_alg».proof.Proof.RefRun
import proofs.«414250_j49357764165687_1_alg».proof.Proof.RefSide
import proofs.«414250_j49357764165687_1_alg».proof.Proof.K.RunAll
import proofs.«414250_j49357764165687_1_alg».proof.Proof.KI.RunAll
import proofs.«414250_j49357764165687_1_alg».proof.Proof.KI.ValChain
import Idealize.ShloMosaic.Lib.ValueIdx
import Idealize.ShloMosaic.Adequacy
import Idealize.ShloMosaic.Init

noncomputable section

namespace Cert.KernelIdeal.H

open Idealize.ShloMosaic Idealize.ShloMosaic.TcCoe Idealize.SL.Sem
open Cert.KernelIdeal Cert.KernelIdeal.Gen

variable {F : FTy → Type} [FloatOps F]

theorem args_kept (m : (ℓ : Loc nD τ sig) → Buf (Elt F) ℓ) (outs : Outs (F := F)) (s : MemSt nD τ sig (Elt F)) (c : Dev nD)
    (h : ∀ b ∈ Pipeline.ucRefs τ sig, s.mem (((c : Thread nD τ)).1, b) = V21 m outs c b) :
      s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9) :=
  by
  refine ⟨?_, ?_, ?_, ?_, ?_, ?_, ?_, ?_, ?_, ?_⟩ <;>
    refine (h _ (Finset.mem_filter.mpr ⟨StableHlo.devRef_mem_tcRefs _, by decide⟩)).trans ?_
  exacts [V21_main_arg0 m outs c, V21_main_arg1 m outs c, V21_main_arg2 m outs c, V21_main_arg3 m outs c, V21_main_arg4 m outs c,
    V21_main_arg5 m outs c, V21_main_arg6 m outs c, V21_main_arg7 m outs c, V21_main_arg8 m outs c, V21_main_arg9 m outs c]

end Cert.KernelIdeal.H

namespace Cert.Kernel.H

open Idealize.ShloMosaic Idealize.ShloMosaic.TcCoe Idealize.SL.Sem
open Cert.Kernel Cert.Kernel.Gen

variable {F : FTy → Type} [FloatOps F]

theorem args_kept (m : (ℓ : Loc nD τ sig) → Buf (Elt F) ℓ) (outs : Outs (F := F)) (s : MemSt nD τ sig (Elt F)) (c : Dev nD)
    (h : ∀ b ∈ Pipeline.ucRefs τ sig, s.mem (((c : Thread nD τ)).1, b) = V21 m outs c b) :
      s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9) :=
  by
  refine ⟨?_, ?_, ?_, ?_, ?_, ?_, ?_, ?_, ?_, ?_⟩ <;>
    refine (h _ (Finset.mem_filter.mpr ⟨StableHlo.devRef_mem_tcRefs _, by decide⟩)).trans ?_
  exacts [V21_main_arg0 m outs c, V21_main_arg1 m outs c, V21_main_arg2 m outs c, V21_main_arg3 m outs c, V21_main_arg4 m outs c,
    V21_main_arg5 m outs c, V21_main_arg6 m outs c, V21_main_arg7 m outs c, V21_main_arg8 m outs c, V21_main_arg9 m outs c]

end Cert.Kernel.H

namespace Cert.Proof

open Idealize.ShloMosaic Idealize.ShloMosaic.TcCoe Idealize.SL.Sem Idealize.ShloMosaic.ValueIdx

theorem frame_K : Cert.frame_Kernel := fun m ρ _ =>
  (θ_run Cert.Kernel.defs _ _).mono (fun r h c => Cert.Kernel.H.args_kept m _ r.2 c (h c)) (Cert.Kernel.H.run_all (F := Bits) m ρ)

theorem frame_KI : Cert.frame_KernelIdeal := fun m ρ _ =>
  (θ_run Cert.KernelIdeal.defs _ _).mono (fun r h c => Cert.KernelIdeal.H.args_kept m _ r.2 c (h c)) (Cert.KernelIdeal.H.run_all (F := Ideal) m ρ)

theorem frame_RI : Cert.frame_ReferenceIdeal := fun m ρ _ =>
  (θ_run Cert.ReferenceIdeal.defs _ _).mono (fun r h c => (h c).2) (Cert.RefRun.ref_run m ρ)

theorem algebraic : Cert.algebraic_KernelIdeal_ReferenceIdeal := by
  intro m ρ m' ρ' hpre hagree
  refine ⟨fun c => Cert.KernelIdeal.Gen.V21 m (Cert.KernelIdeal.H.myOuts m) c Cert.KernelIdeal.main_v43, ?_, ?_⟩
  · refine (θ_run Cert.KernelIdeal.defs _ _).mono (fun r h c => ⟨?_, Cert.KernelIdeal.H.args_kept m _ r.2 c (h c)⟩)
      (Cert.KernelIdeal.H.run_all (F := Ideal) m ρ)
    exact h c (Proc.devRef .tc Cert.KernelIdeal.main_v43)
      (Finset.mem_filter.mpr ⟨StableHlo.devRef_mem_tcRefs Cert.KernelIdeal.main_v43, by decide⟩)
  · refine (θ_run Cert.ReferenceIdeal.defs _ _).mono (fun r h c => ⟨(h c).1.trans ?_, (h c).2⟩) (Cert.RefRun.ref_run m' ρ')
    obtain ⟨a0, a1, a2, a3, a4, a5, a6, a7, a8, a9⟩ := hagree c
    rw [a0, a1, a2, a3, a4, a5, a6, a7, a8, a9]
    funext i
    obtain ⟨p, q, rfl⟩ : ∃ (p : Fin 50000) (q : Fin 40), i = ix2 p q := ⟨i 0, i 1, eq_ix2 i⟩
    exact (Cert.RefSide.ref_val _ _ _ _ _ _ _ _ _ _ p q).trans (Cert.KernelIdeal.Val.kernel_val m hpre c p q).symm

theorem claim : Cert.Claim :=
  ⟨Cert.Kernel.Gen.facts, Cert.KernelIdeal.Gen.facts, Cert.ReferenceIdeal.Gen.facts, Cert.Pre_finite_inputs.Gen.facts,
    frame_K, frame_KI, frame_RI, trivial, algebraic⟩

end Cert.Proof

end
